-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "neg_big" .f32 0xFF61B1E6#32 ⊥
  ∧ IdealRules.named_const.Statement Cert.KernelIdeal.κ "neg_big" .f32 0xFF61B1E6#32 ⊥
  ∧ IdealRules.named_const.Statement Cert.KernelIdeal.κ "neg_big" .f32 0xFF61B1E6#32 ⊥
  ∧ IdealRules.named_const.Statement Cert.KernelIdeal.κ "neg_big" .f32 0xFF61B1E6#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S2048x64 : Shape := ⟨2, ![2048, 64]⟩
abbrev S1024x64 : Shape := ⟨2, ![1024, 64]⟩
abbrev S4096x64 : Shape := ⟨2, ![4096, 64]⟩
abbrev S2048 : Shape := ⟨1, ![2048]⟩
abbrev S1024 : Shape := ⟨1, ![1024]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S1024x64 : S_.BroadcastsInDim S1024x64 (![] : Fin 0 → Fin S1024x64.rank)
  reducesTo_S1024x64_S_d0_1 : S1024x64.ReducesTo [0, 1] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_arg3 : IVec S2048x64 32) (main_arg4 : IVec S4096x64 32) (main_v10 : IVec S_ 1) (main_v15 : IVec S1024x64 1) (main_c_5 : IVec S_ 1) : IVec S_ 1 :=
  let main_v16 : IVec S_ 1 := (fun x v => Host.reduce IntOp.andi x v reducesTo_S1024x64_S_d0_1 h_S_) main_v15 main_c_5
  let main_v17 : IVec S_ 1 := andi main_v10 main_v16
  let main_c_6 : IVec S_ 32 := constantI S_ 32 0#32
  let main_v18 : IVec S2048x64 32 := broadcastInDim S2048x64 ![] bcast_S_S2048x64 main_c_6
  let main_v19 : IVec S2048x64 1 := cmpi .sge main_arg3 main_v18
  let main_c_7 : IVec S_ 32 := constantI S_ 32 1024#32
  let main_v20 : IVec S2048x64 32 := broadcastInDim S2048x64 ![] bcast_S_S2048x64 main_c_7
  let main_v21 : IVec S2048x64 1 := cmpi .slt main_arg3 main_v20
  let main_v22 : IVec S2048x64 1 := andi main_v19 main_v21
  let main_c_8 : IVec S_ 1 := constantI S_ 1 1#1
  let main_v23 : IVec S_ 1 := (fun x v => Host.reduce IntOp.andi x v reducesTo_S2048x64_S_d0_1 h_S_) main_v22 main_c_8
  let main_v24 : IVec S_ 1 := andi main_v17 main_v23
  let main_c_9 : IVec S_ 32 := constantI S_ 32 0#32
  let main_v25 : IVec S4096x64 32 := broadcastInDim S4096x64 ![] bcast_S_S4096x64 main_c_9
  let main_v26 : IVec S4096x64 1 := cmpi .sge main_arg4 main_v25
  let main_c_10 : IVec S_ 32 := constantI S_ 32 2048#32
  let main_v27 : IVec S4096x64 32 := broadcastInDim S4096x64 ![] bcast_S_S4096x64 main_c_10
  let main_v28 : IVec S4096x64 1 := cmpi .slt main_arg4 main_v27
  let main_v29 : IVec S4096x64 1 := andi main_v26 main_v28
  let main_c_11 : IVec S_ 1 := constantI S_ 1 1#1
  let main_v30 : IVec S_ 1 := (fun x v => Host.reduce IntOp.andi x v reducesTo_S4096x64_S_d0_1 h_S_) main_v29 main_c_11
  let main_v31 : IVec S_ 1 := andi main_v24 main_v30
  main_v31

def fn {F : FTy → Type} [FloatOps F] (main_arg0 : FVec F S1024x4096 .f32) (main_arg1 : IVec S2048x64 32) (main_arg2 : IVec S1024x64 32) (main_arg3 : IVec S2048x64 32) (main_arg4 : IVec S4096x64 32) (main_arg5 : IVec S2048 32) (main_arg6 : IVec S1024 32) (main_arg7 : IVec S2048 32) (main_arg8 : IVec S4096 32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_c_0 : IVec S_ 32 := constantI S_ 32 0#32
  let main_v4 : IVec S2048x64 32 := broadcastInDim S2048x64 ![] bcast_S_S2048x64 main_c_0
  let main_v5 : IVec S2048x64 1 := cmpi .sge main_arg1 main_v4
  let main_c_1 : IVec S_ 32 := constantI S_ 32 4096#32
  let main_v6 : IVec S2048x64 32 := broadcastInDim S2048x64 ![] bcast_S_S2048x64 main_c_1
  let main_v7 : IVec S2048x64 1 := cmpi .slt main_arg1 main_v6
  let main_v8 : IVec S2048x64 1 := andi main_v5 main_v7
  let main_c_2 : IVec S_ 1 := constantI S_ 1 1#1
  let main_v9 : IVec S_ 1 := (fun x v => Host.reduce IntOp.andi x v reducesTo_S2048x64_S_d0_1 h_S_) main_v8 main_c_2
  let main_v10 : IVec S_ 1 := andi main_v3 main_v9
  let main_c_3 : IVec S_ 32 := constantI S_ 32 0#32
  let main_v11 : IVec S1024x64 32 := broadcastInDim S1024x64 ![] bcast_S_S1024x64 main_c_3
  let main_v12 : IVec S1024x64 1 := cmpi .sge main_arg2 main_v11
  let main_c_4 : IVec S_ 32 := constantI S_ 32 2048#32
  let main_v13 : IVec S1024x64 32 := broadcastInDim S1024x64 ![] bcast_S_S1024x64 main_c_4
  let main_v14 : IVec S1024x64 1 := cmpi .slt main_arg2 main_v13
  let main_v15 : IVec S1024x64 1 := andi main_v12 main_v14
  let main_c_5 : IVec S_ 1 := constantI S_ 1 1#1
  fn_part1 (F := F) main_arg3 main_arg4 main_v10 main_v15 main_c_5
-- ==== Kernel.lean ====
abbrev S1024x4096 : Shape := ⟨2, ![1024, 4096]⟩
abbrev S2048x64 : Shape := ⟨2, ![2048, 64]⟩
abbrev S1024x64 : Shape := ⟨2, ![1024, 64]⟩
abbrev S4096x64 : Shape := ⟨2, ![4096, 64]⟩
abbrev S2048 : Shape := ⟨1, ![2048]⟩
abbrev S1024 : Shape := ⟨1, ![1024]⟩
abbrev S4096 : Shape := ⟨1, ![4096]⟩
abbrev S64x2048 : Shape := ⟨2, ![64, 2048]⟩
abbrev S1x2048 : Shape := ⟨2, ![1, 2048]⟩
abbrev S1024x2048 : Shape := ⟨2, ![1024, 2048]⟩
abbrev S8x256 : Shape := ⟨2, ![8, 256]⟩
abbrev S1x256 : Shape := ⟨2, ![1, 256]⟩
abbrev S1024x256 : Shape := ⟨2, ![1024, 256]⟩
abbrev S256 : Shape := ⟨1, ![256]⟩
abbrev S4096x256 : Shape := ⟨2, ![4096, 256]⟩
abbrev S64x1024 : Shape := ⟨2, ![64, 1024]⟩
abbrev S1x1024 : Shape := ⟨2, ![1, 1024]⟩
abbrev S1024x1024 : Shape := ⟨2, ![1024, 1024]⟩
abbrev S2048x256 : Shape := ⟨2, ![2048, 256]⟩
abbrev S64x4096 : Shape := ⟨2, ![64, 4096]⟩
abbrev S1x4096 : Shape := ⟨2, ![1, 4096]⟩
abbrev S1024x5120 : Shape := ⟨2, ![1024, 5120]⟩

abbrev nBuf : Space → Nat
  | .hbm => 38
  | .vmem => 36
  | .smem => 0
  | _ => 0

abbrev bufTy : (tb : Table) → Fin (tcTables nBuf tb) → BufTy
  | .hbm, ⟨0, _⟩ => ⟨S1024x4096, .f32⟩
  | .hbm, ⟨1, _⟩ => ⟨S2048x64, .i32⟩
  | .hbm, ⟨2, _⟩ => ⟨S1024x64, .i32⟩
  | .hbm, ⟨3, _⟩ => ⟨S2048x64, .i32⟩
  | .hbm, ⟨4, _⟩ => ⟨S4096x64, .i32⟩
  | .hbm, ⟨5, _⟩ => ⟨S2048, .i32⟩
  | .hbm, ⟨6, _⟩ => ⟨S1024, .i32⟩
  | .hbm, ⟨7, _⟩ => ⟨S2048, .i32⟩
  | .hbm, ⟨8, _⟩ => ⟨S4096, .i32⟩
  | .hbm, ⟨9, _⟩ => ⟨S1024x4096, .bf16⟩
  | .hbm, ⟨10, _⟩ => ⟨S1024x4096, .f32⟩
  | .hbm, ⟨11, _⟩ => ⟨S1024x4096, .f32⟩
  | .hbm, ⟨12, _⟩ => ⟨S1024x4096, .bf16⟩
  | .hbm, ⟨13, _⟩ => ⟨S64x2048, .i32⟩
  | .hbm, ⟨14, _⟩ => ⟨S1x2048, .i32⟩
  | .hbm, ⟨15, _⟩ => ⟨S1024x2048, .f32⟩
  | .hbm, ⟨16, _⟩ => ⟨S1024x2048, .bf16⟩
  | .hbm, ⟨17, _⟩ => ⟨S1024x2048, .f32⟩
  | .hbm, ⟨18, _⟩ => ⟨S1024x2048, .f32⟩
  | .hbm, ⟨19, _⟩ => ⟨S1024x2048, .bf16⟩
  | .hbm, ⟨20, _⟩ => ⟨S64x1024, .i32⟩
  | .hbm, ⟨21, _⟩ => ⟨S1x1024, .i32⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .f32⟩
  | .hbm, ⟨26, _⟩ => ⟨S1024x1024, .bf16⟩
  | .hbm, ⟨27, _⟩ => ⟨S64x2048, .i32⟩
  | .hbm, ⟨28, _⟩ => ⟨S1x2048, .i32⟩
  | .hbm, ⟨29, _⟩ => ⟨S1024x2048, .f32⟩
  | .hbm, ⟨30, _⟩ => ⟨S1024x2048, .bf16⟩
  | .hbm, ⟨31, _⟩ => ⟨S1024x2048, .f32⟩
  | .hbm, ⟨32, _⟩ => ⟨S1024x2048, .f32⟩
  | .hbm, ⟨33, _⟩ => ⟨S1024x2048, .bf16⟩
  | .hbm, ⟨34, _⟩ => ⟨S64x4096, .i32⟩
  | .hbm, ⟨35, _⟩ => ⟨S1x4096, .i32⟩
  | .hbm, ⟨36, _⟩ => ⟨S1024x4096, .f32⟩
  | .hbm, ⟨37, _⟩ => ⟨S1024x5120, .f32⟩
  | .local _ .vmem, ⟨0, _⟩ => ⟨S1024x4096, .bf16⟩
  | .local _ .vmem, ⟨1, _⟩ => ⟨S1024x4096, .bf16⟩
  | .local _ .vmem, ⟨2, _⟩ => ⟨S8x256, .i32⟩
  | .local _ .vmem, ⟨3, _⟩ => ⟨S8x256, .i32⟩
  | .local _ .vmem, ⟨4, _⟩ => ⟨S1x256, .i32⟩
  | .local _ .vmem, ⟨5, _⟩ => ⟨S1x256, .i32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x2048, .bf16⟩
  | .local _ .vmem, ⟨10, _⟩ => ⟨S1024x2048, .bf16⟩
  | .local _ .vmem, ⟨11, _⟩ => ⟨S8x256, .i32⟩
  | .local _ .vmem, ⟨12, _⟩ => ⟨S8x256, .i32⟩
  | .local _ .vmem, ⟨13, _⟩ => ⟨S1x256, .i32⟩
  | .local _ .vmem, ⟨14, _⟩ => ⟨S1x256, .i32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x1024, .bf16⟩
  | .local _ .vmem, ⟨19, _⟩ => ⟨S1024x1024, .bf16⟩
  | .local _ .vmem, ⟨20, _⟩ => ⟨S8x256, .i32⟩
  | .local _ .vmem, ⟨21, _⟩ => ⟨S8x256, .i32⟩
  | .local _ .vmem, ⟨22, _⟩ => ⟨S1x256, .i32⟩
  | .local _ .vmem, ⟨23, _⟩ => ⟨S1x256, .i32⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | .local _ .vmem, ⟨27, _⟩ => ⟨S1024x2048, .bf16⟩
  | .local _ .vmem, ⟨28, _⟩ => ⟨S1024x2048, .bf16⟩
  | .local _ .vmem, ⟨29, _⟩ => ⟨S8x256, .i32⟩
  | .local _ .vmem, ⟨30, _⟩ => ⟨S8x256, .i32⟩
  | .local _ .vmem, ⟨31, _⟩ => ⟨S1x256, .i32⟩
  | .local _ .vmem, ⟨32, _⟩ => ⟨S1x256, .i32⟩
  | .local _ .vmem, ⟨33, _⟩ => ⟨S1024x256, .f32⟩
  | .local _ .vmem, ⟨34, _⟩ => ⟨S1024x256, .f32⟩
  | .local _ .vmem, ⟨35, _⟩ => ⟨S1024x256, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg4_1 : Ref sig .tc := ⟨.vmem, 34, rfl⟩
abbrev cc3_scratch0 : Ref sig .tc := ⟨.vmem, 35, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v153 : BitVec 1 := Scalar.cmpi .eq arg1 c7_i32
  let v154 : BitVec 32 := Scalar.extui v153
  let c0_i32_73 : BitVec 32 := 0#32
  let v155 : BitVec 1 := Scalar.cmpi .ne v154 c0_i32_73
  v155

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v153 : BitVec 1 := Scalar.cmpi .eq arg1 c7_i32
  let v154 : BitVec 32 := Scalar.extui v153
  let c0_i32_73 : BitVec 32 := 0#32
  let v155 : BitVec 1 := Scalar.cmpi .ne v154 c0_i32_73
  v155

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S1024x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S8x256 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v153 : BitVec 1 := Scalar.cmpi .eq arg1 c7_i32
  let v154 : BitVec 32 := Scalar.extui v153
  let c0_i32_73 : BitVec 32 := 0#32
  let v155 : BitVec 1 := Scalar.cmpi .ne v154 c0_i32_73
  v155

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 1 → Memref sig .tc .vmem S1024x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S8x256 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x256 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![16, 8], ![false, false]⟩

def k3_cond2 (i : grid3.Coords) : BitVec 1 :=
  let arg1 : BitVec 32 := BitVec.ofNat 32 (i 1).val
  let c7_i32 : BitVec 32 := 7#32
  let v153 : BitVec 1 := Scalar.cmpi .eq arg1 c7_i32
  let v154 : BitVec 32 := Scalar.extui v153
  let c0_i32_73 : BitVec 32 := 0#32
  let v155 : BitVec 1 := Scalar.cmpi .ne v154 c0_i32_73
  v155

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 1 → Memref sig .tc .vmem S1024x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 1 → Memref sig .tc .vmem S1024x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S8x256 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x256 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1024x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  bitsLt_bf16_f32 : FTy.bits .bf16 < FTy.bits .f32
  transposes_S2048x64_S64x2048_1_0 : S2048x64.Transposes [1, 0] S64x2048
  shapeCasts_S2048_S1x2048 : S2048.ShapeCasts S1x2048
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S256 : S1x256.ShapeCasts S256
  shapeCasts_S256_S1x256 : S256.ShapeCasts S1x256
  iota_S4096x256_d0_w32 : S4096x256.Iotas .tc 32 [0]
  inb_S8x256_S1x256_0_0 : ∀ a, (![0, 0] : Fin 2 → Nat) a + S1x256.size a ≤ S8x256.size a
  broadcasts_S1x256_S4096x256 : S1x256.Broadcasts S4096x256
  shapeCasts_S1x256_S1x256 : S1x256.ShapeCasts S1x256
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S8x256_S1x256_1_0 : ∀ a, (![1, 0] : Fin 2 → Nat) a + S1x256.size a ≤ S8x256.size a
  inb_S8x256_S1x256_2_0 : ∀ a, (![2, 0] : Fin 2 → Nat) a + S1x256.size a ≤ S8x256.size a
  inb_S8x256_S1x256_3_0 : ∀ a, (![3, 0] : Fin 2 → Nat) a + S1x256.size a ≤ S8x256.size a
  inb_S8x256_S1x256_4_0 : ∀ a, (![4, 0] : Fin 2 → Nat) a + S1x256.size a ≤ S8x256.size a
  inb_S8x256_S1x256_5_0 : ∀ a, (![5, 0] : Fin 2 → Nat) a + S1x256.size a ≤ S8x256.size a
  inb_S8x256_S1x256_6_0 : ∀ a, (![6, 0] : Fin 2 → Nat) a + S1x256.size a ≤ S8x256.size a
  inb_S8x256_S1x256_7_0 : ∀ a, (![7, 0] : Fin 2 → Nat) a + S1x256.size a ≤ S8x256.size a
  broadcasts_S1x256_S1024x256 : S1x256.Broadcasts S1024x256
  transposes_S1024x64_S64x1024_1_0 : S1024x64.Transposes [1, 0] S64x1024
  shapeCasts_S1024_S1x1024 : S1024.ShapeCasts S1x1024
  iota_S2048x256_d0_w32 : S2048x256.Iotas .tc 32 [0]
  broadcasts_S1x256_S2048x256 : S1x256.Broadcasts S2048x256
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  iota_S1024x256_d0_w32 : S1024x256.Iotas .tc 32 [0]
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S4096x64_S64x4096_1_0 : S4096x64.Transposes [1, 0] S64x4096
  shapeCasts_S4096_S1x4096 : S4096.ShapeCasts S1x4096
  concatenates_S1024x2048_S1024x1024_S1024x2048_S1024x5120_d1 : Shape.Concatenates [S1024x2048, S1024x1024, S1024x2048] S1024x5120 1
  dot_S1024x4096_S4096x256_S1024x256_1_0_0_1_n_n_wf : DotDims.WF S1024x4096 S4096x256 S1024x256 [1] [0] [0] [1] [] []
  dot_S1024x2048_S2048x256_S1024x256_1_0_0_1_n_n_wf : DotDims.WF S1024x2048 S2048x256 S1024x256 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .bf16 = 32 ∨ (Rect.block (s := S1024x4096) S1024x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S64x2048.size a
  hwx0_2 : ∀ i : grid0.Coords, EltTy.bits .i32 = 32 ∨ (Rect.block (s := S64x2048) S8x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x2048.size a
  hwx0_3 : ∀ i : grid0.Coords, EltTy.bits .i32 = 32 ∨ (Rect.block (s := S1x2048) S1x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x2048.size a
  hwx0_4 : ∀ i : grid0.Coords, EltTy.bits .f32 = 32 ∨ (Rect.block (s := S1024x2048) S1024x256.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S1024x2048.size a
  hwx1_0 : ∀ i : grid1.Coords, EltTy.bits .bf16 = 32 ∨ (Rect.block (s := S1024x2048) S1024x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x2048.size a
  hwx1_1 : ∀ i : grid1.Coords, EltTy.bits .bf16 = 32 ∨ (Rect.block (s := S1024x2048) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256.size a ≤ S64x1024.size a
  hwx1_2 : ∀ i : grid1.Coords, EltTy.bits .i32 = 32 ∨ (Rect.block (s := S64x1024) S8x256.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x1024.size a
  hwx1_3 : ∀ i : grid1.Coords, EltTy.bits .i32 = 32 ∨ (Rect.block (s := S1x1024) S1x256.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S1024x1024.size a
  hwx1_4 : ∀ i : grid1.Coords, EltTy.bits .f32 = 32 ∨ (Rect.block (s := S1024x1024) S1024x256.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S1024x1024.size a
  hwx2_0 : ∀ i : grid2.Coords, EltTy.bits .bf16 = 32 ∨ (Rect.block (s := S1024x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x256.size a ≤ S64x2048.size a
  hwx2_2 : ∀ i : grid2.Coords, EltTy.bits .i32 = 32 ∨ (Rect.block (s := S64x2048) S8x256.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x2048.size a
  hwx2_3 : ∀ i : grid2.Coords, EltTy.bits .i32 = 32 ∨ (Rect.block (s := S1x2048) S1x256.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x256.size a ≤ S1024x2048.size a
  hwx2_4 : ∀ i : grid2.Coords, EltTy.bits .f32 = 32 ∨ (Rect.block (s := S1024x2048) S1024x256.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S1024x2048.size a
  hwx3_0 : ∀ i : grid3.Coords, EltTy.bits .bf16 = 32 ∨ (Rect.block (s := S1024x2048) S1024x2048.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x2048.size a ≤ S1024x2048.size a
  hwx3_1 : ∀ i : grid3.Coords, EltTy.bits .bf16 = 32 ∨ (Rect.block (s := S1024x2048) S1024x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8x256.size a ≤ S64x4096.size a
  hwx3_2 : ∀ i : grid3.Coords, EltTy.bits .i32 = 32 ∨ (Rect.block (s := S64x4096) S8x256.size (cc3_transform_2 i) (hinb3_2 i)).WholeWords (EltTy.packing .i32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x4096.size a
  hwx3_3 : ∀ i : grid3.Coords, EltTy.bits .i32 = 32 ∨ (Rect.block (s := S1x4096) S1x256.size (cc3_transform_3 i) (hinb3_3 i)).WholeWords (EltTy.packing .i32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x256.size a ≤ S1024x4096.size a
  hwx3_4 : ∀ i : grid3.Coords, EltTy.bits .f32 = 32 ∨ (Rect.block (s := S1024x4096) S1024x256.size (cc3_transform_4 i) (hinb3_4 i)).WholeWords (EltTy.packing .f32)

variable [Facts₀]

def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v0) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v7) S1024x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1024x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S8x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v14) S1024x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S8x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1024x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v21) S1024x2048.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v24) S1024x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v25) S8x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v26) S1x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v27) S1024x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S1024x4096 : Shape := ⟨2, ![1024, 4096]⟩
abbrev S2048x64 : Shape := ⟨2, ![2048, 64]⟩
abbrev S1024x64 : Shape := ⟨2, ![1024, 64]⟩
abbrev S4096x64 : Shape := ⟨2, ![4096, 64]⟩
abbrev S2048 : Shape := ⟨1, ![2048]⟩
abbrev S1024 : Shape := ⟨1, ![1024]⟩
abbrev S4096 : Shape := ⟨1, ![4096]⟩
abbrev S_ : Shape := ⟨0, ![]⟩
abbrev S2048x64x1 : Shape := ⟨3, ![2048, 64, 1]⟩
abbrev S1024x2048x64 : Shape := ⟨3, ![1024, 2048, 64]⟩
abbrev S1024x2048 : Shape := ⟨2, ![1024, 2048]⟩
abbrev S1x2048 : Shape := ⟨2, ![1, 2048]⟩
abbrev S1024x64x1 : Shape := ⟨3, ![1024, 64, 1]⟩
abbrev S1024x1024x64 : Shape := ⟨3, ![1024, 1024, 64]⟩
abbrev S1024x1024 : Shape := ⟨2, ![1024, 1024]⟩
abbrev S1x1024 : Shape := ⟨2, ![1, 1024]⟩
abbrev S4096x64x1 : Shape := ⟨3, ![4096, 64, 1]⟩
abbrev S1024x4096x64 : Shape := ⟨3, ![1024, 4096, 64]⟩
abbrev S1x4096 : Shape := ⟨2, ![1, 4096]⟩
abbrev S1024x5120 : Shape := ⟨2, ![1024, 5120]⟩

abbrev nBuf : Space → Nat
  | .hbm => 86
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S2048x64, .i32⟩
  | .hbm, ⟨2, _⟩ => ⟨S1024x64, .i32⟩
  | .hbm, ⟨3, _⟩ => ⟨S2048x64, .i32⟩
  | .hbm, ⟨4, _⟩ => ⟨S4096x64, .i32⟩
  | .hbm, ⟨5, _⟩ => ⟨S2048, .i32⟩
  | .hbm, ⟨6, _⟩ => ⟨S1024, .i32⟩
  | .hbm, ⟨7, _⟩ => ⟨S2048, .i32⟩
  | .hbm, ⟨8, _⟩ => ⟨S4096, .i32⟩
  | .hbm, ⟨9, _⟩ => ⟨S_, .i32⟩
  | .hbm, ⟨10, _⟩ => ⟨S2048x64, .i32⟩
  | .hbm, ⟨11, _⟩ => ⟨S2048x64, .i1⟩
  | .hbm, ⟨12, _⟩ => ⟨S_, .i32⟩
  | .hbm, ⟨13, _⟩ => ⟨S2048x64, .i32⟩
  | .hbm, ⟨14, _⟩ => ⟨S2048x64, .i32⟩
  | .hbm, ⟨15, _⟩ => ⟨S2048x64, .i32⟩
  | .hbm, ⟨16, _⟩ => ⟨S2048x64x1, .i32⟩
  | .hbm, ⟨17, _⟩ => ⟨S1024x2048x64, .f32⟩
  | .hbm, ⟨18, _⟩ => ⟨S_, .f32⟩
  | .hbm, ⟨19, _⟩ => ⟨S1024x2048, .f32⟩
  | .hbm, ⟨20, _⟩ => ⟨S_, .f32⟩
  | .hbm, ⟨21, _⟩ => ⟨S1024x2048, .f32⟩
  | .hbm, ⟨22, _⟩ => ⟨S1x2048, .i32⟩
  | .hbm, ⟨23, _⟩ => ⟨S_, .i32⟩
  | .hbm, ⟨24, _⟩ => ⟨S1x2048, .i32⟩
  | .hbm, ⟨25, _⟩ => ⟨S1x2048, .i1⟩
  | .hbm, ⟨26, _⟩ => ⟨S1024x2048, .i1⟩
  | .hbm, ⟨27, _⟩ => ⟨S1024x2048, .f32⟩
  | .hbm, ⟨28, _⟩ => ⟨S_, .i32⟩
  | .hbm, ⟨29, _⟩ => ⟨S1024x64, .i32⟩
  | .hbm, ⟨30, _⟩ => ⟨S1024x64, .i1⟩
  | .hbm, ⟨31, _⟩ => ⟨S_, .i32⟩
  | .hbm, ⟨32, _⟩ => ⟨S1024x64, .i32⟩
  | .hbm, ⟨33, _⟩ => ⟨S1024x64, .i32⟩
  | .hbm, ⟨34, _⟩ => ⟨S1024x64, .i32⟩
  | .hbm, ⟨35, _⟩ => ⟨S1024x64x1, .i32⟩
  | .hbm, ⟨36, _⟩ => ⟨S1024x1024x64, .f32⟩
  | .hbm, ⟨37, _⟩ => ⟨S_, .f32⟩
  | .hbm, ⟨38, _⟩ => ⟨S1024x1024, .f32⟩
  | .hbm, ⟨39, _⟩ => ⟨S_, .f32⟩
  | .hbm, ⟨40, _⟩ => ⟨S1024x1024, .f32⟩
  | .hbm, ⟨41, _⟩ => ⟨S1x1024, .i32⟩
  | .hbm, ⟨42, _⟩ => ⟨S_, .i32⟩
  | .hbm, ⟨43, _⟩ => ⟨S1x1024, .i32⟩
  | .hbm, ⟨44, _⟩ => ⟨S1x1024, .i1⟩
  | .hbm, ⟨45, _⟩ => ⟨S1024x1024, .i1⟩
  | .hbm, ⟨46, _⟩ => ⟨S1024x1024, .f32⟩
  | .hbm, ⟨47, _⟩ => ⟨S_, .i32⟩
  | .hbm, ⟨48, _⟩ => ⟨S2048x64, .i32⟩
  | .hbm, ⟨49, _⟩ => ⟨S2048x64, .i1⟩
  | .hbm, ⟨50, _⟩ => ⟨S_, .i32⟩
  | .hbm, ⟨51, _⟩ => ⟨S2048x64, .i32⟩
  | .hbm, ⟨52, _⟩ => ⟨S2048x64, .i32⟩
  | .hbm, ⟨53, _⟩ => ⟨S2048x64, .i32⟩
  | .hbm, ⟨54, _⟩ => ⟨S2048x64x1, .i32⟩
  | .hbm, ⟨55, _⟩ => ⟨S1024x2048x64, .f32⟩
  | .hbm, ⟨56, _⟩ => ⟨S_, .f32⟩
  | .hbm, ⟨57, _⟩ => ⟨S1024x2048, .f32⟩
  | .hbm, ⟨58, _⟩ => ⟨S_, .f32⟩
  | .hbm, ⟨59, _⟩ => ⟨S1024x2048, .f32⟩
  | .hbm, ⟨60, _⟩ => ⟨S1x2048, .i32⟩
  | .hbm, ⟨61, _⟩ => ⟨S_, .i32⟩
  | .hbm, ⟨62, _⟩ => ⟨S1x2048, .i32⟩
  | .hbm, ⟨63, _⟩ => ⟨S1x2048, .i1⟩
  | .hbm, ⟨64, _⟩ => ⟨S1024x2048, .i1⟩
  | .hbm, ⟨65, _⟩ => ⟨S1024x2048, .f32⟩
  | .hbm, ⟨66, _⟩ => ⟨S_, .i32⟩
  | .hbm, ⟨67, _⟩ => ⟨S4096x64, .i32⟩
  | .hbm, ⟨68, _⟩ => ⟨S4096x64, .i1⟩
  | .hbm, ⟨69, _⟩ => ⟨S_, .i32⟩
  | .hbm, ⟨70, _⟩ => ⟨S4096x64, .i32⟩
  | .hbm, ⟨71, _⟩ => ⟨S4096x64, .i32⟩
  | .hbm, ⟨72, _⟩ => ⟨S4096x64, .i32⟩
  | .hbm, ⟨73, _⟩ => ⟨S4096x64x1, .i32⟩
  | .hbm, ⟨74, _⟩ => ⟨S1024x4096x64, .f32⟩
  | .hbm, ⟨75, _⟩ => ⟨S_, .f32⟩
  | .hbm, ⟨76, _⟩ => ⟨S1024x4096, .f32⟩
  | .hbm, ⟨77, _⟩ => ⟨S_, .f32⟩
  | .hbm, ⟨78, _⟩ => ⟨S1024x4096, .f32⟩
  | .hbm, ⟨79, _⟩ => ⟨S1x4096, .i32⟩
  | .hbm, ⟨80, _⟩ => ⟨S_, .i32⟩
  | .hbm, ⟨81, _⟩ => ⟨S1x4096, .i32⟩
  | .hbm, ⟨82, _⟩ => ⟨S1x4096, .i1⟩
  | .hbm, ⟨83, _⟩ => ⟨S1024x4096, .i1⟩
  | .hbm, ⟨84, _⟩ => ⟨S1024x4096, .f32⟩
  | .hbm, ⟨85, _⟩ => ⟨S1024x5120, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_call0_v0 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_v22 : Ref sig .tc := ⟨.hbm, 41, rfl⟩
abbrev main_c_7 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_v25 : Ref sig .tc := ⟨.hbm, 46, rfl⟩
abbrev main_c_8 : Ref sig .tc := ⟨.hbm, 47, rfl⟩
abbrev main_v26 : Ref sig .tc := ⟨.hbm, 48, rfl⟩
abbrev main_v27 : Ref sig .tc := ⟨.hbm, 49, rfl⟩
abbrev main_c_9 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_10 : Ref sig .tc := ⟨.hbm, 56, rfl⟩
abbrev main_v33 : Ref sig .tc := ⟨.hbm, 57, rfl⟩
abbrev main_cst_11 : Ref sig .tc := ⟨.hbm, 58, rfl⟩
abbrev main_v34 : Ref sig .tc := ⟨.hbm, 59, rfl⟩
abbrev main_v35 : Ref sig .tc := ⟨.hbm, 60, rfl⟩
abbrev main_c_12 : Ref sig .tc := ⟨.hbm, 61, rfl⟩
abbrev main_v36 : Ref sig .tc := ⟨.hbm, 62, rfl⟩
abbrev main_v37 : Ref sig .tc := ⟨.hbm, 63, rfl⟩
abbrev main_call2_v0 : Ref sig .tc := ⟨.hbm, 64, rfl⟩
abbrev main_v38 : Ref sig .tc := ⟨.hbm, 65, rfl⟩
abbrev main_c_13 : Ref sig .tc := ⟨.hbm, 66, rfl⟩
abbrev main_v39 : Ref sig .tc := ⟨.hbm, 67, rfl⟩
abbrev main_v40 : Ref sig .tc := ⟨.hbm, 68, rfl⟩
abbrev main_c_14 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_15 : Ref sig .tc := ⟨.hbm, 75, rfl⟩
abbrev main_v46 : Ref sig .tc := ⟨.hbm, 76, rfl⟩
abbrev main_cst_16 : Ref sig .tc := ⟨.hbm, 77, rfl⟩
abbrev main_v47 : Ref sig .tc := ⟨.hbm, 78, rfl⟩
abbrev main_v48 : Ref sig .tc := ⟨.hbm, 79, rfl⟩
abbrev main_c_17 : Ref sig .tc := ⟨.hbm, 80, rfl⟩
abbrev main_v49 : Ref sig .tc := ⟨.hbm, 81, rfl⟩
abbrev main_v50 : Ref sig .tc := ⟨.hbm, 82, rfl⟩
abbrev main_call3_v0 : Ref sig .tc := ⟨.hbm, 83, rfl⟩
abbrev main_v51 : Ref sig .tc := ⟨.hbm, 84, rfl⟩
abbrev main_v52 : Ref sig .tc := ⟨.hbm, 85, rfl⟩

abbrev nD : Nat := 1
abbrev τ : Topo := Topo.v7x

variable {F : FTy → Type} [FloatOps F]

class Facts₀ : Prop where
  bcast_S_S2048x64 : S_.BroadcastsInDim S2048x64 (![] : Fin 0 → Fin S2048x64.rank)
  bcast_S2048x64_S2048x64x1_0_1 : S2048x64.BroadcastsInDim S2048x64x1 (![0, 1] : Fin 2 → Fin S2048x64x1.rank)
  reducesTo_S1024x2048x64_S1024x2048_d2 : S1024x2048x64.ReducesTo [2] S1024x2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S1024x2048_0_1 : S1x2048.BroadcastsInDim S1024x2048 (![0, 1] : Fin 2 → Fin S1024x2048.rank)
  bcast_S_S1024x64 : S_.BroadcastsInDim S1024x64 (![] : Fin 0 → Fin S1024x64.rank)
  bcast_S1024x64_S1024x64x1_0_1 : S1024x64.BroadcastsInDim S1024x64x1 (![0, 1] : Fin 2 → Fin S1024x64x1.rank)
  reducesTo_S1024x1024x64_S1024x1024_d2 : S1024x1024x64.ReducesTo [2] S1024x1024
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S1024x1024_0_1 : S1x1024.BroadcastsInDim S1024x1024 (![0, 1] : Fin 2 → Fin S1024x1024.rank)
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  reducesTo_S1024x4096x64_S1024x4096_d2 : S1024x4096x64.ReducesTo [2] S1024x4096
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S1024x4096_0_1 : S1x4096.BroadcastsInDim S1024x4096 (![0, 1] : Fin 2 → Fin S1024x4096.rank)
  concatenates_S1024x2048_S1024x1024_S1024x2048_S1024x5120_d1 : Shape.Concatenates [S1024x2048, S1024x1024, S1024x2048] S1024x5120 1
  gather_S1024x4096_S2048x64x1_S1024x2048x64_0_1_n_n_1_2_10241_wf : GatherDims.WF S1024x4096 S2048x64x1 S1024x2048x64 [0] [1] [] [1] [] 2 ![1024, 1]
  gather_S1024x2048_S1024x64x1_S1024x1024x64_0_1_n_n_1_2_10241_wf : GatherDims.WF S1024x2048 S1024x64x1 S1024x1024x64 [0] [1] [] [1] [] 2 ![1024, 1]
  gather_S1024x1024_S2048x64x1_S1024x2048x64_0_1_n_n_1_2_10241_wf : GatherDims.WF S1024x1024 S2048x64x1 S1024x2048x64 [0] [1] [] [1] [] 2 ![1024, 1]
  gather_S1024x2048_S4096x64x1_S1024x4096x64_0_1_n_n_1_2_10241_wf : GatherDims.WF S1024x2048 S4096x64x1 S1024x4096x64 [0] [1] [] [1] [] 2 ![1024, 1]

variable [Facts₀]

def gather_S1024x4096_S2048x64x1_S1024x2048x64_0_1_n_n_1_2_10241 : GatherDims S1024x4096 S2048x64x1 S1024x2048x64 where
  offsetDims := [0]
  collapsedSliceDims := [1]
  operandBatchingDims := []
  startIndicesBatchingDims := []
  startIndexMap := [1]
  indexVectorDim := 2
  sliceSizes := ![1024, 1]
  wf := gather_S1024x4096_S2048x64x1_S1024x2048x64_0_1_n_n_1_2_10241_wf
def gather_S1024x2048_S1024x64x1_S1024x1024x64_0_1_n_n_1_2_10241 : GatherDims S1024x2048 S1024x64x1 S1024x1024x64 where
  offsetDims := [0]
  collapsedSliceDims := [1]
  operandBatchingDims := []
  startIndicesBatchingDims := []
  startIndexMap := [1]
  indexVectorDim := 2
  sliceSizes := ![1024, 1]
  wf := gather_S1024x2048_S1024x64x1_S1024x1024x64_0_1_n_n_1_2_10241_wf
def gather_S1024x1024_S2048x64x1_S1024x2048x64_0_1_n_n_1_2_10241 : GatherDims S1024x1024 S2048x64x1 S1024x2048x64 where
  offsetDims := [0]
  collapsedSliceDims := [1]
  operandBatchingDims := []
  startIndicesBatchingDims := []
  startIndexMap := [1]
  indexVectorDim := 2
  sliceSizes := ![1024, 1]
  wf := gather_S1024x1024_S2048x64x1_S1024x2048x64_0_1_n_n_1_2_10241_wf
def gather_S1024x2048_S4096x64x1_S1024x4096x64_0_1_n_n_1_2_10241 : GatherDims S1024x2048 S4096x64x1 S1024x4096x64 where
  offsetDims := [0]
  collapsedSliceDims := [1]
  operandBatchingDims := []
  startIndicesBatchingDims := []
  startIndexMap := [1]
  indexVectorDim := 2
  sliceSizes := ![1024, 1]
  wf := gather_S1024x2048_S4096x64x1_S1024x4096x64_0_1_n_n_1_2_10241_wf

class Facts : Prop extends Facts₀ where

variable [Facts]
-- ==== Proof.Whole.lean ====
import Idealize.ShloMosaic.Lib.Pipeline.Frame

namespace Idealize.ShloMosaic.Memref.IsWhole

open Idealize.SL Idealize.SL.RA Idealize.SL.BI TcCoe
open scoped Idealize.SL.BI
open Idealize.SL.BI.BIBase Idealize.SL.Sem Idealize.SL.ProofMode

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

-- a whole memref reads its buffer one to one: owning it at `X` is holding its cells at the one contents that read `X`
theorem owns_eq {sp : Space} {sh : Shape} {e : EltTy} {m : Memref sig .tc sp sh e} (h : m.IsWhole) {c : Dev nD}
    (q : PosShare TreeShare) (X : sh.Idx → Val e) :
    (owns (c : Thread nD τ) m q X : sProp 𝕄) = (m.view.loc (c : Thread nD τ) ↦[m.view.set]{q} h.unread X) := by
  unfold owns
  refine BI.equiv_iff.mp ⟨?_, ?_⟩
  · show (_ : sProp 𝕄) ⊢ _; iintro ⟨%f, %hf, H⟩; obtain rfl := h.eq_unread hf; iexact H
  · show (_ : sProp 𝕄) ⊢ _; iintro H; iexists _; isplitr; · ipureintro; exact h.read_unread X
    iexact H

end Idealize.ShloMosaic.Memref.IsWhole
-- ==== Proof.K.R0.Kit.lean ====
import proofs.«423092_j11149735100496_3_alg».proof.Proof.Gen.Kernel.Launch
import proofs.«423092_j11149735100496_3_alg».proof.Proof.Gen.Kernel.Skeleton
import proofs.«423092_j11149735100496_3_alg».proof.Proof.Gen.Kernel.Points
import proofs.«423092_j11149735100496_3_alg».proof.Proof.Whole
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.R0

open Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable {c : Dev nD} (dat : Dat τ (Elt F) Unit ℕ (UR sig nD τ) ℕ cfg0 c)

theorem before_0_of (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end

abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 := by decide +kernel

abbrev condLast (i : grid0.Coords) : Prop := k0_cond2 i = 1#1
theorem hcondLast : ∀ t : Fin cfg0.N, condLast (grid0.coords t) ↔ t.val % 8 = 7 := by decide +kernel

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel

theorem idle_4 : ∀ t : Fin cfg0.N, ¬condLast (grid0.coords t) → cfg0.idle 4 (grid0.coords t) = true := by decide +kernel
theorem noFlush_4 : ∀ t : Fin cfg0.N, ¬condLast (grid0.coords t) → (cfg0.win 4).flush t = false := by decide +kernel

theorem live_4 : ∀ t : Fin cfg0.N, condLast (grid0.coords t) → cfg0.idle 4 (grid0.coords t) = false := by decide +kernel

abbrev ms_0 (t : Fin cfg0.N) : Memref sig .tc .vmem S1024x4096 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1024x4096 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S8x256 .i32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x256 .i32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1024x256 .f32 := win0_4.stage (cfg0.slots t 4)
abbrev hs_4 (t : Fin cfg0.N) : (ms_4 t).IsWhole := hstage0_4 ((cfg0.slots t 4).cast nbuf0_4)

abbrev scM : Memref sig .tc .vmem S1024x256 .f32 := Memref.whole cc0_scratch0

theorem PhiA_eq (c : Dev nD) :
    (Pipeline.ΦA spec0 c : sProp (MT nD τ sig Unit (Elt F) ℕ (UR sig nD τ) ℕ))
      = iprop(iprop(iprop((∃ d, owns (c : Thread nD τ) scM fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM, owns_whole]; try rfl

end Cert.Kernel.R0

end
-- ==== Proof.K.R0.RunFirst.lean ====
import proofs.«423092_j11149735100496_3_alg».proof.Proof.K.R0.Kit

namespace Cert.Kernel.R0

open Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

set_option maxHeartbeats 4000000 in
noncomputable def runFirst (c : Dev nD) (i : grid0.Coords) (arg2 : Memref sig .tc .vmem S1024x4096 .bf16) (harg2 : arg2.IsWhole) (arg3 : Memref sig .tc .vmem S1024x4096 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : condFirst i) (hc1 : ¬condLast i)
    (x0 : Vec F S1024x4096 .bf16) (x1 : Vec F S1024x4096 .bf16) (x2 : Vec F S8x256 .i32) (x3 : Vec F S1x256 .i32) :
    { LS : List (View.Piece (Elt F) S1024x256 .f32) //
      ∀ (x4 : Vec F S1024x256 .f32) (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ owns c arg6 fullShare x4 ∗ (∃ d, owns c arg7 fullShare d)
            ∗ (iprop(owns c arg2 fullShare x0 ∗ owns c arg3 fullShare x1 ∗ owns c arg4 fullShare x2 ∗ owns c arg5 fullShare x3 ∗ owns c arg6 fullShare x4
                ∗ (∃ f, arg7.view.loc c ↦[arg7.view.set]{fullShare} arg7.view.writes (Elt F) f LS)) -∗ K ⟨⟩))
          ⊢ wp frame (wpE (defs₀ (F := F)) Variants.none c none) E (cc0__layer_kernel i arg2 harg2 arg3 harg3 arg4 harg4 arg5 harg5 arg6 harg6 arg7 harg7) K } := by
  refine ⟨?_, fun x4 E K => ?run⟩
  case run =>
    simp only [cc0__layer_kernel_eq_skeleton]; unfold cc0__layer_kernel_skel
    simp only [k0_part1_eq_skeleton, k0_part2_eq_skeleton, k0_part3_eq_skeleton, k0_part4_eq_skeleton]
    unfold k0_part1_skel k0_part2_skel k0_part3_skel k0_part4_skel
    simp only [harg2.owns_eq, harg3.owns_eq, harg4.owns_eq, harg5.owns_eq, harg6.owns_eq, harg7.owns_eq]
    iintro ⟨H0, H1, H2, H3, H4, ⟨%d, HS⟩, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    iexists _; iexact HS

end Cert.Kernel.R0
-- ==== Proof.K.R0.RunMid.lean ====
import proofs.«423092_j11149735100496_3_alg».proof.Proof.K.R0.Kit

namespace Cert.Kernel.R0

open Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

set_option maxHeartbeats 4000000 in
noncomputable def runMid (c : Dev nD) (i : grid0.Coords) (arg2 : Memref sig .tc .vmem S1024x4096 .bf16) (harg2 : arg2.IsWhole) (arg3 : Memref sig .tc .vmem S1024x4096 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : ¬condFirst i) (hc1 : ¬condLast i)
    (x0 : Vec F S1024x4096 .bf16) (x1 : Vec F S1024x4096 .bf16) (x2 : Vec F S8x256 .i32) (x3 : Vec F S1x256 .i32) (xs : Vec F S1024x256 .f32) :
    { LS : List (View.Piece (Elt F) S1024x256 .f32) //
      ∀ (x4 : Vec F S1024x256 .f32) (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ owns c arg6 fullShare x4 ∗ owns c arg7 fullShare xs
            ∗ (iprop(owns c arg2 fullShare x0 ∗ owns c arg3 fullShare x1 ∗ owns c arg4 fullShare x2 ∗ owns c arg5 fullShare x3 ∗ owns c arg6 fullShare x4
                ∗ (∃ f, arg7.view.loc c ↦[arg7.view.set]{fullShare} arg7.view.writes (Elt F) f LS)) -∗ K ⟨⟩))
          ⊢ wp frame (wpE (defs₀ (F := F)) Variants.none c none) E (cc0__layer_kernel i arg2 harg2 arg3 harg3 arg4 harg4 arg5 harg5 arg6 harg6 arg7 harg7) K } := by
  refine ⟨?_, fun x4 E K => ?run⟩
  case run =>
    simp only [cc0__layer_kernel_eq_skeleton]; unfold cc0__layer_kernel_skel
    simp only [k0_part1_eq_skeleton, k0_part2_eq_skeleton, k0_part3_eq_skeleton, k0_part4_eq_skeleton]
    unfold k0_part1_skel k0_part2_skel k0_part3_skel k0_part4_skel
    simp only [harg2.owns_eq, harg3.owns_eq, harg4.owns_eq, harg5.owns_eq, harg6.owns_eq, harg7.owns_eq]
    iintro ⟨H0, H1, H2, H3, H4, HS, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    iexists _; iexact HS

end Cert.Kernel.R0
-- ==== Proof.K.R0.RunLast.lean ====
import proofs.«423092_j11149735100496_3_alg».proof.Proof.K.R0.Kit

namespace Cert.Kernel.R0

open Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

set_option maxHeartbeats 4000000 in
noncomputable def runLast (c : Dev nD) (i : grid0.Coords) (arg2 : Memref sig .tc .vmem S1024x4096 .bf16) (harg2 : arg2.IsWhole) (arg3 : Memref sig .tc .vmem S1024x4096 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : ¬condFirst i) (hc1 : condLast i)
    (x0 : Vec F S1024x4096 .bf16) (x1 : Vec F S1024x4096 .bf16) (x2 : Vec F S8x256 .i32) (x3 : Vec F S1x256 .i32) (xs : Vec F S1024x256 .f32) :
    Σ' (L4 : List (View.Piece (Elt F) S1024x256 .f32)), { LS : List (View.Piece (Elt F) S1024x256 .f32) //
      ∀ (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ (∃ d, owns c arg6 fullShare d) ∗ owns c arg7 fullShare xs
            ∗ (iprop(owns c arg2 fullShare x0 ∗ owns c arg3 fullShare x1 ∗ owns c arg4 fullShare x2 ∗ owns c arg5 fullShare x3
                ∗ (∃ f, arg6.view.loc c ↦[arg6.view.set]{fullShare} arg6.view.writes (Elt F) f L4)
                ∗ (∃ f, arg7.view.loc c ↦[arg7.view.set]{fullShare} arg7.view.writes (Elt F) f LS)) -∗ K ⟨⟩))
          ⊢ wp frame (wpE (defs₀ (F := F)) Variants.none c none) E (cc0__layer_kernel i arg2 harg2 arg3 harg3 arg4 harg4 arg5 harg5 arg6 harg6 arg7 harg7) K } := by
  refine ⟨?_, ?_, fun E K => ?run⟩
  case run =>
    simp only [cc0__layer_kernel_eq_skeleton]; unfold cc0__layer_kernel_skel
    simp only [k0_part1_eq_skeleton, k0_part2_eq_skeleton, k0_part3_eq_skeleton, k0_part4_eq_skeleton]
    unfold k0_part1_skel k0_part2_skel k0_part3_skel k0_part4_skel
    simp only [harg2.owns_eq, harg3.owns_eq, harg4.owns_eq, harg5.owns_eq, harg6.owns_eq, harg7.owns_eq]
    iintro ⟨H0, H1, H2, H3, ⟨%d, H4⟩, HS, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexists _; iexact H4
    iexists _; iexact HS

end Cert.Kernel.R0
-- ==== Proof.K.R0.Dat.lean ====
import proofs.«423092_j11149735100496_3_alg».proof.Proof.K.R0.RunFirst
import proofs.«423092_j11149735100496_3_alg».proof.Proof.K.R0.RunMid
import proofs.«423092_j11149735100496_3_alg».proof.Proof.K.R0.RunLast

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid0.Coords) (arg2 : Memref sig .tc .vmem S1024x4096 .bf16) (harg2 : arg2.IsWhole) (arg3 : Memref sig .tc .vmem S1024x4096 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole)
  (hF : condFirst i) (hnF : ¬condFirst i) (hL : condLast i) (hnL : ¬condLast i)
  (x0 : Vec F S1024x4096 .bf16) (x1 : Vec F S1024x4096 .bf16) (x2 : Vec F S8x256 .i32) (x3 : Vec F S1x256 .i32) (xs : Vec F S1024x256 .f32)

def sFirst : Vec F S1024x256 .f32 := View.canon (runFirst c i arg2 harg2 arg3 harg3 arg4 harg4 arg5 harg5 arg6 harg6 arg7 harg7 hF hnL x0 x1 x2 x3).1
def sMid : Vec F S1024x256 .f32 := View.canon (runMid c i arg2 harg2 arg3 harg3 arg4 harg4 arg5 harg5 arg6 harg6 arg7 harg7 hnF hnL x0 x1 x2 x3 xs).1
def oLast : Vec F S1024x256 .f32 := View.canon (runLast c i arg2 harg2 arg3 harg3 arg4 harg4 arg5 harg5 arg6 harg6 arg7 harg7 hnF hL x0 x1 x2 x3 xs).1
def sLast : Vec F S1024x256 .f32 := View.canon (runLast c i arg2 harg2 arg3 harg3 arg4 harg4 arg5 harg5 arg6 harg6 arg7 harg7 hnF hL x0 x1 x2 x3 xs).2.1

theorem tFirst : View.Piece.tiledL (runFirst c i arg2 harg2 arg3 harg3 arg4 harg4 arg5 harg5 arg6 harg6 arg7 harg7 hF hnL x0 x1 x2 x3).1 S1024x256.size = true := by sl_kernel_rfl
theorem tMid : View.Piece.tiledL (runMid c i arg2 harg2 arg3 harg3 arg4 harg4 arg5 harg5 arg6 harg6 arg7 harg7 hnF hnL x0 x1 x2 x3 xs).1 S1024x256.size = true := by sl_kernel_rfl
theorem tOut : View.Piece.tiledL (runLast c i arg2 harg2 arg3 harg3 arg4 harg4 arg5 harg5 arg6 harg6 arg7 harg7 hnF hL x0 x1 x2 x3 xs).1 S1024x256.size = true := by sl_kernel_rfl
theorem tLast : View.Piece.tiledL (runLast c i arg2 harg2 arg3 harg3 arg4 harg4 arg5 harg5 arg6 harg6 arg7 harg7 hnF hL x0 x1 x2 x3 xs).2.1 S1024x256.size = true := by sl_kernel_rfl
end

-- Stores that tile a buffer leave it at their canon, whatever it held: every index is covered.
theorem owns_canon {c : Dev nD} {M : Memref sig .tc .vmem S1024x256 .f32} {L : List (View.Piece (Elt F) S1024x256 .f32)}
    (hL : View.Piece.tiledL L S1024x256.size = true) :
    (iprop(∃ f, M.view.loc (c : Thread nD τ) ↦[M.view.set]{fullShare} M.view.writes (Elt F) f L) : sProp 𝕄) ⊢ owns (c : Thread nD τ) M fullShare (View.canon L) := by
  iintro ⟨%f, H⟩; unfold owns; iexists M.view.writes (Elt F) f L; isplitr
  · ipureintro; exact View.read_writes_eq_canon _ _ _ (View.cover_of_tiledL L _ hL)
  · iexact H

theorem notLast_of_first (t : Fin cfg0.N) (h0 : t.val % 8 = 0) : ¬condLast (grid0.coords t) :=
  fun h => by have := (hcondLast t).mp h; omega

-- What point t leaves in the output block's buffer and in the scratch, given what the point before left in the scratch.
def stepAt (c : Dev nD) (t : Fin cfg0.N) (xs : Vec F S1024x256 .f32) : Vec F S1024x256 .f32 × Vec F S1024x256 .f32 :=
  if h0 : t.val % 8 = 0 then
    (View.canon [], sFirst c (grid0.coords t) (ms_0 t) (hs_0 t) (ms_1 t) (hs_1 t) (ms_2 t) (hs_2 t) (ms_3 t) (hs_3 t) (ms_4 t) (hs_4 t) scM (Memref.isWhole_whole _) ((hcondFirst t).mpr h0) (notLast_of_first t h0) (iblk V c 0 t) (iblk V c 1 t) (iblk V c 2 t) (iblk V c 3 t))
  else if h1 : t.val % 8 = 7 then
    (oLast c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (iblk V c 3 t) xs,
      sLast c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (iblk V c 3 t) xs)
  else
    (View.canon [], sMid c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h1 ((hcondLast t).mp h)) (iblk V c 0 t) (iblk V c 1 t) (iblk V c 2 t) (iblk V c 3 t) xs)

def outsAt (c : Dev nD) : (n : ℕ) → n < cfg0.N → Vec F S1024x256 .f32 × Vec F S1024x256 .f32
  | 0, hn => stepAt V c ⟨0, hn⟩ (View.canon [])
  | n + 1, hn => stepAt V c ⟨n + 1, hn⟩ (outsAt c n (Nat.lt_of_succ_lt hn)).2

-- A block's first point does not read the scratch; every other point steps from what the point before left.
theorem outsAt_first (c : Dev nD) (t : Fin cfg0.N) (h0 : t.val % 8 = 0) :
    outsAt V c t.val t.isLt = stepAt V c t (View.canon []) := by
  obtain ⟨n, hn⟩ := t
  cases n with
  | zero => rfl
  | succ n => exact (dif_pos h0).trans (dif_pos h0 : stepAt V c ⟨n + 1, hn⟩ (View.canon []) = _).symm

theorem outsAt_next (c : Dev nD) (t : Fin cfg0.N) (h0 : ¬t.val % 8 = 0) :
    outsAt V c t.val t.isLt = stepAt V c t (outsAt V c (t.val - 1) (Nat.lt_of_le_of_lt (Nat.sub_le _ _) t.isLt)).2 := by
  obtain ⟨n, hn⟩ := t
  cases n with
  | zero => exact absurd (Nat.zero_mod _) h0
  | succ n => rfl

-- The invariant with the scratch holding x.
def inv (c : Dev nD) (x : Vec F S1024x256 .f32) : sProp 𝕄 :=
  iprop(iprop(owns (c : Thread nD τ) scM fullShare x ∗ Pipeline.scopedRestBut (Ix := Unit) (Name := ℕ) (U := UR sig nD τ) (Lvl := ℕ) (Val := Elt F) spec0 c [cc0_scratch0]) ∗ (∃ r, prngReg c r))

-- Forgetting the scratch's contents gives back what the region handed over.
theorem inv_le (c : Dev nD) (x : Vec F S1024x256 .f32) : inv c x ⊢ Pipeline.ΦA spec0 c := by
  rw [PhiA_eq]; unfold inv
  iintro ⟨⟨HS, Hrest⟩, Hg⟩
  iframe Hrest Hg
  iexists _; iexact HS

def PhiS (c : Dev nD) : (n : ℕ) → n ≤ cfg0.N → sProp 𝕄
  | 0, _ => Pipeline.ΦA spec0 c
  | n + 1, hn => inv c (outsAt V c n hn).2

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = (outsAt V c t.val t.isLt).1 := by dsimp only [dat]

-- Before any point the invariant holds the scratch at some contents.
theorem Phi_le (c : Dev nD) (t : Fin (cfg0.N + 1)) : (dat V c).Φ t ⊢ Pipeline.ΦA spec0 c := by
  obtain ⟨n, hn⟩ := t
  cases n with
  | zero => exact .rfl
  | succ n => exact inv_le c _

-- After the first point the scratch holds what the point before left.
theorem Phi_pos (c : Dev nD) (t : Fin cfg0.N) (hz : t.val ≠ 0) : (dat V c).Φ t.castSucc = inv c (outsAt V c (t.val - 1) (Nat.lt_of_le_of_lt (Nat.sub_le _ _) t.isLt)).2 := by
  obtain ⟨n, hn⟩ := t
  cases n with
  | zero => exact absurd rfl hz
  | succ n => rfl

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves_in (c : Dev nD) (t : Fin cfg0.N) :
    (dat V c).leavesExact 0 t = owns (c : Thread nD τ) (ms_0 t) fullShare (iblk V c 0 t)
    ∧ (dat V c).leavesExact 1 t = owns (c : Thread nD τ) (ms_1 t) fullShare (iblk V c 1 t)
    ∧ (dat V c).leavesExact 2 t = owns (c : Thread nD τ) (ms_2 t) fullShare (iblk V c 2 t)
    ∧ (dat V c).leavesExact 3 t = owns (c : Thread nD τ) (ms_3 t) fullShare (iblk V c 3 t) :=
  ⟨by unfold Dat.leavesExact; rw [live_0 t, after_0], by unfold Dat.leavesExact; rw [live_1 t, after_1],
   by unfold Dat.leavesExact; rw [live_2 t, after_2], by unfold Dat.leavesExact; rw [live_3 t, after_3]⟩

set_option maxHeartbeats 4800000 in
-- Each case's run takes the inputs' blocks and the scratch and hands the scratch back with stores that tile it.
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0_of V (dat V c) (A_eq V c 0) (after_0 V c), before_1_of V (dat V c) (A_eq V c 1) (after_1 V c),
    before_2_of V (dat V c) (A_eq V c 2) (after_2 V c), before_3_of V (dat V c) (A_eq V c 3) (after_3 V c)]
  rw [show (dat V c).owesAt () t.succ = (dat V c).owesAt () t.castSucc from rfl,
    show (dat V c).Φ t.succ = inv c (outsAt V c t.val t.isLt).2 from rfl,
    (leaves_in V c t).1, (leaves_in V c t).2.1, (leaves_in V c t).2.2.1, (leaves_in V c t).2.2.2]
  by_cases h0 : t.val % 8 = 0
  · have hL := notLast_of_first t h0
    rw [Dat.leavesExact_idle (dat V c) 4 t (idle_4 t hL) (noFlush_4 t hL), outsAt_first V c t h0, stepAt, dif_pos h0]
    refine (sep_mono_left (Phi_le V c _)).trans ?_
    rw [PhiA_eq]
    unfold sFirst inv; (try dsimp only)
    iintro ⟨⟨⟨HS, Hrest⟩, Hg⟩, Ho, ⟨%d0, H0⟩, ⟨%d1, H1⟩, ⟨%d2, H2⟩, ⟨%d3, H3⟩, ⟨%d4, H4⟩⟩
    iapply ((runFirst c (grid0.coords t) _ _ _ _ _ _ _ _ _ _ _ _ ((hcondFirst t).mpr h0) hL (iblk V c 0 t) (iblk V c 1 t) (iblk V c 2 t) (iblk V c 3 t)).2 _ Set.univ _)
    iframe H0 H1 H2 H3 H4 HS
    iintro ⟨H0, H1, H2, H3, H4, HS⟩
    iframe Hrest Hg Ho H0 H1 H2 H3
    isplitl [HS]
    · iapply owns_canon (tFirst ..); iexact HS
    iexists _; iexact H4
  · have hF : ¬condFirst (grid0.coords t) := fun h => h0 ((hcondFirst t).mp h)
    rw [Phi_pos V c t fun e => h0 (by rw [e])]
    by_cases h1 : t.val % 8 = 7
    · have hL := (hcondLast t).mpr h1
      rw [show (dat V c).leavesExact 4 t = owns (c : Thread nD τ) (ms_4 t) fullShare ((dat V c).after 4 t) from by
        unfold Dat.leavesExact; rw [live_4 t hL], after_4, outsAt_next V c t h0, stepAt, dif_neg h0, dif_pos h1]
      unfold oLast sLast inv; (try dsimp only)
      iintro ⟨⟨⟨HS, Hrest⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ hF hL (iblk V c 0 t) (iblk V c 1 t) (iblk V c 2 t) (iblk V c 3 t) _).2.2 Set.univ _)
      iframe H0 H1 H2 H3 HS
      isplitl [H4]; · iexists _; iexact H4
      iintro ⟨H0, H1, H2, H3, H4, HS⟩
      iframe Hrest Hg Ho H0 H1 H2 H3
      isplitl [HS]
      · iapply owns_canon (tLast ..); iexact HS
      iapply owns_canon (tOut ..); iexact H4
    · have hL : ¬condLast (grid0.coords t) := fun h => h1 ((hcondLast t).mp h)
      rw [Dat.leavesExact_idle (dat V c) 4 t (idle_4 t hL) (noFlush_4 t hL), outsAt_next V c t h0, stepAt, dif_neg h0, dif_neg h1]
      unfold sMid inv; (try dsimp only)
      iintro ⟨⟨⟨HS, Hrest⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ hF hL (iblk V c 0 t) (iblk V c 1 t) (iblk V c 2 t) (iblk V c 3 t) _).2 _ Set.univ _)
      iframe H0 H1 H2 H3 H4 HS
      iintro ⟨H0, H1, H2, H3, H4, HS⟩
      iframe Hrest Hg Ho H0 H1 H2 H3
      isplitl [HS]
      · iapply owns_canon (tMid ..); iexact HS
      iexists _; iexact H4

theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := .rfl

theorem hout (c : Dev nD) : (dat V c).Φ (Fin.last cfg0.N) ⊢ Pipeline.ΦA spec0 c := Phi_le V c _

end Cert.Kernel.R0

end
-- ==== Proof.K.R1.Kit.lean ====
import proofs.«423092_j11149735100496_3_alg».proof.Proof.Gen.Kernel.Launch
import proofs.«423092_j11149735100496_3_alg».proof.Proof.Gen.Kernel.Skeleton
import proofs.«423092_j11149735100496_3_alg».proof.Proof.Gen.Kernel.Points
import proofs.«423092_j11149735100496_3_alg».proof.Proof.Whole
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.R1

open Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable {c : Dev nD} (dat : Dat τ (Elt F) Unit ℕ (UR sig nD τ) ℕ cfg1 c)

theorem before_0_of (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end

abbrev condFirst (i : grid1.Coords) : Prop := (Scalar.cmpi .ne (Scalar.extui (Scalar.cmpi .eq (BitVec.ofNat 32 (i 1).val) 0#32)) 0#32) = 1#1
theorem hcondFirst : ∀ t : Fin cfg1.N, condFirst (grid1.coords t) ↔ t.val % 8 = 0 := by decide +kernel

abbrev condLast (i : grid1.Coords) : Prop := k1_cond2 i = 1#1
theorem hcondLast : ∀ t : Fin cfg1.N, condLast (grid1.coords t) ↔ t.val % 8 = 7 := by decide +kernel

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel

theorem idle_4 : ∀ t : Fin cfg1.N, ¬condLast (grid1.coords t) → cfg1.idle 4 (grid1.coords t) = true := by decide +kernel
theorem noFlush_4 : ∀ t : Fin cfg1.N, ¬condLast (grid1.coords t) → (cfg1.win 4).flush t = false := by decide +kernel

theorem live_4 : ∀ t : Fin cfg1.N, condLast (grid1.coords t) → cfg1.idle 4 (grid1.coords t) = false := by decide +kernel

abbrev ms_0 (t : Fin cfg1.N) : Memref sig .tc .vmem S1024x2048 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1024x2048 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S8x256 .i32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x256 .i32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1024x256 .f32 := win1_4.stage (cfg1.slots t 4)
abbrev hs_4 (t : Fin cfg1.N) : (ms_4 t).IsWhole := hstage1_4 ((cfg1.slots t 4).cast nbuf1_4)

abbrev scM : Memref sig .tc .vmem S1024x256 .f32 := Memref.whole cc1_scratch0

theorem PhiA_eq (c : Dev nD) :
    (Pipeline.ΦA spec1 c : sProp (MT nD τ sig Unit (Elt F) ℕ (UR sig nD τ) ℕ))
      = iprop(iprop(iprop((∃ d, owns (c : Thread nD τ) scM fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM, owns_whole]; try rfl

end Cert.Kernel.R1

end
-- ==== Proof.K.R1.RunFirst.lean ====
import proofs.«423092_j11149735100496_3_alg».proof.Proof.K.R1.Kit

namespace Cert.Kernel.R1

open Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

set_option maxHeartbeats 4000000 in
noncomputable def runFirst (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : condFirst i) (hc1 : ¬condLast i)
    (x0 : Vec F S1024x2048 .bf16) (x1 : Vec F S1024x2048 .bf16) (x2 : Vec F S8x256 .i32) (x3 : Vec F S1x256 .i32) :
    { LS : List (View.Piece (Elt F) S1024x256 .f32) //
      ∀ (x4 : Vec F S1024x256 .f32) (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ owns c arg6 fullShare x4 ∗ (∃ d, owns c arg7 fullShare d)
            ∗ (iprop(owns c arg2 fullShare x0 ∗ owns c arg3 fullShare x1 ∗ owns c arg4 fullShare x2 ∗ owns c arg5 fullShare x3 ∗ owns c arg6 fullShare x4
                ∗ (∃ f, arg7.view.loc c ↦[arg7.view.set]{fullShare} arg7.view.writes (Elt F) f LS)) -∗ K ⟨⟩))
          ⊢ wp frame (wpE (defs₀ (F := F)) Variants.none c none) E (cc1__layer_kernel i arg2 harg2 arg3 harg3 arg4 harg4 arg5 harg5 arg6 harg6 arg7 harg7) K } := by
  refine ⟨?_, fun x4 E K => ?run⟩
  case run =>
    simp only [cc1__layer_kernel_eq_skeleton]; unfold cc1__layer_kernel_skel
    simp only [k1_part1_eq_skeleton, k1_part2_eq_skeleton, k1_part3_eq_skeleton, k1_part4_eq_skeleton]
    unfold k1_part1_skel k1_part2_skel k1_part3_skel k1_part4_skel
    simp only [harg2.owns_eq, harg3.owns_eq, harg4.owns_eq, harg5.owns_eq, harg6.owns_eq, harg7.owns_eq]
    iintro ⟨H0, H1, H2, H3, H4, ⟨%d, HS⟩, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    iexists _; iexact HS

end Cert.Kernel.R1
-- ==== Proof.K.R1.RunMid.lean ====
import proofs.«423092_j11149735100496_3_alg».proof.Proof.K.R1.Kit

namespace Cert.Kernel.R1

open Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

set_option maxHeartbeats 4000000 in
noncomputable def runMid (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : ¬condFirst i) (hc1 : ¬condLast i)
    (x0 : Vec F S1024x2048 .bf16) (x1 : Vec F S1024x2048 .bf16) (x2 : Vec F S8x256 .i32) (x3 : Vec F S1x256 .i32) (xs : Vec F S1024x256 .f32) :
    { LS : List (View.Piece (Elt F) S1024x256 .f32) //
      ∀ (x4 : Vec F S1024x256 .f32) (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ owns c arg6 fullShare x4 ∗ owns c arg7 fullShare xs
            ∗ (iprop(owns c arg2 fullShare x0 ∗ owns c arg3 fullShare x1 ∗ owns c arg4 fullShare x2 ∗ owns c arg5 fullShare x3 ∗ owns c arg6 fullShare x4
                ∗ (∃ f, arg7.view.loc c ↦[arg7.view.set]{fullShare} arg7.view.writes (Elt F) f LS)) -∗ K ⟨⟩))
          ⊢ wp frame (wpE (defs₀ (F := F)) Variants.none c none) E (cc1__layer_kernel i arg2 harg2 arg3 harg3 arg4 harg4 arg5 harg5 arg6 harg6 arg7 harg7) K } := by
  refine ⟨?_, fun x4 E K => ?run⟩
  case run =>
    simp only [cc1__layer_kernel_eq_skeleton]; unfold cc1__layer_kernel_skel
    simp only [k1_part1_eq_skeleton, k1_part2_eq_skeleton, k1_part3_eq_skeleton, k1_part4_eq_skeleton]
    unfold k1_part1_skel k1_part2_skel k1_part3_skel k1_part4_skel
    simp only [harg2.owns_eq, harg3.owns_eq, harg4.owns_eq, harg5.owns_eq, harg6.owns_eq, harg7.owns_eq]
    iintro ⟨H0, H1, H2, H3, H4, HS, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    iexists _; iexact HS

end Cert.Kernel.R1
-- ==== Proof.K.R1.RunLast.lean ====
import proofs.«423092_j11149735100496_3_alg».proof.Proof.K.R1.Kit

namespace Cert.Kernel.R1

open Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

set_option maxHeartbeats 4000000 in
noncomputable def runLast (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : ¬condFirst i) (hc1 : condLast i)
    (x0 : Vec F S1024x2048 .bf16) (x1 : Vec F S1024x2048 .bf16) (x2 : Vec F S8x256 .i32) (x3 : Vec F S1x256 .i32) (xs : Vec F S1024x256 .f32) :
    Σ' (L4 : List (View.Piece (Elt F) S1024x256 .f32)), { LS : List (View.Piece (Elt F) S1024x256 .f32) //
      ∀ (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ (∃ d, owns c arg6 fullShare d) ∗ owns c arg7 fullShare xs
            ∗ (iprop(owns c arg2 fullShare x0 ∗ owns c arg3 fullShare x1 ∗ owns c arg4 fullShare x2 ∗ owns c arg5 fullShare x3
                ∗ (∃ f, arg6.view.loc c ↦[arg6.view.set]{fullShare} arg6.view.writes (Elt F) f L4)
                ∗ (∃ f, arg7.view.loc c ↦[arg7.view.set]{fullShare} arg7.view.writes (Elt F) f LS)) -∗ K ⟨⟩))
          ⊢ wp frame (wpE (defs₀ (F := F)) Variants.none c none) E (cc1__layer_kernel i arg2 harg2 arg3 harg3 arg4 harg4 arg5 harg5 arg6 harg6 arg7 harg7) K } := by
  refine ⟨?_, ?_, fun E K => ?run⟩
  case run =>
    simp only [cc1__layer_kernel_eq_skeleton]; unfold cc1__layer_kernel_skel
    simp only [k1_part1_eq_skeleton, k1_part2_eq_skeleton, k1_part3_eq_skeleton, k1_part4_eq_skeleton]
    unfold k1_part1_skel k1_part2_skel k1_part3_skel k1_part4_skel
    simp only [harg2.owns_eq, harg3.owns_eq, harg4.owns_eq, harg5.owns_eq, harg6.owns_eq, harg7.owns_eq]
    iintro ⟨H0, H1, H2, H3, ⟨%d, H4⟩, HS, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexists _; iexact H4
    iexists _; iexact HS

end Cert.Kernel.R1
-- ==== Proof.K.R1.Dat.lean ====
import proofs.«423092_j11149735100496_3_alg».proof.Proof.K.R1.RunFirst
import proofs.«423092_j11149735100496_3_alg».proof.Proof.K.R1.RunMid
import proofs.«423092_j11149735100496_3_alg».proof.Proof.K.R1.RunLast

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole)
  (hF : condFirst i) (hnF : ¬condFirst i) (hL : condLast i) (hnL : ¬condLast i)
  (x0 : Vec F S1024x2048 .bf16) (x1 : Vec F S1024x2048 .bf16) (x2 : Vec F S8x256 .i32) (x3 : Vec F S1x256 .i32) (xs : Vec F S1024x256 .f32)

def sFirst : Vec F S1024x256 .f32 := View.canon (runFirst c i arg2 harg2 arg3 harg3 arg4 harg4 arg5 harg5 arg6 harg6 arg7 harg7 hF hnL x0 x1 x2 x3).1
def sMid : Vec F S1024x256 .f32 := View.canon (runMid c i arg2 harg2 arg3 harg3 arg4 harg4 arg5 harg5 arg6 harg6 arg7 harg7 hnF hnL x0 x1 x2 x3 xs).1
def oLast : Vec F S1024x256 .f32 := View.canon (runLast c i arg2 harg2 arg3 harg3 arg4 harg4 arg5 harg5 arg6 harg6 arg7 harg7 hnF hL x0 x1 x2 x3 xs).1
def sLast : Vec F S1024x256 .f32 := View.canon (runLast c i arg2 harg2 arg3 harg3 arg4 harg4 arg5 harg5 arg6 harg6 arg7 harg7 hnF hL x0 x1 x2 x3 xs).2.1

theorem tFirst : View.Piece.tiledL (runFirst c i arg2 harg2 arg3 harg3 arg4 harg4 arg5 harg5 arg6 harg6 arg7 harg7 hF hnL x0 x1 x2 x3).1 S1024x256.size = true := by sl_kernel_rfl
theorem tMid : View.Piece.tiledL (runMid c i arg2 harg2 arg3 harg3 arg4 harg4 arg5 harg5 arg6 harg6 arg7 harg7 hnF hnL x0 x1 x2 x3 xs).1 S1024x256.size = true := by sl_kernel_rfl
theorem tOut : View.Piece.tiledL (runLast c i arg2 harg2 arg3 harg3 arg4 harg4 arg5 harg5 arg6 harg6 arg7 harg7 hnF hL x0 x1 x2 x3 xs).1 S1024x256.size = true := by sl_kernel_rfl
theorem tLast : View.Piece.tiledL (runLast c i arg2 harg2 arg3 harg3 arg4 harg4 arg5 harg5 arg6 harg6 arg7 harg7 hnF hL x0 x1 x2 x3 xs).2.1 S1024x256.size = true := by sl_kernel_rfl
end

-- Stores that tile a buffer leave it at their canon, whatever it held: every index is covered.
theorem owns_canon {c : Dev nD} {M : Memref sig .tc .vmem S1024x256 .f32} {L : List (View.Piece (Elt F) S1024x256 .f32)}
    (hL : View.Piece.tiledL L S1024x256.size = true) :
    (iprop(∃ f, M.view.loc (c : Thread nD τ) ↦[M.view.set]{fullShare} M.view.writes (Elt F) f L) : sProp 𝕄) ⊢ owns (c : Thread nD τ) M fullShare (View.canon L) := by
  iintro ⟨%f, H⟩; unfold owns; iexists M.view.writes (Elt F) f L; isplitr
  · ipureintro; exact View.read_writes_eq_canon _ _ _ (View.cover_of_tiledL L _ hL)
  · iexact H

theorem notLast_of_first (t : Fin cfg1.N) (h0 : t.val % 8 = 0) : ¬condLast (grid1.coords t) :=
  fun h => by have := (hcondLast t).mp h; omega

-- What point t leaves in the output block's buffer and in the scratch, given what the point before left in the scratch.
def stepAt (c : Dev nD) (t : Fin cfg1.N) (xs : Vec F S1024x256 .f32) : Vec F S1024x256 .f32 × Vec F S1024x256 .f32 :=
  if h0 : t.val % 8 = 0 then
    (View.canon [], sFirst c (grid1.coords t) (ms_0 t) (hs_0 t) (ms_1 t) (hs_1 t) (ms_2 t) (hs_2 t) (ms_3 t) (hs_3 t) (ms_4 t) (hs_4 t) scM (Memref.isWhole_whole _) ((hcondFirst t).mpr h0) (notLast_of_first t h0) (iblk V c 0 t) (iblk V c 1 t) (iblk V c 2 t) (iblk V c 3 t))
  else if h1 : t.val % 8 = 7 then
    (oLast c (grid1.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (iblk V c 3 t) xs,
      sLast c (grid1.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (iblk V c 3 t) xs)
  else
    (View.canon [], sMid c (grid1.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h1 ((hcondLast t).mp h)) (iblk V c 0 t) (iblk V c 1 t) (iblk V c 2 t) (iblk V c 3 t) xs)

def outsAt (c : Dev nD) : (n : ℕ) → n < cfg1.N → Vec F S1024x256 .f32 × Vec F S1024x256 .f32
  | 0, hn => stepAt V c ⟨0, hn⟩ (View.canon [])
  | n + 1, hn => stepAt V c ⟨n + 1, hn⟩ (outsAt c n (Nat.lt_of_succ_lt hn)).2

-- A block's first point does not read the scratch; every other point steps from what the point before left.
theorem outsAt_first (c : Dev nD) (t : Fin cfg1.N) (h0 : t.val % 8 = 0) :
    outsAt V c t.val t.isLt = stepAt V c t (View.canon []) := by
  obtain ⟨n, hn⟩ := t
  cases n with
  | zero => rfl
  | succ n => exact (dif_pos h0).trans (dif_pos h0 : stepAt V c ⟨n + 1, hn⟩ (View.canon []) = _).symm

theorem outsAt_next (c : Dev nD) (t : Fin cfg1.N) (h0 : ¬t.val % 8 = 0) :
    outsAt V c t.val t.isLt = stepAt V c t (outsAt V c (t.val - 1) (Nat.lt_of_le_of_lt (Nat.sub_le _ _) t.isLt)).2 := by
  obtain ⟨n, hn⟩ := t
  cases n with
  | zero => exact absurd (Nat.zero_mod _) h0
  | succ n => rfl

-- The invariant with the scratch holding x.
def inv (c : Dev nD) (x : Vec F S1024x256 .f32) : sProp 𝕄 :=
  iprop(iprop(owns (c : Thread nD τ) scM fullShare x ∗ Pipeline.scopedRestBut (Ix := Unit) (Name := ℕ) (U := UR sig nD τ) (Lvl := ℕ) (Val := Elt F) spec1 c [cc1_scratch0]) ∗ (∃ r, prngReg c r))

-- Forgetting the scratch's contents gives back what the region handed over.
theorem inv_le (c : Dev nD) (x : Vec F S1024x256 .f32) : inv c x ⊢ Pipeline.ΦA spec1 c := by
  rw [PhiA_eq]; unfold inv
  iintro ⟨⟨HS, Hrest⟩, Hg⟩
  iframe Hrest Hg
  iexists _; iexact HS

def PhiS (c : Dev nD) : (n : ℕ) → n ≤ cfg1.N → sProp 𝕄
  | 0, _ => Pipeline.ΦA spec1 c
  | n + 1, hn => inv c (outsAt V c n hn).2

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (outsAt V c t.val t.isLt).1 := by dsimp only [dat]

-- Before any point the invariant holds the scratch at some contents.
theorem Phi_le (c : Dev nD) (t : Fin (cfg1.N + 1)) : (dat V c).Φ t ⊢ Pipeline.ΦA spec1 c := by
  obtain ⟨n, hn⟩ := t
  cases n with
  | zero => exact .rfl
  | succ n => exact inv_le c _

-- After the first point the scratch holds what the point before left.
theorem Phi_pos (c : Dev nD) (t : Fin cfg1.N) (hz : t.val ≠ 0) : (dat V c).Φ t.castSucc = inv c (outsAt V c (t.val - 1) (Nat.lt_of_le_of_lt (Nat.sub_le _ _) t.isLt)).2 := by
  obtain ⟨n, hn⟩ := t
  cases n with
  | zero => exact absurd rfl hz
  | succ n => rfl

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves_in (c : Dev nD) (t : Fin cfg1.N) :
    (dat V c).leavesExact 0 t = owns (c : Thread nD τ) (ms_0 t) fullShare (iblk V c 0 t)
    ∧ (dat V c).leavesExact 1 t = owns (c : Thread nD τ) (ms_1 t) fullShare (iblk V c 1 t)
    ∧ (dat V c).leavesExact 2 t = owns (c : Thread nD τ) (ms_2 t) fullShare (iblk V c 2 t)
    ∧ (dat V c).leavesExact 3 t = owns (c : Thread nD τ) (ms_3 t) fullShare (iblk V c 3 t) :=
  ⟨by unfold Dat.leavesExact; rw [live_0 t, after_0], by unfold Dat.leavesExact; rw [live_1 t, after_1],
   by unfold Dat.leavesExact; rw [live_2 t, after_2], by unfold Dat.leavesExact; rw [live_3 t, after_3]⟩

set_option maxHeartbeats 4800000 in
-- Each case's run takes the inputs' blocks and the scratch and hands the scratch back with stores that tile it.
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0_of V (dat V c) (A_eq V c 0) (after_0 V c), before_1_of V (dat V c) (A_eq V c 1) (after_1 V c),
    before_2_of V (dat V c) (A_eq V c 2) (after_2 V c), before_3_of V (dat V c) (A_eq V c 3) (after_3 V c)]
  rw [show (dat V c).owesAt () t.succ = (dat V c).owesAt () t.castSucc from rfl,
    show (dat V c).Φ t.succ = inv c (outsAt V c t.val t.isLt).2 from rfl,
    (leaves_in V c t).1, (leaves_in V c t).2.1, (leaves_in V c t).2.2.1, (leaves_in V c t).2.2.2]
  by_cases h0 : t.val % 8 = 0
  · have hL := notLast_of_first t h0
    rw [Dat.leavesExact_idle (dat V c) 4 t (idle_4 t hL) (noFlush_4 t hL), outsAt_first V c t h0, stepAt, dif_pos h0]
    refine (sep_mono_left (Phi_le V c _)).trans ?_
    rw [PhiA_eq]
    unfold sFirst inv; (try dsimp only)
    iintro ⟨⟨⟨HS, Hrest⟩, Hg⟩, Ho, ⟨%d0, H0⟩, ⟨%d1, H1⟩, ⟨%d2, H2⟩, ⟨%d3, H3⟩, ⟨%d4, H4⟩⟩
    iapply ((runFirst c (grid1.coords t) _ _ _ _ _ _ _ _ _ _ _ _ ((hcondFirst t).mpr h0) hL (iblk V c 0 t) (iblk V c 1 t) (iblk V c 2 t) (iblk V c 3 t)).2 _ Set.univ _)
    iframe H0 H1 H2 H3 H4 HS
    iintro ⟨H0, H1, H2, H3, H4, HS⟩
    iframe Hrest Hg Ho H0 H1 H2 H3
    isplitl [HS]
    · iapply owns_canon (tFirst ..); iexact HS
    iexists _; iexact H4
  · have hF : ¬condFirst (grid1.coords t) := fun h => h0 ((hcondFirst t).mp h)
    rw [Phi_pos V c t fun e => h0 (by rw [e])]
    by_cases h1 : t.val % 8 = 7
    · have hL := (hcondLast t).mpr h1
      rw [show (dat V c).leavesExact 4 t = owns (c : Thread nD τ) (ms_4 t) fullShare ((dat V c).after 4 t) from by
        unfold Dat.leavesExact; rw [live_4 t hL], after_4, outsAt_next V c t h0, stepAt, dif_neg h0, dif_pos h1]
      unfold oLast sLast inv; (try dsimp only)
      iintro ⟨⟨⟨HS, Hrest⟩, Hg⟩, Ho, ⟨%d0, H0⟩, ⟨%d1, H1⟩, ⟨%d2, H2⟩, ⟨%d3, H3⟩, ⟨%d4, H4⟩⟩
      iapply ((runLast c (grid1.coords t) _ _ _ _ _ _ _ _ _ _ _ _ hF hL (iblk V c 0 t) (iblk V c 1 t) (iblk V c 2 t) (iblk V c 3 t) _).2.2 Set.univ _)
      iframe H0 H1 H2 H3 HS
      isplitl [H4]; · iexists _; iexact H4
      iintro ⟨H0, H1, H2, H3, H4, HS⟩
      iframe Hrest Hg Ho H0 H1 H2 H3
      isplitl [HS]
      · iapply owns_canon (tLast ..); iexact HS
      iapply owns_canon (tOut ..); iexact H4
    · have hL : ¬condLast (grid1.coords t) := fun h => h1 ((hcondLast t).mp h)
      rw [Dat.leavesExact_idle (dat V c) 4 t (idle_4 t hL) (noFlush_4 t hL), outsAt_next V c t h0, stepAt, dif_neg h0, dif_neg h1]
      unfold sMid inv; (try dsimp only)
      iintro ⟨⟨⟨HS, Hrest⟩, Hg⟩, Ho, ⟨%d0, H0⟩, ⟨%d1, H1⟩, ⟨%d2, H2⟩, ⟨%d3, H3⟩, ⟨%d4, H4⟩⟩
      iapply ((runMid c (grid1.coords t) _ _ _ _ _ _ _ _ _ _ _ _ hF hL (iblk V c 0 t) (iblk V c 1 t) (iblk V c 2 t) (iblk V c 3 t) _).2 _ Set.univ _)
      iframe H0 H1 H2 H3 H4 HS
      iintro ⟨H0, H1, H2, H3, H4, HS⟩
      iframe Hrest Hg Ho H0 H1 H2 H3
      isplitl [HS]
      · iapply owns_canon (tMid ..); iexact HS
      iexists _; iexact H4

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := .rfl

theorem hout (c : Dev nD) : (dat V c).Φ (Fin.last cfg1.N) ⊢ Pipeline.ΦA spec1 c := Phi_le V c _

end Cert.Kernel.R1

end
-- ==== Proof.K.R2.Kit.lean ====
import proofs.«423092_j11149735100496_3_alg».proof.Proof.Gen.Kernel.Launch
import proofs.«423092_j11149735100496_3_alg».proof.Proof.Gen.Kernel.Skeleton
import proofs.«423092_j11149735100496_3_alg».proof.Proof.Gen.Kernel.Points
import proofs.«423092_j11149735100496_3_alg».proof.Proof.Whole
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.R2

open Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

section
variable {c : Dev nD} (dat : Dat τ (Elt F) Unit ℕ (UR sig nD τ) ℕ cfg2 c)

theorem before_0_of (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end

abbrev condFirst (i : grid2.Coords) : Prop := (Scalar.cmpi .ne (Scalar.extui (Scalar.cmpi .eq (BitVec.ofNat 32 (i 1).val) 0#32)) 0#32) = 1#1
theorem hcondFirst : ∀ t : Fin cfg2.N, condFirst (grid2.coords t) ↔ t.val % 8 = 0 := by decide +kernel

abbrev condLast (i : grid2.Coords) : Prop := k2_cond2 i = 1#1
theorem hcondLast : ∀ t : Fin cfg2.N, condLast (grid2.coords t) ↔ t.val % 8 = 7 := by decide +kernel

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
theorem live_3 : ∀ t : Fin cfg2.N, cfg2.idle 3 (grid2.coords t) = false := by decide +kernel

theorem idle_4 : ∀ t : Fin cfg2.N, ¬condLast (grid2.coords t) → cfg2.idle 4 (grid2.coords t) = true := by decide +kernel
theorem noFlush_4 : ∀ t : Fin cfg2.N, ¬condLast (grid2.coords t) → (cfg2.win 4).flush t = false := by decide +kernel

theorem live_4 : ∀ t : Fin cfg2.N, condLast (grid2.coords t) → cfg2.idle 4 (grid2.coords t) = false := by decide +kernel

abbrev ms_0 (t : Fin cfg2.N) : Memref sig .tc .vmem S1024x1024 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S1024x1024 .bf16 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S8x256 .i32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S1x256 .i32 := win2_3.stage (cfg2.slots t 3)
abbrev hs_3 (t : Fin cfg2.N) : (ms_3 t).IsWhole := hstage2_3 ((cfg2.slots t 3).cast nbuf2_3)
abbrev ms_4 (t : Fin cfg2.N) : Memref sig .tc .vmem S1024x256 .f32 := win2_4.stage (cfg2.slots t 4)
abbrev hs_4 (t : Fin cfg2.N) : (ms_4 t).IsWhole := hstage2_4 ((cfg2.slots t 4).cast nbuf2_4)

abbrev scM : Memref sig .tc .vmem S1024x256 .f32 := Memref.whole cc2_scratch0

theorem PhiA_eq (c : Dev nD) :
    (Pipeline.ΦA spec2 c : sProp (MT nD τ sig Unit (Elt F) ℕ (UR sig nD τ) ℕ))
      = iprop(iprop(iprop((∃ d, owns (c : Thread nD τ) scM fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM, owns_whole]; try rfl

end Cert.Kernel.R2

end
-- ==== Proof.K.R2.RunFirst.lean ====
import proofs.«423092_j11149735100496_3_alg».proof.Proof.K.R2.Kit

namespace Cert.Kernel.R2

open Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

set_option maxHeartbeats 4000000 in
noncomputable def runFirst (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : condFirst i) (hc1 : ¬condLast i)
    (x0 : Vec F S1024x1024 .bf16) (x1 : Vec F S1024x1024 .bf16) (x2 : Vec F S8x256 .i32) (x3 : Vec F S1x256 .i32) :
    { LS : List (View.Piece (Elt F) S1024x256 .f32) //
      ∀ (x4 : Vec F S1024x256 .f32) (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ owns c arg6 fullShare x4 ∗ (∃ d, owns c arg7 fullShare d)
            ∗ (iprop(owns c arg2 fullShare x0 ∗ owns c arg3 fullShare x1 ∗ owns c arg4 fullShare x2 ∗ owns c arg5 fullShare x3 ∗ owns c arg6 fullShare x4
                ∗ (∃ f, arg7.view.loc c ↦[arg7.view.set]{fullShare} arg7.view.writes (Elt F) f LS)) -∗ K ⟨⟩))
          ⊢ wp frame (wpE (defs₀ (F := F)) Variants.none c none) E (cc2__layer_kernel i arg2 harg2 arg3 harg3 arg4 harg4 arg5 harg5 arg6 harg6 arg7 harg7) K } := by
  refine ⟨?_, fun x4 E K => ?run⟩
  case run =>
    simp only [cc2__layer_kernel_eq_skeleton]; unfold cc2__layer_kernel_skel
    simp only [k2_part1_eq_skeleton, k2_part2_eq_skeleton, k2_part3_eq_skeleton, k2_part4_eq_skeleton]
    unfold k2_part1_skel k2_part2_skel k2_part3_skel k2_part4_skel
    simp only [harg2.owns_eq, harg3.owns_eq, harg4.owns_eq, harg5.owns_eq, harg6.owns_eq, harg7.owns_eq]
    iintro ⟨H0, H1, H2, H3, H4, ⟨%d, HS⟩, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    iexists _; iexact HS

end Cert.Kernel.R2
-- ==== Proof.K.R2.RunMid.lean ====
import proofs.«423092_j11149735100496_3_alg».proof.Proof.K.R2.Kit

namespace Cert.Kernel.R2

open Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

set_option maxHeartbeats 4000000 in
noncomputable def runMid (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : ¬condFirst i) (hc1 : ¬condLast i)
    (x0 : Vec F S1024x1024 .bf16) (x1 : Vec F S1024x1024 .bf16) (x2 : Vec F S8x256 .i32) (x3 : Vec F S1x256 .i32) (xs : Vec F S1024x256 .f32) :
    { LS : List (View.Piece (Elt F) S1024x256 .f32) //
      ∀ (x4 : Vec F S1024x256 .f32) (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ owns c arg6 fullShare x4 ∗ owns c arg7 fullShare xs
            ∗ (iprop(owns c arg2 fullShare x0 ∗ owns c arg3 fullShare x1 ∗ owns c arg4 fullShare x2 ∗ owns c arg5 fullShare x3 ∗ owns c arg6 fullShare x4
                ∗ (∃ f, arg7.view.loc c ↦[arg7.view.set]{fullShare} arg7.view.writes (Elt F) f LS)) -∗ K ⟨⟩))
          ⊢ wp frame (wpE (defs₀ (F := F)) Variants.none c none) E (cc2__layer_kernel i arg2 harg2 arg3 harg3 arg4 harg4 arg5 harg5 arg6 harg6 arg7 harg7) K } := by
  refine ⟨?_, fun x4 E K => ?run⟩
  case run =>
    simp only [cc2__layer_kernel_eq_skeleton]; unfold cc2__layer_kernel_skel
    simp only [k2_part1_eq_skeleton, k2_part2_eq_skeleton, k2_part3_eq_skeleton, k2_part4_eq_skeleton]
    unfold k2_part1_skel k2_part2_skel k2_part3_skel k2_part4_skel
    simp only [harg2.owns_eq, harg3.owns_eq, harg4.owns_eq, harg5.owns_eq, harg6.owns_eq, harg7.owns_eq]
    iintro ⟨H0, H1, H2, H3, H4, HS, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    iexists _; iexact HS

end Cert.Kernel.R2
-- ==== Proof.K.R2.RunLast.lean ====
import proofs.«423092_j11149735100496_3_alg».proof.Proof.K.R2.Kit

namespace Cert.Kernel.R2

open Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

set_option maxHeartbeats 4000000 in
noncomputable def runLast (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : ¬condFirst i) (hc1 : condLast i)
    (x0 : Vec F S1024x1024 .bf16) (x1 : Vec F S1024x1024 .bf16) (x2 : Vec F S8x256 .i32) (x3 : Vec F S1x256 .i32) (xs : Vec F S1024x256 .f32) :
    Σ' (L4 : List (View.Piece (Elt F) S1024x256 .f32)), { LS : List (View.Piece (Elt F) S1024x256 .f32) //
      ∀ (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ (∃ d, owns c arg6 fullShare d) ∗ owns c arg7 fullShare xs
            ∗ (iprop(owns c arg2 fullShare x0 ∗ owns c arg3 fullShare x1 ∗ owns c arg4 fullShare x2 ∗ owns c arg5 fullShare x3
                ∗ (∃ f, arg6.view.loc c ↦[arg6.view.set]{fullShare} arg6.view.writes (Elt F) f L4)
                ∗ (∃ f, arg7.view.loc c ↦[arg7.view.set]{fullShare} arg7.view.writes (Elt F) f LS)) -∗ K ⟨⟩))
          ⊢ wp frame (wpE (defs₀ (F := F)) Variants.none c none) E (cc2__layer_kernel i arg2 harg2 arg3 harg3 arg4 harg4 arg5 harg5 arg6 harg6 arg7 harg7) K } := by
  refine ⟨?_, ?_, fun E K => ?run⟩
  case run =>
    simp only [cc2__layer_kernel_eq_skeleton]; unfold cc2__layer_kernel_skel
    simp only [k2_part1_eq_skeleton, k2_part2_eq_skeleton, k2_part3_eq_skeleton, k2_part4_eq_skeleton]
    unfold k2_part1_skel k2_part2_skel k2_part3_skel k2_part4_skel
    simp only [harg2.owns_eq, harg3.owns_eq, harg4.owns_eq, harg5.owns_eq, harg6.owns_eq, harg7.owns_eq]
    iintro ⟨H0, H1, H2, H3, ⟨%d, H4⟩, HS, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexists _; iexact H4
    iexists _; iexact HS

end Cert.Kernel.R2
-- ==== Proof.K.R2.Dat.lean ====
import proofs.«423092_j11149735100496_3_alg».proof.Proof.K.R2.RunFirst
import proofs.«423092_j11149735100496_3_alg».proof.Proof.K.R2.RunMid
import proofs.«423092_j11149735100496_3_alg».proof.Proof.K.R2.RunLast

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole)
  (hF : condFirst i) (hnF : ¬condFirst i) (hL : condLast i) (hnL : ¬condLast i)
  (x0 : Vec F S1024x1024 .bf16) (x1 : Vec F S1024x1024 .bf16) (x2 : Vec F S8x256 .i32) (x3 : Vec F S1x256 .i32) (xs : Vec F S1024x256 .f32)

def sFirst : Vec F S1024x256 .f32 := View.canon (runFirst c i arg2 harg2 arg3 harg3 arg4 harg4 arg5 harg5 arg6 harg6 arg7 harg7 hF hnL x0 x1 x2 x3).1
def sMid : Vec F S1024x256 .f32 := View.canon (runMid c i arg2 harg2 arg3 harg3 arg4 harg4 arg5 harg5 arg6 harg6 arg7 harg7 hnF hnL x0 x1 x2 x3 xs).1
def oLast : Vec F S1024x256 .f32 := View.canon (runLast c i arg2 harg2 arg3 harg3 arg4 harg4 arg5 harg5 arg6 harg6 arg7 harg7 hnF hL x0 x1 x2 x3 xs).1
def sLast : Vec F S1024x256 .f32 := View.canon (runLast c i arg2 harg2 arg3 harg3 arg4 harg4 arg5 harg5 arg6 harg6 arg7 harg7 hnF hL x0 x1 x2 x3 xs).2.1

theorem tFirst : View.Piece.tiledL (runFirst c i arg2 harg2 arg3 harg3 arg4 harg4 arg5 harg5 arg6 harg6 arg7 harg7 hF hnL x0 x1 x2 x3).1 S1024x256.size = true := by sl_kernel_rfl
theorem tMid : View.Piece.tiledL (runMid c i arg2 harg2 arg3 harg3 arg4 harg4 arg5 harg5 arg6 harg6 arg7 harg7 hnF hnL x0 x1 x2 x3 xs).1 S1024x256.size = true := by sl_kernel_rfl
theorem tOut : View.Piece.tiledL (runLast c i arg2 harg2 arg3 harg3 arg4 harg4 arg5 harg5 arg6 harg6 arg7 harg7 hnF hL x0 x1 x2 x3 xs).1 S1024x256.size = true := by sl_kernel_rfl
theorem tLast : View.Piece.tiledL (runLast c i arg2 harg2 arg3 harg3 arg4 harg4 arg5 harg5 arg6 harg6 arg7 harg7 hnF hL x0 x1 x2 x3 xs).2.1 S1024x256.size = true := by sl_kernel_rfl
end

-- Stores that tile a buffer leave it at their canon, whatever it held: every index is covered.
theorem owns_canon {c : Dev nD} {M : Memref sig .tc .vmem S1024x256 .f32} {L : List (View.Piece (Elt F) S1024x256 .f32)}
    (hL : View.Piece.tiledL L S1024x256.size = true) :
    (iprop(∃ f, M.view.loc (c : Thread nD τ) ↦[M.view.set]{fullShare} M.view.writes (Elt F) f L) : sProp 𝕄) ⊢ owns (c : Thread nD τ) M fullShare (View.canon L) := by
  iintro ⟨%f, H⟩; unfold owns; iexists M.view.writes (Elt F) f L; isplitr
  · ipureintro; exact View.read_writes_eq_canon _ _ _ (View.cover_of_tiledL L _ hL)
  · iexact H

theorem notLast_of_first (t : Fin cfg2.N) (h0 : t.val % 8 = 0) : ¬condLast (grid2.coords t) :=
  fun h => by have := (hcondLast t).mp h; omega

-- What point t leaves in the output block's buffer and in the scratch, given what the point before left in the scratch.
def stepAt (c : Dev nD) (t : Fin cfg2.N) (xs : Vec F S1024x256 .f32) : Vec F S1024x256 .f32 × Vec F S1024x256 .f32 :=
  if h0 : t.val % 8 = 0 then
    (View.canon [], sFirst c (grid2.coords t) (ms_0 t) (hs_0 t) (ms_1 t) (hs_1 t) (ms_2 t) (hs_2 t) (ms_3 t) (hs_3 t) (ms_4 t) (hs_4 t) scM (Memref.isWhole_whole _) ((hcondFirst t).mpr h0) (notLast_of_first t h0) (iblk V c 0 t) (iblk V c 1 t) (iblk V c 2 t) (iblk V c 3 t))
  else if h1 : t.val % 8 = 7 then
    (oLast c (grid2.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (iblk V c 3 t) xs,
      sLast c (grid2.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (iblk V c 3 t) xs)
  else
    (View.canon [], sMid c (grid2.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h1 ((hcondLast t).mp h)) (iblk V c 0 t) (iblk V c 1 t) (iblk V c 2 t) (iblk V c 3 t) xs)

def outsAt (c : Dev nD) : (n : ℕ) → n < cfg2.N → Vec F S1024x256 .f32 × Vec F S1024x256 .f32
  | 0, hn => stepAt V c ⟨0, hn⟩ (View.canon [])
  | n + 1, hn => stepAt V c ⟨n + 1, hn⟩ (outsAt c n (Nat.lt_of_succ_lt hn)).2

-- A block's first point does not read the scratch; every other point steps from what the point before left.
theorem outsAt_first (c : Dev nD) (t : Fin cfg2.N) (h0 : t.val % 8 = 0) :
    outsAt V c t.val t.isLt = stepAt V c t (View.canon []) := by
  obtain ⟨n, hn⟩ := t
  cases n with
  | zero => rfl
  | succ n => exact (dif_pos h0).trans (dif_pos h0 : stepAt V c ⟨n + 1, hn⟩ (View.canon []) = _).symm

theorem outsAt_next (c : Dev nD) (t : Fin cfg2.N) (h0 : ¬t.val % 8 = 0) :
    outsAt V c t.val t.isLt = stepAt V c t (outsAt V c (t.val - 1) (Nat.lt_of_le_of_lt (Nat.sub_le _ _) t.isLt)).2 := by
  obtain ⟨n, hn⟩ := t
  cases n with
  | zero => exact absurd (Nat.zero_mod _) h0
  | succ n => rfl

-- The invariant with the scratch holding x.
def inv (c : Dev nD) (x : Vec F S1024x256 .f32) : sProp 𝕄 :=
  iprop(iprop(owns (c : Thread nD τ) scM fullShare x ∗ Pipeline.scopedRestBut (Ix := Unit) (Name := ℕ) (U := UR sig nD τ) (Lvl := ℕ) (Val := Elt F) spec2 c [cc2_scratch0]) ∗ (∃ r, prngReg c r))

-- Forgetting the scratch's contents gives back what the region handed over.
theorem inv_le (c : Dev nD) (x : Vec F S1024x256 .f32) : inv c x ⊢ Pipeline.ΦA spec2 c := by
  rw [PhiA_eq]; unfold inv
  iintro ⟨⟨HS, Hrest⟩, Hg⟩
  iframe Hrest Hg
  iexists _; iexact HS

def PhiS (c : Dev nD) : (n : ℕ) → n ≤ cfg2.N → sProp 𝕄
  | 0, _ => Pipeline.ΦA spec2 c
  | n + 1, hn => inv c (outsAt V c n hn).2

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = (outsAt V c t.val t.isLt).1 := by dsimp only [dat]

-- Before any point the invariant holds the scratch at some contents.
theorem Phi_le (c : Dev nD) (t : Fin (cfg2.N + 1)) : (dat V c).Φ t ⊢ Pipeline.ΦA spec2 c := by
  obtain ⟨n, hn⟩ := t
  cases n with
  | zero => exact .rfl
  | succ n => exact inv_le c _

-- After the first point the scratch holds what the point before left.
theorem Phi_pos (c : Dev nD) (t : Fin cfg2.N) (hz : t.val ≠ 0) : (dat V c).Φ t.castSucc = inv c (outsAt V c (t.val - 1) (Nat.lt_of_le_of_lt (Nat.sub_le _ _) t.isLt)).2 := by
  obtain ⟨n, hn⟩ := t
  cases n with
  | zero => exact absurd rfl hz
  | succ n => rfl

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves_in (c : Dev nD) (t : Fin cfg2.N) :
    (dat V c).leavesExact 0 t = owns (c : Thread nD τ) (ms_0 t) fullShare (iblk V c 0 t)
    ∧ (dat V c).leavesExact 1 t = owns (c : Thread nD τ) (ms_1 t) fullShare (iblk V c 1 t)
    ∧ (dat V c).leavesExact 2 t = owns (c : Thread nD τ) (ms_2 t) fullShare (iblk V c 2 t)
    ∧ (dat V c).leavesExact 3 t = owns (c : Thread nD τ) (ms_3 t) fullShare (iblk V c 3 t) :=
  ⟨by unfold Dat.leavesExact; rw [live_0 t, after_0], by unfold Dat.leavesExact; rw [live_1 t, after_1],
   by unfold Dat.leavesExact; rw [live_2 t, after_2], by unfold Dat.leavesExact; rw [live_3 t, after_3]⟩

set_option maxHeartbeats 4800000 in
-- Each case's run takes the inputs' blocks and the scratch and hands the scratch back with stores that tile it.
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0_of V (dat V c) (A_eq V c 0) (after_0 V c), before_1_of V (dat V c) (A_eq V c 1) (after_1 V c),
    before_2_of V (dat V c) (A_eq V c 2) (after_2 V c), before_3_of V (dat V c) (A_eq V c 3) (after_3 V c)]
  rw [show (dat V c).owesAt () t.succ = (dat V c).owesAt () t.castSucc from rfl,
    show (dat V c).Φ t.succ = inv c (outsAt V c t.val t.isLt).2 from rfl,
    (leaves_in V c t).1, (leaves_in V c t).2.1, (leaves_in V c t).2.2.1, (leaves_in V c t).2.2.2]
  by_cases h0 : t.val % 8 = 0
  · have hL := notLast_of_first t h0
    rw [Dat.leavesExact_idle (dat V c) 4 t (idle_4 t hL) (noFlush_4 t hL), outsAt_first V c t h0, stepAt, dif_pos h0]
    refine (sep_mono_left (Phi_le V c _)).trans ?_
    rw [PhiA_eq]
    unfold sFirst inv; (try dsimp only)
    iintro ⟨⟨⟨HS, Hrest⟩, Hg⟩, Ho, ⟨%d0, H0⟩, ⟨%d1, H1⟩, ⟨%d2, H2⟩, ⟨%d3, H3⟩, ⟨%d4, H4⟩⟩
    iapply ((runFirst c (grid2.coords t) _ _ _ _ _ _ _ _ _ _ _ _ ((hcondFirst t).mpr h0) hL (iblk V c 0 t) (iblk V c 1 t) (iblk V c 2 t) (iblk V c 3 t)).2 _ Set.univ _)
    iframe H0 H1 H2 H3 H4 HS
    iintro ⟨H0, H1, H2, H3, H4, HS⟩
    iframe Hrest Hg Ho H0 H1 H2 H3
    isplitl [HS]
    · iapply owns_canon (tFirst ..); iexact HS
    iexists _; iexact H4
  · have hF : ¬condFirst (grid2.coords t) := fun h => h0 ((hcondFirst t).mp h)
    rw [Phi_pos V c t fun e => h0 (by rw [e])]
    by_cases h1 : t.val % 8 = 7
    · have hL := (hcondLast t).mpr h1
      rw [show (dat V c).leavesExact 4 t = owns (c : Thread nD τ) (ms_4 t) fullShare ((dat V c).after 4 t) from by
        unfold Dat.leavesExact; rw [live_4 t hL], after_4, outsAt_next V c t h0, stepAt, dif_neg h0, dif_pos h1]
      unfold oLast sLast inv; (try dsimp only)
      iintro ⟨⟨⟨HS, Hrest⟩, Hg⟩, Ho, ⟨%d0, H0⟩, ⟨%d1, H1⟩, ⟨%d2, H2⟩, ⟨%d3, H3⟩, ⟨%d4, H4⟩⟩
      iapply ((runLast c (grid2.coords t) _ _ _ _ _ _ _ _ _ _ _ _ hF hL (iblk V c 0 t) (iblk V c 1 t) (iblk V c 2 t) (iblk V c 3 t) _).2.2 Set.univ _)
      iframe H0 H1 H2 H3 HS
      isplitl [H4]; · iexists _; iexact H4
      iintro ⟨H0, H1, H2, H3, H4, HS⟩
      iframe Hrest Hg Ho H0 H1 H2 H3
      isplitl [HS]
      · iapply owns_canon (tLast ..); iexact HS
      iapply owns_canon (tOut ..); iexact H4
    · have hL : ¬condLast (grid2.coords t) := fun h => h1 ((hcondLast t).mp h)
      rw [Dat.leavesExact_idle (dat V c) 4 t (idle_4 t hL) (noFlush_4 t hL), outsAt_next V c t h0, stepAt, dif_neg h0, dif_neg h1]
      unfold sMid inv; (try dsimp only)
      iintro ⟨⟨⟨HS, Hrest⟩, Hg⟩, Ho, ⟨%d0, H0⟩, ⟨%d1, H1⟩, ⟨%d2, H2⟩, ⟨%d3, H3⟩, ⟨%d4, H4⟩⟩
      iapply ((runMid c (grid2.coords t) _ _ _ _ _ _ _ _ _ _ _ _ hF hL (iblk V c 0 t) (iblk V c 1 t) (iblk V c 2 t) (iblk V c 3 t) _).2 _ Set.univ _)
      iframe H0 H1 H2 H3 H4 HS
      iintro ⟨H0, H1, H2, H3, H4, HS⟩
      iframe Hrest Hg Ho H0 H1 H2 H3
      isplitl [HS]
      · iapply owns_canon (tMid ..); iexact HS
      iexists _; iexact H4

theorem body_obligation (c : Dev nD) : BodyObligation (dat (F := F) V c) (defs₀ (F := F)) Variants.none () Set.univ := fun t => by
  rw [bigSep_W2, bigSep_W2]
  exact sound_body V c t

theorem hin (c : Dev nD) : Pipeline.ΦA spec2 c ⊢ (dat V c).Φ 0 := .rfl

theorem hout (c : Dev nD) : (dat V c).Φ (Fin.last cfg2.N) ⊢ Pipeline.ΦA spec2 c := Phi_le V c _

end Cert.Kernel.R2

end
-- ==== Proof.K.R3.Kit.lean ====
import proofs.«423092_j11149735100496_3_alg».proof.Proof.Gen.Kernel.Launch
import proofs.«423092_j11149735100496_3_alg».proof.Proof.Gen.Kernel.Skeleton
import proofs.«423092_j11149735100496_3_alg».proof.Proof.Gen.Kernel.Points
import proofs.«423092_j11149735100496_3_alg».proof.Proof.Whole
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.R3

open Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

section
variable {c : Dev nD} (dat : Dat τ (Elt F) Unit ℕ (UR sig nD τ) ℕ cfg3 c)

theorem before_0_of (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end

abbrev condFirst (i : grid3.Coords) : Prop := (Scalar.cmpi .ne (Scalar.extui (Scalar.cmpi .eq (BitVec.ofNat 32 (i 1).val) 0#32)) 0#32) = 1#1
theorem hcondFirst : ∀ t : Fin cfg3.N, condFirst (grid3.coords t) ↔ t.val % 8 = 0 := by decide +kernel

abbrev condLast (i : grid3.Coords) : Prop := k3_cond2 i = 1#1
theorem hcondLast : ∀ t : Fin cfg3.N, condLast (grid3.coords t) ↔ t.val % 8 = 7 := by decide +kernel

theorem live_0 : ∀ t : Fin cfg3.N, cfg3.idle 0 (grid3.coords t) = false := by decide +kernel
theorem live_1 : ∀ t : Fin cfg3.N, cfg3.idle 1 (grid3.coords t) = false := by decide +kernel
theorem live_2 : ∀ t : Fin cfg3.N, cfg3.idle 2 (grid3.coords t) = false := by decide +kernel
theorem live_3 : ∀ t : Fin cfg3.N, cfg3.idle 3 (grid3.coords t) = false := by decide +kernel

theorem idle_4 : ∀ t : Fin cfg3.N, ¬condLast (grid3.coords t) → cfg3.idle 4 (grid3.coords t) = true := by decide +kernel
theorem noFlush_4 : ∀ t : Fin cfg3.N, ¬condLast (grid3.coords t) → (cfg3.win 4).flush t = false := by decide +kernel

theorem live_4 : ∀ t : Fin cfg3.N, condLast (grid3.coords t) → cfg3.idle 4 (grid3.coords t) = false := by decide +kernel

abbrev ms_0 (t : Fin cfg3.N) : Memref sig .tc .vmem S1024x2048 .bf16 := win3_0.stage (cfg3.slots t 0)
abbrev hs_0 (t : Fin cfg3.N) : (ms_0 t).IsWhole := hstage3_0 ((cfg3.slots t 0).cast nbuf3_0)
abbrev ms_1 (t : Fin cfg3.N) : Memref sig .tc .vmem S1024x2048 .bf16 := win3_1.stage (cfg3.slots t 1)
abbrev hs_1 (t : Fin cfg3.N) : (ms_1 t).IsWhole := hstage3_1 ((cfg3.slots t 1).cast nbuf3_1)
abbrev ms_2 (t : Fin cfg3.N) : Memref sig .tc .vmem S8x256 .i32 := win3_2.stage (cfg3.slots t 2)
abbrev hs_2 (t : Fin cfg3.N) : (ms_2 t).IsWhole := hstage3_2 ((cfg3.slots t 2).cast nbuf3_2)
abbrev ms_3 (t : Fin cfg3.N) : Memref sig .tc .vmem S1x256 .i32 := win3_3.stage (cfg3.slots t 3)
abbrev hs_3 (t : Fin cfg3.N) : (ms_3 t).IsWhole := hstage3_3 ((cfg3.slots t 3).cast nbuf3_3)
abbrev ms_4 (t : Fin cfg3.N) : Memref sig .tc .vmem S1024x256 .f32 := win3_4.stage (cfg3.slots t 4)
abbrev hs_4 (t : Fin cfg3.N) : (ms_4 t).IsWhole := hstage3_4 ((cfg3.slots t 4).cast nbuf3_4)

abbrev scM : Memref sig .tc .vmem S1024x256 .f32 := Memref.whole cc3_scratch0

theorem PhiA_eq (c : Dev nD) :
    (Pipeline.ΦA spec3 c : sProp (MT nD τ sig Unit (Elt F) ℕ (UR sig nD τ) ℕ))
      = iprop(iprop(iprop((∃ d, owns (c : Thread nD τ) scM fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM, owns_whole]; try rfl

end Cert.Kernel.R3

end
-- ==== Proof.K.R3.RunFirst.lean ====
import proofs.«423092_j11149735100496_3_alg».proof.Proof.K.R3.Kit

namespace Cert.Kernel.R3

open Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

set_option maxHeartbeats 4000000 in
noncomputable def runFirst (c : Dev nD) (i : grid3.Coords) (arg2 : Memref sig .tc .vmem S1024x2048 .bf16) (harg2 : arg2.IsWhole) (arg3 : Memref sig .tc .vmem S1024x2048 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : condFirst i) (hc1 : ¬condLast i)
    (x0 : Vec F S1024x2048 .bf16) (x1 : Vec F S1024x2048 .bf16) (x2 : Vec F S8x256 .i32) (x3 : Vec F S1x256 .i32) :
    { LS : List (View.Piece (Elt F) S1024x256 .f32) //
      ∀ (x4 : Vec F S1024x256 .f32) (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ owns c arg6 fullShare x4 ∗ (∃ d, owns c arg7 fullShare d)
            ∗ (iprop(owns c arg2 fullShare x0 ∗ owns c arg3 fullShare x1 ∗ owns c arg4 fullShare x2 ∗ owns c arg5 fullShare x3 ∗ owns c arg6 fullShare x4
                ∗ (∃ f, arg7.view.loc c ↦[arg7.view.set]{fullShare} arg7.view.writes (Elt F) f LS)) -∗ K ⟨⟩))
          ⊢ wp frame (wpE (defs₀ (F := F)) Variants.none c none) E (cc3__layer_kernel i arg2 harg2 arg3 harg3 arg4 harg4 arg5 harg5 arg6 harg6 arg7 harg7) K } := by
  refine ⟨?_, fun x4 E K => ?run⟩
  case run =>
    simp only [cc3__layer_kernel_eq_skeleton]; unfold cc3__layer_kernel_skel
    simp only [k3_part1_eq_skeleton, k3_part2_eq_skeleton, k3_part3_eq_skeleton, k3_part4_eq_skeleton]
    unfold k3_part1_skel k3_part2_skel k3_part3_skel k3_part4_skel
    simp only [harg2.owns_eq, harg3.owns_eq, harg4.owns_eq, harg5.owns_eq, harg6.owns_eq, harg7.owns_eq]
    iintro ⟨H0, H1, H2, H3, H4, ⟨%d, HS⟩, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    iexists _; iexact HS

end Cert.Kernel.R3
-- ==== Proof.K.R3.RunMid.lean ====
import proofs.«423092_j11149735100496_3_alg».proof.Proof.K.R3.Kit

namespace Cert.Kernel.R3

open Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

set_option maxHeartbeats 4000000 in
noncomputable def runMid (c : Dev nD) (i : grid3.Coords) (arg2 : Memref sig .tc .vmem S1024x2048 .bf16) (harg2 : arg2.IsWhole) (arg3 : Memref sig .tc .vmem S1024x2048 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : ¬condFirst i) (hc1 : ¬condLast i)
    (x0 : Vec F S1024x2048 .bf16) (x1 : Vec F S1024x2048 .bf16) (x2 : Vec F S8x256 .i32) (x3 : Vec F S1x256 .i32) (xs : Vec F S1024x256 .f32) :
    { LS : List (View.Piece (Elt F) S1024x256 .f32) //
      ∀ (x4 : Vec F S1024x256 .f32) (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ owns c arg6 fullShare x4 ∗ owns c arg7 fullShare xs
            ∗ (iprop(owns c arg2 fullShare x0 ∗ owns c arg3 fullShare x1 ∗ owns c arg4 fullShare x2 ∗ owns c arg5 fullShare x3 ∗ owns c arg6 fullShare x4
                ∗ (∃ f, arg7.view.loc c ↦[arg7.view.set]{fullShare} arg7.view.writes (Elt F) f LS)) -∗ K ⟨⟩))
          ⊢ wp frame (wpE (defs₀ (F := F)) Variants.none c none) E (cc3__layer_kernel i arg2 harg2 arg3 harg3 arg4 harg4 arg5 harg5 arg6 harg6 arg7 harg7) K } := by
  refine ⟨?_, fun x4 E K => ?run⟩
  case run =>
    simp only [cc3__layer_kernel_eq_skeleton]; unfold cc3__layer_kernel_skel
    simp only [k3_part1_eq_skeleton, k3_part2_eq_skeleton, k3_part3_eq_skeleton, k3_part4_eq_skeleton]
    unfold k3_part1_skel k3_part2_skel k3_part3_skel k3_part4_skel
    simp only [harg2.owns_eq, harg3.owns_eq, harg4.owns_eq, harg5.owns_eq, harg6.owns_eq, harg7.owns_eq]
    iintro ⟨H0, H1, H2, H3, H4, HS, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    iexists _; iexact HS

end Cert.Kernel.R3
-- ==== Proof.K.R3.RunLast.lean ====
import proofs.«423092_j11149735100496_3_alg».proof.Proof.K.R3.Kit

namespace Cert.Kernel.R3

open Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

set_option maxHeartbeats 4000000 in
noncomputable def runLast (c : Dev nD) (i : grid3.Coords) (arg2 : Memref sig .tc .vmem S1024x2048 .bf16) (harg2 : arg2.IsWhole) (arg3 : Memref sig .tc .vmem S1024x2048 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : ¬condFirst i) (hc1 : condLast i)
    (x0 : Vec F S1024x2048 .bf16) (x1 : Vec F S1024x2048 .bf16) (x2 : Vec F S8x256 .i32) (x3 : Vec F S1x256 .i32) (xs : Vec F S1024x256 .f32) :
    Σ' (L4 : List (View.Piece (Elt F) S1024x256 .f32)), { LS : List (View.Piece (Elt F) S1024x256 .f32) //
      ∀ (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ (∃ d, owns c arg6 fullShare d) ∗ owns c arg7 fullShare xs
            ∗ (iprop(owns c arg2 fullShare x0 ∗ owns c arg3 fullShare x1 ∗ owns c arg4 fullShare x2 ∗ owns c arg5 fullShare x3
                ∗ (∃ f, arg6.view.loc c ↦[arg6.view.set]{fullShare} arg6.view.writes (Elt F) f L4)
                ∗ (∃ f, arg7.view.loc c ↦[arg7.view.set]{fullShare} arg7.view.writes (Elt F) f LS)) -∗ K ⟨⟩))
          ⊢ wp frame (wpE (defs₀ (F := F)) Variants.none c none) E (cc3__layer_kernel i arg2 harg2 arg3 harg3 arg4 harg4 arg5 harg5 arg6 harg6 arg7 harg7) K } := by
  refine ⟨?_, ?_, fun E K => ?run⟩
  case run =>
    simp only [cc3__layer_kernel_eq_skeleton]; unfold cc3__layer_kernel_skel
    simp only [k3_part1_eq_skeleton, k3_part2_eq_skeleton, k3_part3_eq_skeleton, k3_part4_eq_skeleton]
    unfold k3_part1_skel k3_part2_skel k3_part3_skel k3_part4_skel
    simp only [harg2.owns_eq, harg3.owns_eq, harg4.owns_eq, harg5.owns_eq, harg6.owns_eq, harg7.owns_eq]
    iintro ⟨H0, H1, H2, H3, ⟨%d, H4⟩, HS, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexists _; iexact H4
    iexists _; iexact HS

end Cert.Kernel.R3
-- ==== Proof.K.R3.Dat.lean ====
import proofs.«423092_j11149735100496_3_alg».proof.Proof.K.R3.RunFirst
import proofs.«423092_j11149735100496_3_alg».proof.Proof.K.R3.RunMid
import proofs.«423092_j11149735100496_3_alg».proof.Proof.K.R3.RunLast

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid3.Coords) (arg2 : Memref sig .tc .vmem S1024x2048 .bf16) (harg2 : arg2.IsWhole) (arg3 : Memref sig .tc .vmem S1024x2048 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole)
  (hF : condFirst i) (hnF : ¬condFirst i) (hL : condLast i) (hnL : ¬condLast i)
  (x0 : Vec F S1024x2048 .bf16) (x1 : Vec F S1024x2048 .bf16) (x2 : Vec F S8x256 .i32) (x3 : Vec F S1x256 .i32) (xs : Vec F S1024x256 .f32)

def sFirst : Vec F S1024x256 .f32 := View.canon (runFirst c i arg2 harg2 arg3 harg3 arg4 harg4 arg5 harg5 arg6 harg6 arg7 harg7 hF hnL x0 x1 x2 x3).1
def sMid : Vec F S1024x256 .f32 := View.canon (runMid c i arg2 harg2 arg3 harg3 arg4 harg4 arg5 harg5 arg6 harg6 arg7 harg7 hnF hnL x0 x1 x2 x3 xs).1
def oLast : Vec F S1024x256 .f32 := View.canon (runLast c i arg2 harg2 arg3 harg3 arg4 harg4 arg5 harg5 arg6 harg6 arg7 harg7 hnF hL x0 x1 x2 x3 xs).1
def sLast : Vec F S1024x256 .f32 := View.canon (runLast c i arg2 harg2 arg3 harg3 arg4 harg4 arg5 harg5 arg6 harg6 arg7 harg7 hnF hL x0 x1 x2 x3 xs).2.1

theorem tFirst : View.Piece.tiledL (runFirst c i arg2 harg2 arg3 harg3 arg4 harg4 arg5 harg5 arg6 harg6 arg7 harg7 hF hnL x0 x1 x2 x3).1 S1024x256.size = true := by sl_kernel_rfl
theorem tMid : View.Piece.tiledL (runMid c i arg2 harg2 arg3 harg3 arg4 harg4 arg5 harg5 arg6 harg6 arg7 harg7 hnF hnL x0 x1 x2 x3 xs).1 S1024x256.size = true := by sl_kernel_rfl
theorem tOut : View.Piece.tiledL (runLast c i arg2 harg2 arg3 harg3 arg4 harg4 arg5 harg5 arg6 harg6 arg7 harg7 hnF hL x0 x1 x2 x3 xs).1 S1024x256.size = true := by sl_kernel_rfl
theorem tLast : View.Piece.tiledL (runLast c i arg2 harg2 arg3 harg3 arg4 harg4 arg5 harg5 arg6 harg6 arg7 harg7 hnF hL x0 x1 x2 x3 xs).2.1 S1024x256.size = true := by sl_kernel_rfl
end

-- Stores that tile a buffer leave it at their canon, whatever it held: every index is covered.
theorem owns_canon {c : Dev nD} {M : Memref sig .tc .vmem S1024x256 .f32} {L : List (View.Piece (Elt F) S1024x256 .f32)}
    (hL : View.Piece.tiledL L S1024x256.size = true) :
    (iprop(∃ f, M.view.loc (c : Thread nD τ) ↦[M.view.set]{fullShare} M.view.writes (Elt F) f L) : sProp 𝕄) ⊢ owns (c : Thread nD τ) M fullShare (View.canon L) := by
  iintro ⟨%f, H⟩; unfold owns; iexists M.view.writes (Elt F) f L; isplitr
  · ipureintro; exact View.read_writes_eq_canon _ _ _ (View.cover_of_tiledL L _ hL)
  · iexact H

theorem notLast_of_first (t : Fin cfg3.N) (h0 : t.val % 8 = 0) : ¬condLast (grid3.coords t) :=
  fun h => by have := (hcondLast t).mp h; omega

-- What point t leaves in the output block's buffer and in the scratch, given what the point before left in the scratch.
def stepAt (c : Dev nD) (t : Fin cfg3.N) (xs : Vec F S1024x256 .f32) : Vec F S1024x256 .f32 × Vec F S1024x256 .f32 :=
  if h0 : t.val % 8 = 0 then
    (View.canon [], sFirst c (grid3.coords t) (ms_0 t) (hs_0 t) (ms_1 t) (hs_1 t) (ms_2 t) (hs_2 t) (ms_3 t) (hs_3 t) (ms_4 t) (hs_4 t) scM (Memref.isWhole_whole _) ((hcondFirst t).mpr h0) (notLast_of_first t h0) (iblk V c 0 t) (iblk V c 1 t) (iblk V c 2 t) (iblk V c 3 t))
  else if h1 : t.val % 8 = 7 then
    (oLast c (grid3.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (iblk V c 3 t) xs,
      sLast c (grid3.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (iblk V c 3 t) xs)
  else
    (View.canon [], sMid c (grid3.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h1 ((hcondLast t).mp h)) (iblk V c 0 t) (iblk V c 1 t) (iblk V c 2 t) (iblk V c 3 t) xs)

def outsAt (c : Dev nD) : (n : ℕ) → n < cfg3.N → Vec F S1024x256 .f32 × Vec F S1024x256 .f32
  | 0, hn => stepAt V c ⟨0, hn⟩ (View.canon [])
  | n + 1, hn => stepAt V c ⟨n + 1, hn⟩ (outsAt c n (Nat.lt_of_succ_lt hn)).2

-- A block's first point does not read the scratch; every other point steps from what the point before left.
theorem outsAt_first (c : Dev nD) (t : Fin cfg3.N) (h0 : t.val % 8 = 0) :
    outsAt V c t.val t.isLt = stepAt V c t (View.canon []) := by
  obtain ⟨n, hn⟩ := t
  cases n with
  | zero => rfl
  | succ n => exact (dif_pos h0).trans (dif_pos h0 : stepAt V c ⟨n + 1, hn⟩ (View.canon []) = _).symm

theorem outsAt_next (c : Dev nD) (t : Fin cfg3.N) (h0 : ¬t.val % 8 = 0) :
    outsAt V c t.val t.isLt = stepAt V c t (outsAt V c (t.val - 1) (Nat.lt_of_le_of_lt (Nat.sub_le _ _) t.isLt)).2 := by
  obtain ⟨n, hn⟩ := t
  cases n with
  | zero => exact absurd (Nat.zero_mod _) h0
  | succ n => rfl

-- The invariant with the scratch holding x.
def inv (c : Dev nD) (x : Vec F S1024x256 .f32) : sProp 𝕄 :=
  iprop(iprop(owns (c : Thread nD τ) scM fullShare x ∗ Pipeline.scopedRestBut (Ix := Unit) (Name := ℕ) (U := UR sig nD τ) (Lvl := ℕ) (Val := Elt F) spec3 c [cc3_scratch0]) ∗ (∃ r, prngReg c r))

-- Forgetting the scratch's contents gives back what the region handed over.
theorem inv_le (c : Dev nD) (x : Vec F S1024x256 .f32) : inv c x ⊢ Pipeline.ΦA spec3 c := by
  rw [PhiA_eq]; unfold inv
  iintro ⟨⟨HS, Hrest⟩, Hg⟩
  iframe Hrest Hg
  iexists _; iexact HS

def PhiS (c : Dev nD) : (n : ℕ) → n ≤ cfg3.N → sProp 𝕄
  | 0, _ => Pipeline.ΦA spec3 c
  | n + 1, hn => inv c (outsAt V c n hn).2

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = (outsAt V c t.val t.isLt).1 := by dsimp only [dat]

-- Before any point the invariant holds the scratch at some contents.
theorem Phi_le (c : Dev nD) (t : Fin (cfg3.N + 1)) : (dat V c).Φ t ⊢ Pipeline.ΦA spec3 c := by
  obtain ⟨n, hn⟩ := t
  cases n with
  | zero => exact .rfl
  | succ n => exact inv_le c _

-- After the first point the scratch holds what the point before left.
theorem Phi_pos (c : Dev nD) (t : Fin cfg3.N) (hz : t.val ≠ 0) : (dat V c).Φ t.castSucc = inv c (outsAt V c (t.val - 1) (Nat.lt_of_le_of_lt (Nat.sub_le _ _) t.isLt)).2 := by
  obtain ⟨n, hn⟩ := t
  cases n with
  | zero => exact absurd rfl hz
  | succ n => rfl

def bodyPre (c : Dev nD) (t : Fin cfg3.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves_in (c : Dev nD) (t : Fin cfg3.N) :
    (dat V c).leavesExact 0 t = owns (c : Thread nD τ) (ms_0 t) fullShare (iblk V c 0 t)
    ∧ (dat V c).leavesExact 1 t = owns (c : Thread nD τ) (ms_1 t) fullShare (iblk V c 1 t)
    ∧ (dat V c).leavesExact 2 t = owns (c : Thread nD τ) (ms_2 t) fullShare (iblk V c 2 t)
    ∧ (dat V c).leavesExact 3 t = owns (c : Thread nD τ) (ms_3 t) fullShare (iblk V c 3 t) :=
  ⟨by unfold Dat.leavesExact; rw [live_0 t, after_0], by unfold Dat.leavesExact; rw [live_1 t, after_1],
   by unfold Dat.leavesExact; rw [live_2 t, after_2], by unfold Dat.leavesExact; rw [live_3 t, after_3]⟩

set_option maxHeartbeats 4800000 in
-- Each case's run takes the inputs' blocks and the scratch and hands the scratch back with stores that tile it.
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0_of V (dat V c) (A_eq V c 0) (after_0 V c), before_1_of V (dat V c) (A_eq V c 1) (after_1 V c),
    before_2_of V (dat V c) (A_eq V c 2) (after_2 V c), before_3_of V (dat V c) (A_eq V c 3) (after_3 V c)]
  rw [show (dat V c).owesAt () t.succ = (dat V c).owesAt () t.castSucc from rfl,
    show (dat V c).Φ t.succ = inv c (outsAt V c t.val t.isLt).2 from rfl,
    (leaves_in V c t).1, (leaves_in V c t).2.1, (leaves_in V c t).2.2.1, (leaves_in V c t).2.2.2]
  by_cases h0 : t.val % 8 = 0
  · have hL := notLast_of_first t h0
    rw [Dat.leavesExact_idle (dat V c) 4 t (idle_4 t hL) (noFlush_4 t hL), outsAt_first V c t h0, stepAt, dif_pos h0]
    refine (sep_mono_left (Phi_le V c _)).trans ?_
    rw [PhiA_eq]
    unfold sFirst inv; (try dsimp only)
    iintro ⟨⟨⟨HS, Hrest⟩, Hg⟩, Ho, ⟨%d0, H0⟩, ⟨%d1, H1⟩, ⟨%d2, H2⟩, ⟨%d3, H3⟩, ⟨%d4, H4⟩⟩
    iapply ((runFirst c (grid3.coords t) _ _ _ _ _ _ _ _ _ _ _ _ ((hcondFirst t).mpr h0) hL (iblk V c 0 t) (iblk V c 1 t) (iblk V c 2 t) (iblk V c 3 t)).2 _ Set.univ _)
    iframe H0 H1 H2 H3 H4 HS
    iintro ⟨H0, H1, H2, H3, H4, HS⟩
    iframe Hrest Hg Ho H0 H1 H2 H3
    isplitl [HS]
    · iapply owns_canon (tFirst ..); iexact HS
    iexists _; iexact H4
  · have hF : ¬condFirst (grid3.coords t) := fun h => h0 ((hcondFirst t).mp h)
    rw [Phi_pos V c t fun e => h0 (by rw [e])]
    by_cases h1 : t.val % 8 = 7
    · have hL := (hcondLast t).mpr h1
      rw [show (dat V c).leavesExact 4 t = owns (c : Thread nD τ) (ms_4 t) fullShare ((dat V c).after 4 t) from by
        unfold Dat.leavesExact; rw [live_4 t hL], after_4, outsAt_next V c t h0, stepAt, dif_neg h0, dif_pos h1]
      unfold oLast sLast inv; (try dsimp only)
      iintro ⟨⟨⟨HS, Hrest⟩, Hg⟩, Ho, ⟨%d0, H0⟩, ⟨%d1, H1⟩, ⟨%d2, H2⟩, ⟨%d3, H3⟩, ⟨%d4, H4⟩⟩
      iapply ((runLast c (grid3.coords t) _ _ _ _ _ _ _ _ _ _ _ _ hF hL (iblk V c 0 t) (iblk V c 1 t) (iblk V c 2 t) (iblk V c 3 t) _).2.2 Set.univ _)
      iframe H0 H1 H2 H3 HS
      isplitl [H4]; · iexists _; iexact H4
      iintro ⟨H0, H1, H2, H3, H4, HS⟩
      iframe Hrest Hg Ho H0 H1 H2 H3
      isplitl [HS]
      · iapply owns_canon (tLast ..); iexact HS
      iapply owns_canon (tOut ..); iexact H4
    · have hL : ¬condLast (grid3.coords t) := fun h => h1 ((hcondLast t).mp h)
      rw [Dat.leavesExact_idle (dat V c) 4 t (idle_4 t hL) (noFlush_4 t hL), outsAt_next V c t h0, stepAt, dif_neg h0, dif_neg h1]
      unfold sMid inv; (try dsimp only)
      iintro ⟨⟨⟨HS, Hrest⟩, Hg⟩, Ho, ⟨%d0, H0⟩, ⟨%d1, H1⟩, ⟨%d2, H2⟩, ⟨%d3, H3⟩, ⟨%d4, H4⟩⟩
      iapply ((runMid c (grid3.coords t) _ _ _ _ _ _ _ _ _ _ _ _ hF hL (iblk V c 0 t) (iblk V c 1 t) (iblk V c 2 t) (iblk V c 3 t) _).2 _ Set.univ _)
      iframe H0 H1 H2 H3 H4 HS
      iintro ⟨H0, H1, H2, H3, H4, HS⟩
      iframe Hrest Hg Ho H0 H1 H2 H3
      isplitl [HS]
      · iapply owns_canon (tMid ..); iexact HS
      iexists _; iexact H4

theorem body_obligation (c : Dev nD) : BodyObligation (dat (F := F) V c) (defs₀ (F := F)) Variants.none () Set.univ := fun t => by
  rw [bigSep_W3, bigSep_W3]
  exact sound_body V c t

theorem hin (c : Dev nD) : Pipeline.ΦA spec3 c ⊢ (dat V c).Φ 0 := .rfl

theorem hout (c : Dev nD) : (dat V c).Φ (Fin.last cfg3.N) ⊢ Pipeline.ΦA spec3 c := Phi_le V c _

end Cert.Kernel.R3

end
-- ==== Proof.K.Family.lean ====
import proofs.«423092_j11149735100496_3_alg».proof.Proof.Gen.Kernel.Launch
import proofs.«423092_j11149735100496_3_alg».proof.Proof.Gen.Kernel.Skeleton
import proofs.«423092_j11149735100496_3_alg».proof.Proof.Gen.Kernel.Points
import proofs.«423092_j11149735100496_3_alg».proof.Proof.K.R0.Dat
import proofs.«423092_j11149735100496_3_alg».proof.Proof.K.R1.Dat
import proofs.«423092_j11149735100496_3_alg».proof.Proof.K.R2.Dat
import proofs.«423092_j11149735100496_3_alg».proof.Proof.K.R3.Dat
import proofs.«423092_j11149735100496_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fam

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

def W1 (c : Dev nD) : Valuation τ sig (Elt F) := V1 m c
def o2 (c : Dev nD) : Buf (Elt F) ((c : Thread nD τ).loc main_v6) := (R0.dat (rd (W1 m)) c).arrAt 4 cfg0.N
def W2 (c : Dev nD) : Valuation τ sig (Elt F) := Function.update (W1 m c) main_v6 (o2 m c)
def W3 (c : Dev nD) : Valuation τ sig (Elt F) := StableHlo.after hostOps1 (W2 m c)
def o4 (c : Dev nD) : Buf (Elt F) ((c : Thread nD τ).loc main_v13) := (R1.dat (rd (W3 m)) c).arrAt 4 cfg1.N
def W4 (c : Dev nD) : Valuation τ sig (Elt F) := Function.update (W3 m c) main_v13 (o4 m c)
def W5 (c : Dev nD) : Valuation τ sig (Elt F) := StableHlo.after hostOps2 (W4 m c)
def o6 (c : Dev nD) : Buf (Elt F) ((c : Thread nD τ).loc main_v20) := (R2.dat (rd (W5 m)) c).arrAt 4 cfg2.N
def W6 (c : Dev nD) : Valuation τ sig (Elt F) := Function.update (W5 m c) main_v20 (o6 m c)
def W7 (c : Dev nD) : Valuation τ sig (Elt F) := StableHlo.after hostOps3 (W6 m c)
def o8 (c : Dev nD) : Buf (Elt F) ((c : Thread nD τ).loc main_v27) := (R3.dat (rd (W7 m)) c).arrAt 4 cfg3.N
def W8 (c : Dev nD) : Valuation τ sig (Elt F) := Function.update (W7 m c) main_v27 (o8 m c)

def outs : Outs (F := F) := fun _ r c =>
  if h : r = main_v6 then h ▸ o2 m c
  else if h : r = main_v13 then h ▸ o4 m c
  else if h : r = main_v20 then h ▸ o6 m c
  else if h : r = main_v27 then h ▸ o8 m c
  else fun _ => Classical.arbitrary _

theorem outs_v6 (J : ℕ) (c : Dev nD) : outs m J main_v6 c = o2 m c := by
  unfold outs; rw [dif_pos rfl]
theorem outs_v13 (J : ℕ) (c : Dev nD) : outs m J main_v13 c = o4 m c := by
  unfold outs; rw [dif_neg (by decide), dif_pos rfl]
theorem outs_v20 (J : ℕ) (c : Dev nD) : outs m J main_v20 c = o6 m c := by
  unfold outs; rw [dif_neg (by decide), dif_neg (by decide), dif_pos rfl]
theorem outs_v27 (J : ℕ) (c : Dev nD) : outs m J main_v27 c = o8 m c := by
  unfold outs; rw [dif_neg (by decide), dif_neg (by decide), dif_neg (by decide), dif_pos rfl]

theorem V1_eq (c : Dev nD) : V1 m c = W1 m c := rfl
theorem V2_eq (c : Dev nD) : V2 m (outs m) c = W2 m c := by
  show Function.update (V1 m c) _ (outs m 2 main_v6 c) = _; rw [outs_v6]; rfl
theorem V3_eq (c : Dev nD) : V3 m (outs m) c = W3 m c := by
  show StableHlo.after hostOps1 (V2 m (outs m) c) = _; rw [V2_eq]; rfl
theorem V4_eq (c : Dev nD) : V4 m (outs m) c = W4 m c := by
  show Function.update (V3 m (outs m) c) _ (outs m 4 main_v13 c) = _; rw [outs_v13, V3_eq]; rfl
theorem V5_eq (c : Dev nD) : V5 m (outs m) c = W5 m c := by
  show StableHlo.after hostOps2 (V4 m (outs m) c) = _; rw [V4_eq]; rfl
theorem V6_eq (c : Dev nD) : V6 m (outs m) c = W6 m c := by
  show Function.update (V5 m (outs m) c) _ (outs m 6 main_v20 c) = _; rw [outs_v20, V5_eq]; rfl
theorem V7_eq (c : Dev nD) : V7 m (outs m) c = W7 m c := by
  show StableHlo.after hostOps3 (V6 m (outs m) c) = _; rw [V6_eq]; rfl
theorem V8_eq (c : Dev nD) : V8 m (outs m) c = W8 m c := by
  show Function.update (V7 m (outs m) c) _ (outs m 8 main_v27 c) = _; rw [outs_v27, V7_eq]; rfl

def pdats : (p : Fin 4) → (c : Dev nD) → Dat τ (Elt F) Unit ℕ (UR sig nD τ) ℕ (cfgs p) c
  | ⟨0, _⟩ => fun c => R0.dat (rd (W1 m)) c
  | ⟨1, _⟩ => fun c => R1.dat (rd (W3 m)) c
  | ⟨2, _⟩ => fun c => R2.dat (rd (W5 m)) c
  | ⟨3, _⟩ => fun c => R3.dat (rd (W7 m)) c

end Cert.Kernel.Fam

end
-- ==== Proof.K.Launch.lean ====
import proofs.«423092_j11149735100496_3_alg».proof.Proof.Gen.Kernel.Regions
import Idealize.ShloMosaic.Lib.Pipeline.Kit

noncomputable section

namespace Cert.Kernel.Launch

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Lz : GSem nD τ sig → Finset Unit := fun _ => ∅
abbrev lvz : GSem nD τ sig → Unit → ℕ := fun _ _ => 0
abbrev Rst (c : Dev nD) : sProp (MT nD τ sig Unit (Elt F) ℕ (UR sig nD τ) ℕ) :=
  iprop((∃ r, prngReg c r) ∗ ∃ W, owes (c : Thread nD τ) (0 : CellTallies nD τ sig Unit) W)

/-- All buffers held at the valuation `V`, beside `E`. -/
abbrev St {Ix : Type} [DecidableEq Ix] {U : Type} [URA U] {Lvl : Type} (c : Dev nD) (V : Valuation τ sig (Elt F))
    (E : sProp (MT nD τ sig Ix (Elt F) ℕ U Lvl)) : sProp (MT nD τ sig Ix (Elt F) ℕ U Lvl) :=
  iprop(StableHlo.held (c : Thread nD τ) (Pipeline.ucRefs τ sig) V ∗ E)

variable (m : (ℓ : Loc nD τ sig) → Buf (Elt F) ℓ)

/-- What a final memory holds: both result arrays as the last valuation has them, every argument array as launched. -/
abbrev post9 (outs : Outs (F := F)) (c : Dev nD) (s : MemSt nD τ sig (Elt F)) : Prop :=
  s.mem ((c.tc : Thread nD τ).loc main_v27) = V9 m outs c main_v27
  ∧ s.mem ((c.tc : Thread nD τ).loc main_v28) = V9 m outs c main_v28
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, St c (V1 m c) (E 0 c) ⊢ R0.pre c)
    (hpost0 : ∀ c : Dev nD, R0.post c ⊢ St c (V2 m outs c) (E 1 c))
    (R1 : RegionSeg (pcfgs (F := F)) adm pdats ι defs₀ 𝒱₀ L lv 1)
    (hpre1 : ∀ c : Dev nD, St c (V3 m outs c) (E 1 c) ⊢ R1.pre c)
    (hpost1 : ∀ c : Dev nD, R1.post c ⊢ St c (V4 m outs c) (E 2 c))
    (R2 : RegionSeg (pcfgs (F := F)) adm pdats ι defs₀ 𝒱₀ L lv 2)
    (hpre2 : ∀ c : Dev nD, St c (V5 m outs c) (E 2 c) ⊢ R2.pre c)
    (hpost2 : ∀ c : Dev nD, R2.post c ⊢ St c (V6 m outs c) (E 3 c))
    (R3 : RegionSeg (pcfgs (F := F)) adm pdats ι defs₀ 𝒱₀ L lv 3)
    (hpre3 : ∀ c : Dev nD, St c (V7 m outs c) (E 3 c) ⊢ R3.pre c)
    (hpost3 : ∀ c : Dev nD, R3.post c ⊢ St c (V8 m outs c) (E 4 c)) :
    θ_run defs (onTc (τ := τ) (main (F := F))) ⟨m, fun _ => 0, ρ⟩ (fun r => ∀ c : Dev nD, post9 m outs c r.2) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => St c (V0 m c) (E 0 c))
    (Tₙ := fun c => StableHlo.held (c : Thread nD τ) (Pipeline.ucRefs τ sig) (V9 m outs c))
    (hch := fun c => ⟨.rfl, hpre0 c, hpost0 c, hpre1 c, hpost1 c, hpre2 c, hpost2 c, hpre3 c, hpost3 c, sep_mono .rfl (hE4 c)⟩)
    (hinit := ?_) (QY := post9 m outs)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      have hr := fun (b : Ref sig .tc) hb => h (Proc.devRef .tc b) (Finset.mem_filter.mpr ⟨StableHlo.devRef_mem_tcRefs b, hb⟩)
      exact ⟨hr main_v27 (by decide), hr main_v28 (by decide),
        (hr main_arg0 (by decide)).trans (V9_main_arg0 m outs c),
        (hr main_arg1 (by decide)).trans (V9_main_arg1 m outs c),
        (hr main_arg2 (by decide)).trans (V9_main_arg2 m outs c),
        (hr main_arg3 (by decide)).trans (V9_main_arg3 m outs c),
        (hr main_arg4 (by decide)).trans (V9_main_arg4 m outs c),
        (hr main_arg5 (by decide)).trans (V9_main_arg5 m outs c),
        (hr main_arg6 (by decide)).trans (V9_main_arg6 m outs c),
        (hr main_arg7 (by decide)).trans (V9_main_arg7 m outs c),
        (hr main_arg8 (by decide)).trans (V9_main_arg8 m outs c)⟩
    · iexact HSI

theorem run_of_regions (ρ : Dev nD → PrngReg) (outs : Outs (F := F))
    (pdats : (p : Fin 4) → (c : Dev nD) → Dat τ (Elt F) Unit ℕ (UR sig nD τ) ℕ (cfgs p) c)
    (R0 : RegionSeg (pcfgs (F := F)) adm pdats () defs₀ Variants.none Lz lvz 0)
    (hpre0 : ∀ c : Dev nD, St c (V1 m c) (Rst (F := F) c) ⊢ R0.pre c)
    (hpost0 : ∀ c : Dev nD, R0.post c ⊢ St c (V2 m outs c) (Rst (F := F) c))
    (R1 : RegionSeg (pcfgs (F := F)) adm pdats () defs₀ Variants.none Lz lvz 1)
    (hpre1 : ∀ c : Dev nD, St c (V3 m outs c) (Rst (F := F) c) ⊢ R1.pre c)
    (hpost1 : ∀ c : Dev nD, R1.post c ⊢ St c (V4 m outs c) (Rst (F := F) c))
    (R2 : RegionSeg (pcfgs (F := F)) adm pdats () defs₀ Variants.none Lz lvz 2)
    (hpre2 : ∀ c : Dev nD, St c (V5 m outs c) (Rst (F := F) c) ⊢ R2.pre c)
    (hpost2 : ∀ c : Dev nD, R2.post c ⊢ St c (V6 m outs c) (Rst (F := F) c))
    (R3 : RegionSeg (pcfgs (F := F)) adm pdats () defs₀ Variants.none Lz lvz 3)
    (hpre3 : ∀ c : Dev nD, St c (V7 m outs c) (Rst (F := F) c) ⊢ R3.pre c)
    (hpost3 : ∀ c : Dev nD, R3.post c ⊢ St c (V8 m outs c) (Rst (F := F) c)) :
    θ_run defs (onTc (τ := τ) (main (F := F))) ⟨m, fun _ => 0, ρ⟩ (fun r => ∀ c : Dev nD, post9 m outs c r.2) :=
  run_cond m (Ix := Unit) (U := UR sig nD τ) (Lvl := ℕ) emb₁ () Variants.none Lz lvz (fun _ _ => rfl) ρ outs pdats
    (0 : Dev nD → CellTallies nD τ sig Unit) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (fun _ => Rst (F := F))
    (by
      refine Pipeline.initEach Lz lvz fun c => ?_
      iintro ⟨⟨-, HO, -, Hp, -⟩, -⟩
      imodintro
      isplitl [Hp]; · iexists _; iexact Hp
      iexists ∅; iexact HO)
    (fun c => by iintro ⟨-, HO⟩; iexact HO)
    R0 hpre0 hpost0 R1 hpre1 hpost1 R2 hpre2 hpost2 R3 hpre3 hpost3

end Cert.Kernel.Launch

end
-- ==== Proof.K.RegOf.lean ====
import proofs.«423092_j11149735100496_3_alg».proof.Proof.K.Launch
import Idealize.ShloMosaic.Lib.Pipeline.RegionsLoop

noncomputable section

namespace Cert.Kernel.Launch

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

set_option backward.isDefEq.respectTransparency.types false in
/-- A region's record from its proof data: entered at the valuation `Vi`, left at `Vo`, which is `Vi` off the array of the one output window `wo`. -/
def regOf (pdats : (p : Fin 4) → (c : Dev nD) → Dat τ (Elt F) Unit ℕ (UR sig nD τ) ℕ (cfgs p) c)
    (p : Fin 4) (lf : Pipeline.LaunchFacts (nD := nD) (τ := τ) cfgs p)
    (Vi Vo : Dev nD → Valuation τ sig (Elt F)) (v : Ref sig .tc) (wo : Fin (cfgs p).W)
    (hv : Pipeline.arrRef (cfgs p).spec wo = v)
    (hwin : ∀ w, w ≠ wo → ((cfgs p).win w).isOut = false ∧ Pipeline.arrRef (cfgs p).spec w ≠ v)
    (hVo : ∀ c (b : Ref sig .tc), b ≠ v → Vo c b = Vi c b)
    (hwo : ∀ c, (pdats p c).arrAt wo (cfgs p).N = Vo c (Pipeline.arrRef (cfgs p).spec wo))
    (hq : ∀ c w, (pdats p c).q w = fullShare)
    (hA : ∀ c w, (pdats p c).A w = Vi c (Pipeline.arrRef (cfgs p).spec w))
    (howed : ∀ c t, (pdats p c).owed t = 0) (hrec : ∀ c x, x ∈ (pdats p c).recorded 0)
    (hbody : ∀ c, BodyObligation (pdats p c) defs₀ Variants.none () Set.univ)
    (hin : ∀ c, Pipeline.ΦA (cfgs p).spec c ⊢ (pdats p c).Φ 0)
    (hout : ∀ c, (pdats p c).Φ (Fin.last (cfgs p).N) ⊢ Pipeline.ΦA (cfgs p).spec c) :
    Pipeline.RegionSeg (pcfgs (F := F)) adm pdats () defs₀ Variants.none Lz lvz p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ Lz lvz p howed
  pre c := St c (Vi c) (Rst c)
  post c := St c (Vo c) (Rst c)
  X c := iprop(∃ r, prngReg c r)
  Y c := iprop(∃ r, prngReg c r)
  Z c := Pipeline.unscopedRest (Ix := Unit) (Name := ℕ) (U := UR sig nD τ) (Lvl := ℕ) (cfgs p).spec c fun b => Vi c b
  hentry c := by
    rw [Pipeline.ownSems0_none]
    have hsplit := Pipeline.arrays_of_unscopedBufs (p := p) (pcfgs (F := F)) adm pdats lf.win lf.arr_whole c
      ((pdats p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (hrec c _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (hq c))
      (fun b => Vi c b) (fun b => Vo c b) ((pdats p c).arrAt · (cfgs p).N)
      (fun w => if h : w = wo then h ▸ hwo c else
        ((pdats p c).arrAt_in w (hwin w h).1 _).trans ((hA c w).trans (hVo c _ (hwin w h).2).symm))
      fun b hb => hVo c b fun e => hb (Finset.mem_image.mpr ⟨wo, Finset.mem_univ _, hv.trans e.symm⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

end Cert.Kernel.Launch

end
-- ==== Proof.K.R0.Reg.lean ====
import proofs.«423092_j11149735100496_3_alg».proof.Proof.K.Family
import proofs.«423092_j11149735100496_3_alg».proof.Proof.K.RegOf

noncomputable section

namespace Cert.Kernel.Reg0

open Cert.Kernel Cert.Kernel.Gen
open Idealize.ShloMosaic Idealize.ShloMosaic.TcCoe

variable {F : FTy → Type} [FloatOps F]
variable (m : (ℓ : Loc nD τ sig) → Buf (Elt F) ℓ)

set_option backward.isDefEq.respectTransparency.types false in
def reg : Pipeline.RegionSeg (pcfgs (F := F)) adm (Fam.pdats m) () defs₀ Variants.none Launch.Lz Launch.lvz 0 :=
  Launch.regOf (Fam.pdats m) (p := 0) launch0 (Fam.W1 m) (Fam.W2 m) main_v6 (4 : Fin cfg0.W) rfl (by decide)
    (fun _ _ h => Function.update_of_ne (StableHlo.devRef_ne_of_ne h) _ _) (fun _ => by unfold Fam.W2; exact Eq.symm (Function.update_self _ _ _))
    (fun _ _ => rfl) (R0.A_eq (Fam.rd (Fam.W1 m))) (fun _ _ => rfl) (fun _ _ => trivial)
    (R0.body_obligation (Fam.rd (Fam.W1 m))) (R0.hin (Fam.rd (Fam.W1 m))) (R0.hout (Fam.rd (Fam.W1 m)))

end Cert.Kernel.Reg0

end
-- ==== Proof.K.R1.Reg.lean ====
import proofs.«423092_j11149735100496_3_alg».proof.Proof.K.Family
import proofs.«423092_j11149735100496_3_alg».proof.Proof.K.RegOf

noncomputable section

namespace Cert.Kernel.Reg1

open Cert.Kernel Cert.Kernel.Gen
open Idealize.ShloMosaic Idealize.ShloMosaic.TcCoe

variable {F : FTy → Type} [FloatOps F]
variable (m : (ℓ : Loc nD τ sig) → Buf (Elt F) ℓ)

set_option backward.isDefEq.respectTransparency.types false in
def reg : Pipeline.RegionSeg (pcfgs (F := F)) adm (Fam.pdats m) () defs₀ Variants.none Launch.Lz Launch.lvz 1 :=
  Launch.regOf (Fam.pdats m) (p := 1) launch1 (Fam.W3 m) (Fam.W4 m) main_v13 (4 : Fin cfg1.W) rfl (by decide)
    (fun _ _ h => Function.update_of_ne (StableHlo.devRef_ne_of_ne h) _ _) (fun _ => by unfold Fam.W4; exact Eq.symm (Function.update_self _ _ _))
    (fun _ _ => rfl) (R1.A_eq (Fam.rd (Fam.W3 m))) (fun _ _ => rfl) (fun _ _ => trivial)
    (R1.body_obligation (Fam.rd (Fam.W3 m))) (R1.hin (Fam.rd (Fam.W3 m))) (R1.hout (Fam.rd (Fam.W3 m)))

end Cert.Kernel.Reg1

end
-- ==== Proof.K.R2.Reg.lean ====
import proofs.«423092_j11149735100496_3_alg».proof.Proof.K.Family
import proofs.«423092_j11149735100496_3_alg».proof.Proof.K.RegOf

noncomputable section

namespace Cert.Kernel.Reg2

open Cert.Kernel Cert.Kernel.Gen
open Idealize.ShloMosaic Idealize.ShloMosaic.TcCoe

variable {F : FTy → Type} [FloatOps F]
variable (m : (ℓ : Loc nD τ sig) → Buf (Elt F) ℓ)

set_option backward.isDefEq.respectTransparency.types false in
def reg : Pipeline.RegionSeg (pcfgs (F := F)) adm (Fam.pdats m) () defs₀ Variants.none Launch.Lz Launch.lvz 2 :=
  Launch.regOf (Fam.pdats m) (p := 2) launch2 (Fam.W5 m) (Fam.W6 m) main_v20 (4 : Fin cfg2.W) rfl (by decide)
    (fun _ _ h => Function.update_of_ne (StableHlo.devRef_ne_of_ne h) _ _) (fun _ => by unfold Fam.W6; exact Eq.symm (Function.update_self _ _ _))
    (fun _ _ => rfl) (R2.A_eq (Fam.rd (Fam.W5 m))) (fun _ _ => rfl) (fun _ _ => trivial)
    (R2.body_obligation (Fam.rd (Fam.W5 m))) (R2.hin (Fam.rd (Fam.W5 m))) (R2.hout (Fam.rd (Fam.W5 m)))

end Cert.Kernel.Reg2

end
-- ==== Proof.K.R3.Reg.lean ====
import proofs.«423092_j11149735100496_3_alg».proof.Proof.K.Family
import proofs.«423092_j11149735100496_3_alg».proof.Proof.K.RegOf

noncomputable section

namespace Cert.Kernel.Reg3

open Cert.Kernel Cert.Kernel.Gen
open Idealize.ShloMosaic Idealize.ShloMosaic.TcCoe

variable {F : FTy → Type} [FloatOps F]
variable (m : (ℓ : Loc nD τ sig) → Buf (Elt F) ℓ)

set_option backward.isDefEq.respectTransparency.types false in
def reg : Pipeline.RegionSeg (pcfgs (F := F)) adm (Fam.pdats m) () defs₀ Variants.none Launch.Lz Launch.lvz 3 :=
  Launch.regOf (Fam.pdats m) (p := 3) launch3 (Fam.W7 m) (Fam.W8 m) main_v27 (4 : Fin cfg3.W) rfl (by decide)
    (fun _ _ h => Function.update_of_ne (StableHlo.devRef_ne_of_ne h) _ _) (fun _ => by unfold Fam.W8; exact Eq.symm (Function.update_self _ _ _))
    (fun _ _ => rfl) (R3.A_eq (Fam.rd (Fam.W7 m))) (fun _ _ => rfl) (fun _ _ => trivial)
    (R3.body_obligation (Fam.rd (Fam.W7 m))) (R3.hin (Fam.rd (Fam.W7 m))) (R3.hout (Fam.rd (Fam.W7 m)))

end Cert.Kernel.Reg3

end
-- ==== Proof.K.RunV9.lean ====
import proofs.«423092_j11149735100496_3_alg».proof.Proof.K.R0.Reg
import proofs.«423092_j11149735100496_3_alg».proof.Proof.K.R1.Reg
import proofs.«423092_j11149735100496_3_alg».proof.Proof.K.R2.Reg
import proofs.«423092_j11149735100496_3_alg».proof.Proof.K.R3.Reg

noncomputable section

namespace Cert.Kernel.RunV9

open Cert.Kernel Cert.Kernel.Gen
open Idealize.ShloMosaic Idealize.ShloMosaic.TcCoe
open Idealize.SL Idealize.SL.BI
open scoped Idealize.SL.BI

variable {F : FTy → Type} [FloatOps F]
variable (m : (ℓ : Loc nD τ sig) → Buf (Elt F) ℓ) (ρ : Dev nD → PrngReg)

theorem run_V9 : θ_run defs (onTc (τ := τ) (main (F := F))) ⟨m, fun _ => 0, ρ⟩ (fun r => ∀ c : Dev nD, Launch.post9 m (Fam.outs m) c r.2) :=
  Launch.run_of_regions m ρ (Fam.outs m) (Fam.pdats m)
    (Reg0.reg m) (fun c => by rw [Fam.V1_eq]; exact .rfl) (fun c => by rw [Fam.V2_eq]; exact .rfl)
    (Reg1.reg m) (fun c => by rw [Fam.V3_eq]; exact .rfl) (fun c => by rw [Fam.V4_eq]; exact .rfl)
    (Reg2.reg m) (fun c => by rw [Fam.V5_eq]; exact .rfl) (fun c => by rw [Fam.V6_eq]; exact .rfl)
    (Reg3.reg m) (fun c => by rw [Fam.V7_eq]; exact .rfl) (fun c => by rw [Fam.V8_eq]; exact .rfl)

end Cert.Kernel.RunV9

end
-- ==== Proof.K.Frame.lean ====
import proofs.«423092_j11149735100496_3_alg».proof.Proof.K.RunV9

noncomputable section

namespace Cert.Kernel.Frame

open Cert.Kernel Cert.Kernel.Gen
open Idealize.ShloMosaic Idealize.ShloMosaic.TcCoe Idealize.SL.Sem

variable {F : FTy → Type} [FloatOps F]

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2.2) (RunV9.run_V9 m ρ)

end Cert.Kernel.Frame

end
-- ==== Proof.KI.R0.Kit.lean ====
import proofs.«423092_j11149735100496_3_alg».proof.Proof.Gen.KernelIdeal.Launch
import proofs.«423092_j11149735100496_3_alg».proof.Proof.Gen.KernelIdeal.Skeleton
import proofs.«423092_j11149735100496_3_alg».proof.Proof.Gen.KernelIdeal.Points
import proofs.«423092_j11149735100496_3_alg».proof.Proof.Whole
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.R0

open Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F] [Named F]

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable {c : Dev nD} (dat : Dat τ (Elt F) Unit ℕ (UR sig nD τ) ℕ cfg0 c)

theorem before_0_of (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end

abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 := by decide +kernel

abbrev condLast (i : grid0.Coords) : Prop := k0_cond2 i = 1#1
theorem hcondLast : ∀ t : Fin cfg0.N, condLast (grid0.coords t) ↔ t.val % 8 = 7 := by decide +kernel

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel

theorem idle_4 : ∀ t : Fin cfg0.N, ¬condLast (grid0.coords t) → cfg0.idle 4 (grid0.coords t) = true := by decide +kernel
theorem noFlush_4 : ∀ t : Fin cfg0.N, ¬condLast (grid0.coords t) → (cfg0.win 4).flush t = false := by decide +kernel

theorem live_4 : ∀ t : Fin cfg0.N, condLast (grid0.coords t) → cfg0.idle 4 (grid0.coords t) = false := by decide +kernel

abbrev ms_0 (t : Fin cfg0.N) : Memref sig .tc .vmem S1024x4096 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1024x4096 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S8x256 .i32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x256 .i32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1024x256 .f32 := win0_4.stage (cfg0.slots t 4)
abbrev hs_4 (t : Fin cfg0.N) : (ms_4 t).IsWhole := hstage0_4 ((cfg0.slots t 4).cast nbuf0_4)

abbrev scM : Memref sig .tc .vmem S1024x256 .f32 := Memref.whole cc0_scratch0

theorem PhiA_eq (c : Dev nD) :
    (Pipeline.ΦA spec0 c : sProp (MT nD τ sig Unit (Elt F) ℕ (UR sig nD τ) ℕ))
      = iprop(iprop(iprop((∃ d, owns (c : Thread nD τ) scM fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM, owns_whole]; try rfl

end Cert.KernelIdeal.R0

end
-- ==== Proof.KI.R0.RunFirst.lean ====
import proofs.«423092_j11149735100496_3_alg».proof.Proof.KI.R0.Kit

namespace Cert.KernelIdeal.R0

open Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F] [Named F]

set_option maxHeartbeats 4000000 in
noncomputable def runFirst (c : Dev nD) (i : grid0.Coords) (arg2 : Memref sig .tc .vmem S1024x4096 .bf16) (harg2 : arg2.IsWhole) (arg3 : Memref sig .tc .vmem S1024x4096 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : condFirst i) (hc1 : ¬condLast i)
    (x0 : Vec F S1024x4096 .bf16) (x1 : Vec F S1024x4096 .bf16) (x2 : Vec F S8x256 .i32) (x3 : Vec F S1x256 .i32) :
    { LS : List (View.Piece (Elt F) S1024x256 .f32) //
      ∀ (x4 : Vec F S1024x256 .f32) (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ owns c arg6 fullShare x4 ∗ (∃ d, owns c arg7 fullShare d)
            ∗ (iprop(owns c arg2 fullShare x0 ∗ owns c arg3 fullShare x1 ∗ owns c arg4 fullShare x2 ∗ owns c arg5 fullShare x3 ∗ owns c arg6 fullShare x4
                ∗ (∃ f, arg7.view.loc c ↦[arg7.view.set]{fullShare} arg7.view.writes (Elt F) f LS)) -∗ K ⟨⟩))
          ⊢ wp frame (wpE (defs₀ (F := F)) Variants.none c none) E (cc0__layer_kernel i arg2 harg2 arg3 harg3 arg4 harg4 arg5 harg5 arg6 harg6 arg7 harg7) K } := by
  refine ⟨?_, fun x4 E K => ?run⟩
  case run =>
    simp only [cc0__layer_kernel_eq_skeleton]; unfold cc0__layer_kernel_skel
    simp only [k0_part1_eq_skeleton, k0_part2_eq_skeleton, k0_part3_eq_skeleton, k0_part4_eq_skeleton]
    unfold k0_part1_skel k0_part2_skel k0_part3_skel k0_part4_skel
    simp only [harg2.owns_eq, harg3.owns_eq, harg4.owns_eq, harg5.owns_eq, harg6.owns_eq, harg7.owns_eq]
    iintro ⟨H0, H1, H2, H3, H4, ⟨%d, HS⟩, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    iexists _; iexact HS

end Cert.KernelIdeal.R0
-- ==== Proof.KI.R0.RunMid.lean ====
import proofs.«423092_j11149735100496_3_alg».proof.Proof.KI.R0.Kit

namespace Cert.KernelIdeal.R0

open Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F] [Named F]

set_option maxHeartbeats 4000000 in
noncomputable def runMid (c : Dev nD) (i : grid0.Coords) (arg2 : Memref sig .tc .vmem S1024x4096 .bf16) (harg2 : arg2.IsWhole) (arg3 : Memref sig .tc .vmem S1024x4096 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : ¬condFirst i) (hc1 : ¬condLast i)
    (x0 : Vec F S1024x4096 .bf16) (x1 : Vec F S1024x4096 .bf16) (x2 : Vec F S8x256 .i32) (x3 : Vec F S1x256 .i32) (xs : Vec F S1024x256 .f32) :
    { LS : List (View.Piece (Elt F) S1024x256 .f32) //
      ∀ (x4 : Vec F S1024x256 .f32) (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ owns c arg6 fullShare x4 ∗ owns c arg7 fullShare xs
            ∗ (iprop(owns c arg2 fullShare x0 ∗ owns c arg3 fullShare x1 ∗ owns c arg4 fullShare x2 ∗ owns c arg5 fullShare x3 ∗ owns c arg6 fullShare x4
                ∗ (∃ f, arg7.view.loc c ↦[arg7.view.set]{fullShare} arg7.view.writes (Elt F) f LS)) -∗ K ⟨⟩))
          ⊢ wp frame (wpE (defs₀ (F := F)) Variants.none c none) E (cc0__layer_kernel i arg2 harg2 arg3 harg3 arg4 harg4 arg5 harg5 arg6 harg6 arg7 harg7) K } := by
  refine ⟨?_, fun x4 E K => ?run⟩
  case run =>
    simp only [cc0__layer_kernel_eq_skeleton]; unfold cc0__layer_kernel_skel
    simp only [k0_part1_eq_skeleton, k0_part2_eq_skeleton, k0_part3_eq_skeleton, k0_part4_eq_skeleton]
    unfold k0_part1_skel k0_part2_skel k0_part3_skel k0_part4_skel
    simp only [harg2.owns_eq, harg3.owns_eq, harg4.owns_eq, harg5.owns_eq, harg6.owns_eq, harg7.owns_eq]
    iintro ⟨H0, H1, H2, H3, H4, HS, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    iexists _; iexact HS

end Cert.KernelIdeal.R0
-- ==== Proof.KI.R0.RunLast.lean ====
import proofs.«423092_j11149735100496_3_alg».proof.Proof.KI.R0.Kit

namespace Cert.KernelIdeal.R0

open Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F] [Named F]

set_option maxHeartbeats 4000000 in
noncomputable def runLast (c : Dev nD) (i : grid0.Coords) (arg2 : Memref sig .tc .vmem S1024x4096 .bf16) (harg2 : arg2.IsWhole) (arg3 : Memref sig .tc .vmem S1024x4096 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : ¬condFirst i) (hc1 : condLast i)
    (x0 : Vec F S1024x4096 .bf16) (x1 : Vec F S1024x4096 .bf16) (x2 : Vec F S8x256 .i32) (x3 : Vec F S1x256 .i32) (xs : Vec F S1024x256 .f32) :
    Σ' (L4 : List (View.Piece (Elt F) S1024x256 .f32)), { LS : List (View.Piece (Elt F) S1024x256 .f32) //
      ∀ (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ (∃ d, owns c arg6 fullShare d) ∗ owns c arg7 fullShare xs
            ∗ (iprop(owns c arg2 fullShare x0 ∗ owns c arg3 fullShare x1 ∗ owns c arg4 fullShare x2 ∗ owns c arg5 fullShare x3
                ∗ (∃ f, arg6.view.loc c ↦[arg6.view.set]{fullShare} arg6.view.writes (Elt F) f L4)
                ∗ (∃ f, arg7.view.loc c ↦[arg7.view.set]{fullShare} arg7.view.writes (Elt F) f LS)) -∗ K ⟨⟩))
          ⊢ wp frame (wpE (defs₀ (F := F)) Variants.none c none) E (cc0__layer_kernel i arg2 harg2 arg3 harg3 arg4 harg4 arg5 harg5 arg6 harg6 arg7 harg7) K } := by
  refine ⟨?_, ?_, fun E K => ?run⟩
  case run =>
    simp only [cc0__layer_kernel_eq_skeleton]; unfold cc0__layer_kernel_skel
    simp only [k0_part1_eq_skeleton, k0_part2_eq_skeleton, k0_part3_eq_skeleton, k0_part4_eq_skeleton]
    unfold k0_part1_skel k0_part2_skel k0_part3_skel k0_part4_skel
    simp only [harg2.owns_eq, harg3.owns_eq, harg4.owns_eq, harg5.owns_eq, harg6.owns_eq, harg7.owns_eq]
    iintro ⟨H0, H1, H2, H3, ⟨%d, H4⟩, HS, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexists _; iexact H4
    iexists _; iexact HS

end Cert.KernelIdeal.R0
-- ==== Proof.KI.R0.Dat.lean ====
import proofs.«423092_j11149735100496_3_alg».proof.Proof.KI.R0.RunFirst
import proofs.«423092_j11149735100496_3_alg».proof.Proof.KI.R0.RunMid
import proofs.«423092_j11149735100496_3_alg».proof.Proof.KI.R0.RunLast

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

section
variable (c : Dev nD) (i : grid0.Coords) (arg2 : Memref sig .tc .vmem S1024x4096 .bf16) (harg2 : arg2.IsWhole) (arg3 : Memref sig .tc .vmem S1024x4096 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole)
  (hF : condFirst i) (hnF : ¬condFirst i) (hL : condLast i) (hnL : ¬condLast i)
  (x0 : Vec F S1024x4096 .bf16) (x1 : Vec F S1024x4096 .bf16) (x2 : Vec F S8x256 .i32) (x3 : Vec F S1x256 .i32) (xs : Vec F S1024x256 .f32)

def sFirst : Vec F S1024x256 .f32 := View.canon (runFirst c i arg2 harg2 arg3 harg3 arg4 harg4 arg5 harg5 arg6 harg6 arg7 harg7 hF hnL x0 x1 x2 x3).1
def sMid : Vec F S1024x256 .f32 := View.canon (runMid c i arg2 harg2 arg3 harg3 arg4 harg4 arg5 harg5 arg6 harg6 arg7 harg7 hnF hnL x0 x1 x2 x3 xs).1
def oLast : Vec F S1024x256 .f32 := View.canon (runLast c i arg2 harg2 arg3 harg3 arg4 harg4 arg5 harg5 arg6 harg6 arg7 harg7 hnF hL x0 x1 x2 x3 xs).1
def sLast : Vec F S1024x256 .f32 := View.canon (runLast c i arg2 harg2 arg3 harg3 arg4 harg4 arg5 harg5 arg6 harg6 arg7 harg7 hnF hL x0 x1 x2 x3 xs).2.1

theorem tFirst : View.Piece.tiledL (runFirst c i arg2 harg2 arg3 harg3 arg4 harg4 arg5 harg5 arg6 harg6 arg7 harg7 hF hnL x0 x1 x2 x3).1 S1024x256.size = true := by sl_kernel_rfl
theorem tMid : View.Piece.tiledL (runMid c i arg2 harg2 arg3 harg3 arg4 harg4 arg5 harg5 arg6 harg6 arg7 harg7 hnF hnL x0 x1 x2 x3 xs).1 S1024x256.size = true := by sl_kernel_rfl
theorem tOut : View.Piece.tiledL (runLast c i arg2 harg2 arg3 harg3 arg4 harg4 arg5 harg5 arg6 harg6 arg7 harg7 hnF hL x0 x1 x2 x3 xs).1 S1024x256.size = true := by sl_kernel_rfl
theorem tLast : View.Piece.tiledL (runLast c i arg2 harg2 arg3 harg3 arg4 harg4 arg5 harg5 arg6 harg6 arg7 harg7 hnF hL x0 x1 x2 x3 xs).2.1 S1024x256.size = true := by sl_kernel_rfl
end

-- Stores that tile a buffer leave it at their canon, whatever it held: every index is covered.
theorem owns_canon {c : Dev nD} {M : Memref sig .tc .vmem S1024x256 .f32} {L : List (View.Piece (Elt F) S1024x256 .f32)}
    (hL : View.Piece.tiledL L S1024x256.size = true) :
    (iprop(∃ f, M.view.loc (c : Thread nD τ) ↦[M.view.set]{fullShare} M.view.writes (Elt F) f L) : sProp 𝕄) ⊢ owns (c : Thread nD τ) M fullShare (View.canon L) := by
  iintro ⟨%f, H⟩; unfold owns; iexists M.view.writes (Elt F) f L; isplitr
  · ipureintro; exact View.read_writes_eq_canon _ _ _ (View.cover_of_tiledL L _ hL)
  · iexact H

theorem notLast_of_first (t : Fin cfg0.N) (h0 : t.val % 8 = 0) : ¬condLast (grid0.coords t) :=
  fun h => by have := (hcondLast t).mp h; omega

-- What point t leaves in the output block's buffer and in the scratch, given what the point before left in the scratch.
def stepAt (c : Dev nD) (t : Fin cfg0.N) (xs : Vec F S1024x256 .f32) : Vec F S1024x256 .f32 × Vec F S1024x256 .f32 :=
  if h0 : t.val % 8 = 0 then
    (View.canon [], sFirst c (grid0.coords t) (ms_0 t) (hs_0 t) (ms_1 t) (hs_1 t) (ms_2 t) (hs_2 t) (ms_3 t) (hs_3 t) (ms_4 t) (hs_4 t) scM (Memref.isWhole_whole _) ((hcondFirst t).mpr h0) (notLast_of_first t h0) (iblk V c 0 t) (iblk V c 1 t) (iblk V c 2 t) (iblk V c 3 t))
  else if h1 : t.val % 8 = 7 then
    (oLast c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (iblk V c 3 t) xs,
      sLast c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (iblk V c 3 t) xs)
  else
    (View.canon [], sMid c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h1 ((hcondLast t).mp h)) (iblk V c 0 t) (iblk V c 1 t) (iblk V c 2 t) (iblk V c 3 t) xs)

def outsAt (c : Dev nD) : (n : ℕ) → n < cfg0.N → Vec F S1024x256 .f32 × Vec F S1024x256 .f32
  | 0, hn => stepAt V c ⟨0, hn⟩ (View.canon [])
  | n + 1, hn => stepAt V c ⟨n + 1, hn⟩ (outsAt c n (Nat.lt_of_succ_lt hn)).2

-- A block's first point does not read the scratch; every other point steps from what the point before left.
theorem outsAt_first (c : Dev nD) (t : Fin cfg0.N) (h0 : t.val % 8 = 0) :
    outsAt V c t.val t.isLt = stepAt V c t (View.canon []) := by
  obtain ⟨n, hn⟩ := t
  cases n with
  | zero => rfl
  | succ n => exact (dif_pos h0).trans (dif_pos h0 : stepAt V c ⟨n + 1, hn⟩ (View.canon []) = _).symm

theorem outsAt_next (c : Dev nD) (t : Fin cfg0.N) (h0 : ¬t.val % 8 = 0) :
    outsAt V c t.val t.isLt = stepAt V c t (outsAt V c (t.val - 1) (Nat.lt_of_le_of_lt (Nat.sub_le _ _) t.isLt)).2 := by
  obtain ⟨n, hn⟩ := t
  cases n with
  | zero => exact absurd (Nat.zero_mod _) h0
  | succ n => rfl

-- The invariant with the scratch holding x.
def inv (c : Dev nD) (x : Vec F S1024x256 .f32) : sProp 𝕄 :=
  iprop(iprop(owns (c : Thread nD τ) scM fullShare x ∗ Pipeline.scopedRestBut (Ix := Unit) (Name := ℕ) (U := UR sig nD τ) (Lvl := ℕ) (Val := Elt F) spec0 c [cc0_scratch0]) ∗ (∃ r, prngReg c r))

-- Forgetting the scratch's contents gives back what the region handed over.
theorem inv_le (c : Dev nD) (x : Vec F S1024x256 .f32) : inv c x ⊢ Pipeline.ΦA spec0 c := by
  rw [PhiA_eq]; unfold inv
  iintro ⟨⟨HS, Hrest⟩, Hg⟩
  iframe Hrest Hg
  iexists _; iexact HS

def PhiS (c : Dev nD) : (n : ℕ) → n ≤ cfg0.N → sProp 𝕄
  | 0, _ => Pipeline.ΦA spec0 c
  | n + 1, hn => inv c (outsAt V c n hn).2

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = (outsAt V c t.val t.isLt).1 := by dsimp only [dat]

-- Before any point the invariant holds the scratch at some contents.
theorem Phi_le (c : Dev nD) (t : Fin (cfg0.N + 1)) : (dat V c).Φ t ⊢ Pipeline.ΦA spec0 c := by
  obtain ⟨n, hn⟩ := t
  cases n with
  | zero => exact .rfl
  | succ n => exact inv_le c _

-- After the first point the scratch holds what the point before left.
theorem Phi_pos (c : Dev nD) (t : Fin cfg0.N) (hz : t.val ≠ 0) : (dat V c).Φ t.castSucc = inv c (outsAt V c (t.val - 1) (Nat.lt_of_le_of_lt (Nat.sub_le _ _) t.isLt)).2 := by
  obtain ⟨n, hn⟩ := t
  cases n with
  | zero => exact absurd rfl hz
  | succ n => rfl

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves_in (c : Dev nD) (t : Fin cfg0.N) :
    (dat V c).leavesExact 0 t = owns (c : Thread nD τ) (ms_0 t) fullShare (iblk V c 0 t)
    ∧ (dat V c).leavesExact 1 t = owns (c : Thread nD τ) (ms_1 t) fullShare (iblk V c 1 t)
    ∧ (dat V c).leavesExact 2 t = owns (c : Thread nD τ) (ms_2 t) fullShare (iblk V c 2 t)
    ∧ (dat V c).leavesExact 3 t = owns (c : Thread nD τ) (ms_3 t) fullShare (iblk V c 3 t) :=
  ⟨by unfold Dat.leavesExact; rw [live_0 t, after_0], by unfold Dat.leavesExact; rw [live_1 t, after_1],
   by unfold Dat.leavesExact; rw [live_2 t, after_2], by unfold Dat.leavesExact; rw [live_3 t, after_3]⟩

set_option maxHeartbeats 4800000 in
-- Each case's run takes the inputs' blocks and the scratch and hands the scratch back with stores that tile it.
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0_of V (dat V c) (A_eq V c 0) (after_0 V c), before_1_of V (dat V c) (A_eq V c 1) (after_1 V c),
    before_2_of V (dat V c) (A_eq V c 2) (after_2 V c), before_3_of V (dat V c) (A_eq V c 3) (after_3 V c)]
  rw [show (dat V c).owesAt () t.succ = (dat V c).owesAt () t.castSucc from rfl,
    show (dat V c).Φ t.succ = inv c (outsAt V c t.val t.isLt).2 from rfl,
    (leaves_in V c t).1, (leaves_in V c t).2.1, (leaves_in V c t).2.2.1, (leaves_in V c t).2.2.2]
  by_cases h0 : t.val % 8 = 0
  · have hL := notLast_of_first t h0
    rw [Dat.leavesExact_idle (dat V c) 4 t (idle_4 t hL) (noFlush_4 t hL), outsAt_first V c t h0, stepAt, dif_pos h0]
    refine (sep_mono_left (Phi_le V c _)).trans ?_
    rw [PhiA_eq]
    unfold sFirst inv; (try dsimp only)
    iintro ⟨⟨⟨HS, Hrest⟩, Hg⟩, Ho, ⟨%d0, H0⟩, ⟨%d1, H1⟩, ⟨%d2, H2⟩, ⟨%d3, H3⟩, ⟨%d4, H4⟩⟩
    iapply ((runFirst c (grid0.coords t) _ _ _ _ _ _ _ _ _ _ _ _ ((hcondFirst t).mpr h0) hL (iblk V c 0 t) (iblk V c 1 t) (iblk V c 2 t) (iblk V c 3 t)).2 _ Set.univ _)
    iframe H0 H1 H2 H3 H4 HS
    iintro ⟨H0, H1, H2, H3, H4, HS⟩
    iframe Hrest Hg Ho H0 H1 H2 H3
    isplitl [HS]
    · iapply owns_canon (tFirst ..); iexact HS
    iexists _; iexact H4
  · have hF : ¬condFirst (grid0.coords t) := fun h => h0 ((hcondFirst t).mp h)
    rw [Phi_pos V c t fun e => h0 (by rw [e])]
    by_cases h1 : t.val % 8 = 7
    · have hL := (hcondLast t).mpr h1
      rw [show (dat V c).leavesExact 4 t = owns (c : Thread nD τ) (ms_4 t) fullShare ((dat V c).after 4 t) from by
        unfold Dat.leavesExact; rw [live_4 t hL], after_4, outsAt_next V c t h0, stepAt, dif_neg h0, dif_pos h1]
      unfold oLast sLast inv; (try dsimp only)
      iintro ⟨⟨⟨HS, Hrest⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ hF hL (iblk V c 0 t) (iblk V c 1 t) (iblk V c 2 t) (iblk V c 3 t) _).2.2 Set.univ _)
      iframe H0 H1 H2 H3 HS
      isplitl [H4]; · iexists _; iexact H4
      iintro ⟨H0, H1, H2, H3, H4, HS⟩
      iframe Hrest Hg Ho H0 H1 H2 H3
      isplitl [HS]
      · iapply owns_canon (tLast ..); iexact HS
      iapply owns_canon (tOut ..); iexact H4
    · have hL : ¬condLast (grid0.coords t) := fun h => h1 ((hcondLast t).mp h)
      rw [Dat.leavesExact_idle (dat V c) 4 t (idle_4 t hL) (noFlush_4 t hL), outsAt_next V c t h0, stepAt, dif_neg h0, dif_neg h1]
      unfold sMid inv; (try dsimp only)
      iintro ⟨⟨⟨HS, Hrest⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ hF hL (iblk V c 0 t) (iblk V c 1 t) (iblk V c 2 t) (iblk V c 3 t) _).2 _ Set.univ _)
      iframe H0 H1 H2 H3 H4 HS
      iintro ⟨H0, H1, H2, H3, H4, HS⟩
      iframe Hrest Hg Ho H0 H1 H2 H3
      isplitl [HS]
      · iapply owns_canon (tMid ..); iexact HS
      iexists _; iexact H4

theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := .rfl

theorem hout (c : Dev nD) : (dat V c).Φ (Fin.last cfg0.N) ⊢ Pipeline.ΦA spec0 c := Phi_le V c _

end Cert.KernelIdeal.R0

end
-- ==== Proof.KI.R1.Kit.lean ====
import proofs.«423092_j11149735100496_3_alg».proof.Proof.Gen.KernelIdeal.Launch
import proofs.«423092_j11149735100496_3_alg».proof.Proof.Gen.KernelIdeal.Skeleton
import proofs.«423092_j11149735100496_3_alg».proof.Proof.Gen.KernelIdeal.Points
import proofs.«423092_j11149735100496_3_alg».proof.Proof.Whole
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.R1

open Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F] [Named F]

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable {c : Dev nD} (dat : Dat τ (Elt F) Unit ℕ (UR sig nD τ) ℕ cfg1 c)

theorem before_0_of (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end

abbrev condFirst (i : grid1.Coords) : Prop := (Scalar.cmpi .ne (Scalar.extui (Scalar.cmpi .eq (BitVec.ofNat 32 (i 1).val) 0#32)) 0#32) = 1#1
theorem hcondFirst : ∀ t : Fin cfg1.N, condFirst (grid1.coords t) ↔ t.val % 8 = 0 := by decide +kernel

abbrev condLast (i : grid1.Coords) : Prop := k1_cond2 i = 1#1
theorem hcondLast : ∀ t : Fin cfg1.N, condLast (grid1.coords t) ↔ t.val % 8 = 7 := by decide +kernel

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel

theorem idle_4 : ∀ t : Fin cfg1.N, ¬condLast (grid1.coords t) → cfg1.idle 4 (grid1.coords t) = true := by decide +kernel
theorem noFlush_4 : ∀ t : Fin cfg1.N, ¬condLast (grid1.coords t) → (cfg1.win 4).flush t = false := by decide +kernel

theorem live_4 : ∀ t : Fin cfg1.N, condLast (grid1.coords t) → cfg1.idle 4 (grid1.coords t) = false := by decide +kernel

abbrev ms_0 (t : Fin cfg1.N) : Memref sig .tc .vmem S1024x2048 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1024x2048 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S8x256 .i32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x256 .i32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1024x256 .f32 := win1_4.stage (cfg1.slots t 4)
abbrev hs_4 (t : Fin cfg1.N) : (ms_4 t).IsWhole := hstage1_4 ((cfg1.slots t 4).cast nbuf1_4)

abbrev scM : Memref sig .tc .vmem S1024x256 .f32 := Memref.whole cc1_scratch0

theorem PhiA_eq (c : Dev nD) :
    (Pipeline.ΦA spec1 c : sProp (MT nD τ sig Unit (Elt F) ℕ (UR sig nD τ) ℕ))
      = iprop(iprop(iprop((∃ d, owns (c : Thread nD τ) scM fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM, owns_whole]; try rfl

end Cert.KernelIdeal.R1

end
-- ==== Proof.KI.R1.RunFirst.lean ====
import proofs.«423092_j11149735100496_3_alg».proof.Proof.KI.R1.Kit

namespace Cert.KernelIdeal.R1

open Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F] [Named F]

set_option maxHeartbeats 4000000 in
noncomputable def runFirst (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : condFirst i) (hc1 : ¬condLast i)
    (x0 : Vec F S1024x2048 .bf16) (x1 : Vec F S1024x2048 .bf16) (x2 : Vec F S8x256 .i32) (x3 : Vec F S1x256 .i32) :
    { LS : List (View.Piece (Elt F) S1024x256 .f32) //
      ∀ (x4 : Vec F S1024x256 .f32) (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ owns c arg6 fullShare x4 ∗ (∃ d, owns c arg7 fullShare d)
            ∗ (iprop(owns c arg2 fullShare x0 ∗ owns c arg3 fullShare x1 ∗ owns c arg4 fullShare x2 ∗ owns c arg5 fullShare x3 ∗ owns c arg6 fullShare x4
                ∗ (∃ f, arg7.view.loc c ↦[arg7.view.set]{fullShare} arg7.view.writes (Elt F) f LS)) -∗ K ⟨⟩))
          ⊢ wp frame (wpE (defs₀ (F := F)) Variants.none c none) E (cc1__layer_kernel i arg2 harg2 arg3 harg3 arg4 harg4 arg5 harg5 arg6 harg6 arg7 harg7) K } := by
  refine ⟨?_, fun x4 E K => ?run⟩
  case run =>
    simp only [cc1__layer_kernel_eq_skeleton]; unfold cc1__layer_kernel_skel
    simp only [k1_part1_eq_skeleton, k1_part2_eq_skeleton, k1_part3_eq_skeleton, k1_part4_eq_skeleton]
    unfold k1_part1_skel k1_part2_skel k1_part3_skel k1_part4_skel
    simp only [harg2.owns_eq, harg3.owns_eq, harg4.owns_eq, harg5.owns_eq, harg6.owns_eq, harg7.owns_eq]
    iintro ⟨H0, H1, H2, H3, H4, ⟨%d, HS⟩, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    iexists _; iexact HS

end Cert.KernelIdeal.R1
-- ==== Proof.KI.R1.RunMid.lean ====
import proofs.«423092_j11149735100496_3_alg».proof.Proof.KI.R1.Kit

namespace Cert.KernelIdeal.R1

open Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F] [Named F]

set_option maxHeartbeats 4000000 in
noncomputable def runMid (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : ¬condFirst i) (hc1 : ¬condLast i)
    (x0 : Vec F S1024x2048 .bf16) (x1 : Vec F S1024x2048 .bf16) (x2 : Vec F S8x256 .i32) (x3 : Vec F S1x256 .i32) (xs : Vec F S1024x256 .f32) :
    { LS : List (View.Piece (Elt F) S1024x256 .f32) //
      ∀ (x4 : Vec F S1024x256 .f32) (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ owns c arg6 fullShare x4 ∗ owns c arg7 fullShare xs
            ∗ (iprop(owns c arg2 fullShare x0 ∗ owns c arg3 fullShare x1 ∗ owns c arg4 fullShare x2 ∗ owns c arg5 fullShare x3 ∗ owns c arg6 fullShare x4
                ∗ (∃ f, arg7.view.loc c ↦[arg7.view.set]{fullShare} arg7.view.writes (Elt F) f LS)) -∗ K ⟨⟩))
          ⊢ wp frame (wpE (defs₀ (F := F)) Variants.none c none) E (cc1__layer_kernel i arg2 harg2 arg3 harg3 arg4 harg4 arg5 harg5 arg6 harg6 arg7 harg7) K } := by
  refine ⟨?_, fun x4 E K => ?run⟩
  case run =>
    simp only [cc1__layer_kernel_eq_skeleton]; unfold cc1__layer_kernel_skel
    simp only [k1_part1_eq_skeleton, k1_part2_eq_skeleton, k1_part3_eq_skeleton, k1_part4_eq_skeleton]
    unfold k1_part1_skel k1_part2_skel k1_part3_skel k1_part4_skel
    simp only [harg2.owns_eq, harg3.owns_eq, harg4.owns_eq, harg5.owns_eq, harg6.owns_eq, harg7.owns_eq]
    iintro ⟨H0, H1, H2, H3, H4, HS, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    iexists _; iexact HS

end Cert.KernelIdeal.R1
-- ==== Proof.KI.R1.RunLast.lean ====
import proofs.«423092_j11149735100496_3_alg».proof.Proof.KI.R1.Kit

namespace Cert.KernelIdeal.R1

open Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F] [Named F]

set_option maxHeartbeats 4000000 in
noncomputable def runLast (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : ¬condFirst i) (hc1 : condLast i)
    (x0 : Vec F S1024x2048 .bf16) (x1 : Vec F S1024x2048 .bf16) (x2 : Vec F S8x256 .i32) (x3 : Vec F S1x256 .i32) (xs : Vec F S1024x256 .f32) :
    Σ' (L4 : List (View.Piece (Elt F) S1024x256 .f32)), { LS : List (View.Piece (Elt F) S1024x256 .f32) //
      ∀ (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ (∃ d, owns c arg6 fullShare d) ∗ owns c arg7 fullShare xs
            ∗ (iprop(owns c arg2 fullShare x0 ∗ owns c arg3 fullShare x1 ∗ owns c arg4 fullShare x2 ∗ owns c arg5 fullShare x3
                ∗ (∃ f, arg6.view.loc c ↦[arg6.view.set]{fullShare} arg6.view.writes (Elt F) f L4)
                ∗ (∃ f, arg7.view.loc c ↦[arg7.view.set]{fullShare} arg7.view.writes (Elt F) f LS)) -∗ K ⟨⟩))
          ⊢ wp frame (wpE (defs₀ (F := F)) Variants.none c none) E (cc1__layer_kernel i arg2 harg2 arg3 harg3 arg4 harg4 arg5 harg5 arg6 harg6 arg7 harg7) K } := by
  refine ⟨?_, ?_, fun E K => ?run⟩
  case run =>
    simp only [cc1__layer_kernel_eq_skeleton]; unfold cc1__layer_kernel_skel
    simp only [k1_part1_eq_skeleton, k1_part2_eq_skeleton, k1_part3_eq_skeleton, k1_part4_eq_skeleton]
    unfold k1_part1_skel k1_part2_skel k1_part3_skel k1_part4_skel
    simp only [harg2.owns_eq, harg3.owns_eq, harg4.owns_eq, harg5.owns_eq, harg6.owns_eq, harg7.owns_eq]
    iintro ⟨H0, H1, H2, H3, ⟨%d, H4⟩, HS, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexists _; iexact H4
    iexists _; iexact HS

end Cert.KernelIdeal.R1
-- ==== Proof.KI.R1.Dat.lean ====
import proofs.«423092_j11149735100496_3_alg».proof.Proof.KI.R1.RunFirst
import proofs.«423092_j11149735100496_3_alg».proof.Proof.KI.R1.RunMid
import proofs.«423092_j11149735100496_3_alg».proof.Proof.KI.R1.RunLast

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

section
variable (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole)
  (hF : condFirst i) (hnF : ¬condFirst i) (hL : condLast i) (hnL : ¬condLast i)
  (x0 : Vec F S1024x2048 .bf16) (x1 : Vec F S1024x2048 .bf16) (x2 : Vec F S8x256 .i32) (x3 : Vec F S1x256 .i32) (xs : Vec F S1024x256 .f32)

def sFirst : Vec F S1024x256 .f32 := View.canon (runFirst c i arg2 harg2 arg3 harg3 arg4 harg4 arg5 harg5 arg6 harg6 arg7 harg7 hF hnL x0 x1 x2 x3).1
def sMid : Vec F S1024x256 .f32 := View.canon (runMid c i arg2 harg2 arg3 harg3 arg4 harg4 arg5 harg5 arg6 harg6 arg7 harg7 hnF hnL x0 x1 x2 x3 xs).1
def oLast : Vec F S1024x256 .f32 := View.canon (runLast c i arg2 harg2 arg3 harg3 arg4 harg4 arg5 harg5 arg6 harg6 arg7 harg7 hnF hL x0 x1 x2 x3 xs).1
def sLast : Vec F S1024x256 .f32 := View.canon (runLast c i arg2 harg2 arg3 harg3 arg4 harg4 arg5 harg5 arg6 harg6 arg7 harg7 hnF hL x0 x1 x2 x3 xs).2.1

theorem tFirst : View.Piece.tiledL (runFirst c i arg2 harg2 arg3 harg3 arg4 harg4 arg5 harg5 arg6 harg6 arg7 harg7 hF hnL x0 x1 x2 x3).1 S1024x256.size = true := by sl_kernel_rfl
theorem tMid : View.Piece.tiledL (runMid c i arg2 harg2 arg3 harg3 arg4 harg4 arg5 harg5 arg6 harg6 arg7 harg7 hnF hnL x0 x1 x2 x3 xs).1 S1024x256.size = true := by sl_kernel_rfl
theorem tOut : View.Piece.tiledL (runLast c i arg2 harg2 arg3 harg3 arg4 harg4 arg5 harg5 arg6 harg6 arg7 harg7 hnF hL x0 x1 x2 x3 xs).1 S1024x256.size = true := by sl_kernel_rfl
theorem tLast : View.Piece.tiledL (runLast c i arg2 harg2 arg3 harg3 arg4 harg4 arg5 harg5 arg6 harg6 arg7 harg7 hnF hL x0 x1 x2 x3 xs).2.1 S1024x256.size = true := by sl_kernel_rfl
end

-- Stores that tile a buffer leave it at their canon, whatever it held: every index is covered.
theorem owns_canon {c : Dev nD} {M : Memref sig .tc .vmem S1024x256 .f32} {L : List (View.Piece (Elt F) S1024x256 .f32)}
    (hL : View.Piece.tiledL L S1024x256.size = true) :
    (iprop(∃ f, M.view.loc (c : Thread nD τ) ↦[M.view.set]{fullShare} M.view.writes (Elt F) f L) : sProp 𝕄) ⊢ owns (c : Thread nD τ) M fullShare (View.canon L) := by
  iintro ⟨%f, H⟩; unfold owns; iexists M.view.writes (Elt F) f L; isplitr
  · ipureintro; exact View.read_writes_eq_canon _ _ _ (View.cover_of_tiledL L _ hL)
  · iexact H

theorem notLast_of_first (t : Fin cfg1.N) (h0 : t.val % 8 = 0) : ¬condLast (grid1.coords t) :=
  fun h => by have := (hcondLast t).mp h; omega

-- What point t leaves in the output block's buffer and in the scratch, given what the point before left in the scratch.
def stepAt (c : Dev nD) (t : Fin cfg1.N) (xs : Vec F S1024x256 .f32) : Vec F S1024x256 .f32 × Vec F S1024x256 .f32 :=
  if h0 : t.val % 8 = 0 then
    (View.canon [], sFirst c (grid1.coords t) (ms_0 t) (hs_0 t) (ms_1 t) (hs_1 t) (ms_2 t) (hs_2 t) (ms_3 t) (hs_3 t) (ms_4 t) (hs_4 t) scM (Memref.isWhole_whole _) ((hcondFirst t).mpr h0) (notLast_of_first t h0) (iblk V c 0 t) (iblk V c 1 t) (iblk V c 2 t) (iblk V c 3 t))
  else if h1 : t.val % 8 = 7 then
    (oLast c (grid1.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (iblk V c 3 t) xs,
      sLast c (grid1.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (iblk V c 3 t) xs)
  else
    (View.canon [], sMid c (grid1.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h1 ((hcondLast t).mp h)) (iblk V c 0 t) (iblk V c 1 t) (iblk V c 2 t) (iblk V c 3 t) xs)

def outsAt (c : Dev nD) : (n : ℕ) → n < cfg1.N → Vec F S1024x256 .f32 × Vec F S1024x256 .f32
  | 0, hn => stepAt V c ⟨0, hn⟩ (View.canon [])
  | n + 1, hn => stepAt V c ⟨n + 1, hn⟩ (outsAt c n (Nat.lt_of_succ_lt hn)).2

-- A block's first point does not read the scratch; every other point steps from what the point before left.
theorem outsAt_first (c : Dev nD) (t : Fin cfg1.N) (h0 : t.val % 8 = 0) :
    outsAt V c t.val t.isLt = stepAt V c t (View.canon []) := by
  obtain ⟨n, hn⟩ := t
  cases n with
  | zero => rfl
  | succ n => exact (dif_pos h0).trans (dif_pos h0 : stepAt V c ⟨n + 1, hn⟩ (View.canon []) = _).symm

theorem outsAt_next (c : Dev nD) (t : Fin cfg1.N) (h0 : ¬t.val % 8 = 0) :
    outsAt V c t.val t.isLt = stepAt V c t (outsAt V c (t.val - 1) (Nat.lt_of_le_of_lt (Nat.sub_le _ _) t.isLt)).2 := by
  obtain ⟨n, hn⟩ := t
  cases n with
  | zero => exact absurd (Nat.zero_mod _) h0
  | succ n => rfl

-- The invariant with the scratch holding x.
def inv (c : Dev nD) (x : Vec F S1024x256 .f32) : sProp 𝕄 :=
  iprop(iprop(owns (c : Thread nD τ) scM fullShare x ∗ Pipeline.scopedRestBut (Ix := Unit) (Name := ℕ) (U := UR sig nD τ) (Lvl := ℕ) (Val := Elt F) spec1 c [cc1_scratch0]) ∗ (∃ r, prngReg c r))

-- Forgetting the scratch's contents gives back what the region handed over.
theorem inv_le (c : Dev nD) (x : Vec F S1024x256 .f32) : inv c x ⊢ Pipeline.ΦA spec1 c := by
  rw [PhiA_eq]; unfold inv
  iintro ⟨⟨HS, Hrest⟩, Hg⟩
  iframe Hrest Hg
  iexists _; iexact HS

def PhiS (c : Dev nD) : (n : ℕ) → n ≤ cfg1.N → sProp 𝕄
  | 0, _ => Pipeline.ΦA spec1 c
  | n + 1, hn => inv c (outsAt V c n hn).2

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (outsAt V c t.val t.isLt).1 := by dsimp only [dat]

-- Before any point the invariant holds the scratch at some contents.
theorem Phi_le (c : Dev nD) (t : Fin (cfg1.N + 1)) : (dat V c).Φ t ⊢ Pipeline.ΦA spec1 c := by
  obtain ⟨n, hn⟩ := t
  cases n with
  | zero => exact .rfl
  | succ n => exact inv_le c _

-- After the first point the scratch holds what the point before left.
theorem Phi_pos (c : Dev nD) (t : Fin cfg1.N) (hz : t.val ≠ 0) : (dat V c).Φ t.castSucc = inv c (outsAt V c (t.val - 1) (Nat.lt_of_le_of_lt (Nat.sub_le _ _) t.isLt)).2 := by
  obtain ⟨n, hn⟩ := t
  cases n with
  | zero => exact absurd rfl hz
  | succ n => rfl

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves_in (c : Dev nD) (t : Fin cfg1.N) :
    (dat V c).leavesExact 0 t = owns (c : Thread nD τ) (ms_0 t) fullShare (iblk V c 0 t)
    ∧ (dat V c).leavesExact 1 t = owns (c : Thread nD τ) (ms_1 t) fullShare (iblk V c 1 t)
    ∧ (dat V c).leavesExact 2 t = owns (c : Thread nD τ) (ms_2 t) fullShare (iblk V c 2 t)
    ∧ (dat V c).leavesExact 3 t = owns (c : Thread nD τ) (ms_3 t) fullShare (iblk V c 3 t) :=
  ⟨by unfold Dat.leavesExact; rw [live_0 t, after_0], by unfold Dat.leavesExact; rw [live_1 t, after_1],
   by unfold Dat.leavesExact; rw [live_2 t, after_2], by unfold Dat.leavesExact; rw [live_3 t, after_3]⟩

set_option maxHeartbeats 4800000 in
-- Each case's run takes the inputs' blocks and the scratch and hands the scratch back with stores that tile it.
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0_of V (dat V c) (A_eq V c 0) (after_0 V c), before_1_of V (dat V c) (A_eq V c 1) (after_1 V c),
    before_2_of V (dat V c) (A_eq V c 2) (after_2 V c), before_3_of V (dat V c) (A_eq V c 3) (after_3 V c)]
  rw [show (dat V c).owesAt () t.succ = (dat V c).owesAt () t.castSucc from rfl,
    show (dat V c).Φ t.succ = inv c (outsAt V c t.val t.isLt).2 from rfl,
    (leaves_in V c t).1, (leaves_in V c t).2.1, (leaves_in V c t).2.2.1, (leaves_in V c t).2.2.2]
  by_cases h0 : t.val % 8 = 0
  · have hL := notLast_of_first t h0
    rw [Dat.leavesExact_idle (dat V c) 4 t (idle_4 t hL) (noFlush_4 t hL), outsAt_first V c t h0, stepAt, dif_pos h0]
    refine (sep_mono_left (Phi_le V c _)).trans ?_
    rw [PhiA_eq]
    unfold sFirst inv; (try dsimp only)
    iintro ⟨⟨⟨HS, Hrest⟩, Hg⟩, Ho, ⟨%d0, H0⟩, ⟨%d1, H1⟩, ⟨%d2, H2⟩, ⟨%d3, H3⟩, ⟨%d4, H4⟩⟩
    iapply ((runFirst c (grid1.coords t) _ _ _ _ _ _ _ _ _ _ _ _ ((hcondFirst t).mpr h0) hL (iblk V c 0 t) (iblk V c 1 t) (iblk V c 2 t) (iblk V c 3 t)).2 _ Set.univ _)
    iframe H0 H1 H2 H3 H4 HS
    iintro ⟨H0, H1, H2, H3, H4, HS⟩
    iframe Hrest Hg Ho H0 H1 H2 H3
    isplitl [HS]
    · iapply owns_canon (tFirst ..); iexact HS
    iexists _; iexact H4
  · have hF : ¬condFirst (grid1.coords t) := fun h => h0 ((hcondFirst t).mp h)
    rw [Phi_pos V c t fun e => h0 (by rw [e])]
    by_cases h1 : t.val % 8 = 7
    · have hL := (hcondLast t).mpr h1
      rw [show (dat V c).leavesExact 4 t = owns (c : Thread nD τ) (ms_4 t) fullShare ((dat V c).after 4 t) from by
        unfold Dat.leavesExact; rw [live_4 t hL], after_4, outsAt_next V c t h0, stepAt, dif_neg h0, dif_pos h1]
      unfold oLast sLast inv; (try dsimp only)
      iintro ⟨⟨⟨HS, Hrest⟩, Hg⟩, Ho, ⟨%d0, H0⟩, ⟨%d1, H1⟩, ⟨%d2, H2⟩, ⟨%d3, H3⟩, ⟨%d4, H4⟩⟩
      iapply ((runLast c (grid1.coords t) _ _ _ _ _ _ _ _ _ _ _ _ hF hL (iblk V c 0 t) (iblk V c 1 t) (iblk V c 2 t) (iblk V c 3 t) _).2.2 Set.univ _)
      iframe H0 H1 H2 H3 HS
      isplitl [H4]; · iexists _; iexact H4
      iintro ⟨H0, H1, H2, H3, H4, HS⟩
      iframe Hrest Hg Ho H0 H1 H2 H3
      isplitl [HS]
      · iapply owns_canon (tLast ..); iexact HS
      iapply owns_canon (tOut ..); iexact H4
    · have hL : ¬condLast (grid1.coords t) := fun h => h1 ((hcondLast t).mp h)
      rw [Dat.leavesExact_idle (dat V c) 4 t (idle_4 t hL) (noFlush_4 t hL), outsAt_next V c t h0, stepAt, dif_neg h0, dif_neg h1]
      unfold sMid inv; (try dsimp only)
      iintro ⟨⟨⟨HS, Hrest⟩, Hg⟩, Ho, ⟨%d0, H0⟩, ⟨%d1, H1⟩, ⟨%d2, H2⟩, ⟨%d3, H3⟩, ⟨%d4, H4⟩⟩
      iapply ((runMid c (grid1.coords t) _ _ _ _ _ _ _ _ _ _ _ _ hF hL (iblk V c 0 t) (iblk V c 1 t) (iblk V c 2 t) (iblk V c 3 t) _).2 _ Set.univ _)
      iframe H0 H1 H2 H3 H4 HS
      iintro ⟨H0, H1, H2, H3, H4, HS⟩
      iframe Hrest Hg Ho H0 H1 H2 H3
      isplitl [HS]
      · iapply owns_canon (tMid ..); iexact HS
      iexists _; iexact H4

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := .rfl

theorem hout (c : Dev nD) : (dat V c).Φ (Fin.last cfg1.N) ⊢ Pipeline.ΦA spec1 c := Phi_le V c _

end Cert.KernelIdeal.R1

end
-- ==== Proof.KI.R2.Kit.lean ====
import proofs.«423092_j11149735100496_3_alg».proof.Proof.Gen.KernelIdeal.Launch
import proofs.«423092_j11149735100496_3_alg».proof.Proof.Gen.KernelIdeal.Skeleton
import proofs.«423092_j11149735100496_3_alg».proof.Proof.Gen.KernelIdeal.Points
import proofs.«423092_j11149735100496_3_alg».proof.Proof.Whole
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.R2

open Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F] [Named F]

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

section
variable {c : Dev nD} (dat : Dat τ (Elt F) Unit ℕ (UR sig nD τ) ℕ cfg2 c)

theorem before_0_of (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end

abbrev condFirst (i : grid2.Coords) : Prop := (Scalar.cmpi .ne (Scalar.extui (Scalar.cmpi .eq (BitVec.ofNat 32 (i 1).val) 0#32)) 0#32) = 1#1
theorem hcondFirst : ∀ t : Fin cfg2.N, condFirst (grid2.coords t) ↔ t.val % 8 = 0 := by decide +kernel

abbrev condLast (i : grid2.Coords) : Prop := k2_cond2 i = 1#1
theorem hcondLast : ∀ t : Fin cfg2.N, condLast (grid2.coords t) ↔ t.val % 8 = 7 := by decide +kernel

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
theorem live_3 : ∀ t : Fin cfg2.N, cfg2.idle 3 (grid2.coords t) = false := by decide +kernel

theorem idle_4 : ∀ t : Fin cfg2.N, ¬condLast (grid2.coords t) → cfg2.idle 4 (grid2.coords t) = true := by decide +kernel
theorem noFlush_4 : ∀ t : Fin cfg2.N, ¬condLast (grid2.coords t) → (cfg2.win 4).flush t = false := by decide +kernel

theorem live_4 : ∀ t : Fin cfg2.N, condLast (grid2.coords t) → cfg2.idle 4 (grid2.coords t) = false := by decide +kernel

abbrev ms_0 (t : Fin cfg2.N) : Memref sig .tc .vmem S1024x1024 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S1024x1024 .bf16 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S8x256 .i32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S1x256 .i32 := win2_3.stage (cfg2.slots t 3)
abbrev hs_3 (t : Fin cfg2.N) : (ms_3 t).IsWhole := hstage2_3 ((cfg2.slots t 3).cast nbuf2_3)
abbrev ms_4 (t : Fin cfg2.N) : Memref sig .tc .vmem S1024x256 .f32 := win2_4.stage (cfg2.slots t 4)
abbrev hs_4 (t : Fin cfg2.N) : (ms_4 t).IsWhole := hstage2_4 ((cfg2.slots t 4).cast nbuf2_4)

abbrev scM : Memref sig .tc .vmem S1024x256 .f32 := Memref.whole cc2_scratch0

theorem PhiA_eq (c : Dev nD) :
    (Pipeline.ΦA spec2 c : sProp (MT nD τ sig Unit (Elt F) ℕ (UR sig nD τ) ℕ))
      = iprop(iprop(iprop((∃ d, owns (c : Thread nD τ) scM fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM, owns_whole]; try rfl

end Cert.KernelIdeal.R2

end
-- ==== Proof.KI.R2.RunFirst.lean ====
import proofs.«423092_j11149735100496_3_alg».proof.Proof.KI.R2.Kit

namespace Cert.KernelIdeal.R2

open Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F] [Named F]

set_option maxHeartbeats 4000000 in
noncomputable def runFirst (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : condFirst i) (hc1 : ¬condLast i)
    (x0 : Vec F S1024x1024 .bf16) (x1 : Vec F S1024x1024 .bf16) (x2 : Vec F S8x256 .i32) (x3 : Vec F S1x256 .i32) :
    { LS : List (View.Piece (Elt F) S1024x256 .f32) //
      ∀ (x4 : Vec F S1024x256 .f32) (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ owns c arg6 fullShare x4 ∗ (∃ d, owns c arg7 fullShare d)
            ∗ (iprop(owns c arg2 fullShare x0 ∗ owns c arg3 fullShare x1 ∗ owns c arg4 fullShare x2 ∗ owns c arg5 fullShare x3 ∗ owns c arg6 fullShare x4
                ∗ (∃ f, arg7.view.loc c ↦[arg7.view.set]{fullShare} arg7.view.writes (Elt F) f LS)) -∗ K ⟨⟩))
          ⊢ wp frame (wpE (defs₀ (F := F)) Variants.none c none) E (cc2__layer_kernel i arg2 harg2 arg3 harg3 arg4 harg4 arg5 harg5 arg6 harg6 arg7 harg7) K } := by
  refine ⟨?_, fun x4 E K => ?run⟩
  case run =>
    simp only [cc2__layer_kernel_eq_skeleton]; unfold cc2__layer_kernel_skel
    simp only [k2_part1_eq_skeleton, k2_part2_eq_skeleton, k2_part3_eq_skeleton, k2_part4_eq_skeleton]
    unfold k2_part1_skel k2_part2_skel k2_part3_skel k2_part4_skel
    simp only [harg2.owns_eq, harg3.owns_eq, harg4.owns_eq, harg5.owns_eq, harg6.owns_eq, harg7.owns_eq]
    iintro ⟨H0, H1, H2, H3, H4, ⟨%d, HS⟩, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    iexists _; iexact HS

end Cert.KernelIdeal.R2
-- ==== Proof.KI.R2.RunMid.lean ====
import proofs.«423092_j11149735100496_3_alg».proof.Proof.KI.R2.Kit

namespace Cert.KernelIdeal.R2

open Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F] [Named F]

set_option maxHeartbeats 4000000 in
noncomputable def runMid (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : ¬condFirst i) (hc1 : ¬condLast i)
    (x0 : Vec F S1024x1024 .bf16) (x1 : Vec F S1024x1024 .bf16) (x2 : Vec F S8x256 .i32) (x3 : Vec F S1x256 .i32) (xs : Vec F S1024x256 .f32) :
    { LS : List (View.Piece (Elt F) S1024x256 .f32) //
      ∀ (x4 : Vec F S1024x256 .f32) (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ owns c arg6 fullShare x4 ∗ owns c arg7 fullShare xs
            ∗ (iprop(owns c arg2 fullShare x0 ∗ owns c arg3 fullShare x1 ∗ owns c arg4 fullShare x2 ∗ owns c arg5 fullShare x3 ∗ owns c arg6 fullShare x4
                ∗ (∃ f, arg7.view.loc c ↦[arg7.view.set]{fullShare} arg7.view.writes (Elt F) f LS)) -∗ K ⟨⟩))
          ⊢ wp frame (wpE (defs₀ (F := F)) Variants.none c none) E (cc2__layer_kernel i arg2 harg2 arg3 harg3 arg4 harg4 arg5 harg5 arg6 harg6 arg7 harg7) K } := by
  refine ⟨?_, fun x4 E K => ?run⟩
  case run =>
    simp only [cc2__layer_kernel_eq_skeleton]; unfold cc2__layer_kernel_skel
    simp only [k2_part1_eq_skeleton, k2_part2_eq_skeleton, k2_part3_eq_skeleton, k2_part4_eq_skeleton]
    unfold k2_part1_skel k2_part2_skel k2_part3_skel k2_part4_skel
    simp only [harg2.owns_eq, harg3.owns_eq, harg4.owns_eq, harg5.owns_eq, harg6.owns_eq, harg7.owns_eq]
    iintro ⟨H0, H1, H2, H3, H4, HS, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    iexists _; iexact HS

end Cert.KernelIdeal.R2
-- ==== Proof.KI.R2.RunLast.lean ====
import proofs.«423092_j11149735100496_3_alg».proof.Proof.KI.R2.Kit

namespace Cert.KernelIdeal.R2

open Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F] [Named F]

set_option maxHeartbeats 4000000 in
noncomputable def runLast (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : ¬condFirst i) (hc1 : condLast i)
    (x0 : Vec F S1024x1024 .bf16) (x1 : Vec F S1024x1024 .bf16) (x2 : Vec F S8x256 .i32) (x3 : Vec F S1x256 .i32) (xs : Vec F S1024x256 .f32) :
    Σ' (L4 : List (View.Piece (Elt F) S1024x256 .f32)), { LS : List (View.Piece (Elt F) S1024x256 .f32) //
      ∀ (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ (∃ d, owns c arg6 fullShare d) ∗ owns c arg7 fullShare xs
            ∗ (iprop(owns c arg2 fullShare x0 ∗ owns c arg3 fullShare x1 ∗ owns c arg4 fullShare x2 ∗ owns c arg5 fullShare x3
                ∗ (∃ f, arg6.view.loc c ↦[arg6.view.set]{fullShare} arg6.view.writes (Elt F) f L4)
                ∗ (∃ f, arg7.view.loc c ↦[arg7.view.set]{fullShare} arg7.view.writes (Elt F) f LS)) -∗ K ⟨⟩))
          ⊢ wp frame (wpE (defs₀ (F := F)) Variants.none c none) E (cc2__layer_kernel i arg2 harg2 arg3 harg3 arg4 harg4 arg5 harg5 arg6 harg6 arg7 harg7) K } := by
  refine ⟨?_, ?_, fun E K => ?run⟩
  case run =>
    simp only [cc2__layer_kernel_eq_skeleton]; unfold cc2__layer_kernel_skel
    simp only [k2_part1_eq_skeleton, k2_part2_eq_skeleton, k2_part3_eq_skeleton, k2_part4_eq_skeleton]
    unfold k2_part1_skel k2_part2_skel k2_part3_skel k2_part4_skel
    simp only [harg2.owns_eq, harg3.owns_eq, harg4.owns_eq, harg5.owns_eq, harg6.owns_eq, harg7.owns_eq]
    iintro ⟨H0, H1, H2, H3, ⟨%d, H4⟩, HS, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexists _; iexact H4
    iexists _; iexact HS

end Cert.KernelIdeal.R2
-- ==== Proof.KI.R2.Dat.lean ====
import proofs.«423092_j11149735100496_3_alg».proof.Proof.KI.R2.RunFirst
import proofs.«423092_j11149735100496_3_alg».proof.Proof.KI.R2.RunMid
import proofs.«423092_j11149735100496_3_alg».proof.Proof.KI.R2.RunLast

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

section
variable (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole)
  (hF : condFirst i) (hnF : ¬condFirst i) (hL : condLast i) (hnL : ¬condLast i)
  (x0 : Vec F S1024x1024 .bf16) (x1 : Vec F S1024x1024 .bf16) (x2 : Vec F S8x256 .i32) (x3 : Vec F S1x256 .i32) (xs : Vec F S1024x256 .f32)

def sFirst : Vec F S1024x256 .f32 := View.canon (runFirst c i arg2 harg2 arg3 harg3 arg4 harg4 arg5 harg5 arg6 harg6 arg7 harg7 hF hnL x0 x1 x2 x3).1
def sMid : Vec F S1024x256 .f32 := View.canon (runMid c i arg2 harg2 arg3 harg3 arg4 harg4 arg5 harg5 arg6 harg6 arg7 harg7 hnF hnL x0 x1 x2 x3 xs).1
def oLast : Vec F S1024x256 .f32 := View.canon (runLast c i arg2 harg2 arg3 harg3 arg4 harg4 arg5 harg5 arg6 harg6 arg7 harg7 hnF hL x0 x1 x2 x3 xs).1
def sLast : Vec F S1024x256 .f32 := View.canon (runLast c i arg2 harg2 arg3 harg3 arg4 harg4 arg5 harg5 arg6 harg6 arg7 harg7 hnF hL x0 x1 x2 x3 xs).2.1

theorem tFirst : View.Piece.tiledL (runFirst c i arg2 harg2 arg3 harg3 arg4 harg4 arg5 harg5 arg6 harg6 arg7 harg7 hF hnL x0 x1 x2 x3).1 S1024x256.size = true := by sl_kernel_rfl
theorem tMid : View.Piece.tiledL (runMid c i arg2 harg2 arg3 harg3 arg4 harg4 arg5 harg5 arg6 harg6 arg7 harg7 hnF hnL x0 x1 x2 x3 xs).1 S1024x256.size = true := by sl_kernel_rfl
theorem tOut : View.Piece.tiledL (runLast c i arg2 harg2 arg3 harg3 arg4 harg4 arg5 harg5 arg6 harg6 arg7 harg7 hnF hL x0 x1 x2 x3 xs).1 S1024x256.size = true := by sl_kernel_rfl
theorem tLast : View.Piece.tiledL (runLast c i arg2 harg2 arg3 harg3 arg4 harg4 arg5 harg5 arg6 harg6 arg7 harg7 hnF hL x0 x1 x2 x3 xs).2.1 S1024x256.size = true := by sl_kernel_rfl
end

-- Stores that tile a buffer leave it at their canon, whatever it held: every index is covered.
theorem owns_canon {c : Dev nD} {M : Memref sig .tc .vmem S1024x256 .f32} {L : List (View.Piece (Elt F) S1024x256 .f32)}
    (hL : View.Piece.tiledL L S1024x256.size = true) :
    (iprop(∃ f, M.view.loc (c : Thread nD τ) ↦[M.view.set]{fullShare} M.view.writes (Elt F) f L) : sProp 𝕄) ⊢ owns (c : Thread nD τ) M fullShare (View.canon L) := by
  iintro ⟨%f, H⟩; unfold owns; iexists M.view.writes (Elt F) f L; isplitr
  · ipureintro; exact View.read_writes_eq_canon _ _ _ (View.cover_of_tiledL L _ hL)
  · iexact H

theorem notLast_of_first (t : Fin cfg2.N) (h0 : t.val % 8 = 0) : ¬condLast (grid2.coords t) :=
  fun h => by have := (hcondLast t).mp h; omega

-- What point t leaves in the output block's buffer and in the scratch, given what the point before left in the scratch.
def stepAt (c : Dev nD) (t : Fin cfg2.N) (xs : Vec F S1024x256 .f32) : Vec F S1024x256 .f32 × Vec F S1024x256 .f32 :=
  if h0 : t.val % 8 = 0 then
    (View.canon [], sFirst c (grid2.coords t) (ms_0 t) (hs_0 t) (ms_1 t) (hs_1 t) (ms_2 t) (hs_2 t) (ms_3 t) (hs_3 t) (ms_4 t) (hs_4 t) scM (Memref.isWhole_whole _) ((hcondFirst t).mpr h0) (notLast_of_first t h0) (iblk V c 0 t) (iblk V c 1 t) (iblk V c 2 t) (iblk V c 3 t))
  else if h1 : t.val % 8 = 7 then
    (oLast c (grid2.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (iblk V c 3 t) xs,
      sLast c (grid2.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (iblk V c 3 t) xs)
  else
    (View.canon [], sMid c (grid2.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h1 ((hcondLast t).mp h)) (iblk V c 0 t) (iblk V c 1 t) (iblk V c 2 t) (iblk V c 3 t) xs)

def outsAt (c : Dev nD) : (n : ℕ) → n < cfg2.N → Vec F S1024x256 .f32 × Vec F S1024x256 .f32
  | 0, hn => stepAt V c ⟨0, hn⟩ (View.canon [])
  | n + 1, hn => stepAt V c ⟨n + 1, hn⟩ (outsAt c n (Nat.lt_of_succ_lt hn)).2

-- A block's first point does not read the scratch; every other point steps from what the point before left.
theorem outsAt_first (c : Dev nD) (t : Fin cfg2.N) (h0 : t.val % 8 = 0) :
    outsAt V c t.val t.isLt = stepAt V c t (View.canon []) := by
  obtain ⟨n, hn⟩ := t
  cases n with
  | zero => rfl
  | succ n => exact (dif_pos h0).trans (dif_pos h0 : stepAt V c ⟨n + 1, hn⟩ (View.canon []) = _).symm

theorem outsAt_next (c : Dev nD) (t : Fin cfg2.N) (h0 : ¬t.val % 8 = 0) :
    outsAt V c t.val t.isLt = stepAt V c t (outsAt V c (t.val - 1) (Nat.lt_of_le_of_lt (Nat.sub_le _ _) t.isLt)).2 := by
  obtain ⟨n, hn⟩ := t
  cases n with
  | zero => exact absurd (Nat.zero_mod _) h0
  | succ n => rfl

-- The invariant with the scratch holding x.
def inv (c : Dev nD) (x : Vec F S1024x256 .f32) : sProp 𝕄 :=
  iprop(iprop(owns (c : Thread nD τ) scM fullShare x ∗ Pipeline.scopedRestBut (Ix := Unit) (Name := ℕ) (U := UR sig nD τ) (Lvl := ℕ) (Val := Elt F) spec2 c [cc2_scratch0]) ∗ (∃ r, prngReg c r))

-- Forgetting the scratch's contents gives back what the region handed over.
theorem inv_le (c : Dev nD) (x : Vec F S1024x256 .f32) : inv c x ⊢ Pipeline.ΦA spec2 c := by
  rw [PhiA_eq]; unfold inv
  iintro ⟨⟨HS, Hrest⟩, Hg⟩
  iframe Hrest Hg
  iexists _; iexact HS

def PhiS (c : Dev nD) : (n : ℕ) → n ≤ cfg2.N → sProp 𝕄
  | 0, _ => Pipeline.ΦA spec2 c
  | n + 1, hn => inv c (outsAt V c n hn).2

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = (outsAt V c t.val t.isLt).1 := by dsimp only [dat]

-- Before any point the invariant holds the scratch at some contents.
theorem Phi_le (c : Dev nD) (t : Fin (cfg2.N + 1)) : (dat V c).Φ t ⊢ Pipeline.ΦA spec2 c := by
  obtain ⟨n, hn⟩ := t
  cases n with
  | zero => exact .rfl
  | succ n => exact inv_le c _

-- After the first point the scratch holds what the point before left.
theorem Phi_pos (c : Dev nD) (t : Fin cfg2.N) (hz : t.val ≠ 0) : (dat V c).Φ t.castSucc = inv c (outsAt V c (t.val - 1) (Nat.lt_of_le_of_lt (Nat.sub_le _ _) t.isLt)).2 := by
  obtain ⟨n, hn⟩ := t
  cases n with
  | zero => exact absurd rfl hz
  | succ n => rfl

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves_in (c : Dev nD) (t : Fin cfg2.N) :
    (dat V c).leavesExact 0 t = owns (c : Thread nD τ) (ms_0 t) fullShare (iblk V c 0 t)
    ∧ (dat V c).leavesExact 1 t = owns (c : Thread nD τ) (ms_1 t) fullShare (iblk V c 1 t)
    ∧ (dat V c).leavesExact 2 t = owns (c : Thread nD τ) (ms_2 t) fullShare (iblk V c 2 t)
    ∧ (dat V c).leavesExact 3 t = owns (c : Thread nD τ) (ms_3 t) fullShare (iblk V c 3 t) :=
  ⟨by unfold Dat.leavesExact; rw [live_0 t, after_0], by unfold Dat.leavesExact; rw [live_1 t, after_1],
   by unfold Dat.leavesExact; rw [live_2 t, after_2], by unfold Dat.leavesExact; rw [live_3 t, after_3]⟩

set_option maxHeartbeats 4800000 in
-- Each case's run takes the inputs' blocks and the scratch and hands the scratch back with stores that tile it.
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0_of V (dat V c) (A_eq V c 0) (after_0 V c), before_1_of V (dat V c) (A_eq V c 1) (after_1 V c),
    before_2_of V (dat V c) (A_eq V c 2) (after_2 V c), before_3_of V (dat V c) (A_eq V c 3) (after_3 V c)]
  rw [show (dat V c).owesAt () t.succ = (dat V c).owesAt () t.castSucc from rfl,
    show (dat V c).Φ t.succ = inv c (outsAt V c t.val t.isLt).2 from rfl,
    (leaves_in V c t).1, (leaves_in V c t).2.1, (leaves_in V c t).2.2.1, (leaves_in V c t).2.2.2]
  by_cases h0 : t.val % 8 = 0
  · have hL := notLast_of_first t h0
    rw [Dat.leavesExact_idle (dat V c) 4 t (idle_4 t hL) (noFlush_4 t hL), outsAt_first V c t h0, stepAt, dif_pos h0]
    refine (sep_mono_left (Phi_le V c _)).trans ?_
    rw [PhiA_eq]
    unfold sFirst inv; (try dsimp only)
    iintro ⟨⟨⟨HS, Hrest⟩, Hg⟩, Ho, ⟨%d0, H0⟩, ⟨%d1, H1⟩, ⟨%d2, H2⟩, ⟨%d3, H3⟩, ⟨%d4, H4⟩⟩
    iapply ((runFirst c (grid2.coords t) _ _ _ _ _ _ _ _ _ _ _ _ ((hcondFirst t).mpr h0) hL (iblk V c 0 t) (iblk V c 1 t) (iblk V c 2 t) (iblk V c 3 t)).2 _ Set.univ _)
    iframe H0 H1 H2 H3 H4 HS
    iintro ⟨H0, H1, H2, H3, H4, HS⟩
    iframe Hrest Hg Ho H0 H1 H2 H3
    isplitl [HS]
    · iapply owns_canon (tFirst ..); iexact HS
    iexists _; iexact H4
  · have hF : ¬condFirst (grid2.coords t) := fun h => h0 ((hcondFirst t).mp h)
    rw [Phi_pos V c t fun e => h0 (by rw [e])]
    by_cases h1 : t.val % 8 = 7
    · have hL := (hcondLast t).mpr h1
      rw [show (dat V c).leavesExact 4 t = owns (c : Thread nD τ) (ms_4 t) fullShare ((dat V c).after 4 t) from by
        unfold Dat.leavesExact; rw [live_4 t hL], after_4, outsAt_next V c t h0, stepAt, dif_neg h0, dif_pos h1]
      unfold oLast sLast inv; (try dsimp only)
      iintro ⟨⟨⟨HS, Hrest⟩, Hg⟩, Ho, ⟨%d0, H0⟩, ⟨%d1, H1⟩, ⟨%d2, H2⟩, ⟨%d3, H3⟩, ⟨%d4, H4⟩⟩
      iapply ((runLast c (grid2.coords t) _ _ _ _ _ _ _ _ _ _ _ _ hF hL (iblk V c 0 t) (iblk V c 1 t) (iblk V c 2 t) (iblk V c 3 t) _).2.2 Set.univ _)
      iframe H0 H1 H2 H3 HS
      isplitl [H4]; · iexists _; iexact H4
      iintro ⟨H0, H1, H2, H3, H4, HS⟩
      iframe Hrest Hg Ho H0 H1 H2 H3
      isplitl [HS]
      · iapply owns_canon (tLast ..); iexact HS
      iapply owns_canon (tOut ..); iexact H4
    · have hL : ¬condLast (grid2.coords t) := fun h => h1 ((hcondLast t).mp h)
      rw [Dat.leavesExact_idle (dat V c) 4 t (idle_4 t hL) (noFlush_4 t hL), outsAt_next V c t h0, stepAt, dif_neg h0, dif_neg h1]
      unfold sMid inv; (try dsimp only)
      iintro ⟨⟨⟨HS, Hrest⟩, Hg⟩, Ho, ⟨%d0, H0⟩, ⟨%d1, H1⟩, ⟨%d2, H2⟩, ⟨%d3, H3⟩, ⟨%d4, H4⟩⟩
      iapply ((runMid c (grid2.coords t) _ _ _ _ _ _ _ _ _ _ _ _ hF hL (iblk V c 0 t) (iblk V c 1 t) (iblk V c 2 t) (iblk V c 3 t) _).2 _ Set.univ _)
      iframe H0 H1 H2 H3 H4 HS
      iintro ⟨H0, H1, H2, H3, H4, HS⟩
      iframe Hrest Hg Ho H0 H1 H2 H3
      isplitl [HS]
      · iapply owns_canon (tMid ..); iexact HS
      iexists _; iexact H4

theorem body_obligation (c : Dev nD) : BodyObligation (dat (F := F) V c) (defs₀ (F := F)) Variants.none () Set.univ := fun t => by
  rw [bigSep_W2, bigSep_W2]
  exact sound_body V c t

theorem hin (c : Dev nD) : Pipeline.ΦA spec2 c ⊢ (dat V c).Φ 0 := .rfl

theorem hout (c : Dev nD) : (dat V c).Φ (Fin.last cfg2.N) ⊢ Pipeline.ΦA spec2 c := Phi_le V c _

end Cert.KernelIdeal.R2

end
-- ==== Proof.KI.R3.Kit.lean ====
import proofs.«423092_j11149735100496_3_alg».proof.Proof.Gen.KernelIdeal.Launch
import proofs.«423092_j11149735100496_3_alg».proof.Proof.Gen.KernelIdeal.Skeleton
import proofs.«423092_j11149735100496_3_alg».proof.Proof.Gen.KernelIdeal.Points
import proofs.«423092_j11149735100496_3_alg».proof.Proof.Whole
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.R3

open Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F] [Named F]

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

section
variable {c : Dev nD} (dat : Dat τ (Elt F) Unit ℕ (UR sig nD τ) ℕ cfg3 c)

theorem before_0_of (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end

abbrev condFirst (i : grid3.Coords) : Prop := (Scalar.cmpi .ne (Scalar.extui (Scalar.cmpi .eq (BitVec.ofNat 32 (i 1).val) 0#32)) 0#32) = 1#1
theorem hcondFirst : ∀ t : Fin cfg3.N, condFirst (grid3.coords t) ↔ t.val % 8 = 0 := by decide +kernel

abbrev condLast (i : grid3.Coords) : Prop := k3_cond2 i = 1#1
theorem hcondLast : ∀ t : Fin cfg3.N, condLast (grid3.coords t) ↔ t.val % 8 = 7 := by decide +kernel

theorem live_0 : ∀ t : Fin cfg3.N, cfg3.idle 0 (grid3.coords t) = false := by decide +kernel
theorem live_1 : ∀ t : Fin cfg3.N, cfg3.idle 1 (grid3.coords t) = false := by decide +kernel
theorem live_2 : ∀ t : Fin cfg3.N, cfg3.idle 2 (grid3.coords t) = false := by decide +kernel
theorem live_3 : ∀ t : Fin cfg3.N, cfg3.idle 3 (grid3.coords t) = false := by decide +kernel

theorem idle_4 : ∀ t : Fin cfg3.N, ¬condLast (grid3.coords t) → cfg3.idle 4 (grid3.coords t) = true := by decide +kernel
theorem noFlush_4 : ∀ t : Fin cfg3.N, ¬condLast (grid3.coords t) → (cfg3.win 4).flush t = false := by decide +kernel

theorem live_4 : ∀ t : Fin cfg3.N, condLast (grid3.coords t) → cfg3.idle 4 (grid3.coords t) = false := by decide +kernel

abbrev ms_0 (t : Fin cfg3.N) : Memref sig .tc .vmem S1024x2048 .bf16 := win3_0.stage (cfg3.slots t 0)
abbrev hs_0 (t : Fin cfg3.N) : (ms_0 t).IsWhole := hstage3_0 ((cfg3.slots t 0).cast nbuf3_0)
abbrev ms_1 (t : Fin cfg3.N) : Memref sig .tc .vmem S1024x2048 .bf16 := win3_1.stage (cfg3.slots t 1)
abbrev hs_1 (t : Fin cfg3.N) : (ms_1 t).IsWhole := hstage3_1 ((cfg3.slots t 1).cast nbuf3_1)
abbrev ms_2 (t : Fin cfg3.N) : Memref sig .tc .vmem S8x256 .i32 := win3_2.stage (cfg3.slots t 2)
abbrev hs_2 (t : Fin cfg3.N) : (ms_2 t).IsWhole := hstage3_2 ((cfg3.slots t 2).cast nbuf3_2)
abbrev ms_3 (t : Fin cfg3.N) : Memref sig .tc .vmem S1x256 .i32 := win3_3.stage (cfg3.slots t 3)
abbrev hs_3 (t : Fin cfg3.N) : (ms_3 t).IsWhole := hstage3_3 ((cfg3.slots t 3).cast nbuf3_3)
abbrev ms_4 (t : Fin cfg3.N) : Memref sig .tc .vmem S1024x256 .f32 := win3_4.stage (cfg3.slots t 4)
abbrev hs_4 (t : Fin cfg3.N) : (ms_4 t).IsWhole := hstage3_4 ((cfg3.slots t 4).cast nbuf3_4)

abbrev scM : Memref sig .tc .vmem S1024x256 .f32 := Memref.whole cc3_scratch0

theorem PhiA_eq (c : Dev nD) :
    (Pipeline.ΦA spec3 c : sProp (MT nD τ sig Unit (Elt F) ℕ (UR sig nD τ) ℕ))
      = iprop(iprop(iprop((∃ d, owns (c : Thread nD τ) scM fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM, owns_whole]; try rfl

end Cert.KernelIdeal.R3

end
-- ==== Proof.KI.R3.RunFirst.lean ====
import proofs.«423092_j11149735100496_3_alg».proof.Proof.KI.R3.Kit

namespace Cert.KernelIdeal.R3

open Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F] [Named F]

set_option maxHeartbeats 4000000 in
noncomputable def runFirst (c : Dev nD) (i : grid3.Coords) (arg2 : Memref sig .tc .vmem S1024x2048 .bf16) (harg2 : arg2.IsWhole) (arg3 : Memref sig .tc .vmem S1024x2048 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : condFirst i) (hc1 : ¬condLast i)
    (x0 : Vec F S1024x2048 .bf16) (x1 : Vec F S1024x2048 .bf16) (x2 : Vec F S8x256 .i32) (x3 : Vec F S1x256 .i32) :
    { LS : List (View.Piece (Elt F) S1024x256 .f32) //
      ∀ (x4 : Vec F S1024x256 .f32) (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ owns c arg6 fullShare x4 ∗ (∃ d, owns c arg7 fullShare d)
            ∗ (iprop(owns c arg2 fullShare x0 ∗ owns c arg3 fullShare x1 ∗ owns c arg4 fullShare x2 ∗ owns c arg5 fullShare x3 ∗ owns c arg6 fullShare x4
                ∗ (∃ f, arg7.view.loc c ↦[arg7.view.set]{fullShare} arg7.view.writes (Elt F) f LS)) -∗ K ⟨⟩))
          ⊢ wp frame (wpE (defs₀ (F := F)) Variants.none c none) E (cc3__layer_kernel i arg2 harg2 arg3 harg3 arg4 harg4 arg5 harg5 arg6 harg6 arg7 harg7) K } := by
  refine ⟨?_, fun x4 E K => ?run⟩
  case run =>
    simp only [cc3__layer_kernel_eq_skeleton]; unfold cc3__layer_kernel_skel
    simp only [k3_part1_eq_skeleton, k3_part2_eq_skeleton, k3_part3_eq_skeleton, k3_part4_eq_skeleton]
    unfold k3_part1_skel k3_part2_skel k3_part3_skel k3_part4_skel
    simp only [harg2.owns_eq, harg3.owns_eq, harg4.owns_eq, harg5.owns_eq, harg6.owns_eq, harg7.owns_eq]
    iintro ⟨H0, H1, H2, H3, H4, ⟨%d, HS⟩, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    iexists _; iexact HS

end Cert.KernelIdeal.R3
-- ==== Proof.KI.R3.RunMid.lean ====
import proofs.«423092_j11149735100496_3_alg».proof.Proof.KI.R3.Kit

namespace Cert.KernelIdeal.R3

open Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F] [Named F]

set_option maxHeartbeats 4000000 in
noncomputable def runMid (c : Dev nD) (i : grid3.Coords) (arg2 : Memref sig .tc .vmem S1024x2048 .bf16) (harg2 : arg2.IsWhole) (arg3 : Memref sig .tc .vmem S1024x2048 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : ¬condFirst i) (hc1 : ¬condLast i)
    (x0 : Vec F S1024x2048 .bf16) (x1 : Vec F S1024x2048 .bf16) (x2 : Vec F S8x256 .i32) (x3 : Vec F S1x256 .i32) (xs : Vec F S1024x256 .f32) :
    { LS : List (View.Piece (Elt F) S1024x256 .f32) //
      ∀ (x4 : Vec F S1024x256 .f32) (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ owns c arg6 fullShare x4 ∗ owns c arg7 fullShare xs
            ∗ (iprop(owns c arg2 fullShare x0 ∗ owns c arg3 fullShare x1 ∗ owns c arg4 fullShare x2 ∗ owns c arg5 fullShare x3 ∗ owns c arg6 fullShare x4
                ∗ (∃ f, arg7.view.loc c ↦[arg7.view.set]{fullShare} arg7.view.writes (Elt F) f LS)) -∗ K ⟨⟩))
          ⊢ wp frame (wpE (defs₀ (F := F)) Variants.none c none) E (cc3__layer_kernel i arg2 harg2 arg3 harg3 arg4 harg4 arg5 harg5 arg6 harg6 arg7 harg7) K } := by
  refine ⟨?_, fun x4 E K => ?run⟩
  case run =>
    simp only [cc3__layer_kernel_eq_skeleton]; unfold cc3__layer_kernel_skel
    simp only [k3_part1_eq_skeleton, k3_part2_eq_skeleton, k3_part3_eq_skeleton, k3_part4_eq_skeleton]
    unfold k3_part1_skel k3_part2_skel k3_part3_skel k3_part4_skel
    simp only [harg2.owns_eq, harg3.owns_eq, harg4.owns_eq, harg5.owns_eq, harg6.owns_eq, harg7.owns_eq]
    iintro ⟨H0, H1, H2, H3, H4, HS, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    iexists _; iexact HS

end Cert.KernelIdeal.R3
-- ==== Proof.KI.R3.RunLast.lean ====
import proofs.«423092_j11149735100496_3_alg».proof.Proof.KI.R3.Kit

namespace Cert.KernelIdeal.R3

open Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F] [Named F]

set_option maxHeartbeats 4000000 in
noncomputable def runLast (c : Dev nD) (i : grid3.Coords) (arg2 : Memref sig .tc .vmem S1024x2048 .bf16) (harg2 : arg2.IsWhole) (arg3 : Memref sig .tc .vmem S1024x2048 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole) (hc0 : ¬condFirst i) (hc1 : condLast i)
    (x0 : Vec F S1024x2048 .bf16) (x1 : Vec F S1024x2048 .bf16) (x2 : Vec F S8x256 .i32) (x3 : Vec F S1x256 .i32) (xs : Vec F S1024x256 .f32) :
    Σ' (L4 : List (View.Piece (Elt F) S1024x256 .f32)), { LS : List (View.Piece (Elt F) S1024x256 .f32) //
      ∀ (E : Set ℕ) (K : PUnit → sProp (MT nD τ sig Unit (Elt F) ℕ (UR sig nD τ) ℕ)),
        iprop(owns c arg2 fullShare x0 ∗ owns c arg3 fullShare x1 ∗ owns c arg4 fullShare x2 ∗ owns c arg5 fullShare x3 ∗ (∃ d, owns c arg6 fullShare d) ∗ owns c arg7 fullShare xs
            ∗ (iprop(owns c arg2 fullShare x0 ∗ owns c arg3 fullShare x1 ∗ owns c arg4 fullShare x2 ∗ owns c arg5 fullShare x3
                ∗ (∃ f, arg6.view.loc c ↦[arg6.view.set]{fullShare} arg6.view.writes (Elt F) f L4)
                ∗ (∃ f, arg7.view.loc c ↦[arg7.view.set]{fullShare} arg7.view.writes (Elt F) f LS)) -∗ K ⟨⟩))
          ⊢ wp frame (wpE (defs₀ (F := F)) Variants.none c none) E (cc3__layer_kernel i arg2 harg2 arg3 harg3 arg4 harg4 arg5 harg5 arg6 harg6 arg7 harg7) K } := by
  refine ⟨?_, ?_, fun E K => ?run⟩
  case run =>
    simp only [cc3__layer_kernel_eq_skeleton]; unfold cc3__layer_kernel_skel
    simp only [k3_part1_eq_skeleton, k3_part2_eq_skeleton, k3_part3_eq_skeleton, k3_part4_eq_skeleton]
    unfold k3_part1_skel k3_part2_skel k3_part3_skel k3_part4_skel
    simp only [harg2.owns_eq, harg3.owns_eq, harg4.owns_eq, harg5.owns_eq, harg6.owns_eq, harg7.owns_eq]
    iintro ⟨H0, H1, H2, H3, ⟨%d, H4⟩, HS, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexists _; iexact H4
    iexists _; iexact HS

end Cert.KernelIdeal.R3
-- ==== Proof.KI.R3.Dat.lean ====
import proofs.«423092_j11149735100496_3_alg».proof.Proof.KI.R3.RunFirst
import proofs.«423092_j11149735100496_3_alg».proof.Proof.KI.R3.RunMid
import proofs.«423092_j11149735100496_3_alg».proof.Proof.KI.R3.RunLast

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

section
variable (c : Dev nD) (i : grid3.Coords) (arg2 : Memref sig .tc .vmem S1024x2048 .bf16) (harg2 : arg2.IsWhole) (arg3 : Memref sig .tc .vmem S1024x2048 .bf16) (harg3 : arg3.IsWhole) (arg4 : Memref sig .tc .vmem S8x256 .i32) (harg4 : arg4.IsWhole) (arg5 : Memref sig .tc .vmem S1x256 .i32) (harg5 : arg5.IsWhole) (arg6 : Memref sig .tc .vmem S1024x256 .f32) (harg6 : arg6.IsWhole) (arg7 : Memref sig .tc .vmem S1024x256 .f32) (harg7 : arg7.IsWhole)
  (hF : condFirst i) (hnF : ¬condFirst i) (hL : condLast i) (hnL : ¬condLast i)
  (x0 : Vec F S1024x2048 .bf16) (x1 : Vec F S1024x2048 .bf16) (x2 : Vec F S8x256 .i32) (x3 : Vec F S1x256 .i32) (xs : Vec F S1024x256 .f32)

def sFirst : Vec F S1024x256 .f32 := View.canon (runFirst c i arg2 harg2 arg3 harg3 arg4 harg4 arg5 harg5 arg6 harg6 arg7 harg7 hF hnL x0 x1 x2 x3).1
def sMid : Vec F S1024x256 .f32 := View.canon (runMid c i arg2 harg2 arg3 harg3 arg4 harg4 arg5 harg5 arg6 harg6 arg7 harg7 hnF hnL x0 x1 x2 x3 xs).1
def oLast : Vec F S1024x256 .f32 := View.canon (runLast c i arg2 harg2 arg3 harg3 arg4 harg4 arg5 harg5 arg6 harg6 arg7 harg7 hnF hL x0 x1 x2 x3 xs).1
def sLast : Vec F S1024x256 .f32 := View.canon (runLast c i arg2 harg2 arg3 harg3 arg4 harg4 arg5 harg5 arg6 harg6 arg7 harg7 hnF hL x0 x1 x2 x3 xs).2.1

theorem tFirst : View.Piece.tiledL (runFirst c i arg2 harg2 arg3 harg3 arg4 harg4 arg5 harg5 arg6 harg6 arg7 harg7 hF hnL x0 x1 x2 x3).1 S1024x256.size = true := by sl_kernel_rfl
theorem tMid : View.Piece.tiledL (runMid c i arg2 harg2 arg3 harg3 arg4 harg4 arg5 harg5 arg6 harg6 arg7 harg7 hnF hnL x0 x1 x2 x3 xs).1 S1024x256.size = true := by sl_kernel_rfl
theorem tOut : View.Piece.tiledL (runLast c i arg2 harg2 arg3 harg3 arg4 harg4 arg5 harg5 arg6 harg6 arg7 harg7 hnF hL x0 x1 x2 x3 xs).1 S1024x256.size = true := by sl_kernel_rfl
theorem tLast : View.Piece.tiledL (runLast c i arg2 harg2 arg3 harg3 arg4 harg4 arg5 harg5 arg6 harg6 arg7 harg7 hnF hL x0 x1 x2 x3 xs).2.1 S1024x256.size = true := by sl_kernel_rfl
end

-- Stores that tile a buffer leave it at their canon, whatever it held: every index is covered.
theorem owns_canon {c : Dev nD} {M : Memref sig .tc .vmem S1024x256 .f32} {L : List (View.Piece (Elt F) S1024x256 .f32)}
    (hL : View.Piece.tiledL L S1024x256.size = true) :
    (iprop(∃ f, M.view.loc (c : Thread nD τ) ↦[M.view.set]{fullShare} M.view.writes (Elt F) f L) : sProp 𝕄) ⊢ owns (c : Thread nD τ) M fullShare (View.canon L) := by
  iintro ⟨%f, H⟩; unfold owns; iexists M.view.writes (Elt F) f L; isplitr
  · ipureintro; exact View.read_writes_eq_canon _ _ _ (View.cover_of_tiledL L _ hL)
  · iexact H

theorem notLast_of_first (t : Fin cfg3.N) (h0 : t.val % 8 = 0) : ¬condLast (grid3.coords t) :=
  fun h => by have := (hcondLast t).mp h; omega

-- What point t leaves in the output block's buffer and in the scratch, given what the point before left in the scratch.
def stepAt (c : Dev nD) (t : Fin cfg3.N) (xs : Vec F S1024x256 .f32) : Vec F S1024x256 .f32 × Vec F S1024x256 .f32 :=
  if h0 : t.val % 8 = 0 then
    (View.canon [], sFirst c (grid3.coords t) (ms_0 t) (hs_0 t) (ms_1 t) (hs_1 t) (ms_2 t) (hs_2 t) (ms_3 t) (hs_3 t) (ms_4 t) (hs_4 t) scM (Memref.isWhole_whole _) ((hcondFirst t).mpr h0) (notLast_of_first t h0) (iblk V c 0 t) (iblk V c 1 t) (iblk V c 2 t) (iblk V c 3 t))
  else if h1 : t.val % 8 = 7 then
    (oLast c (grid3.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (iblk V c 3 t) xs,
      sLast c (grid3.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (iblk V c 3 t) xs)
  else
    (View.canon [], sMid c (grid3.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h1 ((hcondLast t).mp h)) (iblk V c 0 t) (iblk V c 1 t) (iblk V c 2 t) (iblk V c 3 t) xs)

def outsAt (c : Dev nD) : (n : ℕ) → n < cfg3.N → Vec F S1024x256 .f32 × Vec F S1024x256 .f32
  | 0, hn => stepAt V c ⟨0, hn⟩ (View.canon [])
  | n + 1, hn => stepAt V c ⟨n + 1, hn⟩ (outsAt c n (Nat.lt_of_succ_lt hn)).2

-- A block's first point does not read the scratch; every other point steps from what the point before left.
theorem outsAt_first (c : Dev nD) (t : Fin cfg3.N) (h0 : t.val % 8 = 0) :
    outsAt V c t.val t.isLt = stepAt V c t (View.canon []) := by
  obtain ⟨n, hn⟩ := t
  cases n with
  | zero => rfl
  | succ n => exact (dif_pos h0).trans (dif_pos h0 : stepAt V c ⟨n + 1, hn⟩ (View.canon []) = _).symm

theorem outsAt_next (c : Dev nD) (t : Fin cfg3.N) (h0 : ¬t.val % 8 = 0) :
    outsAt V c t.val t.isLt = stepAt V c t (outsAt V c (t.val - 1) (Nat.lt_of_le_of_lt (Nat.sub_le _ _) t.isLt)).2 := by
  obtain ⟨n, hn⟩ := t
  cases n with
  | zero => exact absurd (Nat.zero_mod _) h0
  | succ n => rfl

-- The invariant with the scratch holding x.
def inv (c : Dev nD) (x : Vec F S1024x256 .f32) : sProp 𝕄 :=
  iprop(iprop(owns (c : Thread nD τ) scM fullShare x ∗ Pipeline.scopedRestBut (Ix := Unit) (Name := ℕ) (U := UR sig nD τ) (Lvl := ℕ) (Val := Elt F) spec3 c [cc3_scratch0]) ∗ (∃ r, prngReg c r))

-- Forgetting the scratch's contents gives back what the region handed over.
theorem inv_le (c : Dev nD) (x : Vec F S1024x256 .f32) : inv c x ⊢ Pipeline.ΦA spec3 c := by
  rw [PhiA_eq]; unfold inv
  iintro ⟨⟨HS, Hrest⟩, Hg⟩
  iframe Hrest Hg
  iexists _; iexact HS

def PhiS (c : Dev nD) : (n : ℕ) → n ≤ cfg3.N → sProp 𝕄
  | 0, _ => Pipeline.ΦA spec3 c
  | n + 1, hn => inv c (outsAt V c n hn).2

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = (outsAt V c t.val t.isLt).1 := by dsimp only [dat]

-- Before any point the invariant holds the scratch at some contents.
theorem Phi_le (c : Dev nD) (t : Fin (cfg3.N + 1)) : (dat V c).Φ t ⊢ Pipeline.ΦA spec3 c := by
  obtain ⟨n, hn⟩ := t
  cases n with
  | zero => exact .rfl
  | succ n => exact inv_le c _

-- After the first point the scratch holds what the point before left.
theorem Phi_pos (c : Dev nD) (t : Fin cfg3.N) (hz : t.val ≠ 0) : (dat V c).Φ t.castSucc = inv c (outsAt V c (t.val - 1) (Nat.lt_of_le_of_lt (Nat.sub_le _ _) t.isLt)).2 := by
  obtain ⟨n, hn⟩ := t
  cases n with
  | zero => exact absurd rfl hz
  | succ n => rfl

def bodyPre (c : Dev nD) (t : Fin cfg3.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves_in (c : Dev nD) (t : Fin cfg3.N) :
    (dat V c).leavesExact 0 t = owns (c : Thread nD τ) (ms_0 t) fullShare (iblk V c 0 t)
    ∧ (dat V c).leavesExact 1 t = owns (c : Thread nD τ) (ms_1 t) fullShare (iblk V c 1 t)
    ∧ (dat V c).leavesExact 2 t = owns (c : Thread nD τ) (ms_2 t) fullShare (iblk V c 2 t)
    ∧ (dat V c).leavesExact 3 t = owns (c : Thread nD τ) (ms_3 t) fullShare (iblk V c 3 t) :=
  ⟨by unfold Dat.leavesExact; rw [live_0 t, after_0], by unfold Dat.leavesExact; rw [live_1 t, after_1],
   by unfold Dat.leavesExact; rw [live_2 t, after_2], by unfold Dat.leavesExact; rw [live_3 t, after_3]⟩

set_option maxHeartbeats 4800000 in
-- Each case's run takes the inputs' blocks and the scratch and hands the scratch back with stores that tile it.
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0_of V (dat V c) (A_eq V c 0) (after_0 V c), before_1_of V (dat V c) (A_eq V c 1) (after_1 V c),
    before_2_of V (dat V c) (A_eq V c 2) (after_2 V c), before_3_of V (dat V c) (A_eq V c 3) (after_3 V c)]
  rw [show (dat V c).owesAt () t.succ = (dat V c).owesAt () t.castSucc from rfl,
    show (dat V c).Φ t.succ = inv c (outsAt V c t.val t.isLt).2 from rfl,
    (leaves_in V c t).1, (leaves_in V c t).2.1, (leaves_in V c t).2.2.1, (leaves_in V c t).2.2.2]
  by_cases h0 : t.val % 8 = 0
  · have hL := notLast_of_first t h0
    rw [Dat.leavesExact_idle (dat V c) 4 t (idle_4 t hL) (noFlush_4 t hL), outsAt_first V c t h0, stepAt, dif_pos h0]
    refine (sep_mono_left (Phi_le V c _)).trans ?_
    rw [PhiA_eq]
    unfold sFirst inv; (try dsimp only)
    iintro ⟨⟨⟨HS, Hrest⟩, Hg⟩, Ho, ⟨%d0, H0⟩, ⟨%d1, H1⟩, ⟨%d2, H2⟩, ⟨%d3, H3⟩, ⟨%d4, H4⟩⟩
    iapply ((runFirst c (grid3.coords t) _ _ _ _ _ _ _ _ _ _ _ _ ((hcondFirst t).mpr h0) hL (iblk V c 0 t) (iblk V c 1 t) (iblk V c 2 t) (iblk V c 3 t)).2 _ Set.univ _)
    iframe H0 H1 H2 H3 H4 HS
    iintro ⟨H0, H1, H2, H3, H4, HS⟩
    iframe Hrest Hg Ho H0 H1 H2 H3
    isplitl [HS]
    · iapply owns_canon (tFirst ..); iexact HS
    iexists _; iexact H4
  · have hF : ¬condFirst (grid3.coords t) := fun h => h0 ((hcondFirst t).mp h)
    rw [Phi_pos V c t fun e => h0 (by rw [e])]
    by_cases h1 : t.val % 8 = 7
    · have hL := (hcondLast t).mpr h1
      rw [show (dat V c).leavesExact 4 t = owns (c : Thread nD τ) (ms_4 t) fullShare ((dat V c).after 4 t) from by
        unfold Dat.leavesExact; rw [live_4 t hL], after_4, outsAt_next V c t h0, stepAt, dif_neg h0, dif_pos h1]
      unfold oLast sLast inv; (try dsimp only)
      iintro ⟨⟨⟨HS, Hrest⟩, Hg⟩, Ho, ⟨%d0, H0⟩, ⟨%d1, H1⟩, ⟨%d2, H2⟩, ⟨%d3, H3⟩, ⟨%d4, H4⟩⟩
      iapply ((runLast c (grid3.coords t) _ _ _ _ _ _ _ _ _ _ _ _ hF hL (iblk V c 0 t) (iblk V c 1 t) (iblk V c 2 t) (iblk V c 3 t) _).2.2 Set.univ _)
      iframe H0 H1 H2 H3 HS
      isplitl [H4]; · iexists _; iexact H4
      iintro ⟨H0, H1, H2, H3, H4, HS⟩
      iframe Hrest Hg Ho H0 H1 H2 H3
      isplitl [HS]
      · iapply owns_canon (tLast ..); iexact HS
      iapply owns_canon (tOut ..); iexact H4
    · have hL : ¬condLast (grid3.coords t) := fun h => h1 ((hcondLast t).mp h)
      rw [Dat.leavesExact_idle (dat V c) 4 t (idle_4 t hL) (noFlush_4 t hL), outsAt_next V c t h0, stepAt, dif_neg h0, dif_neg h1]
      unfold sMid inv; (try dsimp only)
      iintro ⟨⟨⟨HS, Hrest⟩, Hg⟩, Ho, ⟨%d0, H0⟩, ⟨%d1, H1⟩, ⟨%d2, H2⟩, ⟨%d3, H3⟩, ⟨%d4, H4⟩⟩
      iapply ((runMid c (grid3.coords t) _ _ _ _ _ _ _ _ _ _ _ _ hF hL (iblk V c 0 t) (iblk V c 1 t) (iblk V c 2 t) (iblk V c 3 t) _).2 _ Set.univ _)
      iframe H0 H1 H2 H3 H4 HS
      iintro ⟨H0, H1, H2, H3, H4, HS⟩
      iframe Hrest Hg Ho H0 H1 H2 H3
      isplitl [HS]
      · iapply owns_canon (tMid ..); iexact HS
      iexists _; iexact H4

theorem body_obligation (c : Dev nD) : BodyObligation (dat (F := F) V c) (defs₀ (F := F)) Variants.none () Set.univ := fun t => by
  rw [bigSep_W3, bigSep_W3]
  exact sound_body V c t

theorem hin (c : Dev nD) : Pipeline.ΦA spec3 c ⊢ (dat V c).Φ 0 := .rfl

theorem hout (c : Dev nD) : (dat V c).Φ (Fin.last cfg3.N) ⊢ Pipeline.ΦA spec3 c := Phi_le V c _

end Cert.KernelIdeal.R3

end
-- ==== Proof.KI.Family.lean ====
import proofs.«423092_j11149735100496_3_alg».proof.Proof.Gen.KernelIdeal.Launch
import proofs.«423092_j11149735100496_3_alg».proof.Proof.Gen.KernelIdeal.Skeleton
import proofs.«423092_j11149735100496_3_alg».proof.Proof.Gen.KernelIdeal.Points
import proofs.«423092_j11149735100496_3_alg».proof.Proof.KI.R0.Dat
import proofs.«423092_j11149735100496_3_alg».proof.Proof.KI.R1.Dat
import proofs.«423092_j11149735100496_3_alg».proof.Proof.KI.R2.Dat
import proofs.«423092_j11149735100496_3_alg».proof.Proof.KI.R3.Dat
import proofs.«423092_j11149735100496_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fam

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

def W1 (c : Dev nD) : Valuation τ sig (Elt F) := V1 m c
def o2 (c : Dev nD) : Buf (Elt F) ((c : Thread nD τ).loc main_v6) := (R0.dat (rd (W1 m)) c).arrAt 4 cfg0.N
def W2 (c : Dev nD) : Valuation τ sig (Elt F) := Function.update (W1 m c) main_v6 (o2 m c)
def W3 (c : Dev nD) : Valuation τ sig (Elt F) := StableHlo.after hostOps1 (W2 m c)
def o4 (c : Dev nD) : Buf (Elt F) ((c : Thread nD τ).loc main_v13) := (R1.dat (rd (W3 m)) c).arrAt 4 cfg1.N
def W4 (c : Dev nD) : Valuation τ sig (Elt F) := Function.update (W3 m c) main_v13 (o4 m c)
def W5 (c : Dev nD) : Valuation τ sig (Elt F) := StableHlo.after hostOps2 (W4 m c)
def o6 (c : Dev nD) : Buf (Elt F) ((c : Thread nD τ).loc main_v20) := (R2.dat (rd (W5 m)) c).arrAt 4 cfg2.N
def W6 (c : Dev nD) : Valuation τ sig (Elt F) := Function.update (W5 m c) main_v20 (o6 m c)
def W7 (c : Dev nD) : Valuation τ sig (Elt F) := StableHlo.after hostOps3 (W6 m c)
def o8 (c : Dev nD) : Buf (Elt F) ((c : Thread nD τ).loc main_v27) := (R3.dat (rd (W7 m)) c).arrAt 4 cfg3.N
def W8 (c : Dev nD) : Valuation τ sig (Elt F) := Function.update (W7 m c) main_v27 (o8 m c)

def outs : Outs (F := F) := fun _ r c =>
  if h : r = main_v6 then h ▸ o2 m c
  else if h : r = main_v13 then h ▸ o4 m c
  else if h : r = main_v20 then h ▸ o6 m c
  else if h : r = main_v27 then h ▸ o8 m c
  else fun _ => Classical.arbitrary _

theorem outs_v6 (J : ℕ) (c : Dev nD) : outs m J main_v6 c = o2 m c := by
  unfold outs; rw [dif_pos rfl]
theorem outs_v13 (J : ℕ) (c : Dev nD) : outs m J main_v13 c = o4 m c := by
  unfold outs; rw [dif_neg (by decide), dif_pos rfl]
theorem outs_v20 (J : ℕ) (c : Dev nD) : outs m J main_v20 c = o6 m c := by
  unfold outs; rw [dif_neg (by decide), dif_neg (by decide), dif_pos rfl]
theorem outs_v27 (J : ℕ) (c : Dev nD) : outs m J main_v27 c = o8 m c := by
  unfold outs; rw [dif_neg (by decide), dif_neg (by decide), dif_neg (by decide), dif_pos rfl]

theorem V1_eq (c : Dev nD) : V1 m c = W1 m c := rfl
theorem V2_eq (c : Dev nD) : V2 m (outs m) c = W2 m c := by
  show Function.update (V1 m c) _ (outs m 2 main_v6 c) = _; rw [outs_v6]; rfl
theorem V3_eq (c : Dev nD) : V3 m (outs m) c = W3 m c := by
  show StableHlo.after hostOps1 (V2 m (outs m) c) = _; rw [V2_eq]; rfl
theorem V4_eq (c : Dev nD) : V4 m (outs m) c = W4 m c := by
  show Function.update (V3 m (outs m) c) _ (outs m 4 main_v13 c) = _; rw [outs_v13, V3_eq]; rfl
theorem V5_eq (c : Dev nD) : V5 m (outs m) c = W5 m c := by
  show StableHlo.after hostOps2 (V4 m (outs m) c) = _; rw [V4_eq]; rfl
theorem V6_eq (c : Dev nD) : V6 m (outs m) c = W6 m c := by
  show Function.update (V5 m (outs m) c) _ (outs m 6 main_v20 c) = _; rw [outs_v20, V5_eq]; rfl
theorem V7_eq (c : Dev nD) : V7 m (outs m) c = W7 m c := by
  show StableHlo.after hostOps3 (V6 m (outs m) c) = _; rw [V6_eq]; rfl
theorem V8_eq (c : Dev nD) : V8 m (outs m) c = W8 m c := by
  show Function.update (V7 m (outs m) c) _ (outs m 8 main_v27 c) = _; rw [outs_v27, V7_eq]; rfl

def pdats : (p : Fin 4) → (c : Dev nD) → Dat τ (Elt F) Unit ℕ (UR sig nD τ) ℕ (cfgs p) c
  | ⟨0, _⟩ => fun c => R0.dat (rd (W1 m)) c
  | ⟨1, _⟩ => fun c => R1.dat (rd (W3 m)) c
  | ⟨2, _⟩ => fun c => R2.dat (rd (W5 m)) c
  | ⟨3, _⟩ => fun c => R3.dat (rd (W7 m)) c

end Cert.KernelIdeal.Fam

end
-- ==== Proof.KI.Launch.lean ====
import proofs.«423092_j11149735100496_3_alg».proof.Proof.Gen.KernelIdeal.Regions
import Idealize.ShloMosaic.Lib.Pipeline.Kit

noncomputable section

namespace Cert.KernelIdeal.Launch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

abbrev Lz : GSem nD τ sig → Finset Unit := fun _ => ∅
abbrev lvz : GSem nD τ sig → Unit → ℕ := fun _ _ => 0
abbrev Rst (c : Dev nD) : sProp (MT nD τ sig Unit (Elt F) ℕ (UR sig nD τ) ℕ) :=
  iprop((∃ r, prngReg c r) ∗ ∃ W, owes (c : Thread nD τ) (0 : CellTallies nD τ sig Unit) W)

/-- All buffers held at the valuation `V`, beside `E`. -/
abbrev St {Ix : Type} [DecidableEq Ix] {U : Type} [URA U] {Lvl : Type} (c : Dev nD) (V : Valuation τ sig (Elt F))
    (E : sProp (MT nD τ sig Ix (Elt F) ℕ U Lvl)) : sProp (MT nD τ sig Ix (Elt F) ℕ U Lvl) :=
  iprop(StableHlo.held (c : Thread nD τ) (Pipeline.ucRefs τ sig) V ∗ E)

variable (m : (ℓ : Loc nD τ sig) → Buf (Elt F) ℓ)

/-- What a final memory holds: both result arrays as the last valuation has them, every argument array as launched. -/
abbrev post9 (outs : Outs (F := F)) (c : Dev nD) (s : MemSt nD τ sig (Elt F)) : Prop :=
  s.mem ((c.tc : Thread nD τ).loc main_v27) = V9 m outs c main_v27
  ∧ s.mem ((c.tc : Thread nD τ).loc main_v28) = V9 m outs c main_v28
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, St c (V1 m c) (E 0 c) ⊢ R0.pre c)
    (hpost0 : ∀ c : Dev nD, R0.post c ⊢ St c (V2 m outs c) (E 1 c))
    (R1 : RegionSeg (pcfgs (F := F)) adm pdats ι defs₀ 𝒱₀ L lv 1)
    (hpre1 : ∀ c : Dev nD, St c (V3 m outs c) (E 1 c) ⊢ R1.pre c)
    (hpost1 : ∀ c : Dev nD, R1.post c ⊢ St c (V4 m outs c) (E 2 c))
    (R2 : RegionSeg (pcfgs (F := F)) adm pdats ι defs₀ 𝒱₀ L lv 2)
    (hpre2 : ∀ c : Dev nD, St c (V5 m outs c) (E 2 c) ⊢ R2.pre c)
    (hpost2 : ∀ c : Dev nD, R2.post c ⊢ St c (V6 m outs c) (E 3 c))
    (R3 : RegionSeg (pcfgs (F := F)) adm pdats ι defs₀ 𝒱₀ L lv 3)
    (hpre3 : ∀ c : Dev nD, St c (V7 m outs c) (E 3 c) ⊢ R3.pre c)
    (hpost3 : ∀ c : Dev nD, R3.post c ⊢ St c (V8 m outs c) (E 4 c)) :
    θ_run defs (onTc (τ := τ) (main (F := F))) ⟨m, fun _ => 0, ρ⟩ (fun r => ∀ c : Dev nD, post9 m outs c r.2) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => St c (V0 m c) (E 0 c))
    (Tₙ := fun c => StableHlo.held (c : Thread nD τ) (Pipeline.ucRefs τ sig) (V9 m outs c))
    (hch := fun c => ⟨.rfl, hpre0 c, hpost0 c, hpre1 c, hpost1 c, hpre2 c, hpost2 c, hpre3 c, hpost3 c, sep_mono .rfl (hE4 c)⟩)
    (hinit := ?_) (QY := post9 m outs)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      have hr := fun (b : Ref sig .tc) hb => h (Proc.devRef .tc b) (Finset.mem_filter.mpr ⟨StableHlo.devRef_mem_tcRefs b, hb⟩)
      exact ⟨hr main_v27 (by decide), hr main_v28 (by decide),
        (hr main_arg0 (by decide)).trans (V9_main_arg0 m outs c),
        (hr main_arg1 (by decide)).trans (V9_main_arg1 m outs c),
        (hr main_arg2 (by decide)).trans (V9_main_arg2 m outs c),
        (hr main_arg3 (by decide)).trans (V9_main_arg3 m outs c),
        (hr main_arg4 (by decide)).trans (V9_main_arg4 m outs c),
        (hr main_arg5 (by decide)).trans (V9_main_arg5 m outs c),
        (hr main_arg6 (by decide)).trans (V9_main_arg6 m outs c),
        (hr main_arg7 (by decide)).trans (V9_main_arg7 m outs c),
        (hr main_arg8 (by decide)).trans (V9_main_arg8 m outs c)⟩
    · iexact HSI

theorem run_of_regions (ρ : Dev nD → PrngReg) (outs : Outs (F := F))
    (pdats : (p : Fin 4) → (c : Dev nD) → Dat τ (Elt F) Unit ℕ (UR sig nD τ) ℕ (cfgs p) c)
    (R0 : RegionSeg (pcfgs (F := F)) adm pdats () defs₀ Variants.none Lz lvz 0)
    (hpre0 : ∀ c : Dev nD, St c (V1 m c) (Rst (F := F) c) ⊢ R0.pre c)
    (hpost0 : ∀ c : Dev nD, R0.post c ⊢ St c (V2 m outs c) (Rst (F := F) c))
    (R1 : RegionSeg (pcfgs (F := F)) adm pdats () defs₀ Variants.none Lz lvz 1)
    (hpre1 : ∀ c : Dev nD, St c (V3 m outs c) (Rst (F := F) c) ⊢ R1.pre c)
    (hpost1 : ∀ c : Dev nD, R1.post c ⊢ St c (V4 m outs c) (Rst (F := F) c))
    (R2 : RegionSeg (pcfgs (F := F)) adm pdats () defs₀ Variants.none Lz lvz 2)
    (hpre2 : ∀ c : Dev nD, St c (V5 m outs c) (Rst (F := F) c) ⊢ R2.pre c)
    (hpost2 : ∀ c : Dev nD, R2.post c ⊢ St c (V6 m outs c) (Rst (F := F) c))
    (R3 : RegionSeg (pcfgs (F := F)) adm pdats () defs₀ Variants.none Lz lvz 3)
    (hpre3 : ∀ c : Dev nD, St c (V7 m outs c) (Rst (F := F) c) ⊢ R3.pre c)
    (hpost3 : ∀ c : Dev nD, R3.post c ⊢ St c (V8 m outs c) (Rst (F := F) c)) :
    θ_run defs (onTc (τ := τ) (main (F := F))) ⟨m, fun _ => 0, ρ⟩ (fun r => ∀ c : Dev nD, post9 m outs c r.2) :=
  run_cond m (Ix := Unit) (U := UR sig nD τ) (Lvl := ℕ) emb₁ () Variants.none Lz lvz (fun _ _ => rfl) ρ outs pdats
    (0 : Dev nD → CellTallies nD τ sig Unit) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (fun _ => Rst (F := F))
    (by
      refine Pipeline.initEach Lz lvz fun c => ?_
      iintro ⟨⟨-, HO, -, Hp, -⟩, -⟩
      imodintro
      isplitl [Hp]; · iexists _; iexact Hp
      iexists ∅; iexact HO)
    (fun c => by iintro ⟨-, HO⟩; iexact HO)
    R0 hpre0 hpost0 R1 hpre1 hpost1 R2 hpre2 hpost2 R3 hpre3 hpost3

end Cert.KernelIdeal.Launch

end
-- ==== Proof.KI.RegOf.lean ====
import proofs.«423092_j11149735100496_3_alg».proof.Proof.KI.Launch
import Idealize.ShloMosaic.Lib.Pipeline.RegionsLoop

noncomputable section

namespace Cert.KernelIdeal.Launch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

set_option backward.isDefEq.respectTransparency.types false in
/-- A region's record from its proof data: entered at the valuation `Vi`, left at `Vo`, which is `Vi` off the array of the one output window `wo`. -/
def regOf (pdats : (p : Fin 4) → (c : Dev nD) → Dat τ (Elt F) Unit ℕ (UR sig nD τ) ℕ (cfgs p) c)
    (p : Fin 4) (lf : Pipeline.LaunchFacts (nD := nD) (τ := τ) cfgs p)
    (Vi Vo : Dev nD → Valuation τ sig (Elt F)) (v : Ref sig .tc) (wo : Fin (cfgs p).W)
    (hv : Pipeline.arrRef (cfgs p).spec wo = v)
    (hwin : ∀ w, w ≠ wo → ((cfgs p).win w).isOut = false ∧ Pipeline.arrRef (cfgs p).spec w ≠ v)
    (hVo : ∀ c (b : Ref sig .tc), b ≠ v → Vo c b = Vi c b)
    (hwo : ∀ c, (pdats p c).arrAt wo (cfgs p).N = Vo c (Pipeline.arrRef (cfgs p).spec wo))
    (hq : ∀ c w, (pdats p c).q w = fullShare)
    (hA : ∀ c w, (pdats p c).A w = Vi c (Pipeline.arrRef (cfgs p).spec w))
    (howed : ∀ c t, (pdats p c).owed t = 0) (hrec : ∀ c x, x ∈ (pdats p c).recorded 0)
    (hbody : ∀ c, BodyObligation (pdats p c) defs₀ Variants.none () Set.univ)
    (hin : ∀ c, Pipeline.ΦA (cfgs p).spec c ⊢ (pdats p c).Φ 0)
    (hout : ∀ c, (pdats p c).Φ (Fin.last (cfgs p).N) ⊢ Pipeline.ΦA (cfgs p).spec c) :
    Pipeline.RegionSeg (pcfgs (F := F)) adm pdats () defs₀ Variants.none Lz lvz p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ Lz lvz p howed
  pre c := St c (Vi c) (Rst c)
  post c := St c (Vo c) (Rst c)
  X c := iprop(∃ r, prngReg c r)
  Y c := iprop(∃ r, prngReg c r)
  Z c := Pipeline.unscopedRest (Ix := Unit) (Name := ℕ) (U := UR sig nD τ) (Lvl := ℕ) (cfgs p).spec c fun b => Vi c b
  hentry c := by
    rw [Pipeline.ownSems0_none]
    have hsplit := Pipeline.arrays_of_unscopedBufs (p := p) (pcfgs (F := F)) adm pdats lf.win lf.arr_whole c
      ((pdats p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (hrec c _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (hq c))
      (fun b => Vi c b) (fun b => Vo c b) ((pdats p c).arrAt · (cfgs p).N)
      (fun w => if h : w = wo then h ▸ hwo c else
        ((pdats p c).arrAt_in w (hwin w h).1 _).trans ((hA c w).trans (hVo c _ (hwin w h).2).symm))
      fun b hb => hVo c b fun e => hb (Finset.mem_image.mpr ⟨wo, Finset.mem_univ _, hv.trans e.symm⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

end Cert.KernelIdeal.Launch

end
-- ==== Proof.KI.R0.Reg.lean ====
import proofs.«423092_j11149735100496_3_alg».proof.Proof.KI.Family
import proofs.«423092_j11149735100496_3_alg».proof.Proof.KI.RegOf

noncomputable section

namespace Cert.KernelIdeal.Reg0

open Cert.KernelIdeal Cert.KernelIdeal.Gen
open Idealize.ShloMosaic Idealize.ShloMosaic.TcCoe

variable {F : FTy → Type} [FloatOps F] [Named F]
variable (m : (ℓ : Loc nD τ sig) → Buf (Elt F) ℓ)

set_option backward.isDefEq.respectTransparency.types false in
def reg : Pipeline.RegionSeg (pcfgs (F := F)) adm (Fam.pdats m) () defs₀ Variants.none Launch.Lz Launch.lvz 0 :=
  Launch.regOf (Fam.pdats m) (p := 0) launch0 (Fam.W1 m) (Fam.W2 m) main_v6 (4 : Fin cfg0.W) rfl (by decide)
    (fun _ _ h => Function.update_of_ne (StableHlo.devRef_ne_of_ne h) _ _) (fun _ => by unfold Fam.W2; exact Eq.symm (Function.update_self _ _ _))
    (fun _ _ => rfl) (R0.A_eq (Fam.rd (Fam.W1 m))) (fun _ _ => rfl) (fun _ _ => trivial)
    (R0.body_obligation (Fam.rd (Fam.W1 m))) (R0.hin (Fam.rd (Fam.W1 m))) (R0.hout (Fam.rd (Fam.W1 m)))

end Cert.KernelIdeal.Reg0

end
-- ==== Proof.KI.R1.Reg.lean ====
import proofs.«423092_j11149735100496_3_alg».proof.Proof.KI.Family
import proofs.«423092_j11149735100496_3_alg».proof.Proof.KI.RegOf

noncomputable section

namespace Cert.KernelIdeal.Reg1

open Cert.KernelIdeal Cert.KernelIdeal.Gen
open Idealize.ShloMosaic Idealize.ShloMosaic.TcCoe

variable {F : FTy → Type} [FloatOps F] [Named F]
variable (m : (ℓ : Loc nD τ sig) → Buf (Elt F) ℓ)

set_option backward.isDefEq.respectTransparency.types false in
def reg : Pipeline.RegionSeg (pcfgs (F := F)) adm (Fam.pdats m) () defs₀ Variants.none Launch.Lz Launch.lvz 1 :=
  Launch.regOf (Fam.pdats m) (p := 1) launch1 (Fam.W3 m) (Fam.W4 m) main_v13 (4 : Fin cfg1.W) rfl (by decide)
    (fun _ _ h => Function.update_of_ne (StableHlo.devRef_ne_of_ne h) _ _) (fun _ => by unfold Fam.W4; exact Eq.symm (Function.update_self _ _ _))
    (fun _ _ => rfl) (R1.A_eq (Fam.rd (Fam.W3 m))) (fun _ _ => rfl) (fun _ _ => trivial)
    (R1.body_obligation (Fam.rd (Fam.W3 m))) (R1.hin (Fam.rd (Fam.W3 m))) (R1.hout (Fam.rd (Fam.W3 m)))

end Cert.KernelIdeal.Reg1

end
-- ==== Proof.KI.R2.Reg.lean ====
import proofs.«423092_j11149735100496_3_alg».proof.Proof.KI.Family
import proofs.«423092_j11149735100496_3_alg».proof.Proof.KI.RegOf

noncomputable section

namespace Cert.KernelIdeal.Reg2

open Cert.KernelIdeal Cert.KernelIdeal.Gen
open Idealize.ShloMosaic Idealize.ShloMosaic.TcCoe

variable {F : FTy → Type} [FloatOps F] [Named F]
variable (m : (ℓ : Loc nD τ sig) → Buf (Elt F) ℓ)

set_option backward.isDefEq.respectTransparency.types false in
def reg : Pipeline.RegionSeg (pcfgs (F := F)) adm (Fam.pdats m) () defs₀ Variants.none Launch.Lz Launch.lvz 2 :=
  Launch.regOf (Fam.pdats m) (p := 2) launch2 (Fam.W5 m) (Fam.W6 m) main_v20 (4 : Fin cfg2.W) rfl (by decide)
    (fun _ _ h => Function.update_of_ne (StableHlo.devRef_ne_of_ne h) _ _) (fun _ => by unfold Fam.W6; exact Eq.symm (Function.update_self _ _ _))
    (fun _ _ => rfl) (R2.A_eq (Fam.rd (Fam.W5 m))) (fun _ _ => rfl) (fun _ _ => trivial)
    (R2.body_obligation (Fam.rd (Fam.W5 m))) (R2.hin (Fam.rd (Fam.W5 m))) (R2.hout (Fam.rd (Fam.W5 m)))

end Cert.KernelIdeal.Reg2

end
-- ==== Proof.KI.R3.Reg.lean ====
import proofs.«423092_j11149735100496_3_alg».proof.Proof.KI.Family
import proofs.«423092_j11149735100496_3_alg».proof.Proof.KI.RegOf

noncomputable section

namespace Cert.KernelIdeal.Reg3

open Cert.KernelIdeal Cert.KernelIdeal.Gen
open Idealize.ShloMosaic Idealize.ShloMosaic.TcCoe

variable {F : FTy → Type} [FloatOps F] [Named F]
variable (m : (ℓ : Loc nD τ sig) → Buf (Elt F) ℓ)

set_option backward.isDefEq.respectTransparency.types false in
def reg : Pipeline.RegionSeg (pcfgs (F := F)) adm (Fam.pdats m) () defs₀ Variants.none Launch.Lz Launch.lvz 3 :=
  Launch.regOf (Fam.pdats m) (p := 3) launch3 (Fam.W7 m) (Fam.W8 m) main_v27 (4 : Fin cfg3.W) rfl (by decide)
    (fun _ _ h => Function.update_of_ne (StableHlo.devRef_ne_of_ne h) _ _) (fun _ => by unfold Fam.W8; exact Eq.symm (Function.update_self _ _ _))
    (fun _ _ => rfl) (R3.A_eq (Fam.rd (Fam.W7 m))) (fun _ _ => rfl) (fun _ _ => trivial)
    (R3.body_obligation (Fam.rd (Fam.W7 m))) (R3.hin (Fam.rd (Fam.W7 m))) (R3.hout (Fam.rd (Fam.W7 m)))

end Cert.KernelIdeal.Reg3

end
-- ==== Proof.KI.RunV9.lean ====
import proofs.«423092_j11149735100496_3_alg».proof.Proof.KI.R0.Reg
import proofs.«423092_j11149735100496_3_alg».proof.Proof.KI.R1.Reg
import proofs.«423092_j11149735100496_3_alg».proof.Proof.KI.R2.Reg
import proofs.«423092_j11149735100496_3_alg».proof.Proof.KI.R3.Reg

noncomputable section

namespace Cert.KernelIdeal.RunV9

open Cert.KernelIdeal Cert.KernelIdeal.Gen
open Idealize.ShloMosaic Idealize.ShloMosaic.TcCoe
open Idealize.SL Idealize.SL.BI
open scoped Idealize.SL.BI

variable {F : FTy → Type} [FloatOps F] [Named F]
variable (m : (ℓ : Loc nD τ sig) → Buf (Elt F) ℓ) (ρ : Dev nD → PrngReg)

theorem run_V9 : θ_run defs (onTc (τ := τ) (main (F := F))) ⟨m, fun _ => 0, ρ⟩ (fun r => ∀ c : Dev nD, Launch.post9 m (Fam.outs m) c r.2) :=
  Launch.run_of_regions m ρ (Fam.outs m) (Fam.pdats m)
    (Reg0.reg m) (fun c => by rw [Fam.V1_eq]; exact .rfl) (fun c => by rw [Fam.V2_eq]; exact .rfl)
    (Reg1.reg m) (fun c => by rw [Fam.V3_eq]; exact .rfl) (fun c => by rw [Fam.V4_eq]; exact .rfl)
    (Reg2.reg m) (fun c => by rw [Fam.V5_eq]; exact .rfl) (fun c => by rw [Fam.V6_eq]; exact .rfl)
    (Reg3.reg m) (fun c => by rw [Fam.V7_eq]; exact .rfl) (fun c => by rw [Fam.V8_eq]; exact .rfl)

end Cert.KernelIdeal.RunV9

end
-- ==== Proof.LibNary3.lean ====
import Idealize.ShloMosaic.Lib.StableHlo.Run

noncomputable section

namespace Idealize.ShloMosaic.StableHlo

open Idealize.SL.Sem

variable {τ : Topo} {sig : RefSig} {Val : EltTy → Type}
variable {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]
  refine congrArg f (funext fun k => ?_)
  match k with
  | ⟨0, _⟩ => rfl
  | ⟨1, _⟩ => rfl
  | ⟨2, _⟩ => rfl

end Idealize.ShloMosaic.StableHlo

end
-- ==== Proof.KI.Tail.lean ====
import proofs.«423092_j11149735100496_3_alg».proof.Proof.Gen.KernelIdeal.Regions
import proofs.«423092_j11149735100496_3_alg».proof.Proof.LibNary3

noncomputable section

namespace Cert.KernelIdeal.Tail

open Cert.KernelIdeal Cert.KernelIdeal.Gen
open Idealize.ShloMosaic Idealize.ShloMosaic.TcCoe
open Idealize.SL.Sem

variable {F : FTy → Type} [FloatOps F] [Named F]
variable (m : (ℓ : Loc nD τ sig) → Buf (Elt F) ℓ) (outs : Outs (F := F))

theorem V9_main_v28 (c : Dev nD) : V9 m outs c main_v28 = concatenate S1024x5120 1 [⟨S1024x2048, V8 m outs c main_v6⟩, ⟨S1024x1024, V8 m outs c main_v13⟩, ⟨S1024x2048, V8 m outs c main_v20⟩] concatenates_S1024x2048_S1024x1024_S1024x2048_S1024x5120_d1 := by
  show StableHlo.after hostOps4 (V8 m outs c) (Proc.devRef .tc main_v28) = _
  rw [StableHlo.after_cons, StableHlo.after_nil, StableHlo.nary3_result]
  rfl

theorem V9_main_v27 (c : Dev nD) : V9 m outs c main_v27 = outs 8 main_v27 c :=
  (V9_of m outs c main_v27 (by decide)).trans (Function.update_self _ _ _)

theorem V8_main_v6 (c : Dev nD) : V8 m outs c main_v6 = outs 2 main_v6 c :=
  (V8_of m outs c main_v6 (by decide)).trans <| (V7_of m outs c main_v6 (by decide)).trans <| (V6_of m outs c main_v6 (by decide)).trans <|
    (V5_of m outs c main_v6 (by decide)).trans <| (V4_of m outs c main_v6 (by decide)).trans <| (V3_of m outs c main_v6 (by decide)).trans
      (Function.update_self _ _ _)

theorem V8_main_v13 (c : Dev nD) : V8 m outs c main_v13 = outs 4 main_v13 c :=
  (V8_of m outs c main_v13 (by decide)).trans <| (V7_of m outs c main_v13 (by decide)).trans <| (V6_of m outs c main_v13 (by decide)).trans <|
    (V5_of m outs c main_v13 (by decide)).trans (Function.update_self _ _ _)

theorem V8_main_v20 (c : Dev nD) : V8 m outs c main_v20 = outs 6 main_v20 c :=
  (V8_of m outs c main_v20 (by decide)).trans <| (V7_of m outs c main_v20 (by decide)).trans (Function.update_self _ _ _)

end Cert.KernelIdeal.Tail

end
-- ==== Proof.KI.Run.lean ====
import proofs.«423092_j11149735100496_3_alg».proof.Proof.KI.RunV9
import proofs.«423092_j11149735100496_3_alg».proof.Proof.KI.Tail

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem v27_eq (c : Dev nD) : V9 m (Fam.outs m) c main_v27 = Fam.o8 m c :=
  (Tail.V9_main_v27 m (Fam.outs m) c).trans (Fam.outs_v27 m 8 c)

theorem v28_eq (c : Dev nD) : V9 m (Fam.outs m) c main_v28
    = concatenate S1024x5120 1 [⟨S1024x2048, Fam.o2 m c⟩, ⟨S1024x1024, Fam.o4 m c⟩, ⟨S1024x2048, Fam.o6 m c⟩] concatenates_S1024x2048_S1024x1024_S1024x2048_S1024x5120_d1 := by
  rw [Tail.V9_main_v28, Tail.V8_main_v6, Tail.V8_main_v13, Tail.V8_main_v20, Fam.outs_v6, Fam.outs_v13, Fam.outs_v20]

theorem run : θ_run defs (onTc (τ := τ) (main (F := F))) ⟨m, fun _ => 0, ρ⟩ (fun r => ∀ c : Dev nD,
      r.2.mem ((c.tc : Thread nD τ).loc main_v27) = Fam.o8 m c
      ∧ r.2.mem ((c.tc : Thread nD τ).loc main_v28) = concatenate S1024x5120 1 [⟨S1024x2048, Fam.o2 m c⟩, ⟨S1024x1024, Fam.o4 m c⟩, ⟨S1024x2048, Fam.o6 m c⟩] concatenates_S1024x2048_S1024x1024_S1024x2048_S1024x5120_d1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (v27_eq m c), (h c).2.1.trans (v28_eq m c), (h c).2.2⟩) (RunV9.run_V9 m ρ)

end Cert.KernelIdeal.Run

end
-- ==== Proof.Spec.lean ====
import Idealize.ShloMosaic.PureOps.Ideal
import Idealize.ShloMosaic.Lib.ValueIdx

noncomputable section

namespace Cert.Spec

open Idealize.ShloMosaic Idealize.ShloMosaic.ValueIdx

def pick {C : Type} [Fintype C] (isMin : Prop) [Decidable isMin] (cand : C → EReal) : EReal :=
  if isMin then ⨅ c, cand c else ⨆ c, cand c

def feat (nin : ℕ) [NeZero nin] (w : BitVec 32) : Fin nin := Fin.ofNat nin w.toNat

def layer {nin nout : ℕ} [NeZero nin] (x : (⟨2, ![1024, nin]⟩ : Shape).Idx → EReal)
    (conn : (⟨2, ![nout, 64]⟩ : Shape).Idx → BitVec 32) (op : (⟨1, ![nout]⟩ : Shape).Idx → BitVec 32) :
    (⟨2, ![1024, nout]⟩ : Shape).Idx → EReal :=
  fun i => pick (op (ix1 (i 1)) = 0#32) (fun c : Fin 64 => x (ix2 (i 0) (feat nin (conn (ix2 (i 1) c)))))

def Finite {S : Shape} (x : S.Idx → EReal) : Prop := ∀ i, ∃ r : ℝ, x i = (r : EReal)

theorem pick_real {C : Type} [Fintype C] [Nonempty C] (isMin : Prop) [Decidable isMin] (cand : C → EReal)
    (h : ∀ c, ∃ r : ℝ, cand c = (r : EReal)) : ∃ r : ℝ, pick isMin cand = (r : EReal) := by
  obtain ⟨cmin, hmin⟩ := exists_eq_ciInf_of_finite (f := cand)
  obtain ⟨cmax, hmax⟩ := exists_eq_ciSup_of_finite (f := cand)
  unfold pick
  split
  · obtain ⟨r, hr⟩ := h cmin; exact ⟨r, by rw [← hmin, hr]⟩
  · obtain ⟨r, hr⟩ := h cmax; exact ⟨r, by rw [← hmax, hr]⟩

theorem layer_finite {nin nout : ℕ} [NeZero nin] (x : (⟨2, ![1024, nin]⟩ : Shape).Idx → EReal)
    (conn : (⟨2, ![nout, 64]⟩ : Shape).Idx → BitVec 32) (op : (⟨1, ![nout]⟩ : Shape).Idx → BitVec 32)
    (hx : Finite x) : Finite (layer x conn op) :=
  fun i => pick_real _ _ fun c => hx _

end Cert.Spec

end
-- ==== Proof.LayerMath.lean ====
import proofs.«423092_j11149735100496_3_alg».proof.Proof.Spec

noncomputable section

namespace Cert.LayerMath

open Cert.Spec

/-- The sign of a neuron: -1 where the minimum is taken (op word 0), +1 where the maximum. -/
def sgn (w : BitVec 32) : EReal := if w = 0#32 then -1 else 1

theorem offsets_zero : (![0, 0] : Fin 2 → Nat) = fun _ => 0 := funext fun a => by fin_cases a <;> rfl

/-- A coordinate below N and a word below N name the same feature exactly when the word is the coordinate's. -/
theorem word_eq_iff {N : ℕ} [NeZero N] (hN : N ≤ 2 ^ 32) (k : Fin N) (w : BitVec 32) (hw : w.toNat < N) :
    BitVec.ofNat 32 k.val = w ↔ k = feat N w := by
  have hk : k.val < 2 ^ 32 := lt_of_lt_of_le k.isLt hN
  have hf : (feat N w).val = w.toNat := Nat.mod_eq_of_lt hw
  constructor
  · intro h
    apply Fin.ext
    rw [hf, ← h, BitVec.toNat_ofNat, Nat.mod_eq_of_lt hk]
  · intro h
    apply BitVec.eq_of_toNat_eq
    rw [BitVec.toNat_ofNat, Nat.mod_eq_of_lt hk, h, hf]

theorem iSup_fin8 (f : Fin 8 → EReal) :
    ⨆ r : Fin 8, f r = f 0 ⊔ f 1 ⊔ f 2 ⊔ f 3 ⊔ f 4 ⊔ f 5 ⊔ f 6 ⊔ f 7 := by
  apply le_antisymm
  · refine iSup_le fun r => ?_
    fin_cases r
    · show f 0 ≤ _; simp only [le_sup_iff, le_refl, true_or, or_true]
    · show f 1 ≤ _; simp only [le_sup_iff, le_refl, true_or, or_true]
    · show f 2 ≤ _; simp only [le_sup_iff, le_refl, true_or, or_true]
    · show f 3 ≤ _; simp only [le_sup_iff, le_refl, true_or, or_true]
    · show f 4 ≤ _; simp only [le_sup_iff, le_refl, true_or, or_true]
    · show f 5 ≤ _; simp only [le_sup_iff, le_refl, true_or, or_true]
    · show f 6 ≤ _; simp only [le_sup_iff, le_refl, true_or, or_true]
    · show f 7 ≤ _; simp only [le_sup_iff, le_refl, true_or, or_true]
  · simp only [sup_le_iff]
    exact ⟨⟨⟨⟨⟨⟨⟨le_iSup f 0, le_iSup f 1⟩, le_iSup f 2⟩, le_iSup f 3⟩, le_iSup f 4⟩, le_iSup f 5⟩, le_iSup f 6⟩, le_iSup f 7⟩

/-- Negation turns an infimum into a supremum. -/
theorem iSup_neg_eq {C : Type} (a : C → EReal) : ⨆ c, -(a c) = -(⨅ c, a c) := by
  apply le_antisymm
  · exact iSup_le fun c => EReal.neg_le_neg_iff.mpr (iInf_le a c)
  · rw [EReal.neg_le]
    exact le_iInf fun c => EReal.neg_le.mp (le_iSup (fun c => -(a c)) c)

/-- The maximum of the signed candidates, signed again, is their minimum or their maximum. -/
theorem signed_sup {C : Type} [Fintype C] [Nonempty C] (w : BitVec 32) (a : C → EReal)
    (ha : ∀ c, ∃ r : ℝ, a c = (r : EReal)) :
    ((⊥ : EReal) ⊔ ⨆ c, a c * sgn w) * sgn w = pick (w = 0#32) a := by
  rw [bot_sup_eq]
  unfold sgn pick
  by_cases h : w = 0#32
  · rw [if_pos h, if_pos h]
    simp only [mul_neg, mul_one]
    rw [iSup_neg_eq, neg_neg]
  · rw [if_neg h, if_neg h]
    simp only [mul_one]

/-- The candidates below 8 (q + 1) are those below 8 q and the eight of block q. -/
theorem iSup_lt_step (f : Fin 64 → EReal) (q : ℕ) (g : Fin 8 → Fin 64) (hg : ∀ r, (g r).val = 8 * q + r.val) :
    (⨆ k : Fin 64, ⨆ (_ : k.val < 8 * (q + 1)), f k)
      = (⨆ k : Fin 64, ⨆ (_ : k.val < 8 * q), f k) ⊔ ⨆ r : Fin 8, f (g r) := by
  apply le_antisymm
  · refine iSup₂_le fun k hk => ?_
    by_cases h : k.val < 8 * q
    · exact le_sup_of_le_left (le_iSup₂ (f := fun (k : Fin 64) (_ : k.val < 8 * q) => f k) k h)
    · obtain ⟨r0, hr0⟩ : ∃ r0 : Fin 8, g r0 = k :=
        ⟨⟨k.val - 8 * q, by omega⟩, Fin.ext (by rw [hg]; show 8 * q + (k.val - 8 * q) = k.val; omega)⟩
      subst hr0
      exact le_sup_of_le_right (le_iSup (fun r => f (g r)) r0)
  · refine sup_le (iSup₂_le fun k hk => le_iSup₂_of_le k (by omega) le_rfl)
      (iSup_le fun r => le_iSup₂_of_le (g r) (by rw [hg]; have := r.isLt; omega) le_rfl)

theorem iSup_lt_zero (f : Fin 64 → EReal) (m : ℕ) (hm : m = 0) : (⨆ k : Fin 64, ⨆ (_ : k.val < m), f k) = ⊥ := by
  subst hm; simp

theorem iSup_lt_all (f : Fin 64 → EReal) (m : ℕ) (hm : 64 ≤ m) : (⨆ k : Fin 64, ⨆ (_ : k.val < m), f k) = ⨆ k, f k :=
  iSup_congr fun k => iSup_pos (lt_of_lt_of_le k.isLt hm)

theorem pick_congr {C : Type} [Fintype C] {p q : Prop} [Decidable p] [Decidable q] {f g : C → EReal}
    (hpq : p ↔ q) (hfg : ∀ c, f c = g c) : pick p f = pick q g := by
  have e : f = g := funext hfg
  subst e
  unfold pick
  by_cases hp : p
  · rw [if_pos hp, if_pos (hpq.mp hp)]
  · rw [if_neg hp, if_neg (fun hq => hp (hpq.mpr hq))]

end Cert.LayerMath

end
-- ==== Proof.KI.R0.Step.lean ====
import proofs.«423092_j11149735100496_3_alg».proof.Proof.Gen.KernelIdeal.Skeleton
import proofs.«423092_j11149735100496_3_alg».proof.Proof.LayerMath
import Idealize.ShloMosaic.Lib.Pipeline.Value

noncomputable section

namespace Cert.KernelIdeal.R0

open Cert.KernelIdeal Cert.KernelIdeal.Gen
open Idealize.ShloMosaic Idealize.ShloMosaic.ValueIdx

variable {F : FTy → Type} [FloatOps F] [Named F]

def connRow (cn : Vec F S8x256 .i32) : Fin 8 → Vec F S1x256 .i32
  | ⟨0, _⟩ => View.ld cn (Rect.unit (s := S8x256) ![0, 0] S1x256.size inb_S8x256_S1x256_0_0)
  | ⟨1, _⟩ => View.ld cn (Rect.unit (s := S8x256) ![1, 0] S1x256.size inb_S8x256_S1x256_1_0)
  | ⟨2, _⟩ => View.ld cn (Rect.unit (s := S8x256) ![2, 0] S1x256.size inb_S8x256_S1x256_2_0)
  | ⟨3, _⟩ => View.ld cn (Rect.unit (s := S8x256) ![3, 0] S1x256.size inb_S8x256_S1x256_3_0)
  | ⟨4, _⟩ => View.ld cn (Rect.unit (s := S8x256) ![4, 0] S1x256.size inb_S8x256_S1x256_4_0)
  | ⟨5, _⟩ => View.ld cn (Rect.unit (s := S8x256) ![5, 0] S1x256.size inb_S8x256_S1x256_5_0)
  | ⟨6, _⟩ => View.ld cn (Rect.unit (s := S8x256) ![6, 0] S1x256.size inb_S8x256_S1x256_6_0)
  | ⟨7, _⟩ => View.ld cn (Rect.unit (s := S8x256) ![7, 0] S1x256.size inb_S8x256_S1x256_7_0)

def scratchStep (op : Vec F S1x256 .i32) (cn : Vec F S8x256 .i32) (xh xl : Vec F S1024x4096 .bf16)
    (s : Vec F S1024x256 .f32) : FVec F S1024x256 .f32 :=
  k0_pay14 (k0_pay4 op) (iota .tc S4096x256 32 [0] iota_S4096x256_d0_w32)
    (k0_pay10 (k0_pay4 op) (iota .tc S4096x256 32 [0] iota_S4096x256_d0_w32)
      (k0_pay7 (k0_pay4 op) (iota .tc S4096x256 32 [0] iota_S4096x256_d0_w32)
        (k0_pay5 op s (connRow cn 0) xh xl) (k0_pay6 (connRow cn 1)) (Scalar.ofBits .bf16 0x0000#16)
        xh xl (connRow cn 2) xh xl)
      (k0_pay8 (k0_pay4 op) (iota .tc S4096x256 32 [0] iota_S4096x256_d0_w32) (connRow cn 3)) (k0_pay9 xh)
      xl (connRow cn 4) xh xl)
    (k0_pay12 (k0_pay4 op) (iota .tc S4096x256 32 [0] iota_S4096x256_d0_w32) (connRow cn 5) xh)
    (k0_pay13 (k0_pay4 op) (iota .tc S4096x256 32 [0] iota_S4096x256_d0_w32) (connRow cn 5) xl)
    (connRow cn 6) xh xl (connRow cn 7) xh xl

def outStore (op : Vec F S1x256 .i32) (s : Vec F S1024x256 .f32) : FVec F S1024x256 .f32 :=
  k0_pay1 (k0_pay3 op) s

end Cert.KernelIdeal.R0

end
-- ==== Proof.KI.R0.Bridge.lean ====
import proofs.«423092_j11149735100496_3_alg».proof.Proof.KI.R0.Dat
import proofs.«423092_j11149735100496_3_alg».proof.Proof.KI.R0.Step

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx
open Cert.LayerMath

variable (V : (c : Dev nD) → (b : Ref sig .tc) → Buf (Elt F) ((c : Thread nD τ).loc b))

section
variable (c : Dev nD) (i : grid0.Coords) (arg2 : Memref sig .tc .vmem S1024x4096 .bf16) (harg2 : arg2.IsWhole)
  (arg3 : Memref sig .tc .vmem S1024x4096 .bf16) (harg3 : arg3.IsWhole) (arg4 : Memref sig .tc .vmem S8x256 .i32)
  (harg4 : arg4.IsWhole) (arg5 : Memref sig .tc .vmem S1x256 .i32) (harg5 : arg5.IsWhole)
  (arg6 : Memref sig .tc .vmem S1024x256 .f32) (harg6 : arg6.IsWhole) (arg7 : Memref sig .tc .vmem S1024x256 .f32)
  (harg7 : arg7.IsWhole)
  (x0 x1 : Vec F S1024x4096 .bf16) (x2 : Vec F S8x256 .i32) (x3 : Vec F S1x256 .i32) (xs : Vec F S1024x256 .f32)

theorem sFirst_eq (hc0 : condFirst i) (hc1 : ¬condLast i) :
    sFirst c i arg2 harg2 arg3 harg3 arg4 harg4 arg5 harg5 arg6 harg6 arg7 harg7 hc0 hc1 x0 x1 x2 x3 = scratchStep x3 x2 x0 x1 (k0_pay2 (F := F)) := by
  unfold sFirst
  unfold runFirst
  dsimp only
  sl_unfold_words
  rw [View.canon_cons_unit_zero (S := S1024x256) offsets_zero]
  simp only [View.readAt_eq_ld, harg2.read_unread, harg3.read_unread, harg4.read_unread, harg5.read_unread,
    View.readCov_unit_zero (S := S1024x256) _ offsets_zero,
    View.ld_unit_zero (S := S1024x4096) offsets_zero, View.ld_unit_zero (S := S1x256) offsets_zero, View.ld_unit_zero (S := S1024x256) offsets_zero]
  rfl

theorem sMid_eq (hc0 : ¬condFirst i) (hc1 : ¬condLast i) :
    sMid c i arg2 harg2 arg3 harg3 arg4 harg4 arg5 harg5 arg6 harg6 arg7 harg7 hc0 hc1 x0 x1 x2 x3 xs = scratchStep x3 x2 x0 x1 xs := by
  unfold sMid
  unfold runMid
  dsimp only
  sl_unfold_words
  rw [View.canon_unit_zero (S := S1024x256) offsets_zero]
  simp only [View.readAt_eq_ld, harg2.read_unread, harg3.read_unread, harg4.read_unread, harg5.read_unread, harg7.read_unread,
    View.readCov_unit_zero (S := S1024x256) _ offsets_zero,
    View.ld_unit_zero (S := S1024x4096) offsets_zero, View.ld_unit_zero (S := S1x256) offsets_zero, View.ld_unit_zero (S := S1024x256) offsets_zero]
  rfl

theorem sLast_eq (hc0 : ¬condFirst i) (hc1 : condLast i) :
    sLast c i arg2 harg2 arg3 harg3 arg4 harg4 arg5 harg5 arg6 harg6 arg7 harg7 hc0 hc1 x0 x1 x2 x3 xs = scratchStep x3 x2 x0 x1 xs := by
  unfold sLast
  unfold runLast
  dsimp only
  sl_unfold_words
  rw [View.canon_unit_zero (S := S1024x256) offsets_zero]
  simp only [View.readAt_eq_ld, harg2.read_unread, harg3.read_unread, harg4.read_unread, harg5.read_unread, harg7.read_unread,
    View.readCov_unit_zero (S := S1024x256) _ offsets_zero,
    View.ld_unit_zero (S := S1024x4096) offsets_zero, View.ld_unit_zero (S := S1x256) offsets_zero, View.ld_unit_zero (S := S1024x256) offsets_zero]
  rfl

theorem oLast_eq (hc0 : ¬condFirst i) (hc1 : condLast i) :
    oLast c i arg2 harg2 arg3 harg3 arg4 harg4 arg5 harg5 arg6 harg6 arg7 harg7 hc0 hc1 x0 x1 x2 x3 xs = outStore x3 (scratchStep x3 x2 x0 x1 xs) := by
  unfold oLast
  unfold runLast
  dsimp only
  sl_unfold_words
  rw [View.canon_unit_zero (S := S1024x256) offsets_zero]
  simp only [View.readAt_eq_ld, harg2.read_unread, harg3.read_unread, harg4.read_unread, harg5.read_unread, harg7.read_unread,
    View.readCov_unit_zero (S := S1024x256) _ offsets_zero,
    View.ld_unit_zero (S := S1024x4096) offsets_zero, View.ld_unit_zero (S := S1x256) offsets_zero, View.ld_unit_zero (S := S1024x256) offsets_zero]
  rfl

end

theorem Bridge.index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val % 8 ∧ win0_2.index t (1 : Fin 2) = t.val / 8
    ∧ win0_3.index t (0 : Fin 2) = 0 ∧ win0_3.index t (1 : Fin 2) = t.val / 8 :=
  (by decide +kernel : ∀ t : Fin grid0.N, _)

theorem iblk0_apply (c : Dev nD) (t : Fin cfg0.N) (b : Fin 1024) (k : Fin 4096) :
    (iblk V c 0 t : Vec F S1024x4096 .bf16) (ix2 b k) = (V c main_v0 : Vec F S1024x4096 .bf16) (ix2 b k) := by
  obtain ⟨e0, e1, -⟩ := Bridge.index_facts t
  unfold iblk
  rw [View.read_apply]
  show V c main_v0 (((cfg0.win 0).blk t).view.emb (ix2 b k)) = V c main_v0 (ix2 b k)
  congr 1
  funext a; apply Fin.ext
  match a with
  | ⟨0, _⟩ => show win0_0.index t (0 : Fin 2) * 1024 + 1 * b.val = b.val; rw [e0]; omega
  | ⟨1, _⟩ => show win0_0.index t (1 : Fin 2) * 4096 + 1 * k.val = k.val; rw [e1]; omega
theorem iblk1_apply (c : Dev nD) (t : Fin cfg0.N) (b : Fin 1024) (k : Fin 4096) :
    (iblk V c 1 t : Vec F S1024x4096 .bf16) (ix2 b k) = (V c main_v3 : Vec F S1024x4096 .bf16) (ix2 b k) := by
  obtain ⟨-, -, e0, e1, -⟩ := Bridge.index_facts t
  unfold iblk
  rw [View.read_apply]
  show V c main_v3 (((cfg0.win 1).blk t).view.emb (ix2 b k)) = V c main_v3 (ix2 b k)
  congr 1
  funext a; apply Fin.ext
  match a with
  | ⟨0, _⟩ => show win0_1.index t (0 : Fin 2) * 1024 + 1 * b.val = b.val; rw [e0]; omega
  | ⟨1, _⟩ => show win0_1.index t (1 : Fin 2) * 4096 + 1 * k.val = k.val; rw [e1]; omega

theorem iblk2_apply (c : Dev nD) (t : Fin cfg0.N) (r : Fin 8) (n : Fin 256) :
    (iblk V c 2 t : Vec F S8x256 .i32) (ix2 r n)
      = (V c main_v4 : Vec F S64x2048 .i32) (ix2 ⟨8 * (t.val % 8) + r.val, by omega⟩ ⟨256 * (t.val / 8) + n.val, by have := t.isLt; have : cfg0.N = 64 := N_0; omega⟩) := by
  obtain ⟨-, -, -, -, e0, e1, -⟩ := Bridge.index_facts t
  unfold iblk
  rw [View.read_apply]
  show V c main_v4 (((cfg0.win 2).blk t).view.emb (ix2 r n)) = V c main_v4 _
  congr 1
  funext a; apply Fin.ext
  match a with
  | ⟨0, _⟩ => show win0_2.index t (0 : Fin 2) * 8 + 1 * r.val = 8 * (t.val % 8) + r.val; rw [e0]; omega
  | ⟨1, _⟩ => show win0_2.index t (1 : Fin 2) * 256 + 1 * n.val = 256 * (t.val / 8) + n.val; rw [e1]; omega

theorem iblk3_apply (c : Dev nD) (t : Fin cfg0.N) (n : Fin 256) :
    (iblk V c 3 t : Vec F S1x256 .i32) (ix2 0 n)
      = (V c main_v5 : Vec F S1x2048 .i32) (ix2 0 ⟨256 * (t.val / 8) + n.val, by have := t.isLt; have : cfg0.N = 64 := N_0; omega⟩) := by
  obtain ⟨-, -, -, -, -, -, e0, e1⟩ := Bridge.index_facts t
  unfold iblk
  rw [View.read_apply]
  show V c main_v5 (((cfg0.win 3).blk t).view.emb (ix2 0 n)) = V c main_v5 _
  congr 1
  funext a; apply Fin.ext
  match a with
  | ⟨0, _⟩ => show win0_3.index t (0 : Fin 2) * 1 + 1 * 0 = 0; rw [e0]
  | ⟨1, _⟩ => show win0_3.index t (1 : Fin 2) * 256 + 1 * n.val = 256 * (t.val / 8) + n.val; rw [e1]; omega

end Cert.KernelIdeal.R0

end
-- ==== Proof.KI.R0.StepMath.lean ====
import proofs.«423092_j11149735100496_3_alg».proof.Proof.KI.R0.Step
import Idealize.ShloMosaic.PureOps.IdealRules
import Idealize.ShloMosaic.Lib.IdealHost

noncomputable section

namespace Cert.KernelIdeal.R0

open Cert.KernelIdeal Cert.KernelIdeal.Gen
open Idealize.ShloMosaic Idealize.ShloMosaic.ValueIdx
open scoped BigOperators
open Cert.LayerMath

namespace StepMath

/-- The two operand indices at output (b, n) and contracted coordinate k are (b, k) and (k, n), coordinate by coordinate. -/
theorem matmul_zero_apply (A : FVec Ideal S1024x4096 .bf16) (B : FVec Ideal S4096x256 .bf16) (b : Fin 1024) (n : Fin 256) :
    matmul dot_S1024x4096_S4096x256_S1024x256_1_0_0_1_n_n none A B (constant S1024x256 .f32 0x00000000#32) (ix2 b n)
      = ∑ k : Fin 4096, A (ix2 b k) * B (ix2 k n) := by
  show FloatOps.matmul dot_S1024x4096_S4096x256_S1024x256_1_0_0_1_n_n none A B _ (ix2 b n) = _
  rw [Ideal.matmul_constant_zero_apply, ← Equiv.sum_comp (contrEquiv1 _ 4096 rfl rfl).symm]
  refine Finset.sum_congr rfl fun k _ => ?_
  congr 2 <;> funext ax <;> apply Fin.ext <;>
    match ax with
    | ⟨0, _⟩ => rfl
    | ⟨1, _⟩ => rfl

theorem rowBroadcast_apply {α : Type} (x : S1x256.Idx → α) (k : Fin 4096) (n : Fin 256) :
    broadcastTo S4096x256 x broadcasts_S1x256_S4096x256 (ix2 k n) = x (ix2 0 n) := by
  refine broadcastTo_apply x broadcasts_S1x256_S4096x256 (ix2 k n) (ix2 0 n) ?_
  intro a
  match a with
  | ⟨0, _⟩ => rfl
  | ⟨1, _⟩ => rfl

theorem batchBroadcast_apply {α : Type} (x : S1x256.Idx → α) (b : Fin 1024) (n : Fin 256) :
    broadcastTo S1024x256 x broadcasts_S1x256_S1024x256 (ix2 b n) = x (ix2 0 n) := by
  refine broadcastTo_apply x broadcasts_S1x256_S1024x256 (ix2 b n) (ix2 0 n) ?_
  intro a
  match a with
  | ⟨0, _⟩ => rfl
  | ⟨1, _⟩ => rfl

theorem rowIota_apply (k : Fin 4096) (n : Fin 256) :
    iota .tc S4096x256 32 [0] iota_S4096x256_d0_w32 (ix2 k n) = BitVec.ofNat 32 k.val :=
  iota_single_apply .tc S4096x256 32 0 iota_S4096x256_d0_w32 (ix2 k n)

def oneHot (sg : FVec Ideal S1x256 .bf16) (row : IVec S1x256 32) : FVec Ideal S4096x256 .bf16 :=
  select (cmpi .eq (iota .tc S4096x256 32 [0] iota_S4096x256_d0_w32) (broadcastTo S4096x256 row broadcasts_S1x256_S4096x256))
    (broadcastTo S4096x256 sg broadcasts_S1x256_S4096x256) (broadcast S4096x256 (Scalar.ofBits .bf16 0x0000#16))

theorem oneHot_apply (sg : FVec Ideal S1x256 .bf16) (row : IVec S1x256 32) (hrow : ∀ i, (row i).toNat < 4096)
    (k : Fin 4096) (n : Fin 256) :
    oneHot sg row (ix2 k n) = if k = Cert.Spec.feat 4096 (row (ix2 0 n)) then sg (ix2 0 n) else 0 := by
  unfold oneHot
  rw [select_apply, broadcast_apply]
  show Scalar.select (IntOp.cmpi .eq (iota .tc S4096x256 32 [0] iota_S4096x256_d0_w32 (ix2 k n))
    (broadcastTo S4096x256 row broadcasts_S1x256_S4096x256 (ix2 k n)))
    (broadcastTo S4096x256 sg broadcasts_S1x256_S4096x256 (ix2 k n)) (Ideal.ofBits .bf16 0x0000#16) = _
  rw [rowIota_apply, rowBroadcast_apply, rowBroadcast_apply, Ideal.ofBits_zero_bf16]
  by_cases h : k = Cert.Spec.feat 4096 (row (ix2 0 n))
  · rw [if_pos h]
    have e : BitVec.ofNat 32 k.val = row (ix2 0 n) := (word_eq_iff (by decide) k _ (hrow _)).mpr h
    rw [e]
    simp [IntOp.cmpi, Scalar.select]
  · rw [if_neg h]
    have e : ¬ BitVec.ofNat 32 k.val = row (ix2 0 n) := fun e => h ((word_eq_iff (by decide) k _ (hrow _)).mp e)
    have e' : (BitVec.ofNat 32 k.val == row (ix2 0 n)) = false := by simpa using e
    simp [IntOp.cmpi, Scalar.select, e']

theorem sum_oneHot (x : FVec Ideal S1024x4096 .bf16) (sg : FVec Ideal S1x256 .bf16) (row : IVec S1x256 32)
    (hrow : ∀ i, (row i).toNat < 4096) (b : Fin 1024) (n : Fin 256) :
    ∑ k : Fin 4096, x (ix2 b k) * oneHot sg row (ix2 k n)
      = x (ix2 b (Cert.Spec.feat 4096 (row (ix2 0 n)))) * sg (ix2 0 n) := by
  rw [Finset.sum_eq_single (Cert.Spec.feat 4096 (row (ix2 0 n)))]
  · rw [oneHot_apply sg row hrow, if_pos rfl]
  · intro k _ hk
    rw [oneHot_apply sg row hrow, if_neg hk]
    exact mul_zero _
  · intro h; exact absurd (Finset.mem_univ _) h

def rowStep (sg : FVec Ideal S1x256 .bf16) (row : IVec S1x256 32) (xh xl : FVec Ideal S1024x4096 .bf16)
    (s : FVec Ideal S1024x256 .f32) : FVec Ideal S1024x256 .f32 :=
  maximumf s (addf
    (matmul dot_S1024x4096_S4096x256_S1024x256_1_0_0_1_n_n none xh (oneHot sg row) (constant S1024x256 .f32 0x00000000#32))
    (matmul dot_S1024x4096_S4096x256_S1024x256_1_0_0_1_n_n none xl (oneHot sg row) (constant S1024x256 .f32 0x00000000#32)))

theorem rowStep_apply (sg : FVec Ideal S1x256 .bf16) (row : IVec S1x256 32) (xh xl : FVec Ideal S1024x4096 .bf16)
    (s : FVec Ideal S1024x256 .f32) (hxl : ∀ i, xl i = 0) (hrow : ∀ i, (row i).toNat < 4096) (b : Fin 1024) (n : Fin 256) :
    rowStep sg row xh xl s (ix2 b n)
      = s (ix2 b n) ⊔ xh (ix2 b (Cert.Spec.feat 4096 (row (ix2 0 n)))) * sg (ix2 0 n) := by
  unfold rowStep
  rw [maximumf_apply, addf_apply, matmul_zero_apply, matmul_zero_apply, sum_oneHot xh sg row hrow,
    sum_oneHot xl sg row hrow, hxl, zero_mul, add_zero]

theorem signF32_apply (op : Vec Ideal S1x256 .i32) (n : Fin 256) :
    k0_pay3 (F := Ideal) op (ix2 0 n) = sgn (op (ix2 0 n)) := by
  unfold k0_pay3
  rw [shapeCast_apply _ shapeCasts_S256_S1x256 (ix2 (0 : Fin 1) n) (ix1 n)
    (by rw [Shape.rowMajor_val_one, Shape.rowMajor_val_two]; show n.val = 0 * 256 + n.val; omega)]
  rw [select_apply, broadcast_apply, broadcast_apply]
  show Scalar.select (IntOp.cmpi .eq (shapeCast S256 op shapeCasts_S1x256_S256 (ix1 n)) (broadcast S256 0#32 (ix1 n)))
    (Ideal.ofBits .f32 0xBF800000#32) (Ideal.ofBits .f32 0x3F800000#32) = _
  rw [shapeCast_apply op shapeCasts_S1x256_S256 (ix1 n) (ix2 (0 : Fin 1) n)
    (by rw [Shape.rowMajor_val_one, Shape.rowMajor_val_two]; show 0 * 256 + n.val = n.val; omega), broadcast_apply]
  have hneg : Ideal.ofBits .f32 0xBF800000#32 = (-1 : EReal) := by
    rw [show (-1 : EReal) = ((-(1 : ℝ) : ℝ) : EReal) by rw [EReal.coe_neg, EReal.coe_one]]
    simp [Ideal.ofBits, Ideal.ieee, -EReal.coe_mul, -EReal.coe_neg]; norm_num
  rw [hneg, Ideal.ofBits_one_f32]
  unfold sgn
  by_cases h : op (ix2 0 n) = 0#32
  · rw [if_pos h, h]; rfl
  · rw [if_neg h]
    have e' : (op (ix2 0 n) == 0#32) = false := by simpa using h
    simp [IntOp.cmpi, Scalar.select, e']

theorem signBf16_apply (op : Vec Ideal S1x256 .i32) (n : Fin 256) :
    k0_pay4 (F := Ideal) op (ix2 0 n) = sgn (op (ix2 0 n)) := by
  unfold k0_pay4
  exact signF32_apply op n

theorem connRow_apply (cn : Vec Ideal S8x256 .i32) (r : Fin 8) (n : Fin 256) :
    connRow cn r (ix2 0 n) = cn (ix2 r n) := by
  fin_cases r <;>
  · show cn _ = cn _
    refine congrArg cn (funext fun a => Fin.ext ?_)
    match a with
    | ⟨0, _⟩ => rfl
    | ⟨1, _⟩ => show 0 + 1 * n.val = n.val; omega

theorem scratchStep_eq (op : Vec Ideal S1x256 .i32) (cn : Vec Ideal S8x256 .i32) (xh xl : Vec Ideal S1024x4096 .bf16)
    (s : Vec Ideal S1024x256 .f32) :
    scratchStep (F := Ideal) op cn xh xl s
      = rowStep (k0_pay4 op) (connRow cn 7) xh xl (rowStep (k0_pay4 op) (connRow cn 6) xh xl
          (rowStep (k0_pay4 op) (connRow cn 5) xh xl (rowStep (k0_pay4 op) (connRow cn 4) xh xl
            (rowStep (k0_pay4 op) (connRow cn 3) xh xl (rowStep (k0_pay4 op) (connRow cn 2) xh xl
              (rowStep (k0_pay4 op) (connRow cn 1) xh xl (rowStep (k0_pay4 op) (connRow cn 0) xh xl s))))))) := by
  unfold scratchStep k0_pay14 k0_pay13 k0_pay12 k0_pay11 k0_pay10 k0_pay9 k0_pay8 k0_pay7 k0_pay6 k0_pay5
  simp only [shapeCast_self, shapeCast_shapeCast]
  rfl

end StepMath

open StepMath

theorem reset_apply (i : S1024x256.Idx) : k0_pay2 (F := Ideal) i = (⊥ : EReal) := by
  unfold k0_pay2
  rw [shapeCast_self]
  exact IdealRules.named_const.ideal_named_scalar _ _ _ _ rfl

theorem scratchStep_apply (op : Vec Ideal S1x256 .i32) (cn : Vec Ideal S8x256 .i32) (xh xl : Vec Ideal S1024x4096 .bf16)
    (s : Vec Ideal S1024x256 .f32) (hxl : ∀ i, xl i = 0) (hcn : ∀ i, (cn i).toNat < 4096) (b : Fin 1024) (n : Fin 256) :
    scratchStep (F := Ideal) op cn xh xl s (ix2 b n)
      = s (ix2 b n) ⊔ ⨆ r : Fin 8, xh (ix2 b (Cert.Spec.feat 4096 (cn (ix2 r n)))) * sgn (op (ix2 0 n)) := by
  have hrow : ∀ r : Fin 8, ∀ i, (connRow cn r i).toNat < 4096 := by
    intro r i
    fin_cases r <;> exact hcn _
  rw [scratchStep_eq, iSup_fin8]
  rw [rowStep_apply _ _ xh xl _ hxl (hrow 7), rowStep_apply _ _ xh xl _ hxl (hrow 6), rowStep_apply _ _ xh xl _ hxl (hrow 5),
    rowStep_apply _ _ xh xl _ hxl (hrow 4), rowStep_apply _ _ xh xl _ hxl (hrow 3), rowStep_apply _ _ xh xl _ hxl (hrow 2),
    rowStep_apply _ _ xh xl _ hxl (hrow 1), rowStep_apply _ _ xh xl _ hxl (hrow 0)]
  simp only [connRow_apply, signBf16_apply, sup_assoc]

theorem outStore_apply (op : Vec Ideal S1x256 .i32) (s : Vec Ideal S1024x256 .f32) (b : Fin 1024) (n : Fin 256) :
    outStore (F := Ideal) op s (ix2 b n) = s (ix2 b n) * sgn (op (ix2 0 n)) := by
  unfold outStore k0_pay1
  rw [mulf_apply, batchBroadcast_apply, signF32_apply]

end Cert.KernelIdeal.R0

end
-- ==== Proof.KI.R0.Value.lean ====
import proofs.«423092_j11149735100496_3_alg».proof.Proof.KI.R0.Bridge
import proofs.«423092_j11149735100496_3_alg».proof.Proof.KI.R0.StepMath

noncomputable section

namespace Cert.KernelIdeal.R0

open Cert.KernelIdeal Cert.KernelIdeal.Gen
open Idealize.ShloMosaic Idealize.ShloMosaic.TcCoe
open Idealize.SL.Sem
open Idealize.ShloMosaic.Pipeline (Dat)
open Idealize.ShloMosaic.ValueIdx
open Cert.LayerMath

variable (V : (c : Dev nD) → (b : Ref sig .tc) → Buf (Elt Ideal) ((c : Thread nD τ).loc b))

namespace Value

abbrev xhArr (c : Dev nD) : Vec Ideal S1024x4096 .bf16 := V c main_v0

abbrev xlArr (c : Dev nD) : Vec Ideal S1024x4096 .bf16 := V c main_v3

abbrev cnArr (c : Dev nD) : Vec Ideal S64x2048 .i32 := V c main_v4

abbrev opArr (c : Dev nD) : Vec Ideal S1x2048 .i32 := V c main_v5
abbrev xhBlk (c : Dev nD) (t : Fin cfg0.N) : Vec Ideal S1024x4096 .bf16 := iblk V c 0 t
abbrev xlBlk (c : Dev nD) (t : Fin cfg0.N) : Vec Ideal S1024x4096 .bf16 := iblk V c 1 t
abbrev cnBlk (c : Dev nD) (t : Fin cfg0.N) : Vec Ideal S8x256 .i32 := iblk V c 2 t
abbrev opBlk (c : Dev nD) (t : Fin cfg0.N) : Vec Ideal S1x256 .i32 := iblk V c 3 t

def col (t : Fin cfg0.N) (n : Fin 256) : Fin 2048 :=
  ⟨256 * (t.val / 8) + n.val, by have := t.isLt; have : cfg0.N = 64 := N_0; omega⟩

def cand (t : Fin cfg0.N) (r : Fin 8) : Fin 64 := ⟨8 * (t.val % 8) + r.val, by omega⟩

theorem xhBlk_apply (c : Dev nD) (t : Fin cfg0.N) (b : Fin 1024) (k : Fin 4096) :
    xhBlk V c t (ix2 b k) = xhArr V c (ix2 b k) := iblk0_apply V c t b k
theorem xlBlk_apply (c : Dev nD) (t : Fin cfg0.N) (b : Fin 1024) (k : Fin 4096) :
    xlBlk V c t (ix2 b k) = xlArr V c (ix2 b k) := iblk1_apply V c t b k
theorem cnBlk_apply (c : Dev nD) (t : Fin cfg0.N) (r : Fin 8) (n : Fin 256) :
    cnBlk V c t (ix2 r n) = cnArr V c (ix2 (cand t r) (col t n)) := iblk2_apply V c t r n
theorem opBlk_apply (c : Dev nD) (t : Fin cfg0.N) (n : Fin 256) :
    opBlk V c t (ix2 0 n) = opArr V c (ix2 0 (col t n)) := iblk3_apply V c t n

theorem xlBlk_zero (c : Dev nD) (hxl : ∀ i, xlArr V c i = 0) (t : Fin cfg0.N) : ∀ i, xlBlk V c t i = 0 := by
  intro i
  obtain ⟨b, k, rfl⟩ : ∃ (b : Fin 1024) (k : Fin 4096), i = ix2 b k := ⟨i 0, i 1, eq_ix2 i⟩
  exact (xlBlk_apply V c t b k).trans (hxl _)

theorem cnBlk_lt (c : Dev nD) (hct : ∀ i, (cnArr V c i).toNat < 4096) (t : Fin cfg0.N) :
    ∀ i, (cnBlk V c t i).toNat < 4096 := by
  intro i
  obtain ⟨r, n, rfl⟩ : ∃ (r : Fin 8) (n : Fin 256), i = ix2 r n := ⟨i 0, i 1, eq_ix2 i⟩
  rw [cnBlk_apply]
  exact hct _

theorem scr_first (c : Dev nD) (t : Fin cfg0.N) (h0 : t.val % 8 = 0) :
    (outsAt V c t.val t.isLt).2 = scratchStep (opBlk V c t) (cnBlk V c t) (xhBlk V c t) (xlBlk V c t) (k0_pay2 (F := Ideal)) := by
  rw [outsAt_first V c t h0, stepAt, dif_pos h0]
  dsimp only
  exact sFirst_eq ..

theorem scr_next (c : Dev nD) (t : Fin cfg0.N) (h0 : ¬t.val % 8 = 0) :
    (outsAt V c t.val t.isLt).2
      = scratchStep (opBlk V c t) (cnBlk V c t) (xhBlk V c t) (xlBlk V c t)
          (outsAt V c (t.val - 1) (Nat.lt_of_le_of_lt (Nat.sub_le _ _) t.isLt)).2 := by
  rw [outsAt_next V c t h0, stepAt, dif_neg h0]
  by_cases h1 : t.val % 8 = 7
  · rw [dif_pos h1]
    dsimp only
    exact sLast_eq ..
  · rw [dif_neg h1]
    dsimp only
    exact sMid_eq ..

theorem out_last (c : Dev nD) (t : Fin cfg0.N) (h0 : ¬t.val % 8 = 0) (h1 : t.val % 8 = 7) :
    (outsAt V c t.val t.isLt).1 = outStore (opBlk V c t) (outsAt V c t.val t.isLt).2 := by
  rw [outsAt_next V c t h0, stepAt, dif_neg h0, dif_pos h1]
  dsimp only
  rw [oLast_eq, sLast_eq]

def sterm (c : Dev nD) (b : Fin 1024) (o : Fin 2048) (k : Fin 64) : EReal :=
  xhArr V c (ix2 b (Cert.Spec.feat 4096 (cnArr V c (ix2 k o)))) * sgn (opArr V c (ix2 0 o))

theorem step_apply (c : Dev nD) (hxl : ∀ i, xlArr V c i = 0) (hct : ∀ i, (cnArr V c i).toNat < 4096)
    (t : Fin cfg0.N) (s : Vec Ideal S1024x256 .f32) (b : Fin 1024) (n : Fin 256) :
    scratchStep (F := Ideal) (opBlk V c t) (cnBlk V c t) (xhBlk V c t) (xlBlk V c t) s (ix2 b n)
      = s (ix2 b n) ⊔ ⨆ r : Fin 8, sterm V c b (col t n) (cand t r) := by
  rw [scratchStep_apply (opBlk V c t) (cnBlk V c t) (xhBlk V c t) (xlBlk V c t) s (xlBlk_zero V c hxl t) (cnBlk_lt V c hct t) b n]
  refine congrArg (fun x => s (ix2 b n) ⊔ x) (iSup_congr fun r => ?_)
  unfold sterm
  rw [cnBlk_apply, xhBlk_apply, opBlk_apply]

theorem scr_apply_first (c : Dev nD) (hxl : ∀ i, xlArr V c i = 0) (hct : ∀ i, (cnArr V c i).toNat < 4096)
    (t : Fin cfg0.N) (h0 : t.val % 8 = 0) (b : Fin 1024) (n : Fin 256) :
    (outsAt V c t.val t.isLt).2 (ix2 b n)
      = ⨆ k : Fin 64, ⨆ (_ : k.val < 8 * (t.val % 8 + 1)), sterm V c b (col t n) k := by
  rw [scr_first V c t h0, step_apply V c hxl hct t (k0_pay2 (F := Ideal)) b n, reset_apply,
    iSup_lt_step (sterm V c b (col t n)) (t.val % 8) (cand t) (fun r => rfl),
    iSup_lt_zero (sterm V c b (col t n)) (8 * (t.val % 8)) (by omega)]

theorem scr_apply (c : Dev nD) (hxl : ∀ i, xlArr V c i = 0) (hct : ∀ i, (cnArr V c i).toNat < 4096) :
    ∀ (m : ℕ) (t : Fin cfg0.N), t.val = m → ∀ (b : Fin 1024) (n : Fin 256),
      (outsAt V c t.val t.isLt).2 (ix2 b n)
        = ⨆ k : Fin 64, ⨆ (_ : k.val < 8 * (t.val % 8 + 1)), sterm V c b (col t n) k := by
  intro m
  induction m with
  | zero =>
    intro t ht b n
    exact scr_apply_first V c hxl hct t (by omega) b n
  | succ m ih =>
    intro t ht b n
    by_cases h0 : t.val % 8 = 0
    · exact scr_apply_first V c hxl hct t h0 b n
    · have hlt : t.val - 1 < cfg0.N := Nat.lt_of_le_of_lt (Nat.sub_le _ _) t.isLt
      have ih' : (outsAt V c (t.val - 1) hlt).2 (ix2 b n)
          = ⨆ k : Fin 64, ⨆ (_ : k.val < 8 * ((t.val - 1) % 8 + 1)), sterm V c b (col ⟨t.val - 1, hlt⟩ n) k :=
        ih ⟨t.val - 1, hlt⟩ (by show t.val - 1 = m; omega) b n
      have e1 : col ⟨t.val - 1, hlt⟩ n = col t n :=
        Fin.ext (by show 256 * ((t.val - 1) / 8) + n.val = 256 * (t.val / 8) + n.val; omega)
      have e2 : (t.val - 1) % 8 + 1 = t.val % 8 := by omega
      rw [e1, e2] at ih'
      rw [scr_next V c t h0,
        step_apply V c hxl hct t (outsAt V c (t.val - 1) (Nat.lt_of_le_of_lt (Nat.sub_le _ _) t.isLt)).2 b n,
        iSup_lt_step (sterm V c b (col t n)) (t.val % 8) (cand t) (fun r => rfl)]
      exact congrArg (fun x => x ⊔ ⨆ r : Fin 8, sterm V c b (col t n) (cand t r)) ih'

def Gfun (c : Dev nD) (b : Fin 1024) (o : Fin 2048) : EReal :=
  Cert.Spec.pick (opArr V c (ix2 0 o) = 0#32)
    (fun k : Fin 64 => xhArr V c (ix2 b (Cert.Spec.feat 4096 (cnArr V c (ix2 k o)))))

theorem outBlock_apply (c : Dev nD) (hxl : ∀ i, xlArr V c i = 0) (hfin : ∀ i, ∃ r : ℝ, xhArr V c i = (r : EReal))
    (hct : ∀ i, (cnArr V c i).toNat < 4096) (t : Fin cfg0.N) (h1 : t.val % 8 = 7) (b : Fin 1024) (n : Fin 256) :
    (outsAt V c t.val t.isLt).1 (ix2 b n) = Gfun V c b (col t n) := by
  have h0 : ¬t.val % 8 = 0 := by omega
  rw [out_last V c t h0 h1, outStore_apply, scr_apply V c hxl hct t.val t rfl b n, opBlk_apply,
    iSup_lt_all (sterm V c b (col t n)) (8 * (t.val % 8 + 1)) (by omega)]
  unfold Gfun
  rw [← signed_sup (opArr V c (ix2 0 (col t n)))
    (fun k : Fin 64 => xhArr V c (ix2 b (Cert.Spec.feat 4096 (cnArr V c (ix2 k (col t n)))))) (fun k => hfin _), bot_sup_eq]
  rfl

def G (c : Dev nD) : Vec Ideal S1024x2048 .f32 := fun i => Gfun V c (i 0) (i 1)

theorem idx_facts4 : ∀ t : Fin cfg0.N, win0_4.index t (0 : Fin 2) = 0 ∧ win0_4.index t (1 : Fin 2) = t.val / 8 :=
  (by decide +kernel : ∀ t : Fin grid0.N, win0_4.index t (0 : Fin 2) = 0 ∧ win0_4.index t (1 : Fin 2) = t.val / 8)

theorem flushed4_eq (c : Dev nD) (hxl : ∀ i, xlArr V c i = 0) (hfin : ∀ i, ∃ r : ℝ, xhArr V c i = (r : EReal))
    (hct : ∀ i, (cnArr V c i).toNat < 4096) (t : Fin cfg0.N) (hf : (cfg0.win 4).flush t = true) :
    (dat (F := Ideal) V c).flushed 4 t = ((cfg0.win 4).blk t).view.read (Elt Ideal) (G V c) := by
  have h1 : t.val % 8 = 7 := (flush0_4 t).mp hf
  show (cfg0.win 4).cut (grid0.coords t) ((dat (F := Ideal) V c).after 4 t) = _
  rw [after_4]
  funext y
  obtain ⟨b, n, rfl⟩ : ∃ (b : Fin 1024) (n : Fin 256), y = ix2 b n := ⟨y 0, y 1, eq_ix2 y⟩
  show (outsAt V c t.val t.isLt).1 (ix2 b n) = G V c (((cfg0.win 4).blk t).view.emb (ix2 b n))
  rw [outBlock_apply V c hxl hfin hct t h1 b n]
  have he : ((cfg0.win 4).blk t).view.emb (ix2 b n) = ix2 b (col t n) := by
    obtain ⟨e0, e1⟩ := idx_facts4 t
    funext a; apply Fin.ext
    match a with
    | ⟨0, _⟩ => show win0_4.index t (0 : Fin 2) * 1024 + 1 * b.val = b.val; omega
    | ⟨1, _⟩ => show win0_4.index t (1 : Fin 2) * 256 + 1 * n.val = 256 * (t.val / 8) + n.val; omega
  rw [he]
  rfl

theorem mem_blk4 (t : Fin cfg0.N) (i : S1024x2048.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v6).slice (win0_4.rect t)).set ↔ _
  rw [View.set_slice_whole, Rect.mem_set_unit]
  exact Iff.rfl

theorem cover4 (i : S1024x2048.Idx) :
    ∃ t : Fin cfg0.N, (cfg0.win 4).flush t = true ∧ i ∈ ((cfg0.win 4).blk t).view.set := by
  have hN : cfg0.N = 64 := N_0
  have hi0 : (i 0).val < 1024 := (i 0).isLt
  have hi1 : (i 1).val < 2048 := (i 1).isLt
  have htt : 8 * ((i 1).val / 256) + 7 < cfg0.N := by omega
  obtain ⟨e0, e1⟩ := idx_facts4 ⟨8 * ((i 1).val / 256) + 7, htt⟩
  have e1' : win0_4.index ⟨8 * ((i 1).val / 256) + 7, htt⟩ (1 : Fin 2) = (8 * ((i 1).val / 256) + 7) / 8 := e1
  refine ⟨⟨8 * ((i 1).val / 256) + 7, htt⟩, (flush0_4 _).mpr (by show (8 * ((i 1).val / 256) + 7) % 8 = 7; omega), ?_⟩
  rw [mem_blk4]
  intro a
  match a with
  | ⟨0, _⟩ =>
    show win0_4.index ⟨8 * ((i 1).val / 256) + 7, htt⟩ (0 : Fin 2) * 1024 ≤ (i 0).val
      ∧ (i 0).val < win0_4.index ⟨8 * ((i 1).val / 256) + 7, htt⟩ (0 : Fin 2) * 1024 + 1024
    omega
  | ⟨1, _⟩ =>
    show win0_4.index ⟨8 * ((i 1).val / 256) + 7, htt⟩ (1 : Fin 2) * 256 ≤ (i 1).val
      ∧ (i 1).val < win0_4.index ⟨8 * ((i 1).val / 256) + 7, htt⟩ (1 : Fin 2) * 256 + 256
    omega

theorem final4 (c : Dev nD) (hxl : ∀ i, xlArr V c i = 0) (hfin : ∀ i, ∃ r : ℝ, xhArr V c i = (r : EReal))
    (hct : ∀ i, (cnArr V c i).toNat < 4096) :
    (dat (F := Ideal) V c).arrAt 4 cfg0.N = G V c :=
  (dat (F := Ideal) V c).arrAt_eq_of_cover 4 (G V c) (fun t hf => flushed4_eq V c hxl hfin hct t hf) cover4

end Value

end Cert.KernelIdeal.R0

end
-- ==== Proof.KI.R0.Glue.lean ====
import proofs.«423092_j11149735100496_3_alg».proof.Proof.KI.Family
import proofs.«423092_j11149735100496_3_alg».proof.Proof.KI.R0.Value
import Idealize.ShloMosaic.Lib.ValueLayout
import Idealize.ShloMosaic.Lib.StableHlo.Run
import Idealize.ShloMosaic.Lib.Tactic

noncomputable section

namespace Cert.KernelIdeal.Glue0

open Cert.KernelIdeal Cert.KernelIdeal.Gen
open Idealize.ShloMosaic Idealize.ShloMosaic.TcCoe Idealize.ShloMosaic.Tactic
open Idealize.ShloMosaic.ValueIdx
open Idealize.ShloMosaic.Pipeline (Dat)
open Cert.LayerMath

variable (m : (ℓ : Loc nD τ sig) → Buf (Elt Ideal) ℓ)

abbrev yArr (c : Dev nD) : FVec Ideal S1024x4096 .f32 := m ((c : Thread nD τ).loc main_arg0)
abbrev tbArr (c : Dev nD) : Vec Ideal S2048x64 .i32 := m ((c : Thread nD τ).loc main_arg1)
abbrev owArr (c : Dev nD) : Vec Ideal S2048 .i32 := m ((c : Thread nD τ).loc main_arg5)

abbrev Vin : (c : Dev nD) → (b : Ref sig .tc) → Buf (Elt Ideal) ((c : Thread nD τ).loc b) := Fam.rd (Fam.W1 m)

theorem w_v4 (c : Dev nD) :
    (Fam.W1 m c main_v4 : Vec Ideal S64x2048 .i32) = transpose S64x2048 [1, 0] (tbArr m c) transposes_S2048x64_S64x2048_1_0 := by
  unfold Fam.W1
  show StableHlo.after hostOps0 (V0 m c) (Proc.devRef .tc main_v4) = _
  after_results
  all_goals rfl

theorem w_v5 (c : Dev nD) :
    (Fam.W1 m c main_v5 : Vec Ideal S1x2048 .i32) = shapeCast S1x2048 (owArr m c) shapeCasts_S2048_S1x2048 := by
  unfold Fam.W1
  show StableHlo.after hostOps0 (V0 m c) (Proc.devRef .tc main_v5) = _
  after_results
  all_goals rfl

theorem v0_at (c : Dev nD) (i : S1024x4096.Idx) : R0.Value.xhArr (Vin m) c i = yArr m c i := by
  refine congrFun (?_ : (Fam.W1 m c main_v0 : FVec Ideal S1024x4096 .bf16) = yArr m c) i
  unfold Fam.W1
  show StableHlo.after hostOps0 (V0 m c) (Proc.devRef .tc main_v0) = _
  after_results
  all_goals rfl

theorem v3_at (c : Dev nD) (i : S1024x4096.Idx) : R0.Value.xlArr (Vin m) c i = yArr m c i - yArr m c i := by
  refine congrFun (?_ : (Fam.W1 m c main_v3 : FVec Ideal S1024x4096 .bf16) = fun i => yArr m c i - yArr m c i) i
  unfold Fam.W1
  show StableHlo.after hostOps0 (V0 m c) (Proc.devRef .tc main_v3) = _
  after_results
  all_goals rfl

theorem v4_at (c : Dev nD) (k : Fin 64) (o : Fin 2048) : R0.Value.cnArr (Vin m) c (ix2 k o) = tbArr m c (ix2 o k) := by
  show (Fam.W1 m c main_v4 : Vec Ideal S64x2048 .i32) (ix2 k o) = _
  rw [w_v4]; exact transpose_ix2_apply _ _ k o

theorem v5_at (c : Dev nD) (o : Fin 2048) : R0.Value.opArr (Vin m) c (ix2 0 o) = owArr m c (ix1 o) := by
  show (Fam.W1 m c main_v5 : Vec Ideal S1x2048 .i32) (ix2 0 o) = _
  rw [w_v5]
  refine shapeCast_apply _ _ _ _ ?_
  show (S2048.rowMajor (ix1 o)).val = (S1x2048.rowMajor (ix2 0 o)).val
  rw [Shape.rowMajor_val_one, Shape.rowMajor_val_two]
  show o.val = (0 : Fin 1).val * 2048 + o.val
  simp

theorem out_eq (c : Dev nD) (hx : Cert.Spec.Finite (m ((c : Thread nD τ).loc main_arg0)))
    (hconn : ∀ i, (m ((c : Thread nD τ).loc main_arg1) i).toNat < 4096) :
    Fam.o2 m c = Cert.Spec.layer (nin := 4096) (nout := 2048) (m ((c : Thread nD τ).loc main_arg0))
      (m ((c : Thread nD τ).loc main_arg1)) (m ((c : Thread nD τ).loc main_arg5)) := by

  have hxl : ∀ i, R0.Value.xlArr (Vin m) c i = 0 := fun i => by
    rw [v3_at]
    obtain ⟨r, hr⟩ := hx i
    have hr' : yArr m c i = (r : EReal) := hr
    rw [hr', ← EReal.coe_sub, sub_self, EReal.coe_zero]

  have hfin : ∀ i, ∃ r : ℝ, R0.Value.xhArr (Vin m) c i = (r : EReal) := fun i => by
    obtain ⟨r, hr⟩ := hx i
    exact ⟨r, (v0_at m c i).trans hr⟩

  have hct : ∀ i, (R0.Value.cnArr (Vin m) c i).toNat < 4096 := fun i => by
    obtain ⟨k, o, rfl⟩ : ∃ (k : Fin 64) (o : Fin 2048), i = ix2 k o := ⟨i 0, i 1, eq_ix2 (n0 := 64) (n1 := 2048) i⟩
    rw [v4_at]
    exact hconn _
  funext i
  obtain ⟨b, o, rfl⟩ : ∃ (b : Fin 1024) (o : Fin 2048), i = ix2 b o := ⟨i 0, i 1, eq_ix2 (n0 := 1024) (n1 := 2048) i⟩
  show ((R0.dat (F := Ideal) (Vin m) c).arrAt 4 cfg0.N : Vec Ideal S1024x2048 .f32) (ix2 b o) = _
  rw [R0.Value.final4 (Vin m) c hxl hfin hct]
  unfold Cert.Spec.layer
  refine pick_congr ?_ fun k => ?_
  · rw [v5_at]
  · rw [v0_at, v4_at]

end Cert.KernelIdeal.Glue0
end
-- ==== Proof.KI.Keep.lean ====
import proofs.«423092_j11149735100496_3_alg».proof.Proof.KI.Family

noncomputable section

namespace Cert.KernelIdeal.Fam

open Cert.KernelIdeal Cert.KernelIdeal.Gen
open Idealize.ShloMosaic Idealize.ShloMosaic.TcCoe

variable {F : FTy → Type} [FloatOps F] [Named F]
variable (m : (ℓ : Loc nD τ sig) → Buf (Elt F) ℓ)

abbrev wr2 : List (Ref sig .tc) := hostOps0_W ++ [main_v6]
abbrev wr4 : List (Ref sig .tc) := wr2 ++ (hostOps1_W ++ [main_v13])
abbrev wr6 : List (Ref sig .tc) := wr4 ++ (hostOps2_W ++ [main_v20])

/-- Operations that write only `Wr`, then a change at `v`, keep what `X` holds at any `r` outside `Wr` and other than `v`. -/
theorem keep_step {ops : List (HloOp τ sig (Elt F))} {Wr : List (Ref sig .tc)}
    (hw : ops.Forall fun op => op.writes ⊆ (Wr.map (Proc.devRef (τ := τ) .tc)).toFinset)
    (X : Valuation τ sig (Elt F)) (v : Ref sig .tc) (a : (Proc.devRef (τ := τ) .tc v).ty.Contents (Elt F))
    {L : List (Ref sig .tc)} {r : Ref sig .tc} {b : (Proc.devRef (τ := τ) .tc r).ty.Contents (Elt F)}
    (hX : r ∉ L → X (Proc.devRef .tc r) = b) (h : r ∉ L ++ (Wr ++ [v])) :
    Function.update (StableHlo.after ops X) (Proc.devRef .tc v) a (Proc.devRef .tc r) = b :=
  (Function.update_of_ne (StableHlo.devRef_ne_of_ne fun (e : r = v) => h (List.mem_append_right _ (List.mem_append_right _ (e ▸ List.mem_singleton_self _)))) _ _).trans
    ((StableHlo.after_of_writes_sub ops X hw fun hh => h (List.mem_append_right _ (List.mem_append_left _ hh))).trans
      (hX fun hh => h (List.mem_append_left _ hh)))

theorem keep2 (c : Dev nD) (r : Ref sig .tc) (h : r ∉ wr2) : W2 m c r = m ((c : Thread nD τ).loc r) :=
  keep_step (L := []) hostOps0_writes (V0 m c) main_v6 (o2 m c) (fun _ => rfl) h

theorem keep4 (c : Dev nD) (r : Ref sig .tc) (h : r ∉ wr4) : W4 m c r = m ((c : Thread nD τ).loc r) :=
  keep_step hostOps1_writes (W2 m c) main_v13 (o4 m c) (keep2 m c r) h

theorem keep6 (c : Dev nD) (r : Ref sig .tc) (h : r ∉ wr6) : W6 m c r = m ((c : Thread nD τ).loc r) :=
  keep_step hostOps2_writes (W4 m c) main_v20 (o6 m c) (keep4 m c r) h

end Cert.KernelIdeal.Fam

end
-- ==== Proof.KI.R1.Step.lean ====
import proofs.«423092_j11149735100496_3_alg».proof.Proof.Gen.KernelIdeal.Skeleton
import proofs.«423092_j11149735100496_3_alg».proof.Proof.LayerMath
import Idealize.ShloMosaic.Lib.Pipeline.Value

noncomputable section

namespace Cert.KernelIdeal.R1

open Cert.KernelIdeal Cert.KernelIdeal.Gen
open Idealize.ShloMosaic Idealize.ShloMosaic.ValueIdx

variable {F : FTy → Type} [FloatOps F] [Named F]

def connRow (cn : Vec F S8x256 .i32) : Fin 8 → Vec F S1x256 .i32
  | ⟨0, _⟩ => View.ld cn (Rect.unit (s := S8x256) ![0, 0] S1x256.size inb_S8x256_S1x256_0_0)
  | ⟨1, _⟩ => View.ld cn (Rect.unit (s := S8x256) ![1, 0] S1x256.size inb_S8x256_S1x256_1_0)
  | ⟨2, _⟩ => View.ld cn (Rect.unit (s := S8x256) ![2, 0] S1x256.size inb_S8x256_S1x256_2_0)
  | ⟨3, _⟩ => View.ld cn (Rect.unit (s := S8x256) ![3, 0] S1x256.size inb_S8x256_S1x256_3_0)
  | ⟨4, _⟩ => View.ld cn (Rect.unit (s := S8x256) ![4, 0] S1x256.size inb_S8x256_S1x256_4_0)
  | ⟨5, _⟩ => View.ld cn (Rect.unit (s := S8x256) ![5, 0] S1x256.size inb_S8x256_S1x256_5_0)
  | ⟨6, _⟩ => View.ld cn (Rect.unit (s := S8x256) ![6, 0] S1x256.size inb_S8x256_S1x256_6_0)
  | ⟨7, _⟩ => View.ld cn (Rect.unit (s := S8x256) ![7, 0] S1x256.size inb_S8x256_S1x256_7_0)

def scratchStep (op : Vec F S1x256 .i32) (cn : Vec F S8x256 .i32) (xh xl : Vec F S1024x2048 .bf16)
    (s : Vec F S1024x256 .f32) : FVec F S1024x256 .f32 :=
  k1_pay14 (k1_pay4 op) (iota .tc S2048x256 32 [0] iota_S2048x256_d0_w32)
    (k1_pay10 (k1_pay4 op) (iota .tc S2048x256 32 [0] iota_S2048x256_d0_w32)
      (k1_pay7 (k1_pay4 op) (iota .tc S2048x256 32 [0] iota_S2048x256_d0_w32)
        (k1_pay5 op s (connRow cn 0) xh xl) (k1_pay6 (connRow cn 1)) (Scalar.ofBits .bf16 0x0000#16)
        xh xl (connRow cn 2) xh xl)
      (k1_pay8 (k1_pay4 op) (iota .tc S2048x256 32 [0] iota_S2048x256_d0_w32) (connRow cn 3)) (k1_pay9 xh)
      xl (connRow cn 4) xh xl)
    (k1_pay12 (k1_pay4 op) (iota .tc S2048x256 32 [0] iota_S2048x256_d0_w32) (connRow cn 5) xh)
    (k1_pay13 (k1_pay4 op) (iota .tc S2048x256 32 [0] iota_S2048x256_d0_w32) (connRow cn 5) xl)
    (connRow cn 6) xh xl (connRow cn 7) xh xl

def outStore (op : Vec F S1x256 .i32) (s : Vec F S1024x256 .f32) : FVec F S1024x256 .f32 :=
  k1_pay1 (k1_pay3 op) s

end Cert.KernelIdeal.R1

end
-- ==== Proof.KI.R1.Bridge.lean ====
import proofs.«423092_j11149735100496_3_alg».proof.Proof.KI.R1.Dat
import proofs.«423092_j11149735100496_3_alg».proof.Proof.KI.R1.Step

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx
open Cert.LayerMath

variable (V : (c : Dev nD) → (b : Ref sig .tc) → Buf (Elt F) ((c : Thread nD τ).loc b))

section
variable (c : Dev nD) (i : grid1.Coords) (arg2 : Memref sig .tc .vmem S1024x2048 .bf16) (harg2 : arg2.IsWhole)
  (arg3 : Memref sig .tc .vmem S1024x2048 .bf16) (harg3 : arg3.IsWhole) (arg4 : Memref sig .tc .vmem S8x256 .i32)
  (harg4 : arg4.IsWhole) (arg5 : Memref sig .tc .vmem S1x256 .i32) (harg5 : arg5.IsWhole)
  (arg6 : Memref sig .tc .vmem S1024x256 .f32) (harg6 : arg6.IsWhole) (arg7 : Memref sig .tc .vmem S1024x256 .f32)
  (harg7 : arg7.IsWhole)
  (x0 x1 : Vec F S1024x2048 .bf16) (x2 : Vec F S8x256 .i32) (x3 : Vec F S1x256 .i32) (xs : Vec F S1024x256 .f32)

theorem sFirst_eq (hc0 : condFirst i) (hc1 : ¬condLast i) :
    sFirst c i arg2 harg2 arg3 harg3 arg4 harg4 arg5 harg5 arg6 harg6 arg7 harg7 hc0 hc1 x0 x1 x2 x3 = scratchStep x3 x2 x0 x1 (k1_pay2 (F := F)) := by
  unfold sFirst
  unfold runFirst
  dsimp only
  sl_unfold_words
  rw [View.canon_cons_unit_zero (S := S1024x256) offsets_zero]
  simp only [View.readAt_eq_ld, harg2.read_unread, harg3.read_unread, harg4.read_unread, harg5.read_unread,
    View.readCov_unit_zero (S := S1024x256) _ offsets_zero,
    View.ld_unit_zero (S := S1024x2048) offsets_zero, View.ld_unit_zero (S := S1x256) offsets_zero, View.ld_unit_zero (S := S1024x256) offsets_zero]
  rfl

theorem sMid_eq (hc0 : ¬condFirst i) (hc1 : ¬condLast i) :
    sMid c i arg2 harg2 arg3 harg3 arg4 harg4 arg5 harg5 arg6 harg6 arg7 harg7 hc0 hc1 x0 x1 x2 x3 xs = scratchStep x3 x2 x0 x1 xs := by
  unfold sMid
  unfold runMid
  dsimp only
  sl_unfold_words
  rw [View.canon_unit_zero (S := S1024x256) offsets_zero]
  simp only [View.readAt_eq_ld, harg2.read_unread, harg3.read_unread, harg4.read_unread, harg5.read_unread, harg7.read_unread,
    View.readCov_unit_zero (S := S1024x256) _ offsets_zero,
    View.ld_unit_zero (S := S1024x2048) offsets_zero, View.ld_unit_zero (S := S1x256) offsets_zero, View.ld_unit_zero (S := S1024x256) offsets_zero]
  rfl

theorem sLast_eq (hc0 : ¬condFirst i) (hc1 : condLast i) :
    sLast c i arg2 harg2 arg3 harg3 arg4 harg4 arg5 harg5 arg6 harg6 arg7 harg7 hc0 hc1 x0 x1 x2 x3 xs = scratchStep x3 x2 x0 x1 xs := by
  unfold sLast
  unfold runLast
  dsimp only
  sl_unfold_words
  rw [View.canon_unit_zero (S := S1024x256) offsets_zero]
  simp only [View.readAt_eq_ld, harg2.read_unread, harg3.read_unread, harg4.read_unread, harg5.read_unread, harg7.read_unread,
    View.readCov_unit_zero (S := S1024x256) _ offsets_zero,
    View.ld_unit_zero (S := S1024x2048) offsets_zero, View.ld_unit_zero (S := S1x256) offsets_zero, View.ld_unit_zero (S := S1024x256) offsets_zero]
  rfl

theorem oLast_eq (hc0 : ¬condFirst i) (hc1 : condLast i) :
    oLast c i arg2 harg2 arg3 harg3 arg4 harg4 arg5 harg5 arg6 harg6 arg7 harg7 hc0 hc1 x0 x1 x2 x3 xs = outStore x3 (scratchStep x3 x2 x0 x1 xs) := by
  unfold oLast
  unfold runLast
  dsimp only
  sl_unfold_words
  rw [View.canon_unit_zero (S := S1024x256) offsets_zero]
  simp only [View.readAt_eq_ld, harg2.read_unread, harg3.read_unread, harg4.read_unread, harg5.read_unread, harg7.read_unread,
    View.readCov_unit_zero (S := S1024x256) _ offsets_zero,
    View.ld_unit_zero (S := S1024x2048) offsets_zero, View.ld_unit_zero (S := S1x256) offsets_zero, View.ld_unit_zero (S := S1024x256) offsets_zero]
  rfl

end

theorem Bridge.index_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val % 8 ∧ win1_2.index t (1 : Fin 2) = t.val / 8
    ∧ win1_3.index t (0 : Fin 2) = 0 ∧ win1_3.index t (1 : Fin 2) = t.val / 8 :=
  (by decide +kernel : ∀ t : Fin grid1.N, _)

theorem iblk0_apply (c : Dev nD) (t : Fin cfg1.N) (b : Fin 1024) (k : Fin 2048) :
    (iblk V c 0 t : Vec F S1024x2048 .bf16) (ix2 b k) = (V c main_v7 : Vec F S1024x2048 .bf16) (ix2 b k) := by
  obtain ⟨e0, e1, -⟩ := Bridge.index_facts t
  unfold iblk
  rw [View.read_apply]
  show V c main_v7 (((cfg1.win 0).blk t).view.emb (ix2 b k)) = V c main_v7 (ix2 b k)
  congr 1
  funext a; apply Fin.ext
  match a with
  | ⟨0, _⟩ => show win1_0.index t (0 : Fin 2) * 1024 + 1 * b.val = b.val; rw [e0]; omega
  | ⟨1, _⟩ => show win1_0.index t (1 : Fin 2) * 2048 + 1 * k.val = k.val; rw [e1]; omega
theorem iblk1_apply (c : Dev nD) (t : Fin cfg1.N) (b : Fin 1024) (k : Fin 2048) :
    (iblk V c 1 t : Vec F S1024x2048 .bf16) (ix2 b k) = (V c main_v10 : Vec F S1024x2048 .bf16) (ix2 b k) := by
  obtain ⟨-, -, e0, e1, -⟩ := Bridge.index_facts t
  unfold iblk
  rw [View.read_apply]
  show V c main_v10 (((cfg1.win 1).blk t).view.emb (ix2 b k)) = V c main_v10 (ix2 b k)
  congr 1
  funext a; apply Fin.ext
  match a with
  | ⟨0, _⟩ => show win1_1.index t (0 : Fin 2) * 1024 + 1 * b.val = b.val; rw [e0]; omega
  | ⟨1, _⟩ => show win1_1.index t (1 : Fin 2) * 2048 + 1 * k.val = k.val; rw [e1]; omega

theorem iblk2_apply (c : Dev nD) (t : Fin cfg1.N) (r : Fin 8) (n : Fin 256) :
    (iblk V c 2 t : Vec F S8x256 .i32) (ix2 r n)
      = (V c main_v11 : Vec F S64x1024 .i32) (ix2 ⟨8 * (t.val % 8) + r.val, by omega⟩ ⟨256 * (t.val / 8) + n.val, by have := t.isLt; have : cfg1.N = 32 := N_1; omega⟩) := by
  obtain ⟨-, -, -, -, e0, e1, -⟩ := Bridge.index_facts t
  unfold iblk
  rw [View.read_apply]
  show V c main_v11 (((cfg1.win 2).blk t).view.emb (ix2 r n)) = V c main_v11 _
  congr 1
  funext a; apply Fin.ext
  match a with
  | ⟨0, _⟩ => show win1_2.index t (0 : Fin 2) * 8 + 1 * r.val = 8 * (t.val % 8) + r.val; rw [e0]; omega
  | ⟨1, _⟩ => show win1_2.index t (1 : Fin 2) * 256 + 1 * n.val = 256 * (t.val / 8) + n.val; rw [e1]; omega

theorem iblk3_apply (c : Dev nD) (t : Fin cfg1.N) (n : Fin 256) :
    (iblk V c 3 t : Vec F S1x256 .i32) (ix2 0 n)
      = (V c main_v12 : Vec F S1x1024 .i32) (ix2 0 ⟨256 * (t.val / 8) + n.val, by have := t.isLt; have : cfg1.N = 32 := N_1; omega⟩) := by
  obtain ⟨-, -, -, -, -, -, e0, e1⟩ := Bridge.index_facts t
  unfold iblk
  rw [View.read_apply]
  show V c main_v12 (((cfg1.win 3).blk t).view.emb (ix2 0 n)) = V c main_v12 _
  congr 1
  funext a; apply Fin.ext
  match a with
  | ⟨0, _⟩ => show win1_3.index t (0 : Fin 2) * 1 + 1 * 0 = 0; rw [e0]
  | ⟨1, _⟩ => show win1_3.index t (1 : Fin 2) * 256 + 1 * n.val = 256 * (t.val / 8) + n.val; rw [e1]; omega

end Cert.KernelIdeal.R1

end
-- ==== Proof.KI.R1.StepMath.lean ====
import proofs.«423092_j11149735100496_3_alg».proof.Proof.KI.R1.Step
import Idealize.ShloMosaic.PureOps.IdealRules
import Idealize.ShloMosaic.Lib.IdealHost

noncomputable section

namespace Cert.KernelIdeal.R1

open Cert.KernelIdeal Cert.KernelIdeal.Gen
open Idealize.ShloMosaic Idealize.ShloMosaic.ValueIdx
open scoped BigOperators
open Cert.LayerMath

namespace StepMath

/-- The two operand indices at output (b, n) and contracted coordinate k are (b, k) and (k, n), coordinate by coordinate. -/
theorem matmul_zero_apply (A : FVec Ideal S1024x2048 .bf16) (B : FVec Ideal S2048x256 .bf16) (b : Fin 1024) (n : Fin 256) :
    matmul dot_S1024x2048_S2048x256_S1024x256_1_0_0_1_n_n none A B (constant S1024x256 .f32 0x00000000#32) (ix2 b n)
      = ∑ k : Fin 2048, A (ix2 b k) * B (ix2 k n) := by
  show FloatOps.matmul dot_S1024x2048_S2048x256_S1024x256_1_0_0_1_n_n none A B _ (ix2 b n) = _
  rw [Ideal.matmul_constant_zero_apply, ← Equiv.sum_comp (contrEquiv1 _ 2048 rfl rfl).symm]
  refine Finset.sum_congr rfl fun k _ => ?_
  congr 2 <;> funext ax <;> apply Fin.ext <;>
    match ax with
    | ⟨0, _⟩ => rfl
    | ⟨1, _⟩ => rfl

theorem rowBroadcast_apply {α : Type} (x : S1x256.Idx → α) (k : Fin 2048) (n : Fin 256) :
    broadcastTo S2048x256 x broadcasts_S1x256_S2048x256 (ix2 k n) = x (ix2 0 n) := by
  refine broadcastTo_apply x broadcasts_S1x256_S2048x256 (ix2 k n) (ix2 0 n) ?_
  intro a
  match a with
  | ⟨0, _⟩ => rfl
  | ⟨1, _⟩ => rfl

theorem batchBroadcast_apply {α : Type} (x : S1x256.Idx → α) (b : Fin 1024) (n : Fin 256) :
    broadcastTo S1024x256 x broadcasts_S1x256_S1024x256 (ix2 b n) = x (ix2 0 n) := by
  refine broadcastTo_apply x broadcasts_S1x256_S1024x256 (ix2 b n) (ix2 0 n) ?_
  intro a
  match a with
  | ⟨0, _⟩ => rfl
  | ⟨1, _⟩ => rfl

theorem rowIota_apply (k : Fin 2048) (n : Fin 256) :
    iota .tc S2048x256 32 [0] iota_S2048x256_d0_w32 (ix2 k n) = BitVec.ofNat 32 k.val :=
  iota_single_apply .tc S2048x256 32 0 iota_S2048x256_d0_w32 (ix2 k n)

def oneHot (sg : FVec Ideal S1x256 .bf16) (row : IVec S1x256 32) : FVec Ideal S2048x256 .bf16 :=
  select (cmpi .eq (iota .tc S2048x256 32 [0] iota_S2048x256_d0_w32) (broadcastTo S2048x256 row broadcasts_S1x256_S2048x256))
    (broadcastTo S2048x256 sg broadcasts_S1x256_S2048x256) (broadcast S2048x256 (Scalar.ofBits .bf16 0x0000#16))

theorem oneHot_apply (sg : FVec Ideal S1x256 .bf16) (row : IVec S1x256 32) (hrow : ∀ i, (row i).toNat < 2048)
    (k : Fin 2048) (n : Fin 256) :
    oneHot sg row (ix2 k n) = if k = Cert.Spec.feat 2048 (row (ix2 0 n)) then sg (ix2 0 n) else 0 := by
  unfold oneHot
  rw [select_apply, broadcast_apply]
  show Scalar.select (IntOp.cmpi .eq (iota .tc S2048x256 32 [0] iota_S2048x256_d0_w32 (ix2 k n))
    (broadcastTo S2048x256 row broadcasts_S1x256_S2048x256 (ix2 k n)))
    (broadcastTo S2048x256 sg broadcasts_S1x256_S2048x256 (ix2 k n)) (Ideal.ofBits .bf16 0x0000#16) = _
  rw [rowIota_apply, rowBroadcast_apply, rowBroadcast_apply, Ideal.ofBits_zero_bf16]
  by_cases h : k = Cert.Spec.feat 2048 (row (ix2 0 n))
  · rw [if_pos h]
    have e : BitVec.ofNat 32 k.val = row (ix2 0 n) := (word_eq_iff (by decide) k _ (hrow _)).mpr h
    rw [e]
    simp [IntOp.cmpi, Scalar.select]
  · rw [if_neg h]
    have e : ¬ BitVec.ofNat 32 k.val = row (ix2 0 n) := fun e => h ((word_eq_iff (by decide) k _ (hrow _)).mp e)
    have e' : (BitVec.ofNat 32 k.val == row (ix2 0 n)) = false := by simpa using e
    simp [IntOp.cmpi, Scalar.select, e']

theorem sum_oneHot (x : FVec Ideal S1024x2048 .bf16) (sg : FVec Ideal S1x256 .bf16) (row : IVec S1x256 32)
    (hrow : ∀ i, (row i).toNat < 2048) (b : Fin 1024) (n : Fin 256) :
    ∑ k : Fin 2048, x (ix2 b k) * oneHot sg row (ix2 k n)
      = x (ix2 b (Cert.Spec.feat 2048 (row (ix2 0 n)))) * sg (ix2 0 n) := by
  rw [Finset.sum_eq_single (Cert.Spec.feat 2048 (row (ix2 0 n)))]
  · rw [oneHot_apply sg row hrow, if_pos rfl]
  · intro k _ hk
    rw [oneHot_apply sg row hrow, if_neg hk]
    exact mul_zero _
  · intro h; exact absurd (Finset.mem_univ _) h

def rowStep (sg : FVec Ideal S1x256 .bf16) (row : IVec S1x256 32) (xh xl : FVec Ideal S1024x2048 .bf16)
    (s : FVec Ideal S1024x256 .f32) : FVec Ideal S1024x256 .f32 :=
  maximumf s (addf
    (matmul dot_S1024x2048_S2048x256_S1024x256_1_0_0_1_n_n none xh (oneHot sg row) (constant S1024x256 .f32 0x00000000#32))
    (matmul dot_S1024x2048_S2048x256_S1024x256_1_0_0_1_n_n none xl (oneHot sg row) (constant S1024x256 .f32 0x00000000#32)))

theorem rowStep_apply (sg : FVec Ideal S1x256 .bf16) (row : IVec S1x256 32) (xh xl : FVec Ideal S1024x2048 .bf16)
    (s : FVec Ideal S1024x256 .f32) (hxl : ∀ i, xl i = 0) (hrow : ∀ i, (row i).toNat < 2048) (b : Fin 1024) (n : Fin 256) :
    rowStep sg row xh xl s (ix2 b n)
      = s (ix2 b n) ⊔ xh (ix2 b (Cert.Spec.feat 2048 (row (ix2 0 n)))) * sg (ix2 0 n) := by
  unfold rowStep
  rw [maximumf_apply, addf_apply, matmul_zero_apply, matmul_zero_apply, sum_oneHot xh sg row hrow,
    sum_oneHot xl sg row hrow, hxl, zero_mul, add_zero]

theorem signF32_apply (op : Vec Ideal S1x256 .i32) (n : Fin 256) :
    k1_pay3 (F := Ideal) op (ix2 0 n) = sgn (op (ix2 0 n)) := by
  unfold k1_pay3
  rw [shapeCast_apply _ shapeCasts_S256_S1x256 (ix2 (0 : Fin 1) n) (ix1 n)
    (by rw [Shape.rowMajor_val_one, Shape.rowMajor_val_two]; show n.val = 0 * 256 + n.val; omega)]
  rw [select_apply, broadcast_apply, broadcast_apply]
  show Scalar.select (IntOp.cmpi .eq (shapeCast S256 op shapeCasts_S1x256_S256 (ix1 n)) (broadcast S256 0#32 (ix1 n)))
    (Ideal.ofBits .f32 0xBF800000#32) (Ideal.ofBits .f32 0x3F800000#32) = _
  rw [shapeCast_apply op shapeCasts_S1x256_S256 (ix1 n) (ix2 (0 : Fin 1) n)
    (by rw [Shape.rowMajor_val_one, Shape.rowMajor_val_two]; show 0 * 256 + n.val = n.val; omega), broadcast_apply]
  have hneg : Ideal.ofBits .f32 0xBF800000#32 = (-1 : EReal) := by
    rw [show (-1 : EReal) = ((-(1 : ℝ) : ℝ) : EReal) by rw [EReal.coe_neg, EReal.coe_one]]
    simp [Ideal.ofBits, Ideal.ieee, -EReal.coe_mul, -EReal.coe_neg]; norm_num
  rw [hneg, Ideal.ofBits_one_f32]
  unfold sgn
  by_cases h : op (ix2 0 n) = 0#32
  · rw [if_pos h, h]; rfl
  · rw [if_neg h]
    have e' : (op (ix2 0 n) == 0#32) = false := by simpa using h
    simp [IntOp.cmpi, Scalar.select, e']

theorem signBf16_apply (op : Vec Ideal S1x256 .i32) (n : Fin 256) :
    k1_pay4 (F := Ideal) op (ix2 0 n) = sgn (op (ix2 0 n)) := by
  unfold k1_pay4
  exact signF32_apply op n

theorem connRow_apply (cn : Vec Ideal S8x256 .i32) (r : Fin 8) (n : Fin 256) :
    connRow cn r (ix2 0 n) = cn (ix2 r n) := by
  fin_cases r <;>
  · show cn _ = cn _
    refine congrArg cn (funext fun a => Fin.ext ?_)
    match a with
    | ⟨0, _⟩ => rfl
    | ⟨1, _⟩ => show 0 + 1 * n.val = n.val; omega

theorem scratchStep_eq (op : Vec Ideal S1x256 .i32) (cn : Vec Ideal S8x256 .i32) (xh xl : Vec Ideal S1024x2048 .bf16)
    (s : Vec Ideal S1024x256 .f32) :
    scratchStep (F := Ideal) op cn xh xl s
      = rowStep (k1_pay4 op) (connRow cn 7) xh xl (rowStep (k1_pay4 op) (connRow cn 6) xh xl
          (rowStep (k1_pay4 op) (connRow cn 5) xh xl (rowStep (k1_pay4 op) (connRow cn 4) xh xl
            (rowStep (k1_pay4 op) (connRow cn 3) xh xl (rowStep (k1_pay4 op) (connRow cn 2) xh xl
              (rowStep (k1_pay4 op) (connRow cn 1) xh xl (rowStep (k1_pay4 op) (connRow cn 0) xh xl s))))))) := by
  unfold scratchStep k1_pay14 k1_pay13 k1_pay12 k1_pay11 k1_pay10 k1_pay9 k1_pay8 k1_pay7 k1_pay6 k1_pay5
  simp only [shapeCast_self, shapeCast_shapeCast]
  rfl

end StepMath

open StepMath

theorem reset_apply (i : S1024x256.Idx) : k1_pay2 (F := Ideal) i = (⊥ : EReal) := by
  unfold k1_pay2
  rw [shapeCast_self]
  exact IdealRules.named_const.ideal_named_scalar _ _ _ _ rfl

theorem scratchStep_apply (op : Vec Ideal S1x256 .i32) (cn : Vec Ideal S8x256 .i32) (xh xl : Vec Ideal S1024x2048 .bf16)
    (s : Vec Ideal S1024x256 .f32) (hxl : ∀ i, xl i = 0) (hcn : ∀ i, (cn i).toNat < 2048) (b : Fin 1024) (n : Fin 256) :
    scratchStep (F := Ideal) op cn xh xl s (ix2 b n)
      = s (ix2 b n) ⊔ ⨆ r : Fin 8, xh (ix2 b (Cert.Spec.feat 2048 (cn (ix2 r n)))) * sgn (op (ix2 0 n)) := by
  have hrow : ∀ r : Fin 8, ∀ i, (connRow cn r i).toNat < 2048 := by
    intro r i
    fin_cases r <;> exact hcn _
  rw [scratchStep_eq, iSup_fin8]
  rw [rowStep_apply _ _ xh xl _ hxl (hrow 7), rowStep_apply _ _ xh xl _ hxl (hrow 6), rowStep_apply _ _ xh xl _ hxl (hrow 5),
    rowStep_apply _ _ xh xl _ hxl (hrow 4), rowStep_apply _ _ xh xl _ hxl (hrow 3), rowStep_apply _ _ xh xl _ hxl (hrow 2),
    rowStep_apply _ _ xh xl _ hxl (hrow 1), rowStep_apply _ _ xh xl _ hxl (hrow 0)]
  simp only [connRow_apply, signBf16_apply, sup_assoc]

theorem outStore_apply (op : Vec Ideal S1x256 .i32) (s : Vec Ideal S1024x256 .f32) (b : Fin 1024) (n : Fin 256) :
    outStore (F := Ideal) op s (ix2 b n) = s (ix2 b n) * sgn (op (ix2 0 n)) := by
  unfold outStore k1_pay1
  rw [mulf_apply, batchBroadcast_apply, signF32_apply]

end Cert.KernelIdeal.R1

end
-- ==== Proof.KI.R1.Value.lean ====
import proofs.«423092_j11149735100496_3_alg».proof.Proof.KI.R1.Bridge
import proofs.«423092_j11149735100496_3_alg».proof.Proof.KI.R1.StepMath

noncomputable section

namespace Cert.KernelIdeal.R1

open Cert.KernelIdeal Cert.KernelIdeal.Gen
open Idealize.ShloMosaic Idealize.ShloMosaic.TcCoe
open Idealize.SL.Sem
open Idealize.ShloMosaic.Pipeline (Dat)
open Idealize.ShloMosaic.ValueIdx
open Cert.LayerMath

variable (V : (c : Dev nD) → (b : Ref sig .tc) → Buf (Elt Ideal) ((c : Thread nD τ).loc b))

namespace Value

abbrev xhArr (c : Dev nD) : Vec Ideal S1024x2048 .bf16 := V c main_v7

abbrev xlArr (c : Dev nD) : Vec Ideal S1024x2048 .bf16 := V c main_v10

abbrev cnArr (c : Dev nD) : Vec Ideal S64x1024 .i32 := V c main_v11

abbrev opArr (c : Dev nD) : Vec Ideal S1x1024 .i32 := V c main_v12
abbrev xhBlk (c : Dev nD) (t : Fin cfg1.N) : Vec Ideal S1024x2048 .bf16 := iblk V c 0 t
abbrev xlBlk (c : Dev nD) (t : Fin cfg1.N) : Vec Ideal S1024x2048 .bf16 := iblk V c 1 t
abbrev cnBlk (c : Dev nD) (t : Fin cfg1.N) : Vec Ideal S8x256 .i32 := iblk V c 2 t
abbrev opBlk (c : Dev nD) (t : Fin cfg1.N) : Vec Ideal S1x256 .i32 := iblk V c 3 t

def col (t : Fin cfg1.N) (n : Fin 256) : Fin 1024 :=
  ⟨256 * (t.val / 8) + n.val, by have := t.isLt; have : cfg1.N = 32 := N_1; omega⟩

def cand (t : Fin cfg1.N) (r : Fin 8) : Fin 64 := ⟨8 * (t.val % 8) + r.val, by omega⟩

theorem xhBlk_apply (c : Dev nD) (t : Fin cfg1.N) (b : Fin 1024) (k : Fin 2048) :
    xhBlk V c t (ix2 b k) = xhArr V c (ix2 b k) := iblk0_apply V c t b k
theorem xlBlk_apply (c : Dev nD) (t : Fin cfg1.N) (b : Fin 1024) (k : Fin 2048) :
    xlBlk V c t (ix2 b k) = xlArr V c (ix2 b k) := iblk1_apply V c t b k
theorem cnBlk_apply (c : Dev nD) (t : Fin cfg1.N) (r : Fin 8) (n : Fin 256) :
    cnBlk V c t (ix2 r n) = cnArr V c (ix2 (cand t r) (col t n)) := iblk2_apply V c t r n
theorem opBlk_apply (c : Dev nD) (t : Fin cfg1.N) (n : Fin 256) :
    opBlk V c t (ix2 0 n) = opArr V c (ix2 0 (col t n)) := iblk3_apply V c t n

theorem xlBlk_zero (c : Dev nD) (hxl : ∀ i, xlArr V c i = 0) (t : Fin cfg1.N) : ∀ i, xlBlk V c t i = 0 := by
  intro i
  obtain ⟨b, k, rfl⟩ : ∃ (b : Fin 1024) (k : Fin 2048), i = ix2 b k := ⟨i 0, i 1, eq_ix2 i⟩
  exact (xlBlk_apply V c t b k).trans (hxl _)

theorem cnBlk_lt (c : Dev nD) (hct : ∀ i, (cnArr V c i).toNat < 2048) (t : Fin cfg1.N) :
    ∀ i, (cnBlk V c t i).toNat < 2048 := by
  intro i
  obtain ⟨r, n, rfl⟩ : ∃ (r : Fin 8) (n : Fin 256), i = ix2 r n := ⟨i 0, i 1, eq_ix2 i⟩
  rw [cnBlk_apply]
  exact hct _

theorem scr_first (c : Dev nD) (t : Fin cfg1.N) (h0 : t.val % 8 = 0) :
    (outsAt V c t.val t.isLt).2 = scratchStep (opBlk V c t) (cnBlk V c t) (xhBlk V c t) (xlBlk V c t) (k1_pay2 (F := Ideal)) := by
  rw [outsAt_first V c t h0, stepAt, dif_pos h0]
  dsimp only
  exact sFirst_eq ..

theorem scr_next (c : Dev nD) (t : Fin cfg1.N) (h0 : ¬t.val % 8 = 0) :
    (outsAt V c t.val t.isLt).2
      = scratchStep (opBlk V c t) (cnBlk V c t) (xhBlk V c t) (xlBlk V c t)
          (outsAt V c (t.val - 1) (Nat.lt_of_le_of_lt (Nat.sub_le _ _) t.isLt)).2 := by
  rw [outsAt_next V c t h0, stepAt, dif_neg h0]
  by_cases h1 : t.val % 8 = 7
  · rw [dif_pos h1]
    dsimp only
    exact sLast_eq ..
  · rw [dif_neg h1]
    dsimp only
    exact sMid_eq ..

theorem out_last (c : Dev nD) (t : Fin cfg1.N) (h0 : ¬t.val % 8 = 0) (h1 : t.val % 8 = 7) :
    (outsAt V c t.val t.isLt).1 = outStore (opBlk V c t) (outsAt V c t.val t.isLt).2 := by
  rw [outsAt_next V c t h0, stepAt, dif_neg h0, dif_pos h1]
  dsimp only
  rw [oLast_eq, sLast_eq]

def sterm (c : Dev nD) (b : Fin 1024) (o : Fin 1024) (k : Fin 64) : EReal :=
  xhArr V c (ix2 b (Cert.Spec.feat 2048 (cnArr V c (ix2 k o)))) * sgn (opArr V c (ix2 0 o))

theorem step_apply (c : Dev nD) (hxl : ∀ i, xlArr V c i = 0) (hct : ∀ i, (cnArr V c i).toNat < 2048)
    (t : Fin cfg1.N) (s : Vec Ideal S1024x256 .f32) (b : Fin 1024) (n : Fin 256) :
    scratchStep (F := Ideal) (opBlk V c t) (cnBlk V c t) (xhBlk V c t) (xlBlk V c t) s (ix2 b n)
      = s (ix2 b n) ⊔ ⨆ r : Fin 8, sterm V c b (col t n) (cand t r) := by
  rw [scratchStep_apply (opBlk V c t) (cnBlk V c t) (xhBlk V c t) (xlBlk V c t) s (xlBlk_zero V c hxl t) (cnBlk_lt V c hct t) b n]
  refine congrArg (fun x => s (ix2 b n) ⊔ x) (iSup_congr fun r => ?_)
  unfold sterm
  rw [cnBlk_apply, xhBlk_apply, opBlk_apply]

theorem scr_apply_first (c : Dev nD) (hxl : ∀ i, xlArr V c i = 0) (hct : ∀ i, (cnArr V c i).toNat < 2048)
    (t : Fin cfg1.N) (h0 : t.val % 8 = 0) (b : Fin 1024) (n : Fin 256) :
    (outsAt V c t.val t.isLt).2 (ix2 b n)
      = ⨆ k : Fin 64, ⨆ (_ : k.val < 8 * (t.val % 8 + 1)), sterm V c b (col t n) k := by
  rw [scr_first V c t h0, step_apply V c hxl hct t (k1_pay2 (F := Ideal)) b n, reset_apply,
    iSup_lt_step (sterm V c b (col t n)) (t.val % 8) (cand t) (fun r => rfl),
    iSup_lt_zero (sterm V c b (col t n)) (8 * (t.val % 8)) (by omega)]

theorem scr_apply (c : Dev nD) (hxl : ∀ i, xlArr V c i = 0) (hct : ∀ i, (cnArr V c i).toNat < 2048) :
    ∀ (m : ℕ) (t : Fin cfg1.N), t.val = m → ∀ (b : Fin 1024) (n : Fin 256),
      (outsAt V c t.val t.isLt).2 (ix2 b n)
        = ⨆ k : Fin 64, ⨆ (_ : k.val < 8 * (t.val % 8 + 1)), sterm V c b (col t n) k := by
  intro m
  induction m with
  | zero =>
    intro t ht b n
    exact scr_apply_first V c hxl hct t (by omega) b n
  | succ m ih =>
    intro t ht b n
    by_cases h0 : t.val % 8 = 0
    · exact scr_apply_first V c hxl hct t h0 b n
    · have hlt : t.val - 1 < cfg1.N := Nat.lt_of_le_of_lt (Nat.sub_le _ _) t.isLt
      have ih' : (outsAt V c (t.val - 1) hlt).2 (ix2 b n)
          = ⨆ k : Fin 64, ⨆ (_ : k.val < 8 * ((t.val - 1) % 8 + 1)), sterm V c b (col ⟨t.val - 1, hlt⟩ n) k :=
        ih ⟨t.val - 1, hlt⟩ (by show t.val - 1 = m; omega) b n
      have e1 : col ⟨t.val - 1, hlt⟩ n = col t n :=
        Fin.ext (by show 256 * ((t.val - 1) / 8) + n.val = 256 * (t.val / 8) + n.val; omega)
      have e2 : (t.val - 1) % 8 + 1 = t.val % 8 := by omega
      rw [e1, e2] at ih'
      rw [scr_next V c t h0,
        step_apply V c hxl hct t (outsAt V c (t.val - 1) (Nat.lt_of_le_of_lt (Nat.sub_le _ _) t.isLt)).2 b n,
        iSup_lt_step (sterm V c b (col t n)) (t.val % 8) (cand t) (fun r => rfl)]
      exact congrArg (fun x => x ⊔ ⨆ r : Fin 8, sterm V c b (col t n) (cand t r)) ih'

def Gfun (c : Dev nD) (b : Fin 1024) (o : Fin 1024) : EReal :=
  Cert.Spec.pick (opArr V c (ix2 0 o) = 0#32)
    (fun k : Fin 64 => xhArr V c (ix2 b (Cert.Spec.feat 2048 (cnArr V c (ix2 k o)))))

theorem outBlock_apply (c : Dev nD) (hxl : ∀ i, xlArr V c i = 0) (hfin : ∀ i, ∃ r : ℝ, xhArr V c i = (r : EReal))
    (hct : ∀ i, (cnArr V c i).toNat < 2048) (t : Fin cfg1.N) (h1 : t.val % 8 = 7) (b : Fin 1024) (n : Fin 256) :
    (outsAt V c t.val t.isLt).1 (ix2 b n) = Gfun V c b (col t n) := by
  have h0 : ¬t.val % 8 = 0 := by omega
  rw [out_last V c t h0 h1, outStore_apply, scr_apply V c hxl hct t.val t rfl b n, opBlk_apply,
    iSup_lt_all (sterm V c b (col t n)) (8 * (t.val % 8 + 1)) (by omega)]
  unfold Gfun
  rw [← signed_sup (opArr V c (ix2 0 (col t n)))
    (fun k : Fin 64 => xhArr V c (ix2 b (Cert.Spec.feat 2048 (cnArr V c (ix2 k (col t n)))))) (fun k => hfin _), bot_sup_eq]
  rfl

def G (c : Dev nD) : Vec Ideal S1024x1024 .f32 := fun i => Gfun V c (i 0) (i 1)

theorem idx_facts4 : ∀ t : Fin cfg1.N, win1_4.index t (0 : Fin 2) = 0 ∧ win1_4.index t (1 : Fin 2) = t.val / 8 :=
  (by decide +kernel : ∀ t : Fin grid1.N, win1_4.index t (0 : Fin 2) = 0 ∧ win1_4.index t (1 : Fin 2) = t.val / 8)

theorem flushed4_eq (c : Dev nD) (hxl : ∀ i, xlArr V c i = 0) (hfin : ∀ i, ∃ r : ℝ, xhArr V c i = (r : EReal))
    (hct : ∀ i, (cnArr V c i).toNat < 2048) (t : Fin cfg1.N) (hf : (cfg1.win 4).flush t = true) :
    (dat (F := Ideal) V c).flushed 4 t = ((cfg1.win 4).blk t).view.read (Elt Ideal) (G V c) := by
  have h1 : t.val % 8 = 7 := (flush1_4 t).mp hf
  show (cfg1.win 4).cut (grid1.coords t) ((dat (F := Ideal) V c).after 4 t) = _
  rw [after_4]
  funext y
  obtain ⟨b, n, rfl⟩ : ∃ (b : Fin 1024) (n : Fin 256), y = ix2 b n := ⟨y 0, y 1, eq_ix2 y⟩
  show (outsAt V c t.val t.isLt).1 (ix2 b n) = G V c (((cfg1.win 4).blk t).view.emb (ix2 b n))
  rw [outBlock_apply V c hxl hfin hct t h1 b n]
  have he : ((cfg1.win 4).blk t).view.emb (ix2 b n) = ix2 b (col t n) := by
    obtain ⟨e0, e1⟩ := idx_facts4 t
    funext a; apply Fin.ext
    match a with
    | ⟨0, _⟩ => show win1_4.index t (0 : Fin 2) * 1024 + 1 * b.val = b.val; omega
    | ⟨1, _⟩ => show win1_4.index t (1 : Fin 2) * 256 + 1 * n.val = 256 * (t.val / 8) + n.val; omega
  rw [he]
  rfl

theorem mem_blk4 (t : Fin cfg1.N) (i : S1024x1024.Idx) :
    i ∈ ((cfg1.win 4).blk t).view.set ↔ ∀ a : Fin 2, win1_4.index t a * S1024x256.size a ≤ (i a).val
      ∧ (i a).val < win1_4.index t a * S1024x256.size a + S1024x256.size a := by
  show i ∈ ((View.whole main_v13).slice (win1_4.rect t)).set ↔ _
  rw [View.set_slice_whole, Rect.mem_set_unit]
  exact Iff.rfl

theorem cover4 (i : S1024x1024.Idx) :
    ∃ t : Fin cfg1.N, (cfg1.win 4).flush t = true ∧ i ∈ ((cfg1.win 4).blk t).view.set := by
  have hN : cfg1.N = 32 := N_1
  have hi0 : (i 0).val < 1024 := (i 0).isLt
  have hi1 : (i 1).val < 1024 := (i 1).isLt
  have htt : 8 * ((i 1).val / 256) + 7 < cfg1.N := by omega
  obtain ⟨e0, e1⟩ := idx_facts4 ⟨8 * ((i 1).val / 256) + 7, htt⟩
  have e1' : win1_4.index ⟨8 * ((i 1).val / 256) + 7, htt⟩ (1 : Fin 2) = (8 * ((i 1).val / 256) + 7) / 8 := e1
  refine ⟨⟨8 * ((i 1).val / 256) + 7, htt⟩, (flush1_4 _).mpr (by show (8 * ((i 1).val / 256) + 7) % 8 = 7; omega), ?_⟩
  rw [mem_blk4]
  intro a
  match a with
  | ⟨0, _⟩ =>
    show win1_4.index ⟨8 * ((i 1).val / 256) + 7, htt⟩ (0 : Fin 2) * 1024 ≤ (i 0).val
      ∧ (i 0).val < win1_4.index ⟨8 * ((i 1).val / 256) + 7, htt⟩ (0 : Fin 2) * 1024 + 1024
    omega
  | ⟨1, _⟩ =>
    show win1_4.index ⟨8 * ((i 1).val / 256) + 7, htt⟩ (1 : Fin 2) * 256 ≤ (i 1).val
      ∧ (i 1).val < win1_4.index ⟨8 * ((i 1).val / 256) + 7, htt⟩ (1 : Fin 2) * 256 + 256
    omega

theorem final4 (c : Dev nD) (hxl : ∀ i, xlArr V c i = 0) (hfin : ∀ i, ∃ r : ℝ, xhArr V c i = (r : EReal))
    (hct : ∀ i, (cnArr V c i).toNat < 2048) :
    (dat (F := Ideal) V c).arrAt 4 cfg1.N = G V c :=
  (dat (F := Ideal) V c).arrAt_eq_of_cover 4 (G V c) (fun t hf => flushed4_eq V c hxl hfin hct t hf) cover4

end Value

end Cert.KernelIdeal.R1

end
-- ==== Proof.KI.R1.Glue.lean ====
import proofs.«423092_j11149735100496_3_alg».proof.Proof.KI.Family
import proofs.«423092_j11149735100496_3_alg».proof.Proof.KI.Keep
import proofs.«423092_j11149735100496_3_alg».proof.Proof.KI.R1.Value
import Idealize.ShloMosaic.Lib.ValueLayout
import Idealize.ShloMosaic.Lib.StableHlo.Run
import Idealize.ShloMosaic.Lib.Tactic

noncomputable section

namespace Cert.KernelIdeal.Glue1

open Cert.KernelIdeal Cert.KernelIdeal.Gen
open Idealize.ShloMosaic Idealize.ShloMosaic.TcCoe Idealize.ShloMosaic.Tactic
open Idealize.ShloMosaic.ValueIdx
open Idealize.ShloMosaic.Pipeline (Dat)
open Cert.LayerMath

variable (m : (ℓ : Loc nD τ sig) → Buf (Elt Ideal) ℓ)

abbrev yArr (c : Dev nD) : FVec Ideal S1024x2048 .f32 := Fam.o2 m c
abbrev tbArr (c : Dev nD) : Vec Ideal S1024x64 .i32 := m ((c : Thread nD τ).loc main_arg2)
abbrev owArr (c : Dev nD) : Vec Ideal S1024 .i32 := m ((c : Thread nD τ).loc main_arg6)

abbrev Vin : (c : Dev nD) → (b : Ref sig .tc) → Buf (Elt Ideal) ((c : Thread nD τ).loc b) := Fam.rd (Fam.W3 m)

theorem in_y (c : Dev nD) : (Fam.W2 m c main_v6 : FVec Ideal S1024x2048 .f32) = yArr m c := by
  unfold Fam.W2
  exact Function.update_self ..

theorem in_tb (c : Dev nD) : (Fam.W2 m c main_arg2 : Vec Ideal S1024x64 .i32) = tbArr m c := by
  rw [Fam.keep2 m c main_arg2 (by decide)]

theorem in_ow (c : Dev nD) : (Fam.W2 m c main_arg6 : Vec Ideal S1024 .i32) = owArr m c := by
  rw [Fam.keep2 m c main_arg6 (by decide)]

theorem w_cn (c : Dev nD) :
    (Fam.W3 m c main_v11 : Vec Ideal S64x1024 .i32) = transpose S64x1024 [1, 0] (tbArr m c) transposes_S1024x64_S64x1024_1_0 := by
  unfold Fam.W3
  show StableHlo.after hostOps1 (Fam.W2 m c) (Proc.devRef .tc main_v11) = _
  after_results
  rw [in_tb]
  all_goals rfl

theorem w_op (c : Dev nD) :
    (Fam.W3 m c main_v12 : Vec Ideal S1x1024 .i32) = shapeCast S1x1024 (owArr m c) shapeCasts_S1024_S1x1024 := by
  unfold Fam.W3
  show StableHlo.after hostOps1 (Fam.W2 m c) (Proc.devRef .tc main_v12) = _
  after_results
  rw [in_ow]
  all_goals rfl

theorem xh_at (c : Dev nD) (i : S1024x2048.Idx) : R1.Value.xhArr (Vin m) c i = yArr m c i := by
  refine congrFun (?_ : (Fam.W3 m c main_v7 : FVec Ideal S1024x2048 .bf16) = yArr m c) i
  unfold Fam.W3
  show StableHlo.after hostOps1 (Fam.W2 m c) (Proc.devRef .tc main_v7) = _
  after_results
  rw [in_y]
  all_goals rfl

theorem xl_at (c : Dev nD) (i : S1024x2048.Idx) : R1.Value.xlArr (Vin m) c i = yArr m c i - yArr m c i := by
  refine congrFun (?_ : (Fam.W3 m c main_v10 : FVec Ideal S1024x2048 .bf16) = fun i => yArr m c i - yArr m c i) i
  unfold Fam.W3
  show StableHlo.after hostOps1 (Fam.W2 m c) (Proc.devRef .tc main_v10) = _
  after_results
  rw [in_y]
  all_goals rfl

theorem cn_at (c : Dev nD) (k : Fin 64) (o : Fin 1024) : R1.Value.cnArr (Vin m) c (ix2 k o) = tbArr m c (ix2 o k) := by
  show (Fam.W3 m c main_v11 : Vec Ideal S64x1024 .i32) (ix2 k o) = _
  rw [w_cn]; exact transpose_ix2_apply _ _ k o

theorem op_at (c : Dev nD) (o : Fin 1024) : R1.Value.opArr (Vin m) c (ix2 0 o) = owArr m c (ix1 o) := by
  show (Fam.W3 m c main_v12 : Vec Ideal S1x1024 .i32) (ix2 0 o) = _
  rw [w_op]
  refine shapeCast_apply _ _ _ _ ?_
  show (S1024.rowMajor (ix1 o)).val = (S1x1024.rowMajor (ix2 0 o)).val
  rw [Shape.rowMajor_val_one, Shape.rowMajor_val_two]
  show o.val = (0 : Fin 1).val * 1024 + o.val
  simp

theorem out_eq (c : Dev nD) (hx : Cert.Spec.Finite (Fam.o2 m c))
    (hconn : ∀ i, (m ((c : Thread nD τ).loc main_arg2) i).toNat < 2048) :
    Fam.o4 m c = Cert.Spec.layer (nin := 2048) (nout := 1024) (Fam.o2 m c)
      (m ((c : Thread nD τ).loc main_arg2)) (m ((c : Thread nD τ).loc main_arg6)) := by

  have hxl : ∀ i, R1.Value.xlArr (Vin m) c i = 0 := fun i => by
    rw [xl_at]
    obtain ⟨r, hr⟩ := hx i
    have hr' : yArr m c i = (r : EReal) := hr
    rw [hr', ← EReal.coe_sub, sub_self, EReal.coe_zero]

  have hfin : ∀ i, ∃ r : ℝ, R1.Value.xhArr (Vin m) c i = (r : EReal) := fun i => by
    obtain ⟨r, hr⟩ := hx i
    exact ⟨r, (xh_at m c i).trans hr⟩

  have hct : ∀ i, (R1.Value.cnArr (Vin m) c i).toNat < 2048 := fun i => by
    obtain ⟨k, o, rfl⟩ : ∃ (k : Fin 64) (o : Fin 1024), i = ix2 k o := ⟨i 0, i 1, eq_ix2 (n0 := 64) (n1 := 1024) i⟩
    rw [cn_at]
    exact hconn _
  funext i
  obtain ⟨b, o, rfl⟩ : ∃ (b : Fin 1024) (o : Fin 1024), i = ix2 b o := ⟨i 0, i 1, eq_ix2 (n0 := 1024) (n1 := 1024) i⟩
  show ((R1.dat (F := Ideal) (Vin m) c).arrAt 4 cfg1.N : Vec Ideal S1024x1024 .f32) (ix2 b o) = _
  rw [R1.Value.final4 (Vin m) c hxl hfin hct]
  unfold Cert.Spec.layer
  refine pick_congr ?_ fun k => ?_
  · rw [op_at]
  · rw [xh_at, cn_at]

end Cert.KernelIdeal.Glue1
end
-- ==== Proof.KI.R2.Step.lean ====
import proofs.«423092_j11149735100496_3_alg».proof.Proof.Gen.KernelIdeal.Skeleton
import proofs.«423092_j11149735100496_3_alg».proof.Proof.LayerMath
import Idealize.ShloMosaic.Lib.Pipeline.Value

noncomputable section

namespace Cert.KernelIdeal.R2

open Cert.KernelIdeal Cert.KernelIdeal.Gen
open Idealize.ShloMosaic Idealize.ShloMosaic.ValueIdx

variable {F : FTy → Type} [FloatOps F] [Named F]

def connRow (cn : Vec F S8x256 .i32) : Fin 8 → Vec F S1x256 .i32
  | ⟨0, _⟩ => View.ld cn (Rect.unit (s := S8x256) ![0, 0] S1x256.size inb_S8x256_S1x256_0_0)
  | ⟨1, _⟩ => View.ld cn (Rect.unit (s := S8x256) ![1, 0] S1x256.size inb_S8x256_S1x256_1_0)
  | ⟨2, _⟩ => View.ld cn (Rect.unit (s := S8x256) ![2, 0] S1x256.size inb_S8x256_S1x256_2_0)
  | ⟨3, _⟩ => View.ld cn (Rect.unit (s := S8x256) ![3, 0] S1x256.size inb_S8x256_S1x256_3_0)
  | ⟨4, _⟩ => View.ld cn (Rect.unit (s := S8x256) ![4, 0] S1x256.size inb_S8x256_S1x256_4_0)
  | ⟨5, _⟩ => View.ld cn (Rect.unit (s := S8x256) ![5, 0] S1x256.size inb_S8x256_S1x256_5_0)
  | ⟨6, _⟩ => View.ld cn (Rect.unit (s := S8x256) ![6, 0] S1x256.size inb_S8x256_S1x256_6_0)
  | ⟨7, _⟩ => View.ld cn (Rect.unit (s := S8x256) ![7, 0] S1x256.size inb_S8x256_S1x256_7_0)

def scratchStep (op : Vec F S1x256 .i32) (cn : Vec F S8x256 .i32) (xh xl : Vec F S1024x1024 .bf16)
    (s : Vec F S1024x256 .f32) : FVec F S1024x256 .f32 :=
  k2_pay14 (k2_pay4 op) (iota .tc S1024x256 32 [0] iota_S1024x256_d0_w32)
    (k2_pay10 (k2_pay4 op) (iota .tc S1024x256 32 [0] iota_S1024x256_d0_w32)
      (k2_pay7 (k2_pay4 op) (iota .tc S1024x256 32 [0] iota_S1024x256_d0_w32)
        (k2_pay5 op s (connRow cn 0) xh xl) (k2_pay6 (connRow cn 1)) (Scalar.ofBits .bf16 0x0000#16)
        xh xl (connRow cn 2) xh xl)
      (k2_pay8 (k2_pay4 op) (iota .tc S1024x256 32 [0] iota_S1024x256_d0_w32) (connRow cn 3)) (k2_pay9 xh)
      xl (connRow cn 4) xh xl)
    (k2_pay12 (k2_pay4 op) (iota .tc S1024x256 32 [0] iota_S1024x256_d0_w32) (connRow cn 5) xh)
    (k2_pay13 (k2_pay4 op) (iota .tc S1024x256 32 [0] iota_S1024x256_d0_w32) (connRow cn 5) xl)
    (connRow cn 6) xh xl (connRow cn 7) xh xl

def outStore (op : Vec F S1x256 .i32) (s : Vec F S1024x256 .f32) : FVec F S1024x256 .f32 :=
  k2_pay1 (k2_pay3 op) s

end Cert.KernelIdeal.R2

end
-- ==== Proof.KI.R2.Bridge.lean ====
import proofs.«423092_j11149735100496_3_alg».proof.Proof.KI.R2.Dat
import proofs.«423092_j11149735100496_3_alg».proof.Proof.KI.R2.Step

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx
open Cert.LayerMath

variable (V : (c : Dev nD) → (b : Ref sig .tc) → Buf (Elt F) ((c : Thread nD τ).loc b))

section
variable (c : Dev nD) (i : grid2.Coords) (arg2 : Memref sig .tc .vmem S1024x1024 .bf16) (harg2 : arg2.IsWhole)
  (arg3 : Memref sig .tc .vmem S1024x1024 .bf16) (harg3 : arg3.IsWhole) (arg4 : Memref sig .tc .vmem S8x256 .i32)
  (harg4 : arg4.IsWhole) (arg5 : Memref sig .tc .vmem S1x256 .i32) (harg5 : arg5.IsWhole)
  (arg6 : Memref sig .tc .vmem S1024x256 .f32) (harg6 : arg6.IsWhole) (arg7 : Memref sig .tc .vmem S1024x256 .f32)
  (harg7 : arg7.IsWhole)
  (x0 x1 : Vec F S1024x1024 .bf16) (x2 : Vec F S8x256 .i32) (x3 : Vec F S1x256 .i32) (xs : Vec F S1024x256 .f32)

theorem sFirst_eq (hc0 : condFirst i) (hc1 : ¬condLast i) :
    sFirst c i arg2 harg2 arg3 harg3 arg4 harg4 arg5 harg5 arg6 harg6 arg7 harg7 hc0 hc1 x0 x1 x2 x3 = scratchStep x3 x2 x0 x1 (k2_pay2 (F := F)) := by
  unfold sFirst
  unfold runFirst
  dsimp only
  sl_unfold_words
  rw [View.canon_cons_unit_zero (S := S1024x256) offsets_zero]
  simp only [View.readAt_eq_ld, harg2.read_unread, harg3.read_unread, harg4.read_unread, harg5.read_unread,
    View.readCov_unit_zero (S := S1024x256) _ offsets_zero,
    View.ld_unit_zero (S := S1024x1024) offsets_zero, View.ld_unit_zero (S := S1x256) offsets_zero, View.ld_unit_zero (S := S1024x256) offsets_zero]
  rfl

theorem sMid_eq (hc0 : ¬condFirst i) (hc1 : ¬condLast i) :
    sMid c i arg2 harg2 arg3 harg3 arg4 harg4 arg5 harg5 arg6 harg6 arg7 harg7 hc0 hc1 x0 x1 x2 x3 xs = scratchStep x3 x2 x0 x1 xs := by
  unfold sMid
  unfold runMid
  dsimp only
  sl_unfold_words
  rw [View.canon_unit_zero (S := S1024x256) offsets_zero]
  simp only [View.readAt_eq_ld, harg2.read_unread, harg3.read_unread, harg4.read_unread, harg5.read_unread, harg7.read_unread,
    View.readCov_unit_zero (S := S1024x256) _ offsets_zero,
    View.ld_unit_zero (S := S1024x1024) offsets_zero, View.ld_unit_zero (S := S1x256) offsets_zero, View.ld_unit_zero (S := S1024x256) offsets_zero]
  rfl

theorem sLast_eq (hc0 : ¬condFirst i) (hc1 : condLast i) :
    sLast c i arg2 harg2 arg3 harg3 arg4 harg4 arg5 harg5 arg6 harg6 arg7 harg7 hc0 hc1 x0 x1 x2 x3 xs = scratchStep x3 x2 x0 x1 xs := by
  unfold sLast
  unfold runLast
  dsimp only
  sl_unfold_words
  rw [View.canon_unit_zero (S := S1024x256) offsets_zero]
  simp only [View.readAt_eq_ld, harg2.read_unread, harg3.read_unread, harg4.read_unread, harg5.read_unread, harg7.read_unread,
    View.readCov_unit_zero (S := S1024x256) _ offsets_zero,
    View.ld_unit_zero (S := S1024x1024) offsets_zero, View.ld_unit_zero (S := S1x256) offsets_zero, View.ld_unit_zero (S := S1024x256) offsets_zero]
  rfl

theorem oLast_eq (hc0 : ¬condFirst i) (hc1 : condLast i) :
    oLast c i arg2 harg2 arg3 harg3 arg4 harg4 arg5 harg5 arg6 harg6 arg7 harg7 hc0 hc1 x0 x1 x2 x3 xs = outStore x3 (scratchStep x3 x2 x0 x1 xs) := by
  unfold oLast
  unfold runLast
  dsimp only
  sl_unfold_words
  rw [View.canon_unit_zero (S := S1024x256) offsets_zero]
  simp only [View.readAt_eq_ld, harg2.read_unread, harg3.read_unread, harg4.read_unread, harg5.read_unread, harg7.read_unread,
    View.readCov_unit_zero (S := S1024x256) _ offsets_zero,
    View.ld_unit_zero (S := S1024x1024) offsets_zero, View.ld_unit_zero (S := S1x256) offsets_zero, View.ld_unit_zero (S := S1024x256) offsets_zero]
  rfl

end

theorem Bridge.index_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = t.val % 8 ∧ win2_2.index t (1 : Fin 2) = t.val / 8
    ∧ win2_3.index t (0 : Fin 2) = 0 ∧ win2_3.index t (1 : Fin 2) = t.val / 8 :=
  (by decide +kernel : ∀ t : Fin grid2.N, _)

theorem iblk0_apply (c : Dev nD) (t : Fin cfg2.N) (b : Fin 1024) (k : Fin 1024) :
    (iblk V c 0 t : Vec F S1024x1024 .bf16) (ix2 b k) = (V c main_v14 : Vec F S1024x1024 .bf16) (ix2 b k) := by
  obtain ⟨e0, e1, -⟩ := Bridge.index_facts t
  unfold iblk
  rw [View.read_apply]
  show V c main_v14 (((cfg2.win 0).blk t).view.emb (ix2 b k)) = V c main_v14 (ix2 b k)
  congr 1
  funext a; apply Fin.ext
  match a with
  | ⟨0, _⟩ => show win2_0.index t (0 : Fin 2) * 1024 + 1 * b.val = b.val; rw [e0]; omega
  | ⟨1, _⟩ => show win2_0.index t (1 : Fin 2) * 1024 + 1 * k.val = k.val; rw [e1]; omega
theorem iblk1_apply (c : Dev nD) (t : Fin cfg2.N) (b : Fin 1024) (k : Fin 1024) :
    (iblk V c 1 t : Vec F S1024x1024 .bf16) (ix2 b k) = (V c main_v17 : Vec F S1024x1024 .bf16) (ix2 b k) := by
  obtain ⟨-, -, e0, e1, -⟩ := Bridge.index_facts t
  unfold iblk
  rw [View.read_apply]
  show V c main_v17 (((cfg2.win 1).blk t).view.emb (ix2 b k)) = V c main_v17 (ix2 b k)
  congr 1
  funext a; apply Fin.ext
  match a with
  | ⟨0, _⟩ => show win2_1.index t (0 : Fin 2) * 1024 + 1 * b.val = b.val; rw [e0]; omega
  | ⟨1, _⟩ => show win2_1.index t (1 : Fin 2) * 1024 + 1 * k.val = k.val; rw [e1]; omega

theorem iblk2_apply (c : Dev nD) (t : Fin cfg2.N) (r : Fin 8) (n : Fin 256) :
    (iblk V c 2 t : Vec F S8x256 .i32) (ix2 r n)
      = (V c main_v18 : Vec F S64x2048 .i32) (ix2 ⟨8 * (t.val % 8) + r.val, by omega⟩ ⟨256 * (t.val / 8) + n.val, by have := t.isLt; have : cfg2.N = 64 := N_2; omega⟩) := by
  obtain ⟨-, -, -, -, e0, e1, -⟩ := Bridge.index_facts t
  unfold iblk
  rw [View.read_apply]
  show V c main_v18 (((cfg2.win 2).blk t).view.emb (ix2 r n)) = V c main_v18 _
  congr 1
  funext a; apply Fin.ext
  match a with
  | ⟨0, _⟩ => show win2_2.index t (0 : Fin 2) * 8 + 1 * r.val = 8 * (t.val % 8) + r.val; rw [e0]; omega
  | ⟨1, _⟩ => show win2_2.index t (1 : Fin 2) * 256 + 1 * n.val = 256 * (t.val / 8) + n.val; rw [e1]; omega

theorem iblk3_apply (c : Dev nD) (t : Fin cfg2.N) (n : Fin 256) :
    (iblk V c 3 t : Vec F S1x256 .i32) (ix2 0 n)
      = (V c main_v19 : Vec F S1x2048 .i32) (ix2 0 ⟨256 * (t.val / 8) + n.val, by have := t.isLt; have : cfg2.N = 64 := N_2; omega⟩) := by
  obtain ⟨-, -, -, -, -, -, e0, e1⟩ := Bridge.index_facts t
  unfold iblk
  rw [View.read_apply]
  show V c main_v19 (((cfg2.win 3).blk t).view.emb (ix2 0 n)) = V c main_v19 _
  congr 1
  funext a; apply Fin.ext
  match a with
  | ⟨0, _⟩ => show win2_3.index t (0 : Fin 2) * 1 + 1 * 0 = 0; rw [e0]
  | ⟨1, _⟩ => show win2_3.index t (1 : Fin 2) * 256 + 1 * n.val = 256 * (t.val / 8) + n.val; rw [e1]; omega

end Cert.KernelIdeal.R2

end
-- ==== Proof.KI.R2.StepMath.lean ====
import proofs.«423092_j11149735100496_3_alg».proof.Proof.KI.R2.Step
import Idealize.ShloMosaic.PureOps.IdealRules
import Idealize.ShloMosaic.Lib.IdealHost

noncomputable section

namespace Cert.KernelIdeal.R2

open Cert.KernelIdeal Cert.KernelIdeal.Gen
open Idealize.ShloMosaic Idealize.ShloMosaic.ValueIdx
open scoped BigOperators
open Cert.LayerMath

namespace StepMath

/-- The two operand indices at output (b, n) and contracted coordinate k are (b, k) and (k, n), coordinate by coordinate. -/
theorem matmul_zero_apply (A : FVec Ideal S1024x1024 .bf16) (B : FVec Ideal S1024x256 .bf16) (b : Fin 1024) (n : Fin 256) :
    matmul dot_S1024x1024_S1024x256_S1024x256_1_0_0_1_n_n none A B (constant S1024x256 .f32 0x00000000#32) (ix2 b n)
      = ∑ k : Fin 1024, A (ix2 b k) * B (ix2 k n) := by
  show FloatOps.matmul dot_S1024x1024_S1024x256_S1024x256_1_0_0_1_n_n none A B _ (ix2 b n) = _
  rw [Ideal.matmul_constant_zero_apply, ← Equiv.sum_comp (contrEquiv1 _ 1024 rfl rfl).symm]
  refine Finset.sum_congr rfl fun k _ => ?_
  congr 2 <;> funext ax <;> apply Fin.ext <;>
    match ax with
    | ⟨0, _⟩ => rfl
    | ⟨1, _⟩ => rfl

theorem rowBroadcast_apply {α : Type} (x : S1x256.Idx → α) (k : Fin 1024) (n : Fin 256) :
    broadcastTo S1024x256 x broadcasts_S1x256_S1024x256 (ix2 k n) = x (ix2 0 n) := by
  refine broadcastTo_apply x broadcasts_S1x256_S1024x256 (ix2 k n) (ix2 0 n) ?_
  intro a
  match a with
  | ⟨0, _⟩ => rfl
  | ⟨1, _⟩ => rfl

theorem batchBroadcast_apply {α : Type} (x : S1x256.Idx → α) (b : Fin 1024) (n : Fin 256) :
    broadcastTo S1024x256 x broadcasts_S1x256_S1024x256 (ix2 b n) = x (ix2 0 n) := by
  refine broadcastTo_apply x broadcasts_S1x256_S1024x256 (ix2 b n) (ix2 0 n) ?_
  intro a
  match a with
  | ⟨0, _⟩ => rfl
  | ⟨1, _⟩ => rfl

theorem rowIota_apply (k : Fin 1024) (n : Fin 256) :
    iota .tc S1024x256 32 [0] iota_S1024x256_d0_w32 (ix2 k n) = BitVec.ofNat 32 k.val :=
  iota_single_apply .tc S1024x256 32 0 iota_S1024x256_d0_w32 (ix2 k n)

def oneHot (sg : FVec Ideal S1x256 .bf16) (row : IVec S1x256 32) : FVec Ideal S1024x256 .bf16 :=
  select (cmpi .eq (iota .tc S1024x256 32 [0] iota_S1024x256_d0_w32) (broadcastTo S1024x256 row broadcasts_S1x256_S1024x256))
    (broadcastTo S1024x256 sg broadcasts_S1x256_S1024x256) (broadcast S1024x256 (Scalar.ofBits .bf16 0x0000#16))

theorem oneHot_apply (sg : FVec Ideal S1x256 .bf16) (row : IVec S1x256 32) (hrow : ∀ i, (row i).toNat < 1024)
    (k : Fin 1024) (n : Fin 256) :
    oneHot sg row (ix2 k n) = if k = Cert.Spec.feat 1024 (row (ix2 0 n)) then sg (ix2 0 n) else 0 := by
  unfold oneHot
  rw [select_apply, broadcast_apply]
  show Scalar.select (IntOp.cmpi .eq (iota .tc S1024x256 32 [0] iota_S1024x256_d0_w32 (ix2 k n))
    (broadcastTo S1024x256 row broadcasts_S1x256_S1024x256 (ix2 k n)))
    (broadcastTo S1024x256 sg broadcasts_S1x256_S1024x256 (ix2 k n)) (Ideal.ofBits .bf16 0x0000#16) = _
  rw [rowIota_apply, rowBroadcast_apply, rowBroadcast_apply, Ideal.ofBits_zero_bf16]
  by_cases h : k = Cert.Spec.feat 1024 (row (ix2 0 n))
  · rw [if_pos h]
    have e : BitVec.ofNat 32 k.val = row (ix2 0 n) := (word_eq_iff (by decide) k _ (hrow _)).mpr h
    rw [e]
    simp [IntOp.cmpi, Scalar.select]
  · rw [if_neg h]
    have e : ¬ BitVec.ofNat 32 k.val = row (ix2 0 n) := fun e => h ((word_eq_iff (by decide) k _ (hrow _)).mp e)
    have e' : (BitVec.ofNat 32 k.val == row (ix2 0 n)) = false := by simpa using e
    simp [IntOp.cmpi, Scalar.select, e']

theorem sum_oneHot (x : FVec Ideal S1024x1024 .bf16) (sg : FVec Ideal S1x256 .bf16) (row : IVec S1x256 32)
    (hrow : ∀ i, (row i).toNat < 1024) (b : Fin 1024) (n : Fin 256) :
    ∑ k : Fin 1024, x (ix2 b k) * oneHot sg row (ix2 k n)
      = x (ix2 b (Cert.Spec.feat 1024 (row (ix2 0 n)))) * sg (ix2 0 n) := by
  rw [Finset.sum_eq_single (Cert.Spec.feat 1024 (row (ix2 0 n)))]
  · rw [oneHot_apply sg row hrow, if_pos rfl]
  · intro k _ hk
    rw [oneHot_apply sg row hrow, if_neg hk]
    exact mul_zero _
  · intro h; exact absurd (Finset.mem_univ _) h

def rowStep (sg : FVec Ideal S1x256 .bf16) (row : IVec S1x256 32) (xh xl : FVec Ideal S1024x1024 .bf16)
    (s : FVec Ideal S1024x256 .f32) : FVec Ideal S1024x256 .f32 :=
  maximumf s (addf
    (matmul dot_S1024x1024_S1024x256_S1024x256_1_0_0_1_n_n none xh (oneHot sg row) (constant S1024x256 .f32 0x00000000#32))
    (matmul dot_S1024x1024_S1024x256_S1024x256_1_0_0_1_n_n none xl (oneHot sg row) (constant S1024x256 .f32 0x00000000#32)))

theorem rowStep_apply (sg : FVec Ideal S1x256 .bf16) (row : IVec S1x256 32) (xh xl : FVec Ideal S1024x1024 .bf16)
    (s : FVec Ideal S1024x256 .f32) (hxl : ∀ i, xl i = 0) (hrow : ∀ i, (row i).toNat < 1024) (b : Fin 1024) (n : Fin 256) :
    rowStep sg row xh xl s (ix2 b n)
      = s (ix2 b n) ⊔ xh (ix2 b (Cert.Spec.feat 1024 (row (ix2 0 n)))) * sg (ix2 0 n) := by
  unfold rowStep
  rw [maximumf_apply, addf_apply, matmul_zero_apply, matmul_zero_apply, sum_oneHot xh sg row hrow,
    sum_oneHot xl sg row hrow, hxl, zero_mul, add_zero]

theorem signF32_apply (op : Vec Ideal S1x256 .i32) (n : Fin 256) :
    k2_pay3 (F := Ideal) op (ix2 0 n) = sgn (op (ix2 0 n)) := by
  unfold k2_pay3
  rw [shapeCast_apply _ shapeCasts_S256_S1x256 (ix2 (0 : Fin 1) n) (ix1 n)
    (by rw [Shape.rowMajor_val_one, Shape.rowMajor_val_two]; show n.val = 0 * 256 + n.val; omega)]
  rw [select_apply, broadcast_apply, broadcast_apply]
  show Scalar.select (IntOp.cmpi .eq (shapeCast S256 op shapeCasts_S1x256_S256 (ix1 n)) (broadcast S256 0#32 (ix1 n)))
    (Ideal.ofBits .f32 0xBF800000#32) (Ideal.ofBits .f32 0x3F800000#32) = _
  rw [shapeCast_apply op shapeCasts_S1x256_S256 (ix1 n) (ix2 (0 : Fin 1) n)
    (by rw [Shape.rowMajor_val_one, Shape.rowMajor_val_two]; show 0 * 256 + n.val = n.val; omega), broadcast_apply]
  have hneg : Ideal.ofBits .f32 0xBF800000#32 = (-1 : EReal) := by
    rw [show (-1 : EReal) = ((-(1 : ℝ) : ℝ) : EReal) by rw [EReal.coe_neg, EReal.coe_one]]
    simp [Ideal.ofBits, Ideal.ieee, -EReal.coe_mul, -EReal.coe_neg]; norm_num
  rw [hneg, Ideal.ofBits_one_f32]
  unfold sgn
  by_cases h : op (ix2 0 n) = 0#32
  · rw [if_pos h, h]; rfl
  · rw [if_neg h]
    have e' : (op (ix2 0 n) == 0#32) = false := by simpa using h
    simp [IntOp.cmpi, Scalar.select, e']

theorem signBf16_apply (op : Vec Ideal S1x256 .i32) (n : Fin 256) :
    k2_pay4 (F := Ideal) op (ix2 0 n) = sgn (op (ix2 0 n)) := by
  unfold k2_pay4
  exact signF32_apply op n

theorem connRow_apply (cn : Vec Ideal S8x256 .i32) (r : Fin 8) (n : Fin 256) :
    connRow cn r (ix2 0 n) = cn (ix2 r n) := by
  fin_cases r <;>
  · show cn _ = cn _
    refine congrArg cn (funext fun a => Fin.ext ?_)
    match a with
    | ⟨0, _⟩ => rfl
    | ⟨1, _⟩ => show 0 + 1 * n.val = n.val; omega

theorem scratchStep_eq (op : Vec Ideal S1x256 .i32) (cn : Vec Ideal S8x256 .i32) (xh xl : Vec Ideal S1024x1024 .bf16)
    (s : Vec Ideal S1024x256 .f32) :
    scratchStep (F := Ideal) op cn xh xl s
      = rowStep (k2_pay4 op) (connRow cn 7) xh xl (rowStep (k2_pay4 op) (connRow cn 6) xh xl
          (rowStep (k2_pay4 op) (connRow cn 5) xh xl (rowStep (k2_pay4 op) (connRow cn 4) xh xl
            (rowStep (k2_pay4 op) (connRow cn 3) xh xl (rowStep (k2_pay4 op) (connRow cn 2) xh xl
              (rowStep (k2_pay4 op) (connRow cn 1) xh xl (rowStep (k2_pay4 op) (connRow cn 0) xh xl s))))))) := by
  unfold scratchStep k2_pay14 k2_pay13 k2_pay12 k2_pay11 k2_pay10 k2_pay9 k2_pay8 k2_pay7 k2_pay6 k2_pay5
  simp only [shapeCast_self, shapeCast_shapeCast]
  rfl

end StepMath

open StepMath

theorem reset_apply (i : S1024x256.Idx) : k2_pay2 (F := Ideal) i = (⊥ : EReal) := by
  unfold k2_pay2
  rw [shapeCast_self]
  exact IdealRules.named_const.ideal_named_scalar _ _ _ _ rfl

theorem scratchStep_apply (op : Vec Ideal S1x256 .i32) (cn : Vec Ideal S8x256 .i32) (xh xl : Vec Ideal S1024x1024 .bf16)
    (s : Vec Ideal S1024x256 .f32) (hxl : ∀ i, xl i = 0) (hcn : ∀ i, (cn i).toNat < 1024) (b : Fin 1024) (n : Fin 256) :
    scratchStep (F := Ideal) op cn xh xl s (ix2 b n)
      = s (ix2 b n) ⊔ ⨆ r : Fin 8, xh (ix2 b (Cert.Spec.feat 1024 (cn (ix2 r n)))) * sgn (op (ix2 0 n)) := by
  have hrow : ∀ r : Fin 8, ∀ i, (connRow cn r i).toNat < 1024 := by
    intro r i
    fin_cases r <;> exact hcn _
  rw [scratchStep_eq, iSup_fin8]
  rw [rowStep_apply _ _ xh xl _ hxl (hrow 7), rowStep_apply _ _ xh xl _ hxl (hrow 6), rowStep_apply _ _ xh xl _ hxl (hrow 5),
    rowStep_apply _ _ xh xl _ hxl (hrow 4), rowStep_apply _ _ xh xl _ hxl (hrow 3), rowStep_apply _ _ xh xl _ hxl (hrow 2),
    rowStep_apply _ _ xh xl _ hxl (hrow 1), rowStep_apply _ _ xh xl _ hxl (hrow 0)]
  simp only [connRow_apply, signBf16_apply, sup_assoc]

theorem outStore_apply (op : Vec Ideal S1x256 .i32) (s : Vec Ideal S1024x256 .f32) (b : Fin 1024) (n : Fin 256) :
    outStore (F := Ideal) op s (ix2 b n) = s (ix2 b n) * sgn (op (ix2 0 n)) := by
  unfold outStore k2_pay1
  rw [mulf_apply, batchBroadcast_apply, signF32_apply]

end Cert.KernelIdeal.R2

end
-- ==== Proof.KI.R2.Value.lean ====
import proofs.«423092_j11149735100496_3_alg».proof.Proof.KI.R2.Bridge
import proofs.«423092_j11149735100496_3_alg».proof.Proof.KI.R2.StepMath

noncomputable section

namespace Cert.KernelIdeal.R2

open Cert.KernelIdeal Cert.KernelIdeal.Gen
open Idealize.ShloMosaic Idealize.ShloMosaic.TcCoe
open Idealize.SL.Sem
open Idealize.ShloMosaic.Pipeline (Dat)
open Idealize.ShloMosaic.ValueIdx
open Cert.LayerMath

variable (V : (c : Dev nD) → (b : Ref sig .tc) → Buf (Elt Ideal) ((c : Thread nD τ).loc b))

namespace Value

abbrev xhArr (c : Dev nD) : Vec Ideal S1024x1024 .bf16 := V c main_v14

abbrev xlArr (c : Dev nD) : Vec Ideal S1024x1024 .bf16 := V c main_v17

abbrev cnArr (c : Dev nD) : Vec Ideal S64x2048 .i32 := V c main_v18

abbrev opArr (c : Dev nD) : Vec Ideal S1x2048 .i32 := V c main_v19
abbrev xhBlk (c : Dev nD) (t : Fin cfg2.N) : Vec Ideal S1024x1024 .bf16 := iblk V c 0 t
abbrev xlBlk (c : Dev nD) (t : Fin cfg2.N) : Vec Ideal S1024x1024 .bf16 := iblk V c 1 t
abbrev cnBlk (c : Dev nD) (t : Fin cfg2.N) : Vec Ideal S8x256 .i32 := iblk V c 2 t
abbrev opBlk (c : Dev nD) (t : Fin cfg2.N) : Vec Ideal S1x256 .i32 := iblk V c 3 t

def col (t : Fin cfg2.N) (n : Fin 256) : Fin 2048 :=
  ⟨256 * (t.val / 8) + n.val, by have := t.isLt; have : cfg2.N = 64 := N_2; omega⟩

def cand (t : Fin cfg2.N) (r : Fin 8) : Fin 64 := ⟨8 * (t.val % 8) + r.val, by omega⟩

theorem xhBlk_apply (c : Dev nD) (t : Fin cfg2.N) (b : Fin 1024) (k : Fin 1024) :
    xhBlk V c t (ix2 b k) = xhArr V c (ix2 b k) := iblk0_apply V c t b k
theorem xlBlk_apply (c : Dev nD) (t : Fin cfg2.N) (b : Fin 1024) (k : Fin 1024) :
    xlBlk V c t (ix2 b k) = xlArr V c (ix2 b k) := iblk1_apply V c t b k
theorem cnBlk_apply (c : Dev nD) (t : Fin cfg2.N) (r : Fin 8) (n : Fin 256) :
    cnBlk V c t (ix2 r n) = cnArr V c (ix2 (cand t r) (col t n)) := iblk2_apply V c t r n
theorem opBlk_apply (c : Dev nD) (t : Fin cfg2.N) (n : Fin 256) :
    opBlk V c t (ix2 0 n) = opArr V c (ix2 0 (col t n)) := iblk3_apply V c t n

theorem xlBlk_zero (c : Dev nD) (hxl : ∀ i, xlArr V c i = 0) (t : Fin cfg2.N) : ∀ i, xlBlk V c t i = 0 := by
  intro i
  obtain ⟨b, k, rfl⟩ : ∃ (b : Fin 1024) (k : Fin 1024), i = ix2 b k := ⟨i 0, i 1, eq_ix2 i⟩
  exact (xlBlk_apply V c t b k).trans (hxl _)

theorem cnBlk_lt (c : Dev nD) (hct : ∀ i, (cnArr V c i).toNat < 1024) (t : Fin cfg2.N) :
    ∀ i, (cnBlk V c t i).toNat < 1024 := by
  intro i
  obtain ⟨r, n, rfl⟩ : ∃ (r : Fin 8) (n : Fin 256), i = ix2 r n := ⟨i 0, i 1, eq_ix2 i⟩
  rw [cnBlk_apply]
  exact hct _

theorem scr_first (c : Dev nD) (t : Fin cfg2.N) (h0 : t.val % 8 = 0) :
    (outsAt V c t.val t.isLt).2 = scratchStep (opBlk V c t) (cnBlk V c t) (xhBlk V c t) (xlBlk V c t) (k2_pay2 (F := Ideal)) := by
  rw [outsAt_first V c t h0, stepAt, dif_pos h0]
  dsimp only
  exact sFirst_eq ..

theorem scr_next (c : Dev nD) (t : Fin cfg2.N) (h0 : ¬t.val % 8 = 0) :
    (outsAt V c t.val t.isLt).2
      = scratchStep (opBlk V c t) (cnBlk V c t) (xhBlk V c t) (xlBlk V c t)
          (outsAt V c (t.val - 1) (Nat.lt_of_le_of_lt (Nat.sub_le _ _) t.isLt)).2 := by
  rw [outsAt_next V c t h0, stepAt, dif_neg h0]
  by_cases h1 : t.val % 8 = 7
  · rw [dif_pos h1]
    dsimp only
    exact sLast_eq ..
  · rw [dif_neg h1]
    dsimp only
    exact sMid_eq ..

theorem out_last (c : Dev nD) (t : Fin cfg2.N) (h0 : ¬t.val % 8 = 0) (h1 : t.val % 8 = 7) :
    (outsAt V c t.val t.isLt).1 = outStore (opBlk V c t) (outsAt V c t.val t.isLt).2 := by
  rw [outsAt_next V c t h0, stepAt, dif_neg h0, dif_pos h1]
  dsimp only
  rw [oLast_eq, sLast_eq]

def sterm (c : Dev nD) (b : Fin 1024) (o : Fin 2048) (k : Fin 64) : EReal :=
  xhArr V c (ix2 b (Cert.Spec.feat 1024 (cnArr V c (ix2 k o)))) * sgn (opArr V c (ix2 0 o))

theorem step_apply (c : Dev nD) (hxl : ∀ i, xlArr V c i = 0) (hct : ∀ i, (cnArr V c i).toNat < 1024)
    (t : Fin cfg2.N) (s : Vec Ideal S1024x256 .f32) (b : Fin 1024) (n : Fin 256) :
    scratchStep (F := Ideal) (opBlk V c t) (cnBlk V c t) (xhBlk V c t) (xlBlk V c t) s (ix2 b n)
      = s (ix2 b n) ⊔ ⨆ r : Fin 8, sterm V c b (col t n) (cand t r) := by
  rw [scratchStep_apply (opBlk V c t) (cnBlk V c t) (xhBlk V c t) (xlBlk V c t) s (xlBlk_zero V c hxl t) (cnBlk_lt V c hct t) b n]
  refine congrArg (fun x => s (ix2 b n) ⊔ x) (iSup_congr fun r => ?_)
  unfold sterm
  rw [cnBlk_apply, xhBlk_apply, opBlk_apply]

theorem scr_apply_first (c : Dev nD) (hxl : ∀ i, xlArr V c i = 0) (hct : ∀ i, (cnArr V c i).toNat < 1024)
    (t : Fin cfg2.N) (h0 : t.val % 8 = 0) (b : Fin 1024) (n : Fin 256) :
    (outsAt V c t.val t.isLt).2 (ix2 b n)
      = ⨆ k : Fin 64, ⨆ (_ : k.val < 8 * (t.val % 8 + 1)), sterm V c b (col t n) k := by
  rw [scr_first V c t h0, step_apply V c hxl hct t (k2_pay2 (F := Ideal)) b n, reset_apply,
    iSup_lt_step (sterm V c b (col t n)) (t.val % 8) (cand t) (fun r => rfl),
    iSup_lt_zero (sterm V c b (col t n)) (8 * (t.val % 8)) (by omega)]

theorem scr_apply (c : Dev nD) (hxl : ∀ i, xlArr V c i = 0) (hct : ∀ i, (cnArr V c i).toNat < 1024) :
    ∀ (m : ℕ) (t : Fin cfg2.N), t.val = m → ∀ (b : Fin 1024) (n : Fin 256),
      (outsAt V c t.val t.isLt).2 (ix2 b n)
        = ⨆ k : Fin 64, ⨆ (_ : k.val < 8 * (t.val % 8 + 1)), sterm V c b (col t n) k := by
  intro m
  induction m with
  | zero =>
    intro t ht b n
    exact scr_apply_first V c hxl hct t (by omega) b n
  | succ m ih =>
    intro t ht b n
    by_cases h0 : t.val % 8 = 0
    · exact scr_apply_first V c hxl hct t h0 b n
    · have hlt : t.val - 1 < cfg2.N := Nat.lt_of_le_of_lt (Nat.sub_le _ _) t.isLt
      have ih' : (outsAt V c (t.val - 1) hlt).2 (ix2 b n)
          = ⨆ k : Fin 64, ⨆ (_ : k.val < 8 * ((t.val - 1) % 8 + 1)), sterm V c b (col ⟨t.val - 1, hlt⟩ n) k :=
        ih ⟨t.val - 1, hlt⟩ (by show t.val - 1 = m; omega) b n
      have e1 : col ⟨t.val - 1, hlt⟩ n = col t n :=
        Fin.ext (by show 256 * ((t.val - 1) / 8) + n.val = 256 * (t.val / 8) + n.val; omega)
      have e2 : (t.val - 1) % 8 + 1 = t.val % 8 := by omega
      rw [e1, e2] at ih'
      rw [scr_next V c t h0,
        step_apply V c hxl hct t (outsAt V c (t.val - 1) (Nat.lt_of_le_of_lt (Nat.sub_le _ _) t.isLt)).2 b n,
        iSup_lt_step (sterm V c b (col t n)) (t.val % 8) (cand t) (fun r => rfl)]
      exact congrArg (fun x => x ⊔ ⨆ r : Fin 8, sterm V c b (col t n) (cand t r)) ih'

def Gfun (c : Dev nD) (b : Fin 1024) (o : Fin 2048) : EReal :=
  Cert.Spec.pick (opArr V c (ix2 0 o) = 0#32)
    (fun k : Fin 64 => xhArr V c (ix2 b (Cert.Spec.feat 1024 (cnArr V c (ix2 k o)))))

theorem outBlock_apply (c : Dev nD) (hxl : ∀ i, xlArr V c i = 0) (hfin : ∀ i, ∃ r : ℝ, xhArr V c i = (r : EReal))
    (hct : ∀ i, (cnArr V c i).toNat < 1024) (t : Fin cfg2.N) (h1 : t.val % 8 = 7) (b : Fin 1024) (n : Fin 256) :
    (outsAt V c t.val t.isLt).1 (ix2 b n) = Gfun V c b (col t n) := by
  have h0 : ¬t.val % 8 = 0 := by omega
  rw [out_last V c t h0 h1, outStore_apply, scr_apply V c hxl hct t.val t rfl b n, opBlk_apply,
    iSup_lt_all (sterm V c b (col t n)) (8 * (t.val % 8 + 1)) (by omega)]
  unfold Gfun
  rw [← signed_sup (opArr V c (ix2 0 (col t n)))
    (fun k : Fin 64 => xhArr V c (ix2 b (Cert.Spec.feat 1024 (cnArr V c (ix2 k (col t n)))))) (fun k => hfin _), bot_sup_eq]
  rfl

def G (c : Dev nD) : Vec Ideal S1024x2048 .f32 := fun i => Gfun V c (i 0) (i 1)

theorem idx_facts4 : ∀ t : Fin cfg2.N, win2_4.index t (0 : Fin 2) = 0 ∧ win2_4.index t (1 : Fin 2) = t.val / 8 :=
  (by decide +kernel : ∀ t : Fin grid2.N, win2_4.index t (0 : Fin 2) = 0 ∧ win2_4.index t (1 : Fin 2) = t.val / 8)

theorem flushed4_eq (c : Dev nD) (hxl : ∀ i, xlArr V c i = 0) (hfin : ∀ i, ∃ r : ℝ, xhArr V c i = (r : EReal))
    (hct : ∀ i, (cnArr V c i).toNat < 1024) (t : Fin cfg2.N) (hf : (cfg2.win 4).flush t = true) :
    (dat (F := Ideal) V c).flushed 4 t = ((cfg2.win 4).blk t).view.read (Elt Ideal) (G V c) := by
  have h1 : t.val % 8 = 7 := (flush2_4 t).mp hf
  show (cfg2.win 4).cut (grid2.coords t) ((dat (F := Ideal) V c).after 4 t) = _
  rw [after_4]
  funext y
  obtain ⟨b, n, rfl⟩ : ∃ (b : Fin 1024) (n : Fin 256), y = ix2 b n := ⟨y 0, y 1, eq_ix2 y⟩
  show (outsAt V c t.val t.isLt).1 (ix2 b n) = G V c (((cfg2.win 4).blk t).view.emb (ix2 b n))
  rw [outBlock_apply V c hxl hfin hct t h1 b n]
  have he : ((cfg2.win 4).blk t).view.emb (ix2 b n) = ix2 b (col t n) := by
    obtain ⟨e0, e1⟩ := idx_facts4 t
    funext a; apply Fin.ext
    match a with
    | ⟨0, _⟩ => show win2_4.index t (0 : Fin 2) * 1024 + 1 * b.val = b.val; omega
    | ⟨1, _⟩ => show win2_4.index t (1 : Fin 2) * 256 + 1 * n.val = 256 * (t.val / 8) + n.val; omega
  rw [he]
  rfl

theorem mem_blk4 (t : Fin cfg2.N) (i : S1024x2048.Idx) :
    i ∈ ((cfg2.win 4).blk t).view.set ↔ ∀ a : Fin 2, win2_4.index t a * S1024x256.size a ≤ (i a).val
      ∧ (i a).val < win2_4.index t a * S1024x256.size a + S1024x256.size a := by
  show i ∈ ((View.whole main_v20).slice (win2_4.rect t)).set ↔ _
  rw [View.set_slice_whole, Rect.mem_set_unit]
  exact Iff.rfl

theorem cover4 (i : S1024x2048.Idx) :
    ∃ t : Fin cfg2.N, (cfg2.win 4).flush t = true ∧ i ∈ ((cfg2.win 4).blk t).view.set := by
  have hN : cfg2.N = 64 := N_2
  have hi0 : (i 0).val < 1024 := (i 0).isLt
  have hi1 : (i 1).val < 2048 := (i 1).isLt
  have htt : 8 * ((i 1).val / 256) + 7 < cfg2.N := by omega
  obtain ⟨e0, e1⟩ := idx_facts4 ⟨8 * ((i 1).val / 256) + 7, htt⟩
  have e1' : win2_4.index ⟨8 * ((i 1).val / 256) + 7, htt⟩ (1 : Fin 2) = (8 * ((i 1).val / 256) + 7) / 8 := e1
  refine ⟨⟨8 * ((i 1).val / 256) + 7, htt⟩, (flush2_4 _).mpr (by show (8 * ((i 1).val / 256) + 7) % 8 = 7; omega), ?_⟩
  rw [mem_blk4]
  intro a
  match a with
  | ⟨0, _⟩ =>
    show win2_4.index ⟨8 * ((i 1).val / 256) + 7, htt⟩ (0 : Fin 2) * 1024 ≤ (i 0).val
      ∧ (i 0).val < win2_4.index ⟨8 * ((i 1).val / 256) + 7, htt⟩ (0 : Fin 2) * 1024 + 1024
    omega
  | ⟨1, _⟩ =>
    show win2_4.index ⟨8 * ((i 1).val / 256) + 7, htt⟩ (1 : Fin 2) * 256 ≤ (i 1).val
      ∧ (i 1).val < win2_4.index ⟨8 * ((i 1).val / 256) + 7, htt⟩ (1 : Fin 2) * 256 + 256
    omega

theorem final4 (c : Dev nD) (hxl : ∀ i, xlArr V c i = 0) (hfin : ∀ i, ∃ r : ℝ, xhArr V c i = (r : EReal))
    (hct : ∀ i, (cnArr V c i).toNat < 1024) :
    (dat (F := Ideal) V c).arrAt 4 cfg2.N = G V c :=
  (dat (F := Ideal) V c).arrAt_eq_of_cover 4 (G V c) (fun t hf => flushed4_eq V c hxl hfin hct t hf) cover4

end Value

end Cert.KernelIdeal.R2

end
-- ==== Proof.KI.R2.Glue.lean ====
import proofs.«423092_j11149735100496_3_alg».proof.Proof.KI.Family
import proofs.«423092_j11149735100496_3_alg».proof.Proof.KI.Keep
import proofs.«423092_j11149735100496_3_alg».proof.Proof.KI.R2.Value
import Idealize.ShloMosaic.Lib.ValueLayout
import Idealize.ShloMosaic.Lib.StableHlo.Run
import Idealize.ShloMosaic.Lib.Tactic

noncomputable section

namespace Cert.KernelIdeal.Glue2

open Cert.KernelIdeal Cert.KernelIdeal.Gen
open Idealize.ShloMosaic Idealize.ShloMosaic.TcCoe Idealize.ShloMosaic.Tactic
open Idealize.ShloMosaic.ValueIdx
open Idealize.ShloMosaic.Pipeline (Dat)
open Cert.LayerMath

variable (m : (ℓ : Loc nD τ sig) → Buf (Elt Ideal) ℓ)

abbrev yArr (c : Dev nD) : FVec Ideal S1024x1024 .f32 := Fam.o4 m c
abbrev tbArr (c : Dev nD) : Vec Ideal S2048x64 .i32 := m ((c : Thread nD τ).loc main_arg3)
abbrev owArr (c : Dev nD) : Vec Ideal S2048 .i32 := m ((c : Thread nD τ).loc main_arg7)

abbrev Vin : (c : Dev nD) → (b : Ref sig .tc) → Buf (Elt Ideal) ((c : Thread nD τ).loc b) := Fam.rd (Fam.W5 m)

theorem in_y (c : Dev nD) : (Fam.W4 m c main_v13 : FVec Ideal S1024x1024 .f32) = yArr m c := by
  unfold Fam.W4
  exact Function.update_self ..

theorem in_tb (c : Dev nD) : (Fam.W4 m c main_arg3 : Vec Ideal S2048x64 .i32) = tbArr m c := by
  rw [Fam.keep4 m c main_arg3 (by decide)]

theorem in_ow (c : Dev nD) : (Fam.W4 m c main_arg7 : Vec Ideal S2048 .i32) = owArr m c := by
  rw [Fam.keep4 m c main_arg7 (by decide)]

theorem w_cn (c : Dev nD) :
    (Fam.W5 m c main_v18 : Vec Ideal S64x2048 .i32) = transpose S64x2048 [1, 0] (tbArr m c) transposes_S2048x64_S64x2048_1_0 := by
  unfold Fam.W5
  show StableHlo.after hostOps2 (Fam.W4 m c) (Proc.devRef .tc main_v18) = _
  after_results
  rw [in_tb]
  all_goals rfl

theorem w_op (c : Dev nD) :
    (Fam.W5 m c main_v19 : Vec Ideal S1x2048 .i32) = shapeCast S1x2048 (owArr m c) shapeCasts_S2048_S1x2048 := by
  unfold Fam.W5
  show StableHlo.after hostOps2 (Fam.W4 m c) (Proc.devRef .tc main_v19) = _
  after_results
  rw [in_ow]
  all_goals rfl

theorem xh_at (c : Dev nD) (i : S1024x1024.Idx) : R2.Value.xhArr (Vin m) c i = yArr m c i := by
  refine congrFun (?_ : (Fam.W5 m c main_v14 : FVec Ideal S1024x1024 .bf16) = yArr m c) i
  unfold Fam.W5
  show StableHlo.after hostOps2 (Fam.W4 m c) (Proc.devRef .tc main_v14) = _
  after_results
  rw [in_y]
  all_goals rfl

theorem xl_at (c : Dev nD) (i : S1024x1024.Idx) : R2.Value.xlArr (Vin m) c i = yArr m c i - yArr m c i := by
  refine congrFun (?_ : (Fam.W5 m c main_v17 : FVec Ideal S1024x1024 .bf16) = fun i => yArr m c i - yArr m c i) i
  unfold Fam.W5
  show StableHlo.after hostOps2 (Fam.W4 m c) (Proc.devRef .tc main_v17) = _
  after_results
  rw [in_y]
  all_goals rfl

theorem cn_at (c : Dev nD) (k : Fin 64) (o : Fin 2048) : R2.Value.cnArr (Vin m) c (ix2 k o) = tbArr m c (ix2 o k) := by
  show (Fam.W5 m c main_v18 : Vec Ideal S64x2048 .i32) (ix2 k o) = _
  rw [w_cn]; exact transpose_ix2_apply _ _ k o

theorem op_at (c : Dev nD) (o : Fin 2048) : R2.Value.opArr (Vin m) c (ix2 0 o) = owArr m c (ix1 o) := by
  show (Fam.W5 m c main_v19 : Vec Ideal S1x2048 .i32) (ix2 0 o) = _
  rw [w_op]
  refine shapeCast_apply _ _ _ _ ?_
  show (S2048.rowMajor (ix1 o)).val = (S1x2048.rowMajor (ix2 0 o)).val
  rw [Shape.rowMajor_val_one, Shape.rowMajor_val_two]
  show o.val = (0 : Fin 1).val * 2048 + o.val
  simp

theorem out_eq (c : Dev nD) (hx : Cert.Spec.Finite (Fam.o4 m c))
    (hconn : ∀ i, (m ((c : Thread nD τ).loc main_arg3) i).toNat < 1024) :
    Fam.o6 m c = Cert.Spec.layer (nin := 1024) (nout := 2048) (Fam.o4 m c)
      (m ((c : Thread nD τ).loc main_arg3)) (m ((c : Thread nD τ).loc main_arg7)) := by

  have hxl : ∀ i, R2.Value.xlArr (Vin m) c i = 0 := fun i => by
    rw [xl_at]
    obtain ⟨r, hr⟩ := hx i
    have hr' : yArr m c i = (r : EReal) := hr
    rw [hr', ← EReal.coe_sub, sub_self, EReal.coe_zero]

  have hfin : ∀ i, ∃ r : ℝ, R2.Value.xhArr (Vin m) c i = (r : EReal) := fun i => by
    obtain ⟨r, hr⟩ := hx i
    exact ⟨r, (xh_at m c i).trans hr⟩

  have hct : ∀ i, (R2.Value.cnArr (Vin m) c i).toNat < 1024 := fun i => by
    obtain ⟨k, o, rfl⟩ : ∃ (k : Fin 64) (o : Fin 2048), i = ix2 k o := ⟨i 0, i 1, eq_ix2 (n0 := 64) (n1 := 2048) i⟩
    rw [cn_at]
    exact hconn _
  funext i
  obtain ⟨b, o, rfl⟩ : ∃ (b : Fin 1024) (o : Fin 2048), i = ix2 b o := ⟨i 0, i 1, eq_ix2 (n0 := 1024) (n1 := 2048) i⟩
  show ((R2.dat (F := Ideal) (Vin m) c).arrAt 4 cfg2.N : Vec Ideal S1024x2048 .f32) (ix2 b o) = _
  rw [R2.Value.final4 (Vin m) c hxl hfin hct]
  unfold Cert.Spec.layer
  refine pick_congr ?_ fun k => ?_
  · rw [op_at]
  · rw [xh_at, cn_at]

end Cert.KernelIdeal.Glue2
end
-- ==== Proof.KI.R3.Step.lean ====
import proofs.«423092_j11149735100496_3_alg».proof.Proof.Gen.KernelIdeal.Skeleton
import proofs.«423092_j11149735100496_3_alg».proof.Proof.LayerMath
import Idealize.ShloMosaic.Lib.Pipeline.Value

noncomputable section

namespace Cert.KernelIdeal.R3

open Cert.KernelIdeal Cert.KernelIdeal.Gen
open Idealize.ShloMosaic Idealize.ShloMosaic.ValueIdx

variable {F : FTy → Type} [FloatOps F] [Named F]

def connRow (cn : Vec F S8x256 .i32) : Fin 8 → Vec F S1x256 .i32
  | ⟨0, _⟩ => View.ld cn (Rect.unit (s := S8x256) ![0, 0] S1x256.size inb_S8x256_S1x256_0_0)
  | ⟨1, _⟩ => View.ld cn (Rect.unit (s := S8x256) ![1, 0] S1x256.size inb_S8x256_S1x256_1_0)
  | ⟨2, _⟩ => View.ld cn (Rect.unit (s := S8x256) ![2, 0] S1x256.size inb_S8x256_S1x256_2_0)
  | ⟨3, _⟩ => View.ld cn (Rect.unit (s := S8x256) ![3, 0] S1x256.size inb_S8x256_S1x256_3_0)
  | ⟨4, _⟩ => View.ld cn (Rect.unit (s := S8x256) ![4, 0] S1x256.size inb_S8x256_S1x256_4_0)
  | ⟨5, _⟩ => View.ld cn (Rect.unit (s := S8x256) ![5, 0] S1x256.size inb_S8x256_S1x256_5_0)
  | ⟨6, _⟩ => View.ld cn (Rect.unit (s := S8x256) ![6, 0] S1x256.size inb_S8x256_S1x256_6_0)
  | ⟨7, _⟩ => View.ld cn (Rect.unit (s := S8x256) ![7, 0] S1x256.size inb_S8x256_S1x256_7_0)

def scratchStep (op : Vec F S1x256 .i32) (cn : Vec F S8x256 .i32) (xh xl : Vec F S1024x2048 .bf16)
    (s : Vec F S1024x256 .f32) : FVec F S1024x256 .f32 :=
  k3_pay14 (k3_pay4 op) (iota .tc S2048x256 32 [0] iota_S2048x256_d0_w32)
    (k3_pay10 (k3_pay4 op) (iota .tc S2048x256 32 [0] iota_S2048x256_d0_w32)
      (k3_pay7 (k3_pay4 op) (iota .tc S2048x256 32 [0] iota_S2048x256_d0_w32)
        (k3_pay5 op s (connRow cn 0) xh xl) (k3_pay6 (connRow cn 1)) (Scalar.ofBits .bf16 0x0000#16)
        xh xl (connRow cn 2) xh xl)
      (k3_pay8 (k3_pay4 op) (iota .tc S2048x256 32 [0] iota_S2048x256_d0_w32) (connRow cn 3)) (k3_pay9 xh)
      xl (connRow cn 4) xh xl)
    (k3_pay12 (k3_pay4 op) (iota .tc S2048x256 32 [0] iota_S2048x256_d0_w32) (connRow cn 5) xh)
    (k3_pay13 (k3_pay4 op) (iota .tc S2048x256 32 [0] iota_S2048x256_d0_w32) (connRow cn 5) xl)
    (connRow cn 6) xh xl (connRow cn 7) xh xl

def outStore (op : Vec F S1x256 .i32) (s : Vec F S1024x256 .f32) : FVec F S1024x256 .f32 :=
  k3_pay1 (k3_pay3 op) s

end Cert.KernelIdeal.R3

end
-- ==== Proof.KI.R3.Bridge.lean ====
import proofs.«423092_j11149735100496_3_alg».proof.Proof.KI.R3.Dat
import proofs.«423092_j11149735100496_3_alg».proof.Proof.KI.R3.Step

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx
open Cert.LayerMath

variable (V : (c : Dev nD) → (b : Ref sig .tc) → Buf (Elt F) ((c : Thread nD τ).loc b))

section
variable (c : Dev nD) (i : grid3.Coords) (arg2 : Memref sig .tc .vmem S1024x2048 .bf16) (harg2 : arg2.IsWhole)
  (arg3 : Memref sig .tc .vmem S1024x2048 .bf16) (harg3 : arg3.IsWhole) (arg4 : Memref sig .tc .vmem S8x256 .i32)
  (harg4 : arg4.IsWhole) (arg5 : Memref sig .tc .vmem S1x256 .i32) (harg5 : arg5.IsWhole)
  (arg6 : Memref sig .tc .vmem S1024x256 .f32) (harg6 : arg6.IsWhole) (arg7 : Memref sig .tc .vmem S1024x256 .f32)
  (harg7 : arg7.IsWhole)
  (x0 x1 : Vec F S1024x2048 .bf16) (x2 : Vec F S8x256 .i32) (x3 : Vec F S1x256 .i32) (xs : Vec F S1024x256 .f32)

theorem sFirst_eq (hc0 : condFirst i) (hc1 : ¬condLast i) :
    sFirst c i arg2 harg2 arg3 harg3 arg4 harg4 arg5 harg5 arg6 harg6 arg7 harg7 hc0 hc1 x0 x1 x2 x3 = scratchStep x3 x2 x0 x1 (k3_pay2 (F := F)) := by
  unfold sFirst
  unfold runFirst
  dsimp only
  sl_unfold_words
  rw [View.canon_cons_unit_zero (S := S1024x256) offsets_zero]
  simp only [View.readAt_eq_ld, harg2.read_unread, harg3.read_unread, harg4.read_unread, harg5.read_unread,
    View.readCov_unit_zero (S := S1024x256) _ offsets_zero,
    View.ld_unit_zero (S := S1024x2048) offsets_zero, View.ld_unit_zero (S := S1x256) offsets_zero, View.ld_unit_zero (S := S1024x256) offsets_zero]
  rfl

theorem sMid_eq (hc0 : ¬condFirst i) (hc1 : ¬condLast i) :
    sMid c i arg2 harg2 arg3 harg3 arg4 harg4 arg5 harg5 arg6 harg6 arg7 harg7 hc0 hc1 x0 x1 x2 x3 xs = scratchStep x3 x2 x0 x1 xs := by
  unfold sMid
  unfold runMid
  dsimp only
  sl_unfold_words
  rw [View.canon_unit_zero (S := S1024x256) offsets_zero]
  simp only [View.readAt_eq_ld, harg2.read_unread, harg3.read_unread, harg4.read_unread, harg5.read_unread, harg7.read_unread,
    View.readCov_unit_zero (S := S1024x256) _ offsets_zero,
    View.ld_unit_zero (S := S1024x2048) offsets_zero, View.ld_unit_zero (S := S1x256) offsets_zero, View.ld_unit_zero (S := S1024x256) offsets_zero]
  rfl

theorem sLast_eq (hc0 : ¬condFirst i) (hc1 : condLast i) :
    sLast c i arg2 harg2 arg3 harg3 arg4 harg4 arg5 harg5 arg6 harg6 arg7 harg7 hc0 hc1 x0 x1 x2 x3 xs = scratchStep x3 x2 x0 x1 xs := by
  unfold sLast
  unfold runLast
  dsimp only
  sl_unfold_words
  rw [View.canon_unit_zero (S := S1024x256) offsets_zero]
  simp only [View.readAt_eq_ld, harg2.read_unread, harg3.read_unread, harg4.read_unread, harg5.read_unread, harg7.read_unread,
    View.readCov_unit_zero (S := S1024x256) _ offsets_zero,
    View.ld_unit_zero (S := S1024x2048) offsets_zero, View.ld_unit_zero (S := S1x256) offsets_zero, View.ld_unit_zero (S := S1024x256) offsets_zero]
  rfl

theorem oLast_eq (hc0 : ¬condFirst i) (hc1 : condLast i) :
    oLast c i arg2 harg2 arg3 harg3 arg4 harg4 arg5 harg5 arg6 harg6 arg7 harg7 hc0 hc1 x0 x1 x2 x3 xs = outStore x3 (scratchStep x3 x2 x0 x1 xs) := by
  unfold oLast
  unfold runLast
  dsimp only
  sl_unfold_words
  rw [View.canon_unit_zero (S := S1024x256) offsets_zero]
  simp only [View.readAt_eq_ld, harg2.read_unread, harg3.read_unread, harg4.read_unread, harg5.read_unread, harg7.read_unread,
    View.readCov_unit_zero (S := S1024x256) _ offsets_zero,
    View.ld_unit_zero (S := S1024x2048) offsets_zero, View.ld_unit_zero (S := S1x256) offsets_zero, View.ld_unit_zero (S := S1024x256) offsets_zero]
  rfl

end

theorem Bridge.index_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = t.val % 8 ∧ win3_2.index t (1 : Fin 2) = t.val / 8
    ∧ win3_3.index t (0 : Fin 2) = 0 ∧ win3_3.index t (1 : Fin 2) = t.val / 8 :=
  (by decide +kernel : ∀ t : Fin grid3.N, _)

theorem iblk0_apply (c : Dev nD) (t : Fin cfg3.N) (b : Fin 1024) (k : Fin 2048) :
    (iblk V c 0 t : Vec F S1024x2048 .bf16) (ix2 b k) = (V c main_v21 : Vec F S1024x2048 .bf16) (ix2 b k) := by
  obtain ⟨e0, e1, -⟩ := Bridge.index_facts t
  unfold iblk
  rw [View.read_apply]
  show V c main_v21 (((cfg3.win 0).blk t).view.emb (ix2 b k)) = V c main_v21 (ix2 b k)
  congr 1
  funext a; apply Fin.ext
  match a with
  | ⟨0, _⟩ => show win3_0.index t (0 : Fin 2) * 1024 + 1 * b.val = b.val; rw [e0]; omega
  | ⟨1, _⟩ => show win3_0.index t (1 : Fin 2) * 2048 + 1 * k.val = k.val; rw [e1]; omega
theorem iblk1_apply (c : Dev nD) (t : Fin cfg3.N) (b : Fin 1024) (k : Fin 2048) :
    (iblk V c 1 t : Vec F S1024x2048 .bf16) (ix2 b k) = (V c main_v24 : Vec F S1024x2048 .bf16) (ix2 b k) := by
  obtain ⟨-, -, e0, e1, -⟩ := Bridge.index_facts t
  unfold iblk
  rw [View.read_apply]
  show V c main_v24 (((cfg3.win 1).blk t).view.emb (ix2 b k)) = V c main_v24 (ix2 b k)
  congr 1
  funext a; apply Fin.ext
  match a with
  | ⟨0, _⟩ => show win3_1.index t (0 : Fin 2) * 1024 + 1 * b.val = b.val; rw [e0]; omega
  | ⟨1, _⟩ => show win3_1.index t (1 : Fin 2) * 2048 + 1 * k.val = k.val; rw [e1]; omega

theorem iblk2_apply (c : Dev nD) (t : Fin cfg3.N) (r : Fin 8) (n : Fin 256) :
    (iblk V c 2 t : Vec F S8x256 .i32) (ix2 r n)
      = (V c main_v25 : Vec F S64x4096 .i32) (ix2 ⟨8 * (t.val % 8) + r.val, by omega⟩ ⟨256 * (t.val / 8) + n.val, by have := t.isLt; have : cfg3.N = 128 := N_3; omega⟩) := by
  obtain ⟨-, -, -, -, e0, e1, -⟩ := Bridge.index_facts t
  unfold iblk
  rw [View.read_apply]
  show V c main_v25 (((cfg3.win 2).blk t).view.emb (ix2 r n)) = V c main_v25 _
  congr 1
  funext a; apply Fin.ext
  match a with
  | ⟨0, _⟩ => show win3_2.index t (0 : Fin 2) * 8 + 1 * r.val = 8 * (t.val % 8) + r.val; rw [e0]; omega
  | ⟨1, _⟩ => show win3_2.index t (1 : Fin 2) * 256 + 1 * n.val = 256 * (t.val / 8) + n.val; rw [e1]; omega

theorem iblk3_apply (c : Dev nD) (t : Fin cfg3.N) (n : Fin 256) :
    (iblk V c 3 t : Vec F S1x256 .i32) (ix2 0 n)
      = (V c main_v26 : Vec F S1x4096 .i32) (ix2 0 ⟨256 * (t.val / 8) + n.val, by have := t.isLt; have : cfg3.N = 128 := N_3; omega⟩) := by
  obtain ⟨-, -, -, -, -, -, e0, e1⟩ := Bridge.index_facts t
  unfold iblk
  rw [View.read_apply]
  show V c main_v26 (((cfg3.win 3).blk t).view.emb (ix2 0 n)) = V c main_v26 _
  congr 1
  funext a; apply Fin.ext
  match a with
  | ⟨0, _⟩ => show win3_3.index t (0 : Fin 2) * 1 + 1 * 0 = 0; rw [e0]
  | ⟨1, _⟩ => show win3_3.index t (1 : Fin 2) * 256 + 1 * n.val = 256 * (t.val / 8) + n.val; rw [e1]; omega

end Cert.KernelIdeal.R3

end
-- ==== Proof.KI.R3.StepMath.lean ====
import proofs.«423092_j11149735100496_3_alg».proof.Proof.KI.R3.Step
import Idealize.ShloMosaic.PureOps.IdealRules
import Idealize.ShloMosaic.Lib.IdealHost

noncomputable section

namespace Cert.KernelIdeal.R3

open Cert.KernelIdeal Cert.KernelIdeal.Gen
open Idealize.ShloMosaic Idealize.ShloMosaic.ValueIdx
open scoped BigOperators
open Cert.LayerMath

namespace StepMath

/-- The two operand indices at output (b, n) and contracted coordinate k are (b, k) and (k, n), coordinate by coordinate. -/
theorem matmul_zero_apply (A : FVec Ideal S1024x2048 .bf16) (B : FVec Ideal S2048x256 .bf16) (b : Fin 1024) (n : Fin 256) :
    matmul dot_S1024x2048_S2048x256_S1024x256_1_0_0_1_n_n none A B (constant S1024x256 .f32 0x00000000#32) (ix2 b n)
      = ∑ k : Fin 2048, A (ix2 b k) * B (ix2 k n) := by
  show FloatOps.matmul dot_S1024x2048_S2048x256_S1024x256_1_0_0_1_n_n none A B _ (ix2 b n) = _
  rw [Ideal.matmul_constant_zero_apply, ← Equiv.sum_comp (contrEquiv1 _ 2048 rfl rfl).symm]
  refine Finset.sum_congr rfl fun k _ => ?_
  congr 2 <;> funext ax <;> apply Fin.ext <;>
    match ax with
    | ⟨0, _⟩ => rfl
    | ⟨1, _⟩ => rfl

theorem rowBroadcast_apply {α : Type} (x : S1x256.Idx → α) (k : Fin 2048) (n : Fin 256) :
    broadcastTo S2048x256 x broadcasts_S1x256_S2048x256 (ix2 k n) = x (ix2 0 n) := by
  refine broadcastTo_apply x broadcasts_S1x256_S2048x256 (ix2 k n) (ix2 0 n) ?_
  intro a
  match a with
  | ⟨0, _⟩ => rfl
  | ⟨1, _⟩ => rfl

theorem batchBroadcast_apply {α : Type} (x : S1x256.Idx → α) (b : Fin 1024) (n : Fin 256) :
    broadcastTo S1024x256 x broadcasts_S1x256_S1024x256 (ix2 b n) = x (ix2 0 n) := by
  refine broadcastTo_apply x broadcasts_S1x256_S1024x256 (ix2 b n) (ix2 0 n) ?_
  intro a
  match a with
  | ⟨0, _⟩ => rfl
  | ⟨1, _⟩ => rfl

theorem rowIota_apply (k : Fin 2048) (n : Fin 256) :
    iota .tc S2048x256 32 [0] iota_S2048x256_d0_w32 (ix2 k n) = BitVec.ofNat 32 k.val :=
  iota_single_apply .tc S2048x256 32 0 iota_S2048x256_d0_w32 (ix2 k n)

def oneHot (sg : FVec Ideal S1x256 .bf16) (row : IVec S1x256 32) : FVec Ideal S2048x256 .bf16 :=
  select (cmpi .eq (iota .tc S2048x256 32 [0] iota_S2048x256_d0_w32) (broadcastTo S2048x256 row broadcasts_S1x256_S2048x256))
    (broadcastTo S2048x256 sg broadcasts_S1x256_S2048x256) (broadcast S2048x256 (Scalar.ofBits .bf16 0x0000#16))

theorem oneHot_apply (sg : FVec Ideal S1x256 .bf16) (row : IVec S1x256 32) (hrow : ∀ i, (row i).toNat < 2048)
    (k : Fin 2048) (n : Fin 256) :
    oneHot sg row (ix2 k n) = if k = Cert.Spec.feat 2048 (row (ix2 0 n)) then sg (ix2 0 n) else 0 := by
  unfold oneHot
  rw [select_apply, broadcast_apply]
  show Scalar.select (IntOp.cmpi .eq (iota .tc S2048x256 32 [0] iota_S2048x256_d0_w32 (ix2 k n))
    (broadcastTo S2048x256 row broadcasts_S1x256_S2048x256 (ix2 k n)))
    (broadcastTo S2048x256 sg broadcasts_S1x256_S2048x256 (ix2 k n)) (Ideal.ofBits .bf16 0x0000#16) = _
  rw [rowIota_apply, rowBroadcast_apply, rowBroadcast_apply, Ideal.ofBits_zero_bf16]
  by_cases h : k = Cert.Spec.feat 2048 (row (ix2 0 n))
  · rw [if_pos h]
    have e : BitVec.ofNat 32 k.val = row (ix2 0 n) := (word_eq_iff (by decide) k _ (hrow _)).mpr h
    rw [e]
    simp [IntOp.cmpi, Scalar.select]
  · rw [if_neg h]
    have e : ¬ BitVec.ofNat 32 k.val = row (ix2 0 n) := fun e => h ((word_eq_iff (by decide) k _ (hrow _)).mp e)
    have e' : (BitVec.ofNat 32 k.val == row (ix2 0 n)) = false := by simpa using e
    simp [IntOp.cmpi, Scalar.select, e']

theorem sum_oneHot (x : FVec Ideal S1024x2048 .bf16) (sg : FVec Ideal S1x256 .bf16) (row : IVec S1x256 32)
    (hrow : ∀ i, (row i).toNat < 2048) (b : Fin 1024) (n : Fin 256) :
    ∑ k : Fin 2048, x (ix2 b k) * oneHot sg row (ix2 k n)
      = x (ix2 b (Cert.Spec.feat 2048 (row (ix2 0 n)))) * sg (ix2 0 n) := by
  rw [Finset.sum_eq_single (Cert.Spec.feat 2048 (row (ix2 0 n)))]
  · rw [oneHot_apply sg row hrow, if_pos rfl]
  · intro k _ hk
    rw [oneHot_apply sg row hrow, if_neg hk]
    exact mul_zero _
  · intro h; exact absurd (Finset.mem_univ _) h

def rowStep (sg : FVec Ideal S1x256 .bf16) (row : IVec S1x256 32) (xh xl : FVec Ideal S1024x2048 .bf16)
    (s : FVec Ideal S1024x256 .f32) : FVec Ideal S1024x256 .f32 :=
  maximumf s (addf
    (matmul dot_S1024x2048_S2048x256_S1024x256_1_0_0_1_n_n none xh (oneHot sg row) (constant S1024x256 .f32 0x00000000#32))
    (matmul dot_S1024x2048_S2048x256_S1024x256_1_0_0_1_n_n none xl (oneHot sg row) (constant S1024x256 .f32 0x00000000#32)))

theorem rowStep_apply (sg : FVec Ideal S1x256 .bf16) (row : IVec S1x256 32) (xh xl : FVec Ideal S1024x2048 .bf16)
    (s : FVec Ideal S1024x256 .f32) (hxl : ∀ i, xl i = 0) (hrow : ∀ i, (row i).toNat < 2048) (b : Fin 1024) (n : Fin 256) :
    rowStep sg row xh xl s (ix2 b n)
      = s (ix2 b n) ⊔ xh (ix2 b (Cert.Spec.feat 2048 (row (ix2 0 n)))) * sg (ix2 0 n) := by
  unfold rowStep
  rw [maximumf_apply, addf_apply, matmul_zero_apply, matmul_zero_apply, sum_oneHot xh sg row hrow,
    sum_oneHot xl sg row hrow, hxl, zero_mul, add_zero]

theorem signF32_apply (op : Vec Ideal S1x256 .i32) (n : Fin 256) :
    k3_pay3 (F := Ideal) op (ix2 0 n) = sgn (op (ix2 0 n)) := by
  unfold k3_pay3
  rw [shapeCast_apply _ shapeCasts_S256_S1x256 (ix2 (0 : Fin 1) n) (ix1 n)
    (by rw [Shape.rowMajor_val_one, Shape.rowMajor_val_two]; show n.val = 0 * 256 + n.val; omega)]
  rw [select_apply, broadcast_apply, broadcast_apply]
  show Scalar.select (IntOp.cmpi .eq (shapeCast S256 op shapeCasts_S1x256_S256 (ix1 n)) (broadcast S256 0#32 (ix1 n)))
    (Ideal.ofBits .f32 0xBF800000#32) (Ideal.ofBits .f32 0x3F800000#32) = _
  rw [shapeCast_apply op shapeCasts_S1x256_S256 (ix1 n) (ix2 (0 : Fin 1) n)
    (by rw [Shape.rowMajor_val_one, Shape.rowMajor_val_two]; show 0 * 256 + n.val = n.val; omega), broadcast_apply]
  have hneg : Ideal.ofBits .f32 0xBF800000#32 = (-1 : EReal) := by
    rw [show (-1 : EReal) = ((-(1 : ℝ) : ℝ) : EReal) by rw [EReal.coe_neg, EReal.coe_one]]
    simp [Ideal.ofBits, Ideal.ieee, -EReal.coe_mul, -EReal.coe_neg]; norm_num
  rw [hneg, Ideal.ofBits_one_f32]
  unfold sgn
  by_cases h : op (ix2 0 n) = 0#32
  · rw [if_pos h, h]; rfl
  · rw [if_neg h]
    have e' : (op (ix2 0 n) == 0#32) = false := by simpa using h
    simp [IntOp.cmpi, Scalar.select, e']

theorem signBf16_apply (op : Vec Ideal S1x256 .i32) (n : Fin 256) :
    k3_pay4 (F := Ideal) op (ix2 0 n) = sgn (op (ix2 0 n)) := by
  unfold k3_pay4
  exact signF32_apply op n

theorem connRow_apply (cn : Vec Ideal S8x256 .i32) (r : Fin 8) (n : Fin 256) :
    connRow cn r (ix2 0 n) = cn (ix2 r n) := by
  fin_cases r <;>
  · show cn _ = cn _
    refine congrArg cn (funext fun a => Fin.ext ?_)
    match a with
    | ⟨0, _⟩ => rfl
    | ⟨1, _⟩ => show 0 + 1 * n.val = n.val; omega

theorem scratchStep_eq (op : Vec Ideal S1x256 .i32) (cn : Vec Ideal S8x256 .i32) (xh xl : Vec Ideal S1024x2048 .bf16)
    (s : Vec Ideal S1024x256 .f32) :
    scratchStep (F := Ideal) op cn xh xl s
      = rowStep (k3_pay4 op) (connRow cn 7) xh xl (rowStep (k3_pay4 op) (connRow cn 6) xh xl
          (rowStep (k3_pay4 op) (connRow cn 5) xh xl (rowStep (k3_pay4 op) (connRow cn 4) xh xl
            (rowStep (k3_pay4 op) (connRow cn 3) xh xl (rowStep (k3_pay4 op) (connRow cn 2) xh xl
              (rowStep (k3_pay4 op) (connRow cn 1) xh xl (rowStep (k3_pay4 op) (connRow cn 0) xh xl s))))))) := by
  unfold scratchStep k3_pay14 k3_pay13 k3_pay12 k3_pay11 k3_pay10 k3_pay9 k3_pay8 k3_pay7 k3_pay6 k3_pay5
  simp only [shapeCast_self, shapeCast_shapeCast]
  rfl

end StepMath

open StepMath

theorem reset_apply (i : S1024x256.Idx) : k3_pay2 (F := Ideal) i = (⊥ : EReal) := by
  unfold k3_pay2
  rw [shapeCast_self]
  exact IdealRules.named_const.ideal_named_scalar _ _ _ _ rfl

theorem scratchStep_apply (op : Vec Ideal S1x256 .i32) (cn : Vec Ideal S8x256 .i32) (xh xl : Vec Ideal S1024x2048 .bf16)
    (s : Vec Ideal S1024x256 .f32) (hxl : ∀ i, xl i = 0) (hcn : ∀ i, (cn i).toNat < 2048) (b : Fin 1024) (n : Fin 256) :
    scratchStep (F := Ideal) op cn xh xl s (ix2 b n)
      = s (ix2 b n) ⊔ ⨆ r : Fin 8, xh (ix2 b (Cert.Spec.feat 2048 (cn (ix2 r n)))) * sgn (op (ix2 0 n)) := by
  have hrow : ∀ r : Fin 8, ∀ i, (connRow cn r i).toNat < 2048 := by
    intro r i
    fin_cases r <;> exact hcn _
  rw [scratchStep_eq, iSup_fin8]
  rw [rowStep_apply _ _ xh xl _ hxl (hrow 7), rowStep_apply _ _ xh xl _ hxl (hrow 6), rowStep_apply _ _ xh xl _ hxl (hrow 5),
    rowStep_apply _ _ xh xl _ hxl (hrow 4), rowStep_apply _ _ xh xl _ hxl (hrow 3), rowStep_apply _ _ xh xl _ hxl (hrow 2),
    rowStep_apply _ _ xh xl _ hxl (hrow 1), rowStep_apply _ _ xh xl _ hxl (hrow 0)]
  simp only [connRow_apply, signBf16_apply, sup_assoc]

theorem outStore_apply (op : Vec Ideal S1x256 .i32) (s : Vec Ideal S1024x256 .f32) (b : Fin 1024) (n : Fin 256) :
    outStore (F := Ideal) op s (ix2 b n) = s (ix2 b n) * sgn (op (ix2 0 n)) := by
  unfold outStore k3_pay1
  rw [mulf_apply, batchBroadcast_apply, signF32_apply]

end Cert.KernelIdeal.R3

end
-- ==== Proof.KI.R3.Value.lean ====
import proofs.«423092_j11149735100496_3_alg».proof.Proof.KI.R3.Bridge
import proofs.«423092_j11149735100496_3_alg».proof.Proof.KI.R3.StepMath

noncomputable section

namespace Cert.KernelIdeal.R3

open Cert.KernelIdeal Cert.KernelIdeal.Gen
open Idealize.ShloMosaic Idealize.ShloMosaic.TcCoe
open Idealize.SL.Sem
open Idealize.ShloMosaic.Pipeline (Dat)
open Idealize.ShloMosaic.ValueIdx
open Cert.LayerMath

variable (V : (c : Dev nD) → (b : Ref sig .tc) → Buf (Elt Ideal) ((c : Thread nD τ).loc b))

namespace Value

abbrev xhArr (c : Dev nD) : Vec Ideal S1024x2048 .bf16 := V c main_v21

abbrev xlArr (c : Dev nD) : Vec Ideal S1024x2048 .bf16 := V c main_v24

abbrev cnArr (c : Dev nD) : Vec Ideal S64x4096 .i32 := V c main_v25

abbrev opArr (c : Dev nD) : Vec Ideal S1x4096 .i32 := V c main_v26
abbrev xhBlk (c : Dev nD) (t : Fin cfg3.N) : Vec Ideal S1024x2048 .bf16 := iblk V c 0 t
abbrev xlBlk (c : Dev nD) (t : Fin cfg3.N) : Vec Ideal S1024x2048 .bf16 := iblk V c 1 t
abbrev cnBlk (c : Dev nD) (t : Fin cfg3.N) : Vec Ideal S8x256 .i32 := iblk V c 2 t
abbrev opBlk (c : Dev nD) (t : Fin cfg3.N) : Vec Ideal S1x256 .i32 := iblk V c 3 t

def col (t : Fin cfg3.N) (n : Fin 256) : Fin 4096 :=
  ⟨256 * (t.val / 8) + n.val, by have := t.isLt; have : cfg3.N = 128 := N_3; omega⟩

def cand (t : Fin cfg3.N) (r : Fin 8) : Fin 64 := ⟨8 * (t.val % 8) + r.val, by omega⟩

theorem xhBlk_apply (c : Dev nD) (t : Fin cfg3.N) (b : Fin 1024) (k : Fin 2048) :
    xhBlk V c t (ix2 b k) = xhArr V c (ix2 b k) := iblk0_apply V c t b k
theorem xlBlk_apply (c : Dev nD) (t : Fin cfg3.N) (b : Fin 1024) (k : Fin 2048) :
    xlBlk V c t (ix2 b k) = xlArr V c (ix2 b k) := iblk1_apply V c t b k
theorem cnBlk_apply (c : Dev nD) (t : Fin cfg3.N) (r : Fin 8) (n : Fin 256) :
    cnBlk V c t (ix2 r n) = cnArr V c (ix2 (cand t r) (col t n)) := iblk2_apply V c t r n
theorem opBlk_apply (c : Dev nD) (t : Fin cfg3.N) (n : Fin 256) :
    opBlk V c t (ix2 0 n) = opArr V c (ix2 0 (col t n)) := iblk3_apply V c t n

theorem xlBlk_zero (c : Dev nD) (hxl : ∀ i, xlArr V c i = 0) (t : Fin cfg3.N) : ∀ i, xlBlk V c t i = 0 := by
  intro i
  obtain ⟨b, k, rfl⟩ : ∃ (b : Fin 1024) (k : Fin 2048), i = ix2 b k := ⟨i 0, i 1, eq_ix2 i⟩
  exact (xlBlk_apply V c t b k).trans (hxl _)

theorem cnBlk_lt (c : Dev nD) (hct : ∀ i, (cnArr V c i).toNat < 2048) (t : Fin cfg3.N) :
    ∀ i, (cnBlk V c t i).toNat < 2048 := by
  intro i
  obtain ⟨r, n, rfl⟩ : ∃ (r : Fin 8) (n : Fin 256), i = ix2 r n := ⟨i 0, i 1, eq_ix2 i⟩
  rw [cnBlk_apply]
  exact hct _

theorem scr_first (c : Dev nD) (t : Fin cfg3.N) (h0 : t.val % 8 = 0) :
    (outsAt V c t.val t.isLt).2 = scratchStep (opBlk V c t) (cnBlk V c t) (xhBlk V c t) (xlBlk V c t) (k3_pay2 (F := Ideal)) := by
  rw [outsAt_first V c t h0, stepAt, dif_pos h0]
  dsimp only
  exact sFirst_eq ..

theorem scr_next (c : Dev nD) (t : Fin cfg3.N) (h0 : ¬t.val % 8 = 0) :
    (outsAt V c t.val t.isLt).2
      = scratchStep (opBlk V c t) (cnBlk V c t) (xhBlk V c t) (xlBlk V c t)
          (outsAt V c (t.val - 1) (Nat.lt_of_le_of_lt (Nat.sub_le _ _) t.isLt)).2 := by
  rw [outsAt_next V c t h0, stepAt, dif_neg h0]
  by_cases h1 : t.val % 8 = 7
  · rw [dif_pos h1]
    dsimp only
    exact sLast_eq ..
  · rw [dif_neg h1]
    dsimp only
    exact sMid_eq ..

theorem out_last (c : Dev nD) (t : Fin cfg3.N) (h0 : ¬t.val % 8 = 0) (h1 : t.val % 8 = 7) :
    (outsAt V c t.val t.isLt).1 = outStore (opBlk V c t) (outsAt V c t.val t.isLt).2 := by
  rw [outsAt_next V c t h0, stepAt, dif_neg h0, dif_pos h1]
  dsimp only
  rw [oLast_eq, sLast_eq]

def sterm (c : Dev nD) (b : Fin 1024) (o : Fin 4096) (k : Fin 64) : EReal :=
  xhArr V c (ix2 b (Cert.Spec.feat 2048 (cnArr V c (ix2 k o)))) * sgn (opArr V c (ix2 0 o))

theorem step_apply (c : Dev nD) (hxl : ∀ i, xlArr V c i = 0) (hct : ∀ i, (cnArr V c i).toNat < 2048)
    (t : Fin cfg3.N) (s : Vec Ideal S1024x256 .f32) (b : Fin 1024) (n : Fin 256) :
    scratchStep (F := Ideal) (opBlk V c t) (cnBlk V c t) (xhBlk V c t) (xlBlk V c t) s (ix2 b n)
      = s (ix2 b n) ⊔ ⨆ r : Fin 8, sterm V c b (col t n) (cand t r) := by
  rw [scratchStep_apply (opBlk V c t) (cnBlk V c t) (xhBlk V c t) (xlBlk V c t) s (xlBlk_zero V c hxl t) (cnBlk_lt V c hct t) b n]
  refine congrArg (fun x => s (ix2 b n) ⊔ x) (iSup_congr fun r => ?_)
  unfold sterm
  rw [cnBlk_apply, xhBlk_apply, opBlk_apply]

theorem scr_apply_first (c : Dev nD) (hxl : ∀ i, xlArr V c i = 0) (hct : ∀ i, (cnArr V c i).toNat < 2048)
    (t : Fin cfg3.N) (h0 : t.val % 8 = 0) (b : Fin 1024) (n : Fin 256) :
    (outsAt V c t.val t.isLt).2 (ix2 b n)
      = ⨆ k : Fin 64, ⨆ (_ : k.val < 8 * (t.val % 8 + 1)), sterm V c b (col t n) k := by
  rw [scr_first V c t h0, step_apply V c hxl hct t (k3_pay2 (F := Ideal)) b n, reset_apply,
    iSup_lt_step (sterm V c b (col t n)) (t.val % 8) (cand t) (fun r => rfl),
    iSup_lt_zero (sterm V c b (col t n)) (8 * (t.val % 8)) (by omega)]

theorem scr_apply (c : Dev nD) (hxl : ∀ i, xlArr V c i = 0) (hct : ∀ i, (cnArr V c i).toNat < 2048) :
    ∀ (m : ℕ) (t : Fin cfg3.N), t.val = m → ∀ (b : Fin 1024) (n : Fin 256),
      (outsAt V c t.val t.isLt).2 (ix2 b n)
        = ⨆ k : Fin 64, ⨆ (_ : k.val < 8 * (t.val % 8 + 1)), sterm V c b (col t n) k := by
  intro m
  induction m with
  | zero =>
    intro t ht b n
    exact scr_apply_first V c hxl hct t (by omega) b n
  | succ m ih =>
    intro t ht b n
    by_cases h0 : t.val % 8 = 0
    · exact scr_apply_first V c hxl hct t h0 b n
    · have hlt : t.val - 1 < cfg3.N := Nat.lt_of_le_of_lt (Nat.sub_le _ _) t.isLt
      have ih' : (outsAt V c (t.val - 1) hlt).2 (ix2 b n)
          = ⨆ k : Fin 64, ⨆ (_ : k.val < 8 * ((t.val - 1) % 8 + 1)), sterm V c b (col ⟨t.val - 1, hlt⟩ n) k :=
        ih ⟨t.val - 1, hlt⟩ (by show t.val - 1 = m; omega) b n
      have e1 : col ⟨t.val - 1, hlt⟩ n = col t n :=
        Fin.ext (by show 256 * ((t.val - 1) / 8) + n.val = 256 * (t.val / 8) + n.val; omega)
      have e2 : (t.val - 1) % 8 + 1 = t.val % 8 := by omega
      rw [e1, e2] at ih'
      rw [scr_next V c t h0,
        step_apply V c hxl hct t (outsAt V c (t.val - 1) (Nat.lt_of_le_of_lt (Nat.sub_le _ _) t.isLt)).2 b n,
        iSup_lt_step (sterm V c b (col t n)) (t.val % 8) (cand t) (fun r => rfl)]
      exact congrArg (fun x => x ⊔ ⨆ r : Fin 8, sterm V c b (col t n) (cand t r)) ih'

def Gfun (c : Dev nD) (b : Fin 1024) (o : Fin 4096) : EReal :=
  Cert.Spec.pick (opArr V c (ix2 0 o) = 0#32)
    (fun k : Fin 64 => xhArr V c (ix2 b (Cert.Spec.feat 2048 (cnArr V c (ix2 k o)))))

theorem outBlock_apply (c : Dev nD) (hxl : ∀ i, xlArr V c i = 0) (hfin : ∀ i, ∃ r : ℝ, xhArr V c i = (r : EReal))
    (hct : ∀ i, (cnArr V c i).toNat < 2048) (t : Fin cfg3.N) (h1 : t.val % 8 = 7) (b : Fin 1024) (n : Fin 256) :
    (outsAt V c t.val t.isLt).1 (ix2 b n) = Gfun V c b (col t n) := by
  have h0 : ¬t.val % 8 = 0 := by omega
  rw [out_last V c t h0 h1, outStore_apply, scr_apply V c hxl hct t.val t rfl b n, opBlk_apply,
    iSup_lt_all (sterm V c b (col t n)) (8 * (t.val % 8 + 1)) (by omega)]
  unfold Gfun
  rw [← signed_sup (opArr V c (ix2 0 (col t n)))
    (fun k : Fin 64 => xhArr V c (ix2 b (Cert.Spec.feat 2048 (cnArr V c (ix2 k (col t n)))))) (fun k => hfin _), bot_sup_eq]
  rfl

def G (c : Dev nD) : Vec Ideal S1024x4096 .f32 := fun i => Gfun V c (i 0) (i 1)

theorem idx_facts4 : ∀ t : Fin cfg3.N, win3_4.index t (0 : Fin 2) = 0 ∧ win3_4.index t (1 : Fin 2) = t.val / 8 :=
  (by decide +kernel : ∀ t : Fin grid3.N, win3_4.index t (0 : Fin 2) = 0 ∧ win3_4.index t (1 : Fin 2) = t.val / 8)

theorem flushed4_eq (c : Dev nD) (hxl : ∀ i, xlArr V c i = 0) (hfin : ∀ i, ∃ r : ℝ, xhArr V c i = (r : EReal))
    (hct : ∀ i, (cnArr V c i).toNat < 2048) (t : Fin cfg3.N) (hf : (cfg3.win 4).flush t = true) :
    (dat (F := Ideal) V c).flushed 4 t = ((cfg3.win 4).blk t).view.read (Elt Ideal) (G V c) := by
  have h1 : t.val % 8 = 7 := (flush3_4 t).mp hf
  show (cfg3.win 4).cut (grid3.coords t) ((dat (F := Ideal) V c).after 4 t) = _
  rw [after_4]
  funext y
  obtain ⟨b, n, rfl⟩ : ∃ (b : Fin 1024) (n : Fin 256), y = ix2 b n := ⟨y 0, y 1, eq_ix2 y⟩
  show (outsAt V c t.val t.isLt).1 (ix2 b n) = G V c (((cfg3.win 4).blk t).view.emb (ix2 b n))
  rw [outBlock_apply V c hxl hfin hct t h1 b n]
  have he : ((cfg3.win 4).blk t).view.emb (ix2 b n) = ix2 b (col t n) := by
    obtain ⟨e0, e1⟩ := idx_facts4 t
    funext a; apply Fin.ext
    match a with
    | ⟨0, _⟩ => show win3_4.index t (0 : Fin 2) * 1024 + 1 * b.val = b.val; omega
    | ⟨1, _⟩ => show win3_4.index t (1 : Fin 2) * 256 + 1 * n.val = 256 * (t.val / 8) + n.val; omega
  rw [he]
  rfl

theorem mem_blk4 (t : Fin cfg3.N) (i : S1024x4096.Idx) :
    i ∈ ((cfg3.win 4).blk t).view.set ↔ ∀ a : Fin 2, win3_4.index t a * S1024x256.size a ≤ (i a).val
      ∧ (i a).val < win3_4.index t a * S1024x256.size a + S1024x256.size a := by
  show i ∈ ((View.whole main_v27).slice (win3_4.rect t)).set ↔ _
  rw [View.set_slice_whole, Rect.mem_set_unit]
  exact Iff.rfl

theorem cover4 (i : S1024x4096.Idx) :
    ∃ t : Fin cfg3.N, (cfg3.win 4).flush t = true ∧ i ∈ ((cfg3.win 4).blk t).view.set := by
  have hN : cfg3.N = 128 := N_3
  have hi0 : (i 0).val < 1024 := (i 0).isLt
  have hi1 : (i 1).val < 4096 := (i 1).isLt
  have htt : 8 * ((i 1).val / 256) + 7 < cfg3.N := by omega
  obtain ⟨e0, e1⟩ := idx_facts4 ⟨8 * ((i 1).val / 256) + 7, htt⟩
  have e1' : win3_4.index ⟨8 * ((i 1).val / 256) + 7, htt⟩ (1 : Fin 2) = (8 * ((i 1).val / 256) + 7) / 8 := e1
  refine ⟨⟨8 * ((i 1).val / 256) + 7, htt⟩, (flush3_4 _).mpr (by show (8 * ((i 1).val / 256) + 7) % 8 = 7; omega), ?_⟩
  rw [mem_blk4]
  intro a
  match a with
  | ⟨0, _⟩ =>
    show win3_4.index ⟨8 * ((i 1).val / 256) + 7, htt⟩ (0 : Fin 2) * 1024 ≤ (i 0).val
      ∧ (i 0).val < win3_4.index ⟨8 * ((i 1).val / 256) + 7, htt⟩ (0 : Fin 2) * 1024 + 1024
    omega
  | ⟨1, _⟩ =>
    show win3_4.index ⟨8 * ((i 1).val / 256) + 7, htt⟩ (1 : Fin 2) * 256 ≤ (i 1).val
      ∧ (i 1).val < win3_4.index ⟨8 * ((i 1).val / 256) + 7, htt⟩ (1 : Fin 2) * 256 + 256
    omega

theorem final4 (c : Dev nD) (hxl : ∀ i, xlArr V c i = 0) (hfin : ∀ i, ∃ r : ℝ, xhArr V c i = (r : EReal))
    (hct : ∀ i, (cnArr V c i).toNat < 2048) :
    (dat (F := Ideal) V c).arrAt 4 cfg3.N = G V c :=
  (dat (F := Ideal) V c).arrAt_eq_of_cover 4 (G V c) (fun t hf => flushed4_eq V c hxl hfin hct t hf) cover4

end Value

end Cert.KernelIdeal.R3

end
-- ==== Proof.KI.R3.Glue.lean ====
import proofs.«423092_j11149735100496_3_alg».proof.Proof.KI.Family
import proofs.«423092_j11149735100496_3_alg».proof.Proof.KI.Keep
import proofs.«423092_j11149735100496_3_alg».proof.Proof.KI.R3.Value
import Idealize.ShloMosaic.Lib.ValueLayout
import Idealize.ShloMosaic.Lib.StableHlo.Run
import Idealize.ShloMosaic.Lib.Tactic

noncomputable section

namespace Cert.KernelIdeal.Glue3

open Cert.KernelIdeal Cert.KernelIdeal.Gen
open Idealize.ShloMosaic Idealize.ShloMosaic.TcCoe Idealize.ShloMosaic.Tactic
open Idealize.ShloMosaic.ValueIdx
open Idealize.ShloMosaic.Pipeline (Dat)
open Cert.LayerMath

variable (m : (ℓ : Loc nD τ sig) → Buf (Elt Ideal) ℓ)

abbrev yArr (c : Dev nD) : FVec Ideal S1024x2048 .f32 := Fam.o6 m c
abbrev tbArr (c : Dev nD) : Vec Ideal S4096x64 .i32 := m ((c : Thread nD τ).loc main_arg4)
abbrev owArr (c : Dev nD) : Vec Ideal S4096 .i32 := m ((c : Thread nD τ).loc main_arg8)

abbrev Vin : (c : Dev nD) → (b : Ref sig .tc) → Buf (Elt Ideal) ((c : Thread nD τ).loc b) := Fam.rd (Fam.W7 m)

theorem in_y (c : Dev nD) : (Fam.W6 m c main_v20 : FVec Ideal S1024x2048 .f32) = yArr m c := by
  unfold Fam.W6
  exact Function.update_self ..

theorem in_tb (c : Dev nD) : (Fam.W6 m c main_arg4 : Vec Ideal S4096x64 .i32) = tbArr m c := by
  rw [Fam.keep6 m c main_arg4 (by decide)]

theorem in_ow (c : Dev nD) : (Fam.W6 m c main_arg8 : Vec Ideal S4096 .i32) = owArr m c := by
  rw [Fam.keep6 m c main_arg8 (by decide)]

theorem w_cn (c : Dev nD) :
    (Fam.W7 m c main_v25 : Vec Ideal S64x4096 .i32) = transpose S64x4096 [1, 0] (tbArr m c) transposes_S4096x64_S64x4096_1_0 := by
  unfold Fam.W7
  show StableHlo.after hostOps3 (Fam.W6 m c) (Proc.devRef .tc main_v25) = _
  after_results
  rw [in_tb]
  all_goals rfl

theorem w_op (c : Dev nD) :
    (Fam.W7 m c main_v26 : Vec Ideal S1x4096 .i32) = shapeCast S1x4096 (owArr m c) shapeCasts_S4096_S1x4096 := by
  unfold Fam.W7
  show StableHlo.after hostOps3 (Fam.W6 m c) (Proc.devRef .tc main_v26) = _
  after_results
  rw [in_ow]
  all_goals rfl

theorem xh_at (c : Dev nD) (i : S1024x2048.Idx) : R3.Value.xhArr (Vin m) c i = yArr m c i := by
  refine congrFun (?_ : (Fam.W7 m c main_v21 : FVec Ideal S1024x2048 .bf16) = yArr m c) i
  unfold Fam.W7
  show StableHlo.after hostOps3 (Fam.W6 m c) (Proc.devRef .tc main_v21) = _
  after_results
  rw [in_y]
  all_goals rfl

theorem xl_at (c : Dev nD) (i : S1024x2048.Idx) : R3.Value.xlArr (Vin m) c i = yArr m c i - yArr m c i := by
  refine congrFun (?_ : (Fam.W7 m c main_v24 : FVec Ideal S1024x2048 .bf16) = fun i => yArr m c i - yArr m c i) i
  unfold Fam.W7
  show StableHlo.after hostOps3 (Fam.W6 m c) (Proc.devRef .tc main_v24) = _
  after_results
  rw [in_y]
  all_goals rfl

theorem cn_at (c : Dev nD) (k : Fin 64) (o : Fin 4096) : R3.Value.cnArr (Vin m) c (ix2 k o) = tbArr m c (ix2 o k) := by
  show (Fam.W7 m c main_v25 : Vec Ideal S64x4096 .i32) (ix2 k o) = _
  rw [w_cn]; exact transpose_ix2_apply _ _ k o

theorem op_at (c : Dev nD) (o : Fin 4096) : R3.Value.opArr (Vin m) c (ix2 0 o) = owArr m c (ix1 o) := by
  show (Fam.W7 m c main_v26 : Vec Ideal S1x4096 .i32) (ix2 0 o) = _
  rw [w_op]
  refine shapeCast_apply _ _ _ _ ?_
  show (S4096.rowMajor (ix1 o)).val = (S1x4096.rowMajor (ix2 0 o)).val
  rw [Shape.rowMajor_val_one, Shape.rowMajor_val_two]
  show o.val = (0 : Fin 1).val * 4096 + o.val
  simp

theorem out_eq (c : Dev nD) (hx : Cert.Spec.Finite (Fam.o6 m c))
    (hconn : ∀ i, (m ((c : Thread nD τ).loc main_arg4) i).toNat < 2048) :
    Fam.o8 m c = Cert.Spec.layer (nin := 2048) (nout := 4096) (Fam.o6 m c)
      (m ((c : Thread nD τ).loc main_arg4)) (m ((c : Thread nD τ).loc main_arg8)) := by

  have hxl : ∀ i, R3.Value.xlArr (Vin m) c i = 0 := fun i => by
    rw [xl_at]
    obtain ⟨r, hr⟩ := hx i
    have hr' : yArr m c i = (r : EReal) := hr
    rw [hr', ← EReal.coe_sub, sub_self, EReal.coe_zero]

  have hfin : ∀ i, ∃ r : ℝ, R3.Value.xhArr (Vin m) c i = (r : EReal) := fun i => by
    obtain ⟨r, hr⟩ := hx i
    exact ⟨r, (xh_at m c i).trans hr⟩

  have hct : ∀ i, (R3.Value.cnArr (Vin m) c i).toNat < 2048 := fun i => by
    obtain ⟨k, o, rfl⟩ : ∃ (k : Fin 64) (o : Fin 4096), i = ix2 k o := ⟨i 0, i 1, eq_ix2 (n0 := 64) (n1 := 4096) i⟩
    rw [cn_at]
    exact hconn _
  funext i
  obtain ⟨b, o, rfl⟩ : ∃ (b : Fin 1024) (o : Fin 4096), i = ix2 b o := ⟨i 0, i 1, eq_ix2 (n0 := 1024) (n1 := 4096) i⟩
  show ((R3.dat (F := Ideal) (Vin m) c).arrAt 4 cfg3.N : Vec Ideal S1024x4096 .f32) (ix2 b o) = _
  rw [R3.Value.final4 (Vin m) c hxl hfin hct]
  unfold Cert.Spec.layer
  refine pick_congr ?_ fun k => ?_
  · rw [op_at]
  · rw [xh_at, cn_at]

end Cert.KernelIdeal.Glue3
end
-- ==== Proof.KI.Chain.lean ====
import proofs.«423092_j11149735100496_3_alg».proof.Proof.KI.R0.Glue
import proofs.«423092_j11149735100496_3_alg».proof.Proof.KI.R1.Glue
import proofs.«423092_j11149735100496_3_alg».proof.Proof.KI.R2.Glue
import proofs.«423092_j11149735100496_3_alg».proof.Proof.KI.R3.Glue

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ)

theorem outs_eq (c : Dev nD) (hx : Cert.Spec.Finite (m ((c : Thread nD τ).loc main_arg0)))
    (h1 : ∀ i, ((m ((c : Thread nD τ).loc main_arg1)) i).toNat < 4096) (h2 : ∀ i, ((m ((c : Thread nD τ).loc main_arg2)) i).toNat < 2048)
    (h3 : ∀ i, ((m ((c : Thread nD τ).loc main_arg3)) i).toNat < 1024) (h4 : ∀ i, ((m ((c : Thread nD τ).loc main_arg4)) i).toNat < 2048) :
    Fam.o2 m c = Cert.Spec.layer (nin := 4096) (nout := 2048) (m ((c : Thread nD τ).loc main_arg0)) (m ((c : Thread nD τ).loc main_arg1)) (m ((c : Thread nD τ).loc main_arg5))
    ∧ Fam.o4 m c = Cert.Spec.layer (nin := 2048) (nout := 1024) (Cert.Spec.layer (nin := 4096) (nout := 2048) (m ((c : Thread nD τ).loc main_arg0)) (m ((c : Thread nD τ).loc main_arg1)) (m ((c : Thread nD τ).loc main_arg5))) (m ((c : Thread nD τ).loc main_arg2)) (m ((c : Thread nD τ).loc main_arg6))
    ∧ Fam.o6 m c = Cert.Spec.layer (nin := 1024) (nout := 2048) (Cert.Spec.layer (nin := 2048) (nout := 1024) (Cert.Spec.layer (nin := 4096) (nout := 2048) (m ((c : Thread nD τ).loc main_arg0)) (m ((c : Thread nD τ).loc main_arg1)) (m ((c : Thread nD τ).loc main_arg5))) (m ((c : Thread nD τ).loc main_arg2)) (m ((c : Thread nD τ).loc main_arg6))) (m ((c : Thread nD τ).loc main_arg3)) (m ((c : Thread nD τ).loc main_arg7))
    ∧ Fam.o8 m c = Cert.Spec.layer (nin := 2048) (nout := 4096) (Cert.Spec.layer (nin := 1024) (nout := 2048) (Cert.Spec.layer (nin := 2048) (nout := 1024) (Cert.Spec.layer (nin := 4096) (nout := 2048) (m ((c : Thread nD τ).loc main_arg0)) (m ((c : Thread nD τ).loc main_arg1)) (m ((c : Thread nD τ).loc main_arg5))) (m ((c : Thread nD τ).loc main_arg2)) (m ((c : Thread nD τ).loc main_arg6))) (m ((c : Thread nD τ).loc main_arg3)) (m ((c : Thread nD τ).loc main_arg7))) (m ((c : Thread nD τ).loc main_arg4)) (m ((c : Thread nD τ).loc main_arg8)) := by
  have e0 := Glue0.out_eq m c hx h1
  have f0 : Cert.Spec.Finite (Fam.o2 m c) := by rw [e0]; exact Cert.Spec.layer_finite _ _ _ hx
  have e1 := Glue1.out_eq m c f0 h2
  have f1 : Cert.Spec.Finite (Fam.o4 m c) := by rw [e1]; exact Cert.Spec.layer_finite _ _ _ f0
  have e2 := Glue2.out_eq m c f1 h3
  have f2 : Cert.Spec.Finite (Fam.o6 m c) := by rw [e2]; exact Cert.Spec.layer_finite _ _ _ f1
  have e3 := Glue3.out_eq m c f2 h4
  rw [e0] at e1; rw [e1] at e2; rw [e2] at e3
  exact ⟨e0, e1, e2, e3⟩

end Cert.KernelIdeal.Chain

end
-- ==== Proof.Ref.Generated.lean ====
import proofs.«423092_j11149735100496_3_alg».proof.Proof.Ref.RunP
import proofs.«423092_j11149735100496_3_alg».proof.Proof.Ref.ReadP
-- ==== Proof.Ref.RunHand.lean ====
import proofs.«423092_j11149735100496_3_alg».proof.Proof.Ref.Generated
import proofs.«423092_j11149735100496_3_alg».proof.Proof.LibNary3
import Idealize.ShloMosaic.Lib.Pipeline.Frame

noncomputable section

namespace Cert.RefValue

open Cert.ReferenceIdeal Cert.ReferenceIdeal.Gen Cert.ReferenceIdeal.ValueP Cert.ReferenceIdeal.ReadP Idealize.ShloMosaic
  Idealize.ShloMosaic.TcCoe Idealize.SL.Sem Idealize.ShloMosaic.StableHlo

variable {F : FTy → Type} [FloatOps F]

def s0 : List (HloOp τ sig (Elt F)) := (ops (F := F)).take 19
def s1 : List (HloOp τ sig (Elt F)) := ((ops (F := F)).drop 19).take 19
def s2 : List (HloOp τ sig (Elt F)) := ((ops (F := F)).drop 38).take 19
def s3 : List (HloOp τ sig (Elt F)) := ((ops (F := F)).drop 57).take 19
def cat : List (HloOp τ sig (Elt F)) := (ops (F := F)).drop 76

theorem ops_split : (ops : List (HloOp τ sig (Elt F))) = s0 ++ s1 ++ s2 ++ s3 ++ cat := rfl

def stage1 (y : (⟨S1024x2048, .f32⟩ : BufTy).Contents (Elt F)) (x2 : (⟨S1024x64, .i32⟩ : BufTy).Contents (Elt F)) (x6 : (⟨S1024, .i32⟩ : BufTy).Contents (Elt F)) :
    (⟨S1024x1024, .f32⟩ : BufTy).Contents (Elt F) :=
  select (val_main_call1_v0 (F := F) x6)
    (Host.reduce (FloatOps.minimumf (F := F) (φ := .f32))
      (Host.gather gather_S1024x2048_S1024x64x1_S1024x1024x64_0_1_n_n_1_2_10241 y (val_main_v18 (F := F) x2))
      (val_main_cst_5 (F := F)) reducesTo_S1024x1024x64_S1024x1024_d2 h_S_)
    (Host.reduce (FloatOps.maximumf (F := F) (φ := .f32))
      (Host.gather gather_S1024x2048_S1024x64x1_S1024x1024x64_0_1_n_n_1_2_10241 y (val_main_v18 (F := F) x2))
      (val_main_cst_6 (F := F)) reducesTo_S1024x1024x64_S1024x1024_d2 h_S_)

def stage2 (y : (⟨S1024x1024, .f32⟩ : BufTy).Contents (Elt F)) (x3 : (⟨S2048x64, .i32⟩ : BufTy).Contents (Elt F)) (x7 : (⟨S2048, .i32⟩ : BufTy).Contents (Elt F)) :
    (⟨S1024x2048, .f32⟩ : BufTy).Contents (Elt F) :=
  select (val_main_call2_v0 (F := F) x7)
    (Host.reduce (FloatOps.minimumf (F := F) (φ := .f32))
      (Host.gather gather_S1024x1024_S2048x64x1_S1024x2048x64_0_1_n_n_1_2_10241 y (val_main_v31 (F := F) x3))
      (val_main_cst_10 (F := F)) reducesTo_S1024x2048x64_S1024x2048_d2 h_S_)
    (Host.reduce (FloatOps.maximumf (F := F) (φ := .f32))
      (Host.gather gather_S1024x1024_S2048x64x1_S1024x2048x64_0_1_n_n_1_2_10241 y (val_main_v31 (F := F) x3))
      (val_main_cst_11 (F := F)) reducesTo_S1024x2048x64_S1024x2048_d2 h_S_)

def stage3 (y : (⟨S1024x2048, .f32⟩ : BufTy).Contents (Elt F)) (x4 : (⟨S4096x64, .i32⟩ : BufTy).Contents (Elt F)) (x8 : (⟨S4096, .i32⟩ : BufTy).Contents (Elt F)) :
    (⟨S1024x4096, .f32⟩ : BufTy).Contents (Elt F) :=
  select (val_main_call3_v0 (F := F) x8)
    (Host.reduce (FloatOps.minimumf (F := F) (φ := .f32))
      (Host.gather gather_S1024x2048_S4096x64x1_S1024x4096x64_0_1_n_n_1_2_10241 y (val_main_v44 (F := F) x4))
      (val_main_cst_15 (F := F)) reducesTo_S1024x4096x64_S1024x4096_d2 h_S_)
    (Host.reduce (FloatOps.maximumf (F := F) (φ := .f32))
      (Host.gather gather_S1024x2048_S4096x64x1_S1024x4096x64_0_1_n_n_1_2_10241 y (val_main_v44 (F := F) x4))
      (val_main_cst_16 (F := F)) reducesTo_S1024x4096x64_S1024x4096_d2 h_S_)

section Stages
variable (x0 : (⟨S1024x4096, .f32⟩ : BufTy).Contents (Elt F))
  (x1 : (⟨S2048x64, .i32⟩ : BufTy).Contents (Elt F)) (x2 : (⟨S1024x64, .i32⟩ : BufTy).Contents (Elt F))
  (x3 : (⟨S2048x64, .i32⟩ : BufTy).Contents (Elt F)) (x4 : (⟨S4096x64, .i32⟩ : BufTy).Contents (Elt F))
  (x5 : (⟨S2048, .i32⟩ : BufTy).Contents (Elt F)) (x6 : (⟨S1024, .i32⟩ : BufTy).Contents (Elt F))
  (x7 : (⟨S2048, .i32⟩ : BufTy).Contents (Elt F)) (x8 : (⟨S4096, .i32⟩ : BufTy).Contents (Elt F))

theorem val25_eq : val_main_v25 (F := F) x0 x1 x2 x5 x6 = stage1 (val_main_v12 (F := F) x0 x1 x5) x2 x6 := rfl
theorem val38_eq : val_main_v38 (F := F) x0 x1 x2 x3 x5 x6 x7 = stage2 (val_main_v25 (F := F) x0 x1 x2 x5 x6) x3 x7 := rfl
theorem val51_eq :
    val_main_v51 (F := F) x0 x1 x2 x3 x4 x5 x6 x7 x8 = stage3 (val_main_v38 (F := F) x0 x1 x2 x3 x5 x6 x7) x4 x8 := rfl

end Stages

theorem where0 (m : (⟨S1x2048, .i1⟩ : BufTy).Contents (Elt F)) (a b : (⟨S1024x2048, .f32⟩ : BufTy).Contents (Elt F)) :
    (TRef.of (sig := sig) (T := ⟨S1024x2048, .f32⟩) main_v12).toBuf (Val := Elt F)
        (select
          ((TRef.of (sig := sig) (T := ⟨S1024x2048, .i1⟩) main_call0_v0).ofBuf (Val := Elt F)
            ((TRef.of (sig := sig) (T := ⟨S1024x2048, .i1⟩) main_call0_v0).toBuf (Val := Elt F)
              (broadcastInDim S1024x2048 ![0, 1] bcast_S1x2048_S1024x2048_0_1
                ((TRef.of (sig := sig) (T := ⟨S1x2048, .i1⟩) main_v11).ofBuf (Val := Elt F) m))))
          ((TRef.of (sig := sig) (T := ⟨S1024x2048, .f32⟩) main_v7).ofBuf (Val := Elt F) a)
          ((TRef.of (sig := sig) (T := ⟨S1024x2048, .f32⟩) main_v8).ofBuf (Val := Elt F) b))
      = select (broadcastInDim S1024x2048 ![0, 1] bcast_S1x2048_S1024x2048_0_1 m) a b := rfl

theorem where1 (m : (⟨S1x1024, .i1⟩ : BufTy).Contents (Elt F)) (a b : (⟨S1024x1024, .f32⟩ : BufTy).Contents (Elt F)) :
    (TRef.of (sig := sig) (T := ⟨S1024x1024, .f32⟩) main_v25).toBuf (Val := Elt F)
        (select
          ((TRef.of (sig := sig) (T := ⟨S1024x1024, .i1⟩) main_call1_v0).ofBuf (Val := Elt F)
            ((TRef.of (sig := sig) (T := ⟨S1024x1024, .i1⟩) main_call1_v0).toBuf (Val := Elt F)
              (broadcastInDim S1024x1024 ![0, 1] bcast_S1x1024_S1024x1024_0_1
                ((TRef.of (sig := sig) (T := ⟨S1x1024, .i1⟩) main_v24).ofBuf (Val := Elt F) m))))
          ((TRef.of (sig := sig) (T := ⟨S1024x1024, .f32⟩) main_v20).ofBuf (Val := Elt F) a)
          ((TRef.of (sig := sig) (T := ⟨S1024x1024, .f32⟩) main_v21).ofBuf (Val := Elt F) b))
      = select (broadcastInDim S1024x1024 ![0, 1] bcast_S1x1024_S1024x1024_0_1 m) a b := rfl

theorem where2 (m : (⟨S1x2048, .i1⟩ : BufTy).Contents (Elt F)) (a b : (⟨S1024x2048, .f32⟩ : BufTy).Contents (Elt F)) :
    (TRef.of (sig := sig) (T := ⟨S1024x2048, .f32⟩) main_v38).toBuf (Val := Elt F)
        (select
          ((TRef.of (sig := sig) (T := ⟨S1024x2048, .i1⟩) main_call2_v0).ofBuf (Val := Elt F)
            ((TRef.of (sig := sig) (T := ⟨S1024x2048, .i1⟩) main_call2_v0).toBuf (Val := Elt F)
              (broadcastInDim S1024x2048 ![0, 1] bcast_S1x2048_S1024x2048_0_1
                ((TRef.of (sig := sig) (T := ⟨S1x2048, .i1⟩) main_v37).ofBuf (Val := Elt F) m))))
          ((TRef.of (sig := sig) (T := ⟨S1024x2048, .f32⟩) main_v33).ofBuf (Val := Elt F) a)
          ((TRef.of (sig := sig) (T := ⟨S1024x2048, .f32⟩) main_v34).ofBuf (Val := Elt F) b))
      = select (broadcastInDim S1024x2048 ![0, 1] bcast_S1x2048_S1024x2048_0_1 m) a b := rfl

theorem where3 (m : (⟨S1x4096, .i1⟩ : BufTy).Contents (Elt F)) (a b : (⟨S1024x4096, .f32⟩ : BufTy).Contents (Elt F)) :
    (TRef.of (sig := sig) (T := ⟨S1024x4096, .f32⟩) main_v51).toBuf (Val := Elt F)
        (select
          ((TRef.of (sig := sig) (T := ⟨S1024x4096, .i1⟩) main_call3_v0).ofBuf (Val := Elt F)
            ((TRef.of (sig := sig) (T := ⟨S1024x4096, .i1⟩) main_call3_v0).toBuf (Val := Elt F)
              (broadcastInDim S1024x4096 ![0, 1] bcast_S1x4096_S1024x4096_0_1
                ((TRef.of (sig := sig) (T := ⟨S1x4096, .i1⟩) main_v50).ofBuf (Val := Elt F) m))))
          ((TRef.of (sig := sig) (T := ⟨S1024x4096, .f32⟩) main_v46).ofBuf (Val := Elt F) a)
          ((TRef.of (sig := sig) (T := ⟨S1024x4096, .f32⟩) main_v47).ofBuf (Val := Elt F) b))
      = select (broadcastInDim S1024x4096 ![0, 1] bcast_S1x4096_S1024x4096_0_1 m) a b := rfl

theorem s0_out (W : Valuation τ sig (Elt F)) :
    after s0 W (Proc.devRef .tc main_v12)
      = val_main_v12 (F := F) (W (Proc.devRef .tc main_arg0)) (W (Proc.devRef .tc main_arg1)) (W (Proc.devRef .tc main_arg5)) := by
  unfold s0
  simp only [ops, List.take_succ_cons, List.take_zero]
  after_results_simp
  refine (where0 _ _ _).trans ?_
  rfl

theorem s1_out (W : Valuation τ sig (Elt F)) :
    after s1 W (Proc.devRef .tc main_v25)
      = stage1 (F := F) (W (Proc.devRef .tc main_v12)) (W (Proc.devRef .tc main_arg2)) (W (Proc.devRef .tc main_arg6)) := by
  unfold s1
  simp only [ops, List.drop_succ_cons, List.drop_zero, List.take_succ_cons, List.take_zero]
  after_results_simp
  refine (where1 _ _ _).trans ?_
  rfl

theorem s2_out (W : Valuation τ sig (Elt F)) :
    after s2 W (Proc.devRef .tc main_v38)
      = stage2 (F := F) (W (Proc.devRef .tc main_v25)) (W (Proc.devRef .tc main_arg3)) (W (Proc.devRef .tc main_arg7)) := by
  unfold s2
  simp only [ops, List.drop_succ_cons, List.drop_zero, List.take_succ_cons, List.take_zero]
  after_results_simp
  refine (where2 _ _ _).trans ?_
  rfl

theorem s3_out (W : Valuation τ sig (Elt F)) :
    after s3 W (Proc.devRef .tc main_v51)
      = stage3 (F := F) (W (Proc.devRef .tc main_v38)) (W (Proc.devRef .tc main_arg4)) (W (Proc.devRef .tc main_arg8)) := by
  unfold s3
  simp only [ops, List.drop_succ_cons, List.drop_zero, List.take_succ_cons, List.take_zero]
  after_results_simp
  refine (where3 _ _ _).trans ?_
  rfl

theorem cat_out (W : Valuation τ sig (Elt F)) :
    after cat W (Proc.devRef .tc main_v52)
      = concatenate S1024x5120 1
          [⟨S1024x2048, W (Proc.devRef .tc main_v12)⟩, ⟨S1024x1024, W (Proc.devRef .tc main_v25)⟩,
           ⟨S1024x2048, W (Proc.devRef .tc main_v38)⟩]
          concatenates_S1024x2048_S1024x1024_S1024x2048_S1024x5120_d1 := by
  unfold cat
  simp only [ops, List.drop_succ_cons, List.drop_zero]
  rw [after_cons, after_nil, nary3_result]
  rfl

abbrev s0_W : List (Ref sig .tc) :=
  [main_c, main_v0, main_v1, main_c_0, main_v2, main_v3, main_v4, main_v5, main_v6, main_cst, main_v7, main_cst_1, main_v8,
    main_v9, main_c_2, main_v10, main_v11, main_call0_v0, main_v12]

theorem s0_writes : (s0 : List (HloOp τ sig (Elt F))).Forall fun op =>
    op.writes ⊆ (s0_W.map (Proc.devRef (τ := τ) .tc)).toFinset := by
  unfold s0
  simp only [ops, List.take_succ_cons, List.take_zero, List.Forall]
  repeat' apply And.intro
  all_goals
    simp only [nullary_writes, unary_writes, binary_writes, ternary_writes, Finset.singleton_subset_iff, List.mem_toFinset]
    exact List.mem_map_of_mem (by decide)

theorem s0_frame (W : Valuation τ sig (Elt F)) {r : Ref sig .tc} (h : r ∉ s0_W) :
    after s0 W (Proc.devRef .tc r) = W (Proc.devRef .tc r) :=
  after_of_writes_sub s0 W s0_writes h

abbrev s1_W : List (Ref sig .tc) :=
  [main_c_3, main_v13, main_v14, main_c_4, main_v15, main_v16, main_v17, main_v18, main_v19, main_cst_5, main_v20, main_cst_6,
    main_v21, main_v22, main_c_7, main_v23, main_v24, main_call1_v0, main_v25]

theorem s1_writes : (s1 : List (HloOp τ sig (Elt F))).Forall fun op =>
    op.writes ⊆ (s1_W.map (Proc.devRef (τ := τ) .tc)).toFinset := by
  unfold s1
  simp only [ops, List.drop_succ_cons, List.drop_zero, List.take_succ_cons, List.take_zero, List.Forall]
  repeat' apply And.intro
  all_goals
    simp only [nullary_writes, unary_writes, binary_writes, ternary_writes, Finset.singleton_subset_iff, List.mem_toFinset]
    exact List.mem_map_of_mem (by decide)

theorem s1_frame (W : Valuation τ sig (Elt F)) {r : Ref sig .tc} (h : r ∉ s1_W) :
    after s1 W (Proc.devRef .tc r) = W (Proc.devRef .tc r) :=
  after_of_writes_sub s1 W s1_writes h

abbrev s2_W : List (Ref sig .tc) :=
  [main_c_8, main_v26, main_v27, main_c_9, main_v28, main_v29, main_v30, main_v31, main_v32, main_cst_10, main_v33, main_cst_11,
    main_v34, main_v35, main_c_12, main_v36, main_v37, main_call2_v0, main_v38]

theorem s2_writes : (s2 : List (HloOp τ sig (Elt F))).Forall fun op =>
    op.writes ⊆ (s2_W.map (Proc.devRef (τ := τ) .tc)).toFinset := by
  unfold s2
  simp only [ops, List.drop_succ_cons, List.drop_zero, List.take_succ_cons, List.take_zero, List.Forall]
  repeat' apply And.intro
  all_goals
    simp only [nullary_writes, unary_writes, binary_writes, ternary_writes, Finset.singleton_subset_iff, List.mem_toFinset]
    exact List.mem_map_of_mem (by decide)

theorem s2_frame (W : Valuation τ sig (Elt F)) {r : Ref sig .tc} (h : r ∉ s2_W) :
    after s2 W (Proc.devRef .tc r) = W (Proc.devRef .tc r) :=
  after_of_writes_sub s2 W s2_writes h

abbrev s3_W : List (Ref sig .tc) :=
  [main_c_13, main_v39, main_v40, main_c_14, main_v41, main_v42, main_v43, main_v44, main_v45, main_cst_15, main_v46, main_cst_16,
    main_v47, main_v48, main_c_17, main_v49, main_v50, main_call3_v0, main_v51]

theorem s3_writes : (s3 : List (HloOp τ sig (Elt F))).Forall fun op =>
    op.writes ⊆ (s3_W.map (Proc.devRef (τ := τ) .tc)).toFinset := by
  unfold s3
  simp only [ops, List.drop_succ_cons, List.drop_zero, List.take_succ_cons, List.take_zero, List.Forall]
  repeat' apply And.intro
  all_goals
    simp only [nullary_writes, unary_writes, binary_writes, ternary_writes, Finset.singleton_subset_iff, List.mem_toFinset]
    exact List.mem_map_of_mem (by decide)

theorem s3_frame (W : Valuation τ sig (Elt F)) {r : Ref sig .tc} (h : r ∉ s3_W) :
    after s3 W (Proc.devRef .tc r) = W (Proc.devRef .tc r) :=
  after_of_writes_sub s3 W s3_writes h

abbrev cat_W : List (Ref sig .tc) := [main_v52]

theorem cat_writes : (cat : List (HloOp τ sig (Elt F))).Forall fun op =>
    op.writes ⊆ (cat_W.map (Proc.devRef (τ := τ) .tc)).toFinset := by
  unfold cat
  simp only [ops, List.drop_succ_cons, List.drop_zero, List.Forall]
  simp only [nary_writes, Finset.singleton_subset_iff, List.mem_toFinset]
  exact List.mem_map_of_mem (by decide)

theorem cat_frame (W : Valuation τ sig (Elt F)) {r : Ref sig .tc} (h : r ∉ cat_W) :
    after cat W (Proc.devRef .tc r) = W (Proc.devRef .tc r) :=
  after_of_writes_sub cat W cat_writes h

theorem after_ops (W : Valuation τ sig (Elt F)) :
    after ops W = after cat (after s3 (after s2 (after s1 (after s0 W)))) := by
  rw [ops_split, StableHlo.after_append, StableHlo.after_append, StableHlo.after_append, StableHlo.after_append]

theorem ops_frame (W : Valuation τ sig (Elt F)) {r : Ref sig .tc} (h0 : r ∉ s0_W) (h1 : r ∉ s1_W) (h2 : r ∉ s2_W)
    (h3 : r ∉ s3_W) (h4 : r ∉ cat_W) : after ops W (Proc.devRef .tc r) = W (Proc.devRef .tc r) := by
  rw [after_ops, cat_frame _ h4, s3_frame _ h3, s2_frame _ h2, s1_frame _ h1, s0_frame _ h0]

theorem upto1_v25 (W : Valuation τ sig (Elt F)) :
    after s1 (after s0 W) (Proc.devRef .tc main_v25)
      = val_main_v25 (F := F) (W (Proc.devRef .tc main_arg0)) (W (Proc.devRef .tc main_arg1)) (W (Proc.devRef .tc main_arg2))
          (W (Proc.devRef .tc main_arg5)) (W (Proc.devRef .tc main_arg6)) := by
  rw [s1_out, s0_out, s0_frame W (r := main_arg2) (by decide), s0_frame W (r := main_arg6) (by decide), val25_eq]

theorem upto2_v38 (W : Valuation τ sig (Elt F)) :
    after s2 (after s1 (after s0 W)) (Proc.devRef .tc main_v38)
      = val_main_v38 (F := F) (W (Proc.devRef .tc main_arg0)) (W (Proc.devRef .tc main_arg1)) (W (Proc.devRef .tc main_arg2))
          (W (Proc.devRef .tc main_arg3)) (W (Proc.devRef .tc main_arg5)) (W (Proc.devRef .tc main_arg6))
          (W (Proc.devRef .tc main_arg7)) := by
  rw [s2_out, upto1_v25,
    s1_frame _ (r := main_arg3) (by decide), s0_frame W (r := main_arg3) (by decide),
    s1_frame _ (r := main_arg7) (by decide), s0_frame W (r := main_arg7) (by decide), val38_eq]

theorem after_ops_v51 (W : Valuation τ sig (Elt F)) :
    after ops W (Proc.devRef .tc main_v51)
      = val_main_v51 (F := F) (W (Proc.devRef .tc main_arg0)) (W (Proc.devRef .tc main_arg1)) (W (Proc.devRef .tc main_arg2))
          (W (Proc.devRef .tc main_arg3)) (W (Proc.devRef .tc main_arg4)) (W (Proc.devRef .tc main_arg5))
          (W (Proc.devRef .tc main_arg6)) (W (Proc.devRef .tc main_arg7)) (W (Proc.devRef .tc main_arg8)) := by
  rw [after_ops, cat_frame _ (r := main_v51) (by decide), s3_out, upto2_v38,
    s2_frame _ (r := main_arg4) (by decide), s1_frame _ (r := main_arg4) (by decide), s0_frame W (r := main_arg4) (by decide),
    s2_frame _ (r := main_arg8) (by decide), s1_frame _ (r := main_arg8) (by decide), s0_frame W (r := main_arg8) (by decide),
    val51_eq]

theorem after_ops_v52 (W : Valuation τ sig (Elt F)) :
    after ops W (Proc.devRef .tc main_v52)
      = val_main_v52 (F := F) (W (Proc.devRef .tc main_arg0)) (W (Proc.devRef .tc main_arg1)) (W (Proc.devRef .tc main_arg2))
          (W (Proc.devRef .tc main_arg3)) (W (Proc.devRef .tc main_arg5)) (W (Proc.devRef .tc main_arg6))
          (W (Proc.devRef .tc main_arg7)) := by
  rw [after_ops, cat_out,
    s3_frame _ (r := main_v38) (by decide), upto2_v38,
    s3_frame _ (r := main_v25) (by decide), s2_frame _ (r := main_v25) (by decide), upto1_v25,
    s3_frame _ (r := main_v12) (by decide), s2_frame _ (r := main_v12) (by decide), s1_frame _ (r := main_v12) (by decide),
    s0_out]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
          = val_main_v51 (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8))
      ∧ r.2.mem ((c.tc : Thread nD τ).loc main_v52)
          = val_main_v52 (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg5)) (m ((c.tc : Thread nD τ).loc main_arg6))
              (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v51).trans (after_ops_v51 _), (h c main_v52).trans (after_ops_v52 _),
      (h c main_arg0).trans (ops_frame _ (by decide) (by decide) (by decide) (by decide) (by decide)),
      (h c main_arg1).trans (ops_frame _ (by decide) (by decide) (by decide) (by decide) (by decide)),
      (h c main_arg2).trans (ops_frame _ (by decide) (by decide) (by decide) (by decide) (by decide)),
      (h c main_arg3).trans (ops_frame _ (by decide) (by decide) (by decide) (by decide) (by decide)),
      (h c main_arg4).trans (ops_frame _ (by decide) (by decide) (by decide) (by decide) (by decide)),
      (h c main_arg5).trans (ops_frame _ (by decide) (by decide) (by decide) (by decide) (by decide)),
      (h c main_arg6).trans (ops_frame _ (by decide) (by decide) (by decide) (by decide) (by decide)),
      (h c main_arg7).trans (ops_frame _ (by decide) (by decide) (by decide) (by decide) (by decide)),
      (h c main_arg8).trans (ops_frame _ (by decide) (by decide) (by decide) (by decide) (by decide))⟩)
    (run_seq scopedRefs_eq scopedSems_eq defs main (fun _ => ops) main_eq (fun _ => ops_sub) m ρ)

end Cert.RefValue

end
-- ==== Proof.Ref.Core.lean ====
import proofs.«423092_j11149735100496_3_alg».proof.Proof.Spec
import Idealize.ShloMosaic.PureOps.Ideal.Laws
import Idealize.ShloMosaic.PureOps.Reduce
import Idealize.ShloMosaic.Lib.ValueIdx
import Mathlib.Data.Finset.Fold
import Mathlib.Order.CompleteLattice.Basic

noncomputable section

namespace Cert.RefValue

open Idealize.ShloMosaic Idealize.ShloMosaic.ValueIdx

theorem toInt_toNat_of_lt (w : BitVec 32) (h : w.toNat < 2 ^ 31) : w.toInt.toNat = w.toNat := by
  rw [BitVec.toInt_eq_toNat_cond]
  split
  · simp
  · omega

theorem slt_zero_of_lt (w : BitVec 32) (h : w.toNat < 2 ^ 31) : IntOp.cmpi .slt w 0#32 = 0#1 := by
  unfold IntOp.cmpi
  have : w.slt 0#32 = false := by
    unfold BitVec.slt
    rw [BitVec.toInt_eq_toNat_cond]
    simp
    omega
  simp [this]

theorem wrap_eq (w K : BitVec 32) (h : w.toNat < 2 ^ 31) :
    Scalar.select (IntOp.cmpi .slt w 0#32) (IntOp.addi w K) w = w := by
  rw [slt_zero_of_lt w h, select_zero]

theorem feat_val (N : ℕ) [NeZero N] (w : BitVec 32) (h : w.toNat < N) : (Cert.Spec.feat N w).val = w.toNat := by
  unfold Cert.Spec.feat
  simp [Fin.ofNat, Nat.mod_eq_of_lt h]

section Gather
variable {α : Type}

abbrev layerDims (N M : Nat)
    (wf : GatherDims.WF ⟨2, ![1024, N]⟩ ⟨3, ![M, 64, 1]⟩ ⟨3, ![1024, M, 64]⟩ [0] [1] [] [1] [] 2 ![1024, 1]) :
    GatherDims ⟨2, ![1024, N]⟩ ⟨3, ![M, 64, 1]⟩ ⟨3, ![1024, M, 64]⟩ where
  offsetDims := [0]
  collapsedSliceDims := [1]
  operandBatchingDims := []
  startIndicesBatchingDims := []
  startIndexMap := [1]
  indexVectorDim := 2
  sliceSizes := ![1024, 1]
  wf := wf

theorem gather_layer_apply {N M w : Nat} (hN : 0 < N)
    (wf : GatherDims.WF ⟨2, ![1024, N]⟩ ⟨3, ![M, 64, 1]⟩ ⟨3, ![1024, M, 64]⟩ [0] [1] [] [1] [] 2 ![1024, 1])
    (y : (⟨2, ![1024, N]⟩ : Shape).Idx → α) (idx : IVec ⟨3, ![M, 64, 1]⟩ w) (b : Fin 1024) (o : Fin M) (c : Fin 64) :
    Host.gather (layerDims N M wf) y idx (ix3 b o c)
      = y (ix2 b ⟨min (idx (ix3 o c (0 : Fin 1))).toInt.toNat (N - 1), by omega⟩) := by
  unfold Host.gather
  congr 1
  funext a
  refine Fin.ext ?_
  match a with
  | ⟨0, _⟩ =>
    show (layerDims N M wf).start (ix3 b o c) idx 0 + (layerDims N M wf).batchCoord (ix3 b o c) 0
      + (layerDims N M wf).offCoord (ix3 b o c) 0 = b.val
    have hs : (layerDims N M wf).start (ix3 b o c) idx 0 = 0 := by
      unfold GatherDims.start
      rw [dif_neg (show (0 : Fin 2) ∉ ([1] : List (Fin 2)) by decide)]
    rw [hs, GatherDims.batchCoord_eq_zero _ _ _ List.not_mem_nil]
    unfold GatherDims.offCoord
    rw [dif_pos ((GatherDims.mem_sKept _ _).mpr ⟨show (0 : Fin 2) ∉ ([1] : List (Fin 2)) by decide, List.not_mem_nil⟩)]
    rw [Nat.zero_add]
    rfl
  | ⟨1, _⟩ =>
    show (layerDims N M wf).start (ix3 b o c) idx 1 + (layerDims N M wf).batchCoord (ix3 b o c) 1
      + (layerDims N M wf).offCoord (ix3 b o c) 1 = min (idx (ix3 o c (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (layerDims N M wf).startIndexMap from List.mem_singleton.mpr rfl)]
    have hsi : (layerDims N M wf).siIdx (ix3 b o c) ⟨List.idxOf (1 : Fin 2) (layerDims N M wf).startIndexMap,
        List.idxOf_lt_length_iff.2 (List.mem_singleton.mpr rfl)⟩ = ix3 o c (0 : Fin 1) := by
      funext k; refine Fin.ext ?_
      match k with
      | ⟨0, _⟩ => rfl
      | ⟨1, _⟩ => rfl
      | ⟨2, _⟩ => rfl
    rw [hsi]
    rfl

end Gather

section Reduce

theorem fold_min_top {ι : Type} [Fintype ι] (f : ι → EReal) :
    (Finset.univ : Finset ι).fold min ⊤ f = ⨅ c, f c := by
  apply le_antisymm
  · exact le_iInf fun c => (Finset.fold_min_le (f c)).2 (Or.inr ⟨c, Finset.mem_univ c, le_rfl⟩)
  · exact (Finset.le_fold_min _).2 ⟨le_top, fun c _ => iInf_le f c⟩

theorem fold_max_bot {ι : Type} [Fintype ι] (f : ι → EReal) :
    (Finset.univ : Finset ι).fold max ⊥ f = ⨆ c, f c := by
  apply le_antisymm
  · exact (Finset.fold_max_le _).2 ⟨bot_le, fun c _ => le_iSup f c⟩
  · exact iSup_le fun c => (Finset.le_fold_max (f c)).2 (Or.inr ⟨c, Finset.mem_univ c, le_rfl⟩)

theorem lift_ix3 {B M C : Nat} (h : (⟨3, ![B, M, C]⟩ : Shape).Reduces [2] (⟨2, ![B, M]⟩ : Shape)) (b : Fin B) (o : Fin M)
    (k : Fin ((⟨3, ![B, M, C]⟩ : Shape).size 2)) : h.lift (ix2 b o) k = ix3 b o (⟨k.val, k.isLt⟩ : Fin C) := by
  funext a; apply Fin.ext
  match a with
  | ⟨0, _⟩ => rfl
  | ⟨1, _⟩ => rfl
  | ⟨2, _⟩ => rfl

theorem reduce_min_apply {B M C : Nat} (g : FVec Ideal ⟨3, ![B, M, C]⟩ .f32)
    (h' : (⟨3, ![B, M, C]⟩ : Shape).ReducesTo [2] (⟨2, ![B, M]⟩ : Shape))
    (h : (⟨3, ![B, M, C]⟩ : Shape).Reduces [2] (⟨2, ![B, M]⟩ : Shape)) (hu : 0 < (⟨0, ![]⟩ : Shape).numel)
    (b : Fin B) (o : Fin M) :
    Host.reduce FloatOps.minimumf g (constant (F := Ideal) (⟨0, ![]⟩ : Shape) .f32 0x7F800000#32) h' hu (ix2 b o)
      = ⨅ c : Fin C, g (ix3 b o c) := by
  rw [Host.reduce_eq_fold_single FloatOps.minimumf g _ h' h hu]
  have htop : constant (F := Ideal) (⟨0, ![]⟩ : Shape) .f32 0x7F800000#32 (Shape.Idx.first hu) = (⊤ : EReal) := by
    show Ideal.ofBits .f32 0x7F800000#32 = ⊤
    simp [Ideal.ofBits, Ideal.ieee]
  rw [htop]
  have hf : (g ∘ h.lift (ix2 b o)) = fun k : Fin C => g (ix3 b o k) :=
    funext fun k => congrArg g (lift_ix3 h b o k)
  rw [hf]
  exact fold_min_top _

theorem reduce_max_apply {B M C : Nat} (g : FVec Ideal ⟨3, ![B, M, C]⟩ .f32)
    (h' : (⟨3, ![B, M, C]⟩ : Shape).ReducesTo [2] (⟨2, ![B, M]⟩ : Shape))
    (h : (⟨3, ![B, M, C]⟩ : Shape).Reduces [2] (⟨2, ![B, M]⟩ : Shape)) (hu : 0 < (⟨0, ![]⟩ : Shape).numel)
    (b : Fin B) (o : Fin M) :
    Host.reduce FloatOps.maximumf g (constant (F := Ideal) (⟨0, ![]⟩ : Shape) .f32 0xFF800000#32) h' hu (ix2 b o)
      = ⨆ c : Fin C, g (ix3 b o c) := by
  rw [Host.reduce_eq_fold_single FloatOps.maximumf g _ h' h hu]
  have hbot : constant (F := Ideal) (⟨0, ![]⟩ : Shape) .f32 0xFF800000#32 (Shape.Idx.first hu) = (⊥ : EReal) := by
    show Ideal.ofBits .f32 0xFF800000#32 = ⊥
    simp [Ideal.ofBits, Ideal.ieee]
  rw [hbot]
  have hf : (g ∘ h.lift (ix2 b o)) = fun k : Fin C => g (ix3 b o k) :=
    funext fun k => congrArg g (lift_ix3 h b o k)
  rw [hf]
  exact fold_max_bot _

end Reduce

theorem cmpi_eq_zero_of_eq (w : BitVec 32) (h : w = 0#32) : IntOp.cmpi .eq w 0#32 = 1#1 := by
  subst h; rfl

theorem cmpi_eq_zero_of_ne (w : BitVec 32) (h : ¬w = 0#32) : IntOp.cmpi .eq w 0#32 = 0#1 := by
  show BitVec.ofBool (w == 0#32) = 0#1
  rw [beq_eq_false_iff_ne.2 h]
  rfl

theorem layer_core {N M : Nat} [NeZero N] (hN31 : N ≤ 2 ^ 31)
    (wf : GatherDims.WF ⟨2, ![1024, N]⟩ ⟨3, ![M, 64, 1]⟩ ⟨3, ![1024, M, 64]⟩ [0] [1] [] [1] [] 2 ![1024, 1])
    (h' : (⟨3, ![1024, M, 64]⟩ : Shape).ReducesTo [2] (⟨2, ![1024, M]⟩ : Shape))
    (h : (⟨3, ![1024, M, 64]⟩ : Shape).Reduces [2] (⟨2, ![1024, M]⟩ : Shape)) (hu : 0 < (⟨0, ![]⟩ : Shape).numel)
    (y : (⟨2, ![1024, N]⟩ : Shape).Idx → EReal)
    (conn : (⟨2, ![M, 64]⟩ : Shape).Idx → BitVec 32) (op : (⟨1, ![M]⟩ : Shape).Idx → BitVec 32)
    (idx : IVec ⟨3, ![M, 64, 1]⟩ 32) (mask : IVec ⟨2, ![1024, M]⟩ 1)
    (hconn : ∀ i, (conn i).toNat < N)
    (hidx : ∀ (o : Fin M) (c : Fin 64), idx (ix3 o c (0 : Fin 1)) = conn (ix2 o c))
    (hmask : ∀ (b : Fin 1024) (o : Fin M), mask (ix2 b o) = IntOp.cmpi .eq (op (ix1 o)) 0#32) :
    select mask
        (Host.reduce (FloatOps.minimumf (F := Ideal) (φ := .f32))
          (Host.gather (layerDims N M wf) y idx : FVec Ideal ⟨3, ![1024, M, 64]⟩ .f32)
          (constant (F := Ideal) (⟨0, ![]⟩ : Shape) .f32 0x7F800000#32) h' hu)
        (Host.reduce (FloatOps.maximumf (F := Ideal) (φ := .f32))
          (Host.gather (layerDims N M wf) y idx : FVec Ideal ⟨3, ![1024, M, 64]⟩ .f32)
          (constant (F := Ideal) (⟨0, ![]⟩ : Shape) .f32 0xFF800000#32) h' hu)
      = Cert.Spec.layer y conn op := by
  funext i
  obtain ⟨b, o, rfl⟩ : ∃ b o, i = ix2 b o := ⟨i 0, i 1, eq_ix2 i⟩
  have hg : ∀ c : Fin 64, Host.gather (layerDims N M wf) y idx (ix3 b o c)
      = y (ix2 b (Cert.Spec.feat N (conn (ix2 o c)))) := by
    intro c
    have hN : 0 < N := Nat.pos_of_ne_zero (NeZero.ne N)
    have e : (⟨min (idx (ix3 o c (0 : Fin 1))).toInt.toNat (N - 1), by omega⟩ : Fin N)
        = Cert.Spec.feat N (conn (ix2 o c)) := by
      apply Fin.ext
      show min (idx (ix3 o c (0 : Fin 1))).toInt.toNat (N - 1) = (Cert.Spec.feat N (conn (ix2 o c))).val
      rw [hidx, feat_val N _ (hconn _), toInt_toNat_of_lt _ (lt_of_lt_of_le (hconn _) hN31)]
      have := hconn (ix2 o c)
      omega
    rw [gather_layer_apply hN wf y idx b o c, e]
  show Scalar.select (mask (ix2 b o)) _ _ = _
  rw [reduce_min_apply _ h' h hu b o, reduce_max_apply _ h' h hu b o, hmask]
  simp only [hg]
  show _ = Cert.Spec.pick (op (ix1 o) = 0#32) (fun c : Fin 64 => y (ix2 b (Cert.Spec.feat N (conn (ix2 o c)))))
  unfold Cert.Spec.pick
  by_cases hop : op (ix1 o) = 0#32
  · rw [cmpi_eq_zero_of_eq _ hop, select_one, if_pos hop]
  · rw [cmpi_eq_zero_of_ne _ hop, select_zero, if_neg hop]

end Cert.RefValue

end
-- ==== Proof.Ref.Layers.lean ====
import proofs.«423092_j11149735100496_3_alg».proof.Proof.Ref.Core
import proofs.«423092_j11149735100496_3_alg».proof.Proof.Ref.RunHand

noncomputable section

namespace Cert.RefValue

open Cert.ReferenceIdeal Cert.ReferenceIdeal.Gen Cert.ReferenceIdeal.ReadP Idealize.ShloMosaic
  Idealize.ShloMosaic.ValueIdx

variable (x0 : (⟨S1024x4096, .f32⟩ : BufTy).Contents (Elt Ideal))
  (x1 : (⟨S2048x64, .i32⟩ : BufTy).Contents (Elt Ideal)) (x2 : (⟨S1024x64, .i32⟩ : BufTy).Contents (Elt Ideal))
  (x3 : (⟨S2048x64, .i32⟩ : BufTy).Contents (Elt Ideal)) (x4 : (⟨S4096x64, .i32⟩ : BufTy).Contents (Elt Ideal))
  (x5 : (⟨S2048, .i32⟩ : BufTy).Contents (Elt Ideal)) (x6 : (⟨S1024, .i32⟩ : BufTy).Contents (Elt Ideal))
  (x7 : (⟨S2048, .i32⟩ : BufTy).Contents (Elt Ideal)) (x8 : (⟨S4096, .i32⟩ : BufTy).Contents (Elt Ideal))

theorem idx0 (h1 : ∀ i, (x1 i).toNat < 4096) (o : Fin 2048) (c : Fin 64) :
    val_main_v5 (F := Ideal) x1 (ix3 o c (0 : Fin 1)) = x1 (ix2 o c) := by
  have e : idx_main_v5 (ix3 o c (0 : Fin 1)) = ix2 o c := by
    funext a
    match a with
    | ⟨0, _⟩ => rfl
    | ⟨1, _⟩ => rfl
  rw [val_main_v5_apply, e, val_main_v4_apply, val_main_v1_apply, val_main_v0_apply, val_main_c_apply,
    val_main_v3_apply]
  exact wrap_eq _ _ (lt_trans (h1 _) (by norm_num))

theorem mask0 (b : Fin 1024) (o : Fin 2048) :
    val_main_call0_v0 (F := Ideal) x5 (ix2 b o) = IntOp.cmpi .eq (x5 (ix1 o)) 0#32 := by
  have e : idx_main_v9 (idx_main_call0_v0 (ix2 b o)) = ix1 o := by
    funext a
    match a with
    | ⟨0, _⟩ => rfl
  rw [val_main_call0_v0_apply, val_main_v11_apply, val_main_v9_apply, e, val_main_v10_apply, val_main_c_2_apply]

theorem v12_eq (h1 : ∀ i, (x1 i).toNat < 4096) :
    val_main_v12 (F := Ideal) x0 x1 x5 = Cert.Spec.layer (nin := 4096) (nout := 2048) x0 x1 x5 :=
  layer_core (N := 4096) (M := 2048) (by norm_num)
    gather_S1024x4096_S2048x64x1_S1024x2048x64_0_1_n_n_1_2_10241_wf reducesTo_S1024x2048x64_S1024x2048_d2 (by decide) h_S_
    x0 x1 x5 (val_main_v5 (F := Ideal) x1) (val_main_call0_v0 (F := Ideal) x5) h1 (idx0 x1 h1) (mask0 x5)

theorem idx1 (h2 : ∀ i, (x2 i).toNat < 2048) (o : Fin 1024) (c : Fin 64) :
    val_main_v18 (F := Ideal) x2 (ix3 o c (0 : Fin 1)) = x2 (ix2 o c) := by
  have e : idx_main_v18 (ix3 o c (0 : Fin 1)) = ix2 o c := by
    funext a
    match a with
    | ⟨0, _⟩ => rfl
    | ⟨1, _⟩ => rfl
  rw [val_main_v18_apply, e, val_main_v17_apply, val_main_v14_apply, val_main_v13_apply, val_main_c_3_apply,
    val_main_v16_apply]
  exact wrap_eq _ _ (lt_trans (h2 _) (by norm_num))

theorem mask1 (b : Fin 1024) (o : Fin 1024) :
    val_main_call1_v0 (F := Ideal) x6 (ix2 b o) = IntOp.cmpi .eq (x6 (ix1 o)) 0#32 := by
  have e : idx_main_v22 (idx_main_call1_v0 (ix2 b o)) = ix1 o := by
    funext a
    match a with
    | ⟨0, _⟩ => rfl
  rw [val_main_call1_v0_apply, val_main_v24_apply, val_main_v22_apply, e, val_main_v23_apply, val_main_c_7_apply]

theorem layer1 (y : (⟨S1024x2048, .f32⟩ : BufTy).Contents (Elt Ideal)) (h2 : ∀ i, (x2 i).toNat < 2048) :
    stage1 (F := Ideal) y x2 x6
      = Cert.Spec.layer (nin := 2048) (nout := 1024) y x2 x6 :=
  layer_core (N := 2048) (M := 1024) (by norm_num)
    gather_S1024x2048_S1024x64x1_S1024x1024x64_0_1_n_n_1_2_10241_wf reducesTo_S1024x1024x64_S1024x1024_d2 (by decide) h_S_
    y x2 x6 (val_main_v18 (F := Ideal) x2) (val_main_call1_v0 (F := Ideal) x6) h2 (idx1 x2 h2) (mask1 x6)

theorem v25_eq (h1 : ∀ i, (x1 i).toNat < 4096) (h2 : ∀ i, (x2 i).toNat < 2048) :
    val_main_v25 (F := Ideal) x0 x1 x2 x5 x6
      = Cert.Spec.layer (nin := 2048) (nout := 1024) (Cert.Spec.layer (nin := 4096) (nout := 2048) x0 x1 x5) x2 x6 := by
  rw [← v12_eq x0 x1 x5 h1]
  exact (val25_eq x0 x1 x2 x5 x6).trans (layer1 x2 x6 _ h2)

theorem idx2 (h3 : ∀ i, (x3 i).toNat < 1024) (o : Fin 2048) (c : Fin 64) :
    val_main_v31 (F := Ideal) x3 (ix3 o c (0 : Fin 1)) = x3 (ix2 o c) := by
  have e : idx_main_v31 (ix3 o c (0 : Fin 1)) = ix2 o c := by
    funext a
    match a with
    | ⟨0, _⟩ => rfl
    | ⟨1, _⟩ => rfl
  rw [val_main_v31_apply, e, val_main_v30_apply, val_main_v27_apply, val_main_v26_apply, val_main_c_8_apply,
    val_main_v29_apply]
  exact wrap_eq _ _ (lt_trans (h3 _) (by norm_num))

theorem mask2 (b : Fin 1024) (o : Fin 2048) :
    val_main_call2_v0 (F := Ideal) x7 (ix2 b o) = IntOp.cmpi .eq (x7 (ix1 o)) 0#32 := by
  have e : idx_main_v35 (idx_main_call2_v0 (ix2 b o)) = ix1 o := by
    funext a
    match a with
    | ⟨0, _⟩ => rfl
  rw [val_main_call2_v0_apply, val_main_v37_apply, val_main_v35_apply, e, val_main_v36_apply, val_main_c_12_apply]

theorem layer2 (y : (⟨S1024x1024, .f32⟩ : BufTy).Contents (Elt Ideal)) (h3 : ∀ i, (x3 i).toNat < 1024) :
    stage2 (F := Ideal) y x3 x7
      = Cert.Spec.layer (nin := 1024) (nout := 2048) y x3 x7 :=
  layer_core (N := 1024) (M := 2048) (by norm_num)
    gather_S1024x1024_S2048x64x1_S1024x2048x64_0_1_n_n_1_2_10241_wf reducesTo_S1024x2048x64_S1024x2048_d2 (by decide) h_S_
    y x3 x7 (val_main_v31 (F := Ideal) x3) (val_main_call2_v0 (F := Ideal) x7) h3 (idx2 x3 h3) (mask2 x7)

theorem v38_eq (h1 : ∀ i, (x1 i).toNat < 4096) (h2 : ∀ i, (x2 i).toNat < 2048) (h3 : ∀ i, (x3 i).toNat < 1024) :
    val_main_v38 (F := Ideal) x0 x1 x2 x3 x5 x6 x7
      = Cert.Spec.layer (nin := 1024) (nout := 2048)
          (Cert.Spec.layer (nin := 2048) (nout := 1024) (Cert.Spec.layer (nin := 4096) (nout := 2048) x0 x1 x5) x2 x6)
          x3 x7 := by
  rw [← v25_eq x0 x1 x2 x5 x6 h1 h2]
  exact (val38_eq x0 x1 x2 x3 x5 x6 x7).trans (layer2 x3 x7 _ h3)

theorem idx3 (h4 : ∀ i, (x4 i).toNat < 2048) (o : Fin 4096) (c : Fin 64) :
    val_main_v44 (F := Ideal) x4 (ix3 o c (0 : Fin 1)) = x4 (ix2 o c) := by
  have e : idx_main_v44 (ix3 o c (0 : Fin 1)) = ix2 o c := by
    funext a
    match a with
    | ⟨0, _⟩ => rfl
    | ⟨1, _⟩ => rfl
  rw [val_main_v44_apply, e, val_main_v43_apply, val_main_v40_apply, val_main_v39_apply, val_main_c_13_apply,
    val_main_v42_apply]
  exact wrap_eq _ _ (lt_trans (h4 _) (by norm_num))

theorem mask3 (b : Fin 1024) (o : Fin 4096) :
    val_main_call3_v0 (F := Ideal) x8 (ix2 b o) = IntOp.cmpi .eq (x8 (ix1 o)) 0#32 := by
  have e : idx_main_v48 (idx_main_call3_v0 (ix2 b o)) = ix1 o := by
    funext a
    match a with
    | ⟨0, _⟩ => rfl
  rw [val_main_call3_v0_apply, val_main_v50_apply, val_main_v48_apply, e, val_main_v49_apply, val_main_c_17_apply]

theorem layer3 (y : (⟨S1024x2048, .f32⟩ : BufTy).Contents (Elt Ideal)) (h4 : ∀ i, (x4 i).toNat < 2048) :
    stage3 (F := Ideal) y x4 x8
      = Cert.Spec.layer (nin := 2048) (nout := 4096) y x4 x8 :=
  layer_core (N := 2048) (M := 4096) (by norm_num)
    gather_S1024x2048_S4096x64x1_S1024x4096x64_0_1_n_n_1_2_10241_wf reducesTo_S1024x4096x64_S1024x4096_d2 (by decide) h_S_
    y x4 x8 (val_main_v44 (F := Ideal) x4) (val_main_call3_v0 (F := Ideal) x8) h4 (idx3 x4 h4) (mask3 x8)

theorem out_eq (h1 : ∀ i, (x1 i).toNat < 4096) (h2 : ∀ i, (x2 i).toNat < 2048) (h3 : ∀ i, (x3 i).toNat < 1024)
    (h4 : ∀ i, (x4 i).toNat < 2048) :
    val_main_v51 (F := Ideal) x0 x1 x2 x3 x4 x5 x6 x7 x8
      = Cert.Spec.layer (nin := 2048) (nout := 4096)
          (Cert.Spec.layer (nin := 1024) (nout := 2048)
            (Cert.Spec.layer (nin := 2048) (nout := 1024) (Cert.Spec.layer (nin := 4096) (nout := 2048) x0 x1 x5) x2 x6)
            x3 x7)
          x4 x8 := by
  rw [← v38_eq x0 x1 x2 x3 x5 x6 x7 h1 h2 h3]
  exact (val51_eq x0 x1 x2 x3 x4 x5 x6 x7 x8).trans (layer3 x4 x8 _ h4)

theorem act_eq (h1 : ∀ i, (x1 i).toNat < 4096) (h2 : ∀ i, (x2 i).toNat < 2048) (h3 : ∀ i, (x3 i).toNat < 1024) :
    val_main_v52 (F := Ideal) x0 x1 x2 x3 x5 x6 x7
      = concatenate S1024x5120 1
          [⟨S1024x2048, Cert.Spec.layer (nin := 4096) (nout := 2048) x0 x1 x5⟩,
           ⟨S1024x1024,
             Cert.Spec.layer (nin := 2048) (nout := 1024) (Cert.Spec.layer (nin := 4096) (nout := 2048) x0 x1 x5) x2 x6⟩,
           ⟨S1024x2048,
             Cert.Spec.layer (nin := 1024) (nout := 2048)
               (Cert.Spec.layer (nin := 2048) (nout := 1024) (Cert.Spec.layer (nin := 4096) (nout := 2048) x0 x1 x5) x2 x6)
               x3 x7⟩]
          concatenates_S1024x2048_S1024x1024_S1024x2048_S1024x5120_d1 := by
  unfold val_main_v52
  rw [v12_eq x0 x1 x5 h1, v25_eq x0 x1 x2 x5 x6 h1 h2, v38_eq x0 x1 x2 x3 x5 x6 x7 h1 h2 h3]

end Cert.RefValue

end
-- ==== Proof.PreDecode.lean ====
import Idealize.ShloMosaic.Lib.ValueIdx
import Idealize.ShloMosaic.Lib.ReduceAll
import Idealize.ShloMosaic.Lib.StableHlo.Predicate
import Idealize.ShloMosaic.PureOps.Ideal
import proofs.«423092_j11149735100496_3_alg».proof.Pre_finite_inputs

noncomputable section

namespace Cert.PreDecode

open Idealize.ShloMosaic
open Cert.Pre_finite_inputs

variable [Cert.Pre_finite_inputs.Facts]

instance : Subsingleton S_.Idx := ⟨fun a b => funext fun d => d.elim0⟩

-- 0 ≤ w rules out the upper half of the unsigned range; on the lower half signed and unsigned values agree
theorem toNat_lt_of_signed (w : BitVec 32) (n : Nat) (hn : n < 2 ^ 31) (h0 : IntOp.cmpi .sge w 0#32 = 1#1)
    (h1 : IntOp.cmpi .slt w (BitVec.ofNat 32 n) = 1#1) : w.toNat < n := by
  rw [IntOp.cmpi_sge, show (0#32 : BitVec 32).toInt = 0 from by decide] at h0
  rw [IntOp.cmpi_slt, StableHlo.Predicate.toInt_ofNat_small n hn] at h1
  rw [BitVec.toInt_eq_toNat_cond] at h0 h1
  have := w.isLt
  split at h0 <;> omega

theorem inf_bits : Ideal.ofBits .f32 0x7F800000#32 = (⊤ : EReal) := by
  simp [Ideal.ofBits, Ideal.ieee]

-- at +∞ and at −∞ the maximum of a and −a is +∞, which is not below itself
theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

variable {x : FVec Ideal S1024x4096 .f32} {c0 : IVec S2048x64 32} {c1 : IVec S1024x64 32} {c2 : IVec S2048x64 32}
  {c3 : IVec S4096x64 32} {o0 : IVec S2048 32} {o1 : IVec S1024 32} {o2 : IVec S2048 32} {o3 : IVec S4096 32}

-- a conjunction that is true is true at every entry: the input is real, each index word lies in [0, N)
theorem facts (h : Cert.Pre_finite_inputs.fn (F := Ideal) x c0 c1 c2 c3 o0 o1 o2 o3 = fun _ => 1#1) :
    (∀ i, ∃ r : ℝ, x i = (r : EReal)) ∧ (∀ i, (c0 i).toNat < 4096) ∧ (∀ i, (c1 i).toNat < 2048)
      ∧ (∀ i, (c2 i).toNat < 1024) ∧ (∀ i, (c3 i).toNat < 2048) := by
  have e := congrFun h ValueIdx.ix0
  dsimp only [Cert.Pre_finite_inputs.fn, Cert.Pre_finite_inputs.fn_part1] at e
  simp only [andi, IntOp.andi_eq_one] at e
  obtain ⟨⟨⟨⟨hx, h0⟩, h1⟩, h2⟩, h3⟩ := e
  have d {S : Shape} (c : IVec S 32) (n : Nat) (hn : n < 2 ^ 31) (i : S.Idx)
      (hc : IntOp.andi (IntOp.cmpi .sge (c i) 0#32) (IntOp.cmpi .slt (c i) (BitVec.ofNat 32 n)) = 1#1) : (c i).toNat < n :=
    toNat_lt_of_signed (c i) n hn (IntOp.andi_eq_one.1 hc).1 (IntOp.andi_eq_one.1 hc).2
  refine ⟨fun i => real_of_abs_lt_top (x i) ?_, fun i => d c0 4096 (by decide) i ?_, fun i => d c1 2048 (by decide) i ?_,
    fun i => d c2 1024 (by decide) i ?_, fun i => d c3 2048 (by decide) i ?_⟩
  · rw [← inf_bits]; exact Host.reduce_andi_all _ _ _ _ _ hx i
  · exact Host.reduce_andi_all _ _ _ _ _ h0 i
  · exact Host.reduce_andi_all _ _ _ _ _ h1 i
  · exact Host.reduce_andi_all _ _ _ _ _ h2 i
  · exact Host.reduce_andi_all _ _ _ _ _ h3 i

end Cert.PreDecode

end
-- ==== Proof.lean ====
import proofs.«423092_j11149735100496_3_alg».proof.Defs
import proofs.«423092_j11149735100496_3_alg».proof.Proof.Gen.Kernel
import proofs.«423092_j11149735100496_3_alg».proof.Proof.Gen.KernelIdeal
import proofs.«423092_j11149735100496_3_alg».proof.Proof.Gen.ReferenceIdeal
import proofs.«423092_j11149735100496_3_alg».proof.Proof.Gen.Pre_finite_inputs
import proofs.«423092_j11149735100496_3_alg».proof.Proof.K.Frame
import proofs.«423092_j11149735100496_3_alg».proof.Proof.KI.Run
import proofs.«423092_j11149735100496_3_alg».proof.Proof.KI.Chain
import proofs.«423092_j11149735100496_3_alg».proof.Proof.Ref.RunHand
import proofs.«423092_j11149735100496_3_alg».proof.Proof.Ref.Layers
import proofs.«423092_j11149735100496_3_alg».proof.Proof.PreDecode
import Idealize.ShloMosaic.PureOps.IdealRules

noncomputable section

namespace Cert.Proof

open Idealize.ShloMosaic Idealize.ShloMosaic.TcCoe Idealize.SL.Sem

theorem frame_p : Cert.frame_Kernel := fun m ρ _ => Cert.Kernel.Frame.frame (F := Bits) m ρ

theorem frame_pi : Cert.frame_KernelIdeal := fun m ρ _ =>
  (θ_run Cert.KernelIdeal.defs _ _).mono (fun _ h c => (h c).2.2) (Cert.KernelIdeal.Run.run (F := Ideal) m ρ)

theorem frame_ri : Cert.frame_ReferenceIdeal := fun m ρ _ =>
  (θ_run Cert.ReferenceIdeal.defs _ _).mono (fun _ h c => (h c).2.2) (Cert.RefValue.run (F := Ideal) m ρ)

theorem neg_big : IdealRules.named_const.Statement Cert.KernelIdeal.κ "neg_big" .f32 0xFF61B1E6#32 ⊥ :=
  IdealRules.named_const.statement Cert.KernelIdeal.κ "neg_big" .f32 0xFF61B1E6#32 ⊥ rfl

theorem preserves : Cert.preserves_Kernel_KernelIdeal := ⟨neg_big, neg_big, neg_big, neg_big⟩

-- both sides are, layer after layer, the minimum or maximum of the 64 gathered entries; the results are paired by position
theorem algebraic : Cert.algebraic_KernelIdeal_ReferenceIdeal := by
  intro m ρ m' ρ' hpre hagree
  refine ⟨fun c => Cert.KernelIdeal.Fam.o8 m c,
    fun c => concatenate Cert.KernelIdeal.S1024x5120 1 [⟨Cert.KernelIdeal.S1024x2048, Cert.KernelIdeal.Fam.o2 m c⟩, ⟨Cert.KernelIdeal.S1024x1024, Cert.KernelIdeal.Fam.o4 m c⟩, ⟨Cert.KernelIdeal.S1024x2048, Cert.KernelIdeal.Fam.o6 m c⟩] Cert.KernelIdeal.Facts₀.concatenates_S1024x2048_S1024x1024_S1024x2048_S1024x5120_d1,
    Cert.KernelIdeal.Run.run (F := Ideal) m ρ, ?_⟩
  refine (θ_run Cert.ReferenceIdeal.defs _ _).mono (fun r h c => ?_) (Cert.RefValue.run (F := Ideal) m' ρ')
  obtain ⟨h51, h52, hargs⟩ := h c
  obtain ⟨a0, a1, a2, a3, a4, a5, a6, a7, a8⟩ := hagree c
  obtain ⟨hx, h1, h2, h3, h4⟩ := Cert.PreDecode.facts (hpre c)
  obtain ⟨e0, e1, e2, e3⟩ := Cert.KernelIdeal.Chain.outs_eq m c hx h1 h2 h3 h4
  refine ⟨h51.trans ?_, h52.trans ?_, hargs⟩
  · rw [a0, a1, a2, a3, a4, a5, a6, a7, a8, Cert.RefValue.out_eq _ _ _ _ _ _ _ _ _ h1 h2 h3 h4]
    exact e3.symm
  · rw [a0, a1, a2, a3, a5, a6, a7, Cert.RefValue.act_eq _ _ _ _ _ _ _ h1 h2 h3]
    show _ = concatenate Cert.KernelIdeal.S1024x5120 1 [⟨Cert.KernelIdeal.S1024x2048, Cert.KernelIdeal.Fam.o2 m c⟩, ⟨Cert.KernelIdeal.S1024x1024, Cert.KernelIdeal.Fam.o4 m c⟩, ⟨Cert.KernelIdeal.S1024x2048, Cert.KernelIdeal.Fam.o6 m c⟩] _
    rw [e0, e1, e2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
